-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v116_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S128x128 : Shape := ⟨2, ![128, 128]⟩
abbrev S128x256 : Shape := ⟨2, ![128, 256]⟩
abbrev S1x256 : Shape := ⟨2, ![1, 256]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  reducesTo_S_S_d : S_.ReducesTo [] S_
  bcast_S_S2x500000 : S_.BroadcastsInDim S2x500000 (![] : Fin 0 → Fin S2x500000.rank)
  reducesTo_S2x500000_S_d0_1 : S2x500000.ReducesTo [0, 1] S_

variable [Facts]

def fn_part2 {F : FTy → Type} [FloatOps F] (main_arg1 : IVec S2x500000 32) (main_v32 : IVec S_ 1) (main_c_12 : IVec S_ 32) : IVec S_ 1 :=
  let main_v33 : IVec S2x500000 32 := broadcastInDim S2x500000 ![] bcast_S_S2x500000 main_c_12
  let main_v34 : IVec S2x500000 1 := cmpi .sge main_arg1 main_v33
  let main_c_13 : IVec S_ 32 := constantI S_ 32 100000#32
  let main_v35 : IVec S2x500000 32 := broadcastInDim S2x500000 ![] bcast_S_S2x500000 main_c_13
  let main_v36 : IVec S2x500000 1 := cmpi .slt main_arg1 main_v35
  let main_v37 : IVec S2x500000 1 := andi main_v34 main_v36
  let main_c_14 : IVec S_ 1 := constantI S_ 1 1#1
  let main_v38 : IVec S_ 1 := (fun x v => Host.reduce IntOp.andi x v reducesTo_S2x500000_S_d0_1 h_S_) main_v37 main_c_14
  let main_v39 : IVec S_ 1 := andi main_v32 main_v38
  main_v39

def fn_part1 {F : FTy → Type} [FloatOps F] (main_arg1 : IVec S2x500000 32) (main_arg5 : FVec F S1x256 .f32) (main_arg6 : FVec F S1 .f32) (main_arg7 : FVec F S_ .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S1x256 .f32 := Host.absf main_arg5
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S_ .f32 := Host.absf main_arg7
  let main_cst_10 : FVec F S_ .f32 := constant S_ .f32 0x7F800000#32
  let main_v30 : IVec S_ 1 := cmpf .olt main_v29 main_cst_10
  let main_c_11 : IVec S_ 1 := constantI S_ 1 1#1
  let main_v31 : IVec S_ 1 := (fun x v => Host.reduce IntOp.andi x v reducesTo_S_S_d h_S_) main_v30 main_c_11
  let main_v32 : IVec S_ 1 := andi main_v28 main_v31
  let main_c_12 : IVec S_ 32 := constantI S_ 32 0#32
  fn_part2 (F := F) main_arg1 main_v32 main_c_12

def fn {F : FTy → Type} [FloatOps F] (main_arg0 : FVec F S100000x128 .f32) (main_arg1 : IVec S2x500000 32) (main_arg2 : FVec F S128x128 .f32) (main_arg3 : FVec F S128x128 .f32) (main_arg4 : FVec F S128x256 .f32) (main_arg5 : FVec F S1x256 .f32) (main_arg6 : FVec F S1 .f32) (main_arg7 : FVec F S_ .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg1 main_arg5 main_arg6 main_arg7 main_v13 main_v16
-- ==== Kernel.lean ====
abbrev S100000x128 : Shape := ⟨2, ![100000, 128]⟩
abbrev S2x500000 : Shape := ⟨2, ![2, 500000]⟩
abbrev S128x128 : Shape := ⟨2, ![128, 128]⟩
abbrev S128x256 : Shape := ⟨2, ![128, 256]⟩
abbrev S1x256 : Shape := ⟨2, ![1, 256]⟩
abbrev S1 : Shape := ⟨1, ![1]⟩
abbrev S_ : Shape := ⟨0, ![]⟩
abbrev S1x500000 : Shape := ⟨2, ![1, 500000]⟩
abbrev S500000 : Shape := ⟨1, ![500000]⟩
abbrev S1000000 : Shape := ⟨1, ![1000000]⟩
abbrev S1x128 : Shape := ⟨2, ![1, 128]⟩
abbrev S1x1 : Shape := ⟨2, ![1, 1]⟩
abbrev S10000x128 : Shape := ⟨2, ![10000, 128]⟩
abbrev S1000000x1 : Shape := ⟨2, ![1000000, 1]⟩
abbrev S1000000x128 : Shape := ⟨2, ![1000000, 128]⟩
abbrev S500000x128 : Shape := ⟨2, ![500000, 128]⟩
abbrev S10000 : Shape := ⟨1, ![10000]⟩
abbrev S10000x1 : Shape := ⟨2, ![10000, 1]⟩
abbrev S500000x1 : Shape := ⟨2, ![500000, 1]⟩

abbrev nBuf : Space → Nat
  | .hbm => 174
  | .vmem => 70
  | .smem => 0
  | _ => 0

abbrev hbmTy0_0 (i : Nat) : BufTy := match i % 128 with
  | 0 => ⟨S100000x128, .f32⟩
  | 1 => ⟨S2x500000, .i32⟩
  | 2 => ⟨S128x128, .f32⟩
  | 3 => ⟨S128x128, .f32⟩
  | 4 => ⟨S128x256, .f32⟩
  | 5 => ⟨S1x256, .f32⟩
  | 6 => ⟨S1, .f32⟩
  | 7 => ⟨S_, .f32⟩
  | 8 => ⟨S1x500000, .i32⟩
  | 9 => ⟨S500000, .i32⟩
  | 10 => ⟨S1x500000, .i32⟩
  | 11 => ⟨S500000, .i32⟩
  | 12 => ⟨S1000000, .i32⟩
  | 13 => ⟨S128x128, .bf16⟩
  | 14 => ⟨S128x128, .f32⟩
  | 15 => ⟨S128x128, .bf16⟩
  | 16 => ⟨S128x128, .f32⟩
  | 17 => ⟨S128x128, .bf16⟩
  | 18 => ⟨S1x128, .f32⟩
  | 19 => ⟨S1x128, .f32⟩
  | 20 => ⟨S1x1, .f32⟩
  | 21 => ⟨S128x128, .bf16⟩
  | 22 => ⟨S100000x128, .f32⟩
  | 23 => ⟨S100000x128, .bf16⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S1x1, .f32⟩
  | 33 => ⟨S1000000x1, .i32⟩
  | 34 => ⟨S1000000x128, .bf16⟩
  | 35 => ⟨S500000x128, .f32⟩
  | 36 => ⟨S_, .f32⟩
  | 37 => ⟨S100000x128, .f32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S1, .i32⟩
  | 47 => ⟨S_, .i32⟩
  | 48 => ⟨S1, .i32⟩
  | 49 => ⟨S1, .i32⟩
  | 50 => ⟨S500000x1, .i32⟩
  | 51 => ⟨S_, .i32⟩
  | 52 => ⟨S500000x1, .i32⟩
  | 53 => ⟨S500000x1, .i32⟩
  | 54 => ⟨S100000x128, .f32⟩
  | 55 => ⟨S_, .i32⟩
  | 56 => ⟨S500000, .i32⟩
  | 57 => ⟨S500000, .i1⟩
  | 58 => ⟨S_, .i32⟩
  | 59 => ⟨S500000, .i32⟩
  | 60 => ⟨S500000, .i32⟩
  | 61 => ⟨S500000, .i32⟩
  | 62 => ⟨S500000x1, .i32⟩
  | 63 => ⟨S1, .i32⟩
  | 64 => ⟨S_, .i32⟩
  | 65 => ⟨S1, .i32⟩
  | 66 => ⟨S1, .i32⟩
  | 67 => ⟨S500000x1, .i32⟩
  | 68 => ⟨S_, .i32⟩
  | 69 => ⟨S500000x1, .i32⟩
  | 70 => ⟨S500000x1, .i32⟩
  | 71 => ⟨S100000x128, .f32⟩
  | 72 => ⟨S100000x128, .f32⟩
  | 73 => ⟨S100000x128, .bf16⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S1x1, .f32⟩
  | 83 => ⟨S1000000x1, .i32⟩
  | 84 => ⟨S1000000x128, .bf16⟩
  | 85 => ⟨S500000x128, .f32⟩
  | 86 => ⟨S_, .f32⟩
  | 87 => ⟨S100000x128, .f32⟩
  | 88 => ⟨S_, .i32⟩
  | 89 => ⟨S500000, .i32⟩
  | 90 => ⟨S500000, .i1⟩
  | 91 => ⟨S_, .i32⟩
  | 92 => ⟨S500000, .i32⟩
  | 93 => ⟨S500000, .i32⟩
  | 94 => ⟨S500000, .i32⟩
  | 95 => ⟨S500000x1, .i32⟩
  | 96 => ⟨S1, .i32⟩
  | 97 => ⟨S_, .i32⟩
  | 98 => ⟨S1, .i32⟩
  | 99 => ⟨S1, .i32⟩
  | 100 => ⟨S500000x1, .i32⟩
  | 101 => ⟨S_, .i32⟩
  | 102 => ⟨S500000x1, .i32⟩
  | 103 => ⟨S500000x1, .i32⟩
  | 104 => ⟨S100000x128, .f32⟩
  | 105 => ⟨S_, .i32⟩
  | 106 => ⟨S500000, .i32⟩
  | 107 => ⟨S500000, .i1⟩
  | 108 => ⟨S_, .i32⟩
  | 109 => ⟨S500000, .i32⟩
  | 110 => ⟨S500000, .i32⟩
  | 111 => ⟨S500000, .i32⟩
  | 112 => ⟨S500000x1, .i32⟩
  | 113 => ⟨S1, .i32⟩
  | 114 => ⟨S_, .i32⟩
  | 115 => ⟨S1, .i32⟩
  | 116 => ⟨S1, .i32⟩
  | 117 => ⟨S500000x1, .i32⟩
  | 118 => ⟨S_, .i32⟩
  | 119 => ⟨S500000x1, .i32⟩
  | 120 => ⟨S500000x1, .i32⟩
  | 121 => ⟨S100000x128, .f32⟩
  | 122 => ⟨S100000x128, .f32⟩
  | 123 => ⟨S100000x128, .bf16⟩
  | 124 => ⟨S_, .f32⟩
  | 125 => ⟨S_, .f32⟩
  | 126 => ⟨S_, .f32⟩
  | 127 => ⟨S_, .f32⟩
  | _ => ⟨S100000x128, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S1x1, .f32⟩
  | 5 => ⟨S1000000x1, .i32⟩
  | 6 => ⟨S1000000x128, .bf16⟩
  | 7 => ⟨S500000x128, .f32⟩
  | 8 => ⟨S_, .f32⟩
  | 9 => ⟨S100000x128, .f32⟩
  | 10 => ⟨S_, .i32⟩
  | 11 => ⟨S500000, .i32⟩
  | 12 => ⟨S500000, .i1⟩
  | 13 => ⟨S_, .i32⟩
  | 14 => ⟨S500000, .i32⟩
  | 15 => ⟨S500000, .i32⟩
  | 16 => ⟨S500000, .i32⟩
  | 17 => ⟨S500000x1, .i32⟩
  | 18 => ⟨S1, .i32⟩
  | 19 => ⟨S_, .i32⟩
  | 20 => ⟨S1, .i32⟩
  | 21 => ⟨S1, .i32⟩
  | 22 => ⟨S500000x1, .i32⟩
  | 23 => ⟨S_, .i32⟩
  | 24 => ⟨S500000x1, .i32⟩
  | 25 => ⟨S500000x1, .i32⟩
  | 26 => ⟨S100000x128, .f32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S500000x1, .i32⟩
  | 35 => ⟨S1, .i32⟩
  | 36 => ⟨S_, .i32⟩
  | 37 => ⟨S1, .i32⟩
  | 38 => ⟨S1, .i32⟩
  | 39 => ⟨S500000x1, .i32⟩
  | 40 => ⟨S_, .i32⟩
  | 41 => ⟨S500000x1, .i32⟩
  | 42 => ⟨S500000x1, .i32⟩
  | 43 => ⟨S100000x128, .f32⟩
  | 44 => ⟨S100000x128, .f32⟩
  | 45 => ⟨S100000x128, .bf16⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .bf16⟩
  | .local _ .vmem, ⟨3, _⟩ => ⟨S10000x128, .f32⟩
  | .local _ .vmem, ⟨4, _⟩ => ⟨S10000x128, .f32⟩
  | .local _ .vmem, ⟨5, _⟩ => ⟨S10000x128, .bf16⟩
  | .local _ .vmem, ⟨6, _⟩ => ⟨S10000x128, .bf16⟩
  | .local _ .vmem, ⟨7, _⟩ => ⟨S10000x128, .bf16⟩
  | .local _ .vmem, ⟨8, _⟩ => ⟨S10000x128, .bf16⟩
  | .local _ .vmem, ⟨9, _⟩ => ⟨S10000x128, .bf16⟩
  | .local _ .vmem, ⟨10, _⟩ => ⟨S10000x128, .bf16⟩
  | .local _ .vmem, ⟨11, _⟩ => ⟨S128x128, .bf16⟩
  | .local _ .vmem, ⟨12, _⟩ => ⟨S128x128, .bf16⟩
  | .local _ .vmem, ⟨13, _⟩ => ⟨S1x128, .f32⟩
  | .local _ .vmem, ⟨14, _⟩ => ⟨S1x128, .f32⟩
  | .local _ .vmem, ⟨15, _⟩ => ⟨S1x1, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x128, .bf16⟩
  | .local _ .vmem, ⟨23, _⟩ => ⟨S1x1, .f32⟩
  | .local _ .vmem, ⟨24, _⟩ => ⟨S10000x128, .f32⟩
  | .local _ .vmem, ⟨25, _⟩ => ⟨S10000x128, .f32⟩
  | .local _ .vmem, ⟨26, _⟩ => ⟨S10000x128, .bf16⟩
  | .local _ .vmem, ⟨27, _⟩ => ⟨S10000x128, .bf16⟩
  | .local _ .vmem, ⟨28, _⟩ => ⟨S10000x128, .bf16⟩
  | .local _ .vmem, ⟨29, _⟩ => ⟨S10000x128, .bf16⟩
  | .local _ .vmem, ⟨30, _⟩ => ⟨S10000x128, .bf16⟩
  | .local _ .vmem, ⟨31, _⟩ => ⟨S10000x128, .bf16⟩
  | .local _ .vmem, ⟨32, _⟩ => ⟨S128x128, .bf16⟩
  | .local _ .vmem, ⟨33, _⟩ => ⟨S128x128, .bf16⟩
  | .local _ .vmem, ⟨34, _⟩ => ⟨S1x128, .f32⟩
  | .local _ .vmem, ⟨35, _⟩ => ⟨S1x128, .f32⟩
  | .local _ .vmem, ⟨36, _⟩ => ⟨S1x1, .f32⟩
  | .local _ .vmem, ⟨37, _⟩ => ⟨S10000x128, .f32⟩
  | .local _ .vmem, ⟨38, _⟩ => ⟨S10000x128, .f32⟩
  | .local _ .vmem, ⟨39, _⟩ => ⟨S10000x128, .f32⟩
  | .local _ .vmem, ⟨40, _⟩ => ⟨S10000x128, .f32⟩
  | .local _ .vmem, ⟨41, _⟩ => ⟨S10000x128, .f32⟩
  | .local _ .vmem, ⟨42, _⟩ => ⟨S10000x128, .f32⟩
  | .local _ .vmem, ⟨43, _⟩ => ⟨S128x128, .bf16⟩
  | .local _ .vmem, ⟨44, _⟩ => ⟨S1x1, .f32⟩
  | .local _ .vmem, ⟨45, _⟩ => ⟨S10000x128, .f32⟩
  | .local _ .vmem, ⟨46, _⟩ => ⟨S10000x128, .f32⟩
  | .local _ .vmem, ⟨47, _⟩ => ⟨S10000x128, .bf16⟩
  | .local _ .vmem, ⟨48, _⟩ => ⟨S10000x128, .bf16⟩
  | .local _ .vmem, ⟨49, _⟩ => ⟨S10000x128, .bf16⟩
  | .local _ .vmem, ⟨50, _⟩ => ⟨S10000x128, .bf16⟩
  | .local _ .vmem, ⟨51, _⟩ => ⟨S10000x128, .bf16⟩
  | .local _ .vmem, ⟨52, _⟩ => ⟨S10000x128, .bf16⟩
  | .local _ .vmem, ⟨53, _⟩ => ⟨S128x128, .bf16⟩
  | .local _ .vmem, ⟨54, _⟩ => ⟨S128x128, .bf16⟩
  | .local _ .vmem, ⟨55, _⟩ => ⟨S1x128, .f32⟩
  | .local _ .vmem, ⟨56, _⟩ => ⟨S1x128, .f32⟩
  | .local _ .vmem, ⟨57, _⟩ => ⟨S1x1, .f32⟩
  | .local _ .vmem, ⟨58, _⟩ => ⟨S10000x128, .f32⟩
  | .local _ .vmem, ⟨59, _⟩ => ⟨S10000x128, .f32⟩
  | .local _ .vmem, ⟨60, _⟩ => ⟨S10000x128, .f32⟩
  | .local _ .vmem, ⟨61, _⟩ => ⟨S10000x128, .f32⟩
  | .local _ .vmem, ⟨62, _⟩ => ⟨S10000x128, .f32⟩
  | .local _ .vmem, ⟨63, _⟩ => ⟨S10000x128, .f32⟩
  | .local _ .vmem, ⟨64, _⟩ => ⟨S128x128, .bf16⟩
  | .local _ .vmem, ⟨65, _⟩ => ⟨S1x1, .f32⟩
  | .local _ .vmem, ⟨66, _⟩ => ⟨S10000x128, .f32⟩
  | .local _ .vmem, ⟨67, _⟩ => ⟨S10000x128, .f32⟩
  | .local _ .vmem, ⟨68, _⟩ => ⟨S10000x128, .bf16⟩
  | .local _ .vmem, ⟨69, _⟩ => ⟨S10000x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_call0_v0 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_c : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_4 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_9 : Ref sig .tc := ⟨.hbm, 63, rfl⟩
abbrev main_c_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48_0 : Ref sig .tc := ⟨.hbm, 72, rfl⟩
abbrev main_v48_1 : Ref sig .tc := ⟨.hbm, 73, rfl⟩
abbrev main_cst_12 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_13 : Ref sig .tc := ⟨.hbm, 78, rfl⟩
abbrev main_v52 : Ref sig .tc := ⟨.hbm, 79, rfl⟩
abbrev main_cst_14 : Ref sig .tc := ⟨.hbm, 80, rfl⟩
abbrev main_v53 : Ref sig .tc := ⟨.hbm, 81, rfl⟩
abbrev main_v54 : Ref sig .tc := ⟨.hbm, 82, rfl⟩
abbrev main_call1_v0 : Ref sig .tc := ⟨.hbm, 83, rfl⟩
abbrev main_v55 : Ref sig .tc := ⟨.hbm, 84, rfl⟩
abbrev main_v56 : Ref sig .tc := ⟨.hbm, 85, rfl⟩
abbrev main_cst_15 : Ref sig .tc := ⟨.hbm, 86, rfl⟩
abbrev main_v57 : Ref sig .tc := ⟨.hbm, 87, rfl⟩
abbrev main_c_16 : Ref sig .tc := ⟨.hbm, 88, rfl⟩
abbrev main_v58 : Ref sig .tc := ⟨.hbm, 89, rfl⟩
abbrev main_v59 : Ref sig .tc := ⟨.hbm, 90, rfl⟩
abbrev main_c_17 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_18 : Ref sig .tc := ⟨.hbm, 96, rfl⟩
abbrev main_c_19 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_20 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_21 : Ref sig .tc := ⟨.hbm, 105, rfl⟩
abbrev main_v70 : Ref sig .tc := ⟨.hbm, 106, rfl⟩
abbrev main_v71 : Ref sig .tc := ⟨.hbm, 107, rfl⟩
abbrev main_c_22 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_23 : Ref sig .tc := ⟨.hbm, 113, rfl⟩
abbrev main_c_24 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_c_25 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82_0 : Ref sig .tc := ⟨.hbm, 122, rfl⟩
abbrev main_v82_1 : Ref sig .tc := ⟨.hbm, 123, rfl⟩
abbrev main_cst_26 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_27 : Ref sig .tc := ⟨.hbm, 128, rfl⟩
abbrev main_v86 : Ref sig .tc := ⟨.hbm, 129, rfl⟩
abbrev main_cst_28 : Ref sig .tc := ⟨.hbm, 130, rfl⟩
abbrev main_v87 : Ref sig .tc := ⟨.hbm, 131, rfl⟩
abbrev main_v88 : Ref sig .tc := ⟨.hbm, 132, rfl⟩
abbrev main_call2_v0 : Ref sig .tc := ⟨.hbm, 133, rfl⟩
abbrev main_v89 : Ref sig .tc := ⟨.hbm, 134, rfl⟩
abbrev main_v90 : Ref sig .tc := ⟨.hbm, 135, rfl⟩
abbrev main_cst_29 : Ref sig .tc := ⟨.hbm, 136, rfl⟩
abbrev main_v91 : Ref sig .tc := ⟨.hbm, 137, rfl⟩
abbrev main_c_30 : Ref sig .tc := ⟨.hbm, 138, rfl⟩
abbrev main_v92 : Ref sig .tc := ⟨.hbm, 139, rfl⟩
abbrev main_v93 : Ref sig .tc := ⟨.hbm, 140, rfl⟩
abbrev main_c_31 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_c_32 : Ref sig .tc := ⟨.hbm, 146, rfl⟩
abbrev main_c_33 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_c_34 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_c_35 : Ref sig .tc := ⟨.hbm, 155, rfl⟩
abbrev main_v104 : Ref sig .tc := ⟨.hbm, 156, rfl⟩
abbrev main_v105 : Ref sig .tc := ⟨.hbm, 157, rfl⟩
abbrev main_c_36 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_c_37 : Ref sig .tc := ⟨.hbm, 163, rfl⟩
abbrev main_c_38 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_c_39 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116_0 : Ref sig .tc := ⟨.hbm, 172, rfl⟩
abbrev main_v116_1 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg7_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg4_1 : Ref sig .tc := ⟨.vmem, 46, rfl⟩
abbrev cc4_stg5_0 : Ref sig .tc := ⟨.vmem, 47, rfl⟩
abbrev cc4_stg5_1 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg1_1 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg4_0 : Ref sig .tc := ⟨.vmem, 55, rfl⟩
abbrev cc5_stg5_0 : Ref sig .tc := ⟨.vmem, 56, rfl⟩
abbrev cc5_stg6_0 : Ref sig .tc := ⟨.vmem, 57, rfl⟩
abbrev cc5_stg7_0 : Ref sig .tc := ⟨.vmem, 58, rfl⟩
abbrev cc5_stg7_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg3_0 : Ref sig .tc := ⟨.vmem, 65, rfl⟩
abbrev cc6_stg4_0 : Ref sig .tc := ⟨.vmem, 66, rfl⟩
abbrev cc6_stg4_1 : Ref sig .tc := ⟨.vmem, 67, rfl⟩
abbrev cc6_stg5_0 : Ref sig .tc := ⟨.vmem, 68, rfl⟩
abbrev cc6_stg5_1 : Ref sig .tc := ⟨.vmem, 69, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem7_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem3_0 : DmaSem sig := 44
abbrev cc4_sem4_0 : DmaSem sig := 45
abbrev cc4_sem4_1 : DmaSem sig := 46
abbrev cc4_sem5_0 : DmaSem sig := 47
abbrev cc4_sem5_1 : DmaSem sig := 48
abbrev cc5_sem0_0 : DmaSem sig := 49
abbrev cc5_sem0_1 : DmaSem sig := 50
abbrev cc5_sem1_0 : DmaSem sig := 51
abbrev cc5_sem1_1 : DmaSem sig := 52
abbrev cc5_sem2_0 : DmaSem sig := 53
abbrev cc5_sem3_0 : DmaSem sig := 54
abbrev cc5_sem4_0 : DmaSem sig := 55
abbrev cc5_sem5_0 : DmaSem sig := 56
abbrev cc5_sem6_0 : DmaSem sig := 57
abbrev cc5_sem7_0 : DmaSem sig := 58
abbrev cc5_sem7_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem4_1 : DmaSem sig := 67
abbrev cc6_sem5_0 : DmaSem sig := 68
abbrev cc6_sem5_1 : DmaSem sig := 69

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c50_i32 : BitVec 32 := 50#32
  let v0 : BitVec 32 := Scalar.addi arg0 c50_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S10000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c50_i32 : BitVec 32 := 50#32
  let v0 : BitVec 32 := Scalar.addi arg0 c50_i32
  let c0_i32 : BitVec 32 := 0#32
  let c0_i32_0 : BitVec 32 := 0#32
  ![v0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S10000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S10000x128 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c50_i32 : BitVec 32 := 50#32
  let v0 : BitVec 32 := Scalar.addi arg0 c50_i32
  let c0_i32 : BitVec 32 := 0#32
  let c0_i32_0 : BitVec 32 := 0#32
  ![v0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S10000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S10000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S10000x128 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  concatenates_S500000_S500000_S1000000_d0 : Shape.Concatenates [S500000, S500000] S1000000 0
  bitsLt_bf16_f32 : FTy.bits .bf16 < FTy.bits .f32
  slices_S128x256_S128x128_0_0 : S128x256.Slices ![0, 0] S128x128
  slices_S128x256_S128x128_0_128 : S128x256.Slices ![0, 128] S128x128
  slices_S1x256_S1x128_0_0 : S1x256.Slices ![0, 0] S1x128
  slices_S1x256_S1x128_0_128 : S1x256.Slices ![0, 128] S1x128
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S10000x128_S10000x128_0_0 : (Rect.unit (s := S10000x128) ![0, 0] S10000x128.size inb_S10000x128_S10000x128_0_0).PackedRows (EltTy.packing .bf16)
  shapeCasts_S_S1x1 : S_.ShapeCasts S1x1
  bcast_S1000000_S1000000x1_0 : S1000000.BroadcastsInDim S1000000x1 (![0] : Fin 1 → Fin S1000000x1.rank)
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reduces_S10000x128_S10000 : S10000x128.Reduces [1] S10000
  shapeCasts_S10000_S10000x1 : S10000.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  broadcasts_S10000x1_S10000x128 : S10000x1.Broadcasts S10000x128
  bcast_S_S100000x128 : S_.BroadcastsInDim S100000x128 (![] : Fin 0 → Fin S100000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S1 : S_.BroadcastsInDim S1 (![] : Fin 0 → Fin S1.rank)
  bcast_S1_S500000x1_1 : S1.BroadcastsInDim S500000x1 (![1] : Fin 1 → Fin S500000x1.rank)
  bcast_S_S500000x1 : S_.BroadcastsInDim S500000x1 (![] : Fin 0 → Fin S500000x1.rank)
  broadcasts_S1x1_S10000x128 : S1x1.Broadcasts S10000x128
  dot_S10000x128_S128x128_S10000x128_1_1_0_0_n_n_wf : DotDims.WF S10000x128 S128x128 S10000x128 [1] [1] [0] [0] [] []
  gather_S100000x128_S1000000x1_S1000000x128_1_0_n_n_0_1_1128_wf : GatherDims.WF S100000x128 S1000000x1 S1000000x128 [1] [0] [] [0] [] 1 ![1, 128]
  scatter_S100000x128_S500000x1_S500000x128_1_0_0_1_wf : ScatterDims.WF S100000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .bf16 = 32 ∨ (Rect.block (s := S100000x128) S10000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1000000x128.size a
  hwx1_0 : ∀ i : grid1.Coords, EltTy.bits .bf16 = 32 ∨ (Rect.block (s := S1000000x128) S10000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S1000000x128.size a
  hwx1_1 : ∀ i : grid1.Coords, EltTy.bits .bf16 = 32 ∨ (Rect.block (s := S1000000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x128.size a ≤ S500000x128.size a
  hwx1_7 : ∀ i : grid1.Coords, EltTy.bits .f32 = 32 ∨ (Rect.block (s := S500000x128) S10000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x128.size a ≤ S100000x128.size a
  hwx2_4 : ∀ i : grid2.Coords, EltTy.bits .f32 = 32 ∨ (Rect.block (s := S100000x128) S10000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .bf16 = 32 ∨ (Rect.block (s := S100000x128) S10000x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S1000000x128.size a
  hwx3_0 : ∀ i : grid3.Coords, EltTy.bits .bf16 = 32 ∨ (Rect.block (s := S1000000x128) S10000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S1000000x128.size a
  hwx3_1 : ∀ i : grid3.Coords, EltTy.bits .bf16 = 32 ∨ (Rect.block (s := S1000000x128) S10000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .bf16 = 32 ∨ (Rect.block (s := S128x128) S128x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S10000x128.size a ≤ S500000x128.size a
  hwx3_7 : ∀ i : grid3.Coords, EltTy.bits .f32 = 32 ∨ (Rect.block (s := S500000x128) S10000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S100000x128.size a
  hwx4_1 : ∀ i : grid4.Coords, EltTy.bits .f32 = 32 ∨ (Rect.block (s := S100000x128) S10000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .bf16 = 32 ∨ (Rect.block (s := S128x128) S128x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x128.size a ≤ S100000x128.size a
  hwx4_4 : ∀ i : grid4.Coords, EltTy.bits .f32 = 32 ∨ (Rect.block (s := S100000x128) S10000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x128.size a ≤ S100000x128.size a
  hwx4_5 : ∀ i : grid4.Coords, EltTy.bits .bf16 = 32 ∨ (Rect.block (s := S100000x128) S10000x128.size (cc4_transform_5 i) (hinb4_5 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S1000000x128.size a
  hwx5_0 : ∀ i : grid5.Coords, EltTy.bits .bf16 = 32 ∨ (Rect.block (s := S1000000x128) S10000x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S1000000x128.size a
  hwx5_1 : ∀ i : grid5.Coords, EltTy.bits .bf16 = 32 ∨ (Rect.block (s := S1000000x128) S10000x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .bf16 = 32 ∨ (Rect.block (s := S128x128) S128x128.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .bf16 = 32 ∨ (Rect.block (s := S128x128) S128x128.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x1.size a ≤ S1x1.size a
  hwx5_6 : ∀ i : grid5.Coords, EltTy.bits .f32 = 32 ∨ (Rect.block (s := S1x1) S1x1.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S10000x128.size a ≤ S500000x128.size a
  hwx5_7 : ∀ i : grid5.Coords, EltTy.bits .f32 = 32 ∨ (Rect.block (s := S500000x128) S10000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x128.size a ≤ S100000x128.size a
  hwx6_1 : ∀ i : grid6.Coords, EltTy.bits .f32 = 32 ∨ (Rect.block (s := S100000x128) S10000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .bf16 = 32 ∨ (Rect.block (s := S128x128) S128x128.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x1.size a ≤ S1x1.size a
  hwx6_3 : ∀ i : grid6.Coords, EltTy.bits .f32 = 32 ∨ (Rect.block (s := S1x1) S1x1.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S10000x128.size a ≤ S100000x128.size a
  hwx6_4 : ∀ i : grid6.Coords, EltTy.bits .f32 = 32 ∨ (Rect.block (s := S100000x128) S10000x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x128.size a ≤ S100000x128.size a
  hwx6_5 : ∀ i : grid6.Coords, EltTy.bits .bf16 = 32 ∨ (Rect.block (s := S100000x128) S10000x128.size (cc6_transform_5 i) (hinb6_5 i)).WholeWords (EltTy.packing .bf16)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14_0) S10000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_1) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v22) S10000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14_0) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48_0) S10000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v48_1) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v55) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v9) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v10) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v11) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v12) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v56) S10000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v81) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v48_0) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v13) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v54) S1x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v82_0) S10000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v82_1) S10000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v89) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v89) S10000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v7) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v9) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v10) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v11) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v12) S1x1.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v90) S10000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v115) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v82_0) S10000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v13) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v88) S1x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v116_0) S10000x128.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v116_1) S10000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S128x128 : Shape := ⟨2, ![128, 128]⟩
abbrev S128x256 : Shape := ⟨2, ![128, 256]⟩
abbrev S1x256 : Shape := ⟨2, ![1, 256]⟩
abbrev S1 : Shape := ⟨1, ![1]⟩
abbrev S_ : Shape := ⟨0, ![]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S500000x256 : Shape := ⟨2, ![500000, 256]⟩
abbrev S256x128 : Shape := ⟨2, ![256, 128]⟩
abbrev S256x1 : Shape := ⟨2, ![256, 1]⟩
abbrev S1x1 : Shape := ⟨2, ![1, 1]⟩

abbrev nBuf : Space → Nat
  | .hbm => 239
  | .vmem => 0
  | .smem => 0
  | _ => 0

abbrev hbmTy0_0 (i : Nat) : BufTy := match i % 128 with
  | 0 => ⟨S100000x128, .f32⟩
  | 1 => ⟨S2x500000, .i32⟩
  | 2 => ⟨S128x128, .f32⟩
  | 3 => ⟨S128x128, .f32⟩
  | 4 => ⟨S128x256, .f32⟩
  | 5 => ⟨S1x256, .f32⟩
  | 6 => ⟨S1, .f32⟩
  | 7 => ⟨S_, .f32⟩
  | 8 => ⟨S1x500000, .i32⟩
  | 9 => ⟨S500000, .i32⟩
  | 10 => ⟨S1x500000, .i32⟩
  | 11 => ⟨S500000, .i32⟩
  | 12 => ⟨S128x128, .f32⟩
  | 13 => ⟨S100000x128, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .i32⟩
  | 23 => ⟨S500000, .i32⟩
  | 24 => ⟨S500000, .i1⟩
  | 25 => ⟨S_, .i32⟩
  | 26 => ⟨S500000, .i32⟩
  | 27 => ⟨S500000, .i32⟩
  | 28 => ⟨S500000, .i32⟩
  | 29 => ⟨S500000x1, .i32⟩
  | 30 => ⟨S500000x128, .f32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000x128, .f32⟩
  | 40 => ⟨S500000x256, .f32⟩
  | 41 => ⟨S256x128, .f32⟩
  | 42 => ⟨S500000x128, .f32⟩
  | 43 => ⟨S256x1, .f32⟩
  | 44 => ⟨S500000x1, .f32⟩
  | 45 => ⟨S1x1, .f32⟩
  | 46 => ⟨S500000x1, .f32⟩
  | 47 => ⟨S500000x1, .f32⟩
  | 48 => ⟨S500000x1, .f32⟩
  | 49 => ⟨S500000x1, .f32⟩
  | 50 => ⟨S_, .f32⟩
  | 51 => ⟨S500000x1, .f32⟩
  | 52 => ⟨S500000x1, .f32⟩
  | 53 => ⟨S_, .f32⟩
  | 54 => ⟨S500000x1, .f32⟩
  | 55 => ⟨S500000x1, .f32⟩
  | 56 => ⟨S500000x128, .f32⟩
  | 57 => ⟨S500000x128, .f32⟩
  | 58 => ⟨S_, .f32⟩
  | 59 => ⟨S100000x128, .f32⟩
  | 60 => ⟨S_, .i32⟩
  | 61 => ⟨S500000, .i32⟩
  | 62 => ⟨S500000, .i1⟩
  | 63 => ⟨S_, .i32⟩
  | 64 => ⟨S500000, .i32⟩
  | 65 => ⟨S500000, .i32⟩
  | 66 => ⟨S500000, .i32⟩
  | 67 => ⟨S500000x1, .i32⟩
  | 68 => ⟨S100000x128, .f32⟩
  | 69 => ⟨S_, .i32⟩
  | 70 => ⟨S500000, .i32⟩
  | 71 => ⟨S500000, .i1⟩
  | 72 => ⟨S_, .i32⟩
  | 73 => ⟨S500000, .i32⟩
  | 74 => ⟨S500000, .i32⟩
  | 75 => ⟨S500000, .i32⟩
  | 76 => ⟨S500000x1, .i32⟩
  | 77 => ⟨S100000x128, .f32⟩
  | 78 => ⟨S128x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S100000x128, .f32⟩
  | 85 => ⟨S100000x128, .f32⟩
  | 86 => ⟨S100000x128, .f32⟩
  | 87 => ⟨S100000x128, .f32⟩
  | 88 => ⟨S100000x128, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .i32⟩
  | 98 => ⟨S500000, .i32⟩
  | 99 => ⟨S500000, .i1⟩
  | 100 => ⟨S_, .i32⟩
  | 101 => ⟨S500000, .i32⟩
  | 102 => ⟨S500000, .i32⟩
  | 103 => ⟨S500000, .i32⟩
  | 104 => ⟨S500000x1, .i32⟩
  | 105 => ⟨S500000x128, .f32⟩
  | 106 => ⟨S_, .i32⟩
  | 107 => ⟨S500000, .i32⟩
  | 108 => ⟨S500000, .i1⟩
  | 109 => ⟨S_, .i32⟩
  | 110 => ⟨S500000, .i32⟩
  | 111 => ⟨S500000, .i32⟩
  | 112 => ⟨S500000, .i32⟩
  | 113 => ⟨S500000x1, .i32⟩
  | 114 => ⟨S500000x128, .f32⟩
  | 115 => ⟨S500000x256, .f32⟩
  | 116 => ⟨S256x128, .f32⟩
  | 117 => ⟨S500000x128, .f32⟩
  | 118 => ⟨S256x1, .f32⟩
  | 119 => ⟨S500000x1, .f32⟩
  | 120 => ⟨S1x1, .f32⟩
  | 121 => ⟨S500000x1, .f32⟩
  | 122 => ⟨S500000x1, .f32⟩
  | 123 => ⟨S500000x1, .f32⟩
  | 124 => ⟨S500000x1, .f32⟩
  | 125 => ⟨S_, .f32⟩
  | 126 => ⟨S500000x1, .f32⟩
  | 127 => ⟨S500000x1, .f32⟩
  | _ => ⟨S100000x128, .f32⟩

abbrev hbmTy0_1 (i : Nat) : BufTy := match i % 128 with
  | 0 => ⟨S_, .f32⟩
  | 1 => ⟨S500000x1, .f32⟩
  | 2 => ⟨S500000x1, .f32⟩
  | 3 => ⟨S500000x128, .f32⟩
  | 4 => ⟨S500000x128, .f32⟩
  | 5 => ⟨S_, .f32⟩
  | 6 => ⟨S100000x128, .f32⟩
  | 7 => ⟨S_, .i32⟩
  | 8 => ⟨S500000, .i32⟩
  | 9 => ⟨S500000, .i1⟩
  | 10 => ⟨S_, .i32⟩
  | 11 => ⟨S500000, .i32⟩
  | 12 => ⟨S500000, .i32⟩
  | 13 => ⟨S500000, .i32⟩
  | 14 => ⟨S500000x1, .i32⟩
  | 15 => ⟨S100000x128, .f32⟩
  | 16 => ⟨S_, .i32⟩
  | 17 => ⟨S500000, .i32⟩
  | 18 => ⟨S500000, .i1⟩
  | 19 => ⟨S_, .i32⟩
  | 20 => ⟨S500000, .i32⟩
  | 21 => ⟨S500000, .i32⟩
  | 22 => ⟨S500000, .i32⟩
  | 23 => ⟨S500000x1, .i32⟩
  | 24 => ⟨S100000x128, .f32⟩
  | 25 => ⟨S128x128, .f32⟩
  | 26 => ⟨S100000x128, .f32⟩
  | 27 => ⟨S100000x128, .f32⟩
  | 28 => ⟨S_, .f32⟩
  | 29 => ⟨S100000x128, .f32⟩
  | 30 => ⟨S100000x128, .f32⟩
  | 31 => ⟨S100000x128, .f32⟩
  | 32 => ⟨S100000x128, .f32⟩
  | 33 => ⟨S100000x128, .f32⟩
  | 34 => ⟨S100000x128, .f32⟩
  | 35 => ⟨S100000x128, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .i32⟩
  | 45 => ⟨S500000, .i32⟩
  | 46 => ⟨S500000, .i1⟩
  | 47 => ⟨S_, .i32⟩
  | 48 => ⟨S500000, .i32⟩
  | 49 => ⟨S500000, .i32⟩
  | 50 => ⟨S500000, .i32⟩
  | 51 => ⟨S500000x1, .i32⟩
  | 52 => ⟨S500000x128, .f32⟩
  | 53 => ⟨S_, .i32⟩
  | 54 => ⟨S500000, .i32⟩
  | 55 => ⟨S500000, .i1⟩
  | 56 => ⟨S_, .i32⟩
  | 57 => ⟨S500000, .i32⟩
  | 58 => ⟨S500000, .i32⟩
  | 59 => ⟨S500000, .i32⟩
  | 60 => ⟨S500000x1, .i32⟩
  | 61 => ⟨S500000x128, .f32⟩
  | 62 => ⟨S500000x256, .f32⟩
  | 63 => ⟨S256x128, .f32⟩
  | 64 => ⟨S500000x128, .f32⟩
  | 65 => ⟨S256x1, .f32⟩
  | 66 => ⟨S500000x1, .f32⟩
  | 67 => ⟨S1x1, .f32⟩
  | 68 => ⟨S500000x1, .f32⟩
  | 69 => ⟨S500000x1, .f32⟩
  | 70 => ⟨S500000x1, .f32⟩
  | 71 => ⟨S500000x1, .f32⟩
  | 72 => ⟨S_, .f32⟩
  | 73 => ⟨S500000x1, .f32⟩
  | 74 => ⟨S500000x1, .f32⟩
  | 75 => ⟨S_, .f32⟩
  | 76 => ⟨S500000x1, .f32⟩
  | 77 => ⟨S500000x1, .f32⟩
  | 78 => ⟨S500000x128, .f32⟩
  | 79 => ⟨S500000x128, .f32⟩
  | 80 => ⟨S_, .f32⟩
  | 81 => ⟨S100000x128, .f32⟩
  | 82 => ⟨S_, .i32⟩
  | 83 => ⟨S500000, .i32⟩
  | 84 => ⟨S500000, .i1⟩
  | 85 => ⟨S_, .i32⟩
  | 86 => ⟨S500000, .i32⟩
  | 87 => ⟨S500000, .i32⟩
  | 88 => ⟨S500000, .i32⟩
  | 89 => ⟨S500000x1, .i32⟩
  | 90 => ⟨S100000x128, .f32⟩
  | 91 => ⟨S_, .i32⟩
  | 92 => ⟨S500000, .i32⟩
  | 93 => ⟨S500000, .i1⟩
  | 94 => ⟨S_, .i32⟩
  | 95 => ⟨S500000, .i32⟩
  | 96 => ⟨S500000, .i32⟩
  | 97 => ⟨S500000, .i32⟩
  | 98 => ⟨S500000x1, .i32⟩
  | 99 => ⟨S100000x128, .f32⟩
  | 100 => ⟨S128x128, .f32⟩
  | 101 => ⟨S100000x128, .f32⟩
  | 102 => ⟨S100000x128, .f32⟩
  | 103 => ⟨S_, .f32⟩
  | 104 => ⟨S100000x128, .f32⟩
  | 105 => ⟨S100000x128, .f32⟩
  | 106 => ⟨S100000x128, .f32⟩
  | 107 => ⟨S100000x128, .f32⟩
  | 108 => ⟨S100000x128, .f32⟩
  | 109 => ⟨S100000x128, .f32⟩
  | 110 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_c_8 : Ref sig .tc := ⟨.hbm, 60, rfl⟩
abbrev main_v42 : Ref sig .tc := ⟨.hbm, 61, rfl⟩
abbrev main_v43 : Ref sig .tc := ⟨.hbm, 62, rfl⟩
abbrev main_c_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call0_cst : Ref sig .tc := ⟨.hbm, 81, rfl⟩
abbrev main_call0_v0 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_13 : Ref sig .tc := ⟨.hbm, 93, rfl⟩
abbrev main_v68 : Ref sig .tc := ⟨.hbm, 94, rfl⟩
abbrev main_cst_14 : Ref sig .tc := ⟨.hbm, 95, rfl⟩
abbrev main_v69 : Ref sig .tc := ⟨.hbm, 96, rfl⟩
abbrev main_c_15 : Ref sig .tc := ⟨.hbm, 97, rfl⟩
abbrev main_v70 : Ref sig .tc := ⟨.hbm, 98, rfl⟩
abbrev main_v71 : Ref sig .tc := ⟨.hbm, 99, rfl⟩
abbrev main_c_16 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_17 : Ref sig .tc := ⟨.hbm, 106, rfl⟩
abbrev main_v77 : Ref sig .tc := ⟨.hbm, 107, rfl⟩
abbrev main_v78 : Ref sig .tc := ⟨.hbm, 108, rfl⟩
abbrev main_c_18 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_19 : Ref sig .tc := ⟨.hbm, 125, rfl⟩
abbrev main_v94 : Ref sig .tc := ⟨.hbm, 126, rfl⟩
abbrev main_v95 : Ref sig .tc := ⟨.hbm, 127, rfl⟩
abbrev main_cst_20 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_21 : Ref sig .tc := ⟨.hbm, 133, rfl⟩
abbrev main_v100 : Ref sig .tc := ⟨.hbm, 134, rfl⟩
abbrev main_c_22 : Ref sig .tc := ⟨.hbm, 135, rfl⟩
abbrev main_v101 : Ref sig .tc := ⟨.hbm, 136, rfl⟩
abbrev main_v102 : Ref sig .tc := ⟨.hbm, 137, rfl⟩
abbrev main_c_23 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_c_24 : Ref sig .tc := ⟨.hbm, 144, rfl⟩
abbrev main_v108 : Ref sig .tc := ⟨.hbm, 145, rfl⟩
abbrev main_v109 : Ref sig .tc := ⟨.hbm, 146, rfl⟩
abbrev main_c_25 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_call1_cst : Ref sig .tc := ⟨.hbm, 156, rfl⟩
abbrev main_call1_v0 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_cst_26 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_27 : Ref sig .tc := ⟨.hbm, 168, rfl⟩
abbrev main_v127 : Ref sig .tc := ⟨.hbm, 169, rfl⟩
abbrev main_cst_28 : Ref sig .tc := ⟨.hbm, 170, rfl⟩
abbrev main_v128 : Ref sig .tc := ⟨.hbm, 171, rfl⟩
abbrev main_c_29 : Ref sig .tc := ⟨.hbm, 172, rfl⟩
abbrev main_v129 : Ref sig .tc := ⟨.hbm, 173, rfl⟩
abbrev main_v130 : Ref sig .tc := ⟨.hbm, 174, rfl⟩
abbrev main_c_30 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_c_31 : Ref sig .tc := ⟨.hbm, 181, rfl⟩
abbrev main_v136 : Ref sig .tc := ⟨.hbm, 182, rfl⟩
abbrev main_v137 : Ref sig .tc := ⟨.hbm, 183, rfl⟩
abbrev main_c_32 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_cst_33 : Ref sig .tc := ⟨.hbm, 200, rfl⟩
abbrev main_v153 : Ref sig .tc := ⟨.hbm, 201, rfl⟩
abbrev main_v154 : Ref sig .tc := ⟨.hbm, 202, rfl⟩
abbrev main_cst_34 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_cst_35 : Ref sig .tc := ⟨.hbm, 208, rfl⟩
abbrev main_v159 : Ref sig .tc := ⟨.hbm, 209, rfl⟩
abbrev main_c_36 : Ref sig .tc := ⟨.hbm, 210, rfl⟩
abbrev main_v160 : Ref sig .tc := ⟨.hbm, 211, rfl⟩
abbrev main_v161 : Ref sig .tc := ⟨.hbm, 212, rfl⟩
abbrev main_c_37 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_c_38 : Ref sig .tc := ⟨.hbm, 219, rfl⟩
abbrev main_v167 : Ref sig .tc := ⟨.hbm, 220, rfl⟩
abbrev main_v168 : Ref sig .tc := ⟨.hbm, 221, rfl⟩
abbrev main_c_39 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_call2_cst : Ref sig .tc := ⟨.hbm, 231, rfl⟩
abbrev main_call2_v0 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  transposes_S128x128_S128x128_1_0 : S128x128.Transposes [1, 0] S128x128
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x256_d1 : Shape.Concatenates [S500000x128, S500000x128] S500000x256 1
  transposes_S128x256_S256x128_1_0 : S128x256.Transposes [1, 0] S256x128
  transposes_S1x256_S256x1_1_0 : S1x256.Transposes [1, 0] S256x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  bcast_S500000x1_S500000x128_0_1 : S500000x1.BroadcastsInDim S500000x128 (![0, 1] : Fin 2 → Fin S500000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  dot_S500000x256_S256x128_S500000x128_1_0_0_1_n_n_wf : DotDims.WF S500000x256 S256x128 S500000x128 [1] [0] [0] [1] [] []
  dot_S500000x256_S256x1_S500000x1_1_0_0_1_n_n_wf : DotDims.WF S500000x256 S256x1 S500000x1 [1] [0] [0] [1] [] []
  scatter_S100000x128_S500000x1_S500000x128_1_0_0_1_wf : ScatterDims.WF S100000x128 S500000x1 S500000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x256_S256x1_S500000x1_1_0_0_1_n_n : DotDims S500000x256 S256x1 S500000x1 where
  lhsContracting := [1]
  rhsContracting := [0]
  lhsNonContracting := [0]
  rhsNonContracting := [1]
  lhsBatch := []
  rhsBatch := []
  wf := dot_S500000x256_S256x1_S500000x1_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

class Facts : Prop extends Facts₀ where

variable [Facts]
-- ==== Proof.KB.RegLib.lean ====
import proofs.«408774_j4466765988336_3_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe
open Idealize.SL Idealize.SL.RA Idealize.SL.BI
open Idealize.SL.BI.BIBase Idealize.SL.Sem
open Idealize.ShloMosaic.Pipeline (Dat Cfg)

variable {F : FTy → Type} [FloatOps F]

local notation "𝕄" => MT nD τ sig Unit (Elt F) ℕ (UR sig nD τ) ℕ

/-- The whole rectangles of the four buffer shapes: every load and store of the seven bodies goes through one of them. -/
abbrev rA : Rect S10000x128 := Rect.unit (s := S10000x128) ![0, 0] S10000x128.size inb_S10000x128_S10000x128_0_0
abbrev rB : Rect S128x128 := Rect.unit (s := S128x128) ![0, 0] S128x128.size inb_S128x128_S128x128_0_0
abbrev rC : Rect S1x128 := Rect.unit (s := S1x128) ![0, 0] S1x128.size inb_S1x128_S1x128_0_0
abbrev rD : Rect S1x1 := Rect.unit (s := S1x1) ![0, 0] S1x1.size inb_S1x1_S1x1_0_0

/-- One store through the whole rectangle covers the buffer, whatever the element type. -/
theorem cover_rA {e : EltTy} (p : Vec F S10000x128 e) (y : S10000x128.Idx) :
    ∃ pc ∈ ([⟨rA, p⟩] : List (View.Piece (Elt F) S10000x128 e)), y ∈ pc.1.set :=
  View.cover_of_tiled [⟨rA, p⟩] S10000x128.size (by rfl) y

/-- Contents `f` of a buffer are owned at what the memref reads of them: `owns_intro`, with `owns` written out. -/
theorem keep (c : Thread nD τ) {sp : Space} {sh : Shape} {e : EltTy} (m : Memref sig c.2.kind sp sh e) (q : PosShare TreeShare)
    (f : m.view.ty.Contents (Elt F)) :
    (m.view.loc c ↦[m.view.set]{q} f : sProp 𝕄)
      ⊢ iprop(∃ g, ⌜m.view.read (Elt F) g = m.view.read (Elt F) f⌝ ∗ (m.view.loc c ↦[m.view.set]{q} g)) :=
  owns_intro c m q f

/-- After one store through the whole rectangle the buffer reads that store's canonical contents. -/
theorem stored (c : Thread nD τ) {sp : Space} {e : EltTy} (m : Memref sig c.2.kind sp S10000x128 e) (q : PosShare TreeShare)
    (f : m.view.ty.Contents (Elt F)) (p : Vec F S10000x128 e) :
    (m.view.loc c ↦[m.view.set]{q} m.view.writes (Elt F) f [⟨rA, p⟩] : sProp 𝕄)
      ⊢ iprop(∃ g, ⌜m.view.read (Elt F) g = View.canon [⟨rA, p⟩]⌝ ∗ (m.view.loc c ↦[m.view.set]{q} g)) := by
  iintro H; iexists _; isplitr
  swap; · iexact H
  ipureintro; exact View.read_writes_eq_canon _ _ _ (cover_rA _)

variable {cfg : Cfg sig Λ₀} {c : Dev nD} (dat : Dat τ (Elt F) Unit ℕ (UR sig nD τ) ℕ cfg c) (t : Fin cfg.N) (w : Fin cfg.W)

/-- What the body is handed for window `w` at point `t`, -/
def inW : sProp 𝕄 := iprop(∃ d, owns (c : Thread nD τ) ((cfg.win w).stage (cfg.slots t w)) fullShare (dat.before w t d))

/-- and what it hands back. -/
def outW : sProp 𝕄 := owns (c : Thread nD τ) ((cfg.win w).stage (cfg.slots t w)) fullShare (dat.after w t)

end Cert.Kernel.Fr

end
-- ==== Proof.KB.Reg0.lean ====
import proofs.«408774_j4466765988336_3_alg».proof.Proof.Gen.Kernel.Skeleton
import proofs.«408774_j4466765988336_3_alg».proof.Proof.Gen.Kernel.Points
import proofs.«408774_j4466765988336_3_alg».proof.Proof.KB.RegLib

set_option maxRecDepth 16384

noncomputable section

namespace Cert.Kernel.Fr

open Cert.Kernel Cert.Kernel.Gen
open Idealize.ShloMosaic Idealize.ShloMosaic.TcCoe
open Idealize.SL Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body's one store leaves in window 2's buffer, from the two input blocks, -/
def out0_2 (x0 : Vec F S10000x128 .f32) (x1 : Vec F S128x128 .bf16) : Vec F S10000x128 .f32 :=
  View.canon [⟨rA, k0_pay1 (View.ld x0 rA) (View.ld x1 rB)⟩]

/-- and in window 3's. -/
def out0_3 (x0 : Vec F S10000x128 .f32) (x1 : Vec F S128x128 .bf16) : Vec F S10000x128 .bf16 :=
  View.canon [⟨rA, k0_pay2 (View.ld x0 rA) (View.ld x1 rB)⟩]

set_option maxHeartbeats 1000000 in
/-- The body on whole buffers: the inputs stay, each output is its one whole-buffer store. -/
theorem sound_kernel0 (c : Dev nD) (E : Set ℕ) (i : grid0.Coords)
    (arg1 : Memref sig .tc .vmem S10000x128 .f32) (harg1 : arg1.IsWhole)
    (arg2 : Memref sig .tc .vmem S128x128 .bf16) (harg2 : arg2.IsWhole)
    (arg3 : Memref sig .tc .vmem S10000x128 .f32) (harg3 : arg3.IsWhole)
    (arg4 : Memref sig .tc .vmem S10000x128 .bf16) (harg4 : arg4.IsWhole)
    (x0 : Vec F S10000x128 .f32) (x1 : Vec F S128x128 .bf16) (K : PUnit → sProp 𝕄) :
    iprop(owns c arg1 fullShare x0 ∗ owns c arg2 fullShare x1
        ∗ (∃ d, owns c arg3 fullShare d) ∗ (∃ d, owns c arg4 fullShare d)
        ∗ (iprop(owns c arg1 fullShare x0 ∗ owns c arg2 fullShare x1
            ∗ owns c arg3 fullShare (out0_2 x0 x1)
            ∗ owns c arg4 fullShare (out0_3 x0 x1)) -∗ K ⟨⟩))
      ⊢ wp frame (wpE (defs₀ (F := F)) Variants.none c none) E
          (cc0__linear_kernel i arg1 harg1 arg2 harg2 arg3 harg3 arg4 harg4) K := by
  simp only [cc0__linear_kernel_eq_skeleton]; unfold cc0__linear_kernel_skel
  unfold owns
  iintro ⟨⟨%f1, %hf1, H1⟩, ⟨%f2, %hf2, H2⟩, ⟨%d3, %f3, -, H3⟩, ⟨%d4, %f4, -, H4⟩, Hk⟩
  subst hf1; subst hf2
  sl_exec
  sl_step
  iapply Hk
  isplitl [H1]; · iapply keep; iexact H1
  isplitl [H2]; · iapply keep; iexact H2
  isplitl [H3]; · iapply stored; iexact H3
  iapply stored; iexact H4

/-- The proof data: inputs keep their blocks, each output ends at the body's store. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

theorem after0_2 (c : Dev nD) (t : Fin cfg0.N) :
    (dat0 V c).after 2 t = out0_2 (iblk0 V c 0 t) (iblk0 V c 1 t) := by dsimp only [dat0]
theorem after0_3 (c : Dev nD) (t : Fin cfg0.N) :
    (dat0 V c).after 3 t = out0_3 (iblk0 V c 0 t) (iblk0 V c 1 t) := by dsimp only [dat0]

/-- The body leaves an input block in place, so at every point it finds the block it left. -/
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

/-- The body at point `t`: the inputs hold their blocks, so the body's triple applies; the invariant and the debts pass by. -/
theorem sound_body0 (c : Dev nD) (t : Fin cfg0.N) :
    iprop((dat0 V c).Φ t.castSucc ∗ (dat0 V c).owesAt () t.castSucc
      ∗ inW (dat0 V c) t 0 ∗ inW (dat0 V c) t 1 ∗ inW (dat0 V c) t 2 ∗ inW (dat0 V c) t 3)
    ⊢ wp frame (wpE (defs₀ (F := F)) Variants.none c none) Set.univ (bodyAt0 t) (fun _ =>
      iprop((dat0 V c).Φ t.castSucc ∗ (dat0 V c).owesAt () t.castSucc
        ∗ outW (dat0 V c) t 0 ∗ outW (dat0 V c) t 1 ∗ outW (dat0 V c) t 2 ∗ outW (dat0 V c) t 3)) := by
  unfold inW outW bodyAt0
  simp only [before0_0, before0_1]
  rw [after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  iframe H0 H1
  isplitl [H2]; · iexists _; iexact H2
  isplitl [H3]; · iexists _; iexact H3
  iintro ⟨H0, H1, H2, H3⟩
  iframe
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KB.Reg1.lean ====
import proofs.«408774_j4466765988336_3_alg».proof.Proof.Gen.Kernel.Skeleton
import proofs.«408774_j4466765988336_3_alg».proof.Proof.Gen.Kernel.Points
import proofs.«408774_j4466765988336_3_alg».proof.Proof.KB.RegLib

set_option maxRecDepth 16384

noncomputable section

namespace Cert.Kernel.Fr

open Cert.Kernel Cert.Kernel.Gen
open Idealize.ShloMosaic Idealize.ShloMosaic.TcCoe
open Idealize.SL Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body's one store leaves in window 7's buffer, from the seven input blocks. -/
def out1_7 (x0 : Vec F S10000x128 .bf16) (x1 : Vec F S10000x128 .bf16) (x2 : Vec F S128x128 .bf16) (x3 : Vec F S128x128 .bf16)
    (x4 : Vec F S1x128 .f32) (x5 : Vec F S1x128 .f32) (x6 : Vec F S1x1 .f32) : Vec F S10000x128 .f32 :=
  View.canon [⟨rA, k1_pay1 (View.ld x0 rA) (View.ld x1 rA) (View.ld x2 rB) (View.ld x3 rB) (View.ld x4 rC) (View.ld x5 rC) (View.ld x6 rD)⟩]

set_option maxHeartbeats 1000000 in
/-- The body on whole buffers: the inputs stay, the output is its one whole-buffer store. -/
theorem sound_kernel1 (c : Dev nD) (E : Set ℕ) (i : grid1.Coords)
    (arg0 : Memref sig .tc .vmem S10000x128 .bf16) (harg0 : arg0.IsWhole) (arg1 : Memref sig .tc .vmem S10000x128 .bf16) (harg1 : arg1.IsWhole)
    (arg2 : Memref sig .tc .vmem S128x128 .bf16) (harg2 : arg2.IsWhole) (arg3 : Memref sig .tc .vmem S128x128 .bf16) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S1x1 .f32) (harg6 : arg6.IsWhole) (arg7 : Memref sig .tc .vmem S10000x128 .f32) (harg7 : arg7.IsWhole)
    (x0 x1 : Vec F S10000x128 .bf16) (x2 x3 : Vec F S128x128 .bf16) (x4 x5 : Vec F S1x128 .f32) (x6 : Vec F S1x1 .f32) (K : PUnit → sProp 𝕄) :
    iprop(owns c arg0 fullShare x0 ∗ owns c arg1 fullShare x1
        ∗ owns c arg2 fullShare x2 ∗ owns c arg3 fullShare x3
        ∗ owns c arg4 fullShare x4 ∗ owns c arg5 fullShare x5
        ∗ owns c arg6 fullShare x6 ∗ (∃ d, owns c arg7 fullShare d)
        ∗ (iprop(owns c arg0 fullShare x0 ∗ owns c arg1 fullShare x1
            ∗ owns c arg2 fullShare x2 ∗ owns c arg3 fullShare x3
            ∗ owns c arg4 fullShare x4 ∗ owns c arg5 fullShare x5
            ∗ owns c arg6 fullShare x6
            ∗ owns c arg7 fullShare (out1_7 x0 x1 x2 x3 x4 x5 x6)) -∗ K ⟨⟩))
      ⊢ wp frame (wpE (defs₀ (F := F)) Variants.none c none) E
          (cc1__edge_kernel i arg0 harg0 arg1 harg1 arg2 harg2 arg3 harg3 arg4 harg4 arg5 harg5 arg6 harg6 arg7 harg7) K := by
  simp only [cc1__edge_kernel_eq_skeleton]; unfold cc1__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]; · iapply keep; iexact H0
  isplitl [H1]; · iapply keep; iexact H1
  isplitl [H2]; · iapply keep; iexact H2
  isplitl [H3]; · iapply keep; iexact H3
  isplitl [H4]; · iapply keep; iexact H4
  isplitl [H5]; · iapply keep; iexact H5
  isplitl [H6]; · iapply keep; iexact H6
  iapply stored; iexact H7

/-- The proof data: inputs keep their blocks, the output ends at the body's store; windows 0 and 1 halve the share of their one array. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q w := match w with
    | ⟨0, _⟩ => fullShare.left
    | ⟨1, _⟩ => fullShare.right
    | ⟨_ + 2, _⟩ => fullShare
  owed _ := 0

theorem A_eq1 (c : Dev nD) (w : Fin cfg1.W) : (dat1 V c).A w = V c (Pipeline.arrRef spec1 w) := rfl

theorem after1_7 (c : Dev nD) (t : Fin cfg1.N) : (dat1 V c).after 7 t =
    out1_7 (iblk1 V c 0 t) (iblk1 V c 1 t) (iblk1 V c 2 t) (iblk1 V c 3 t) (iblk1 V c 4 t) (iblk1 V c 5 t) (iblk1 V c 6 t) := by dsimp only [dat1]

theorem q1_0 (c : Dev nD) : (dat1 V c).q 0 = fullShare.left := rfl
theorem q1_1 (c : Dev nD) : (dat1 V c).q 1 = fullShare.right := rfl
theorem q1_2 (c : Dev nD) : (dat1 V c).q 2 = fullShare := rfl
theorem q1_3 (c : Dev nD) : (dat1 V c).q 3 = fullShare := rfl
theorem q1_4 (c : Dev nD) : (dat1 V c).q 4 = fullShare := rfl
theorem q1_5 (c : Dev nD) : (dat1 V c).q 5 = fullShare := rfl
theorem q1_6 (c : Dev nD) : (dat1 V c).q 6 = fullShare := rfl
theorem q1_7 (c : Dev nD) : (dat1 V c).q 7 = fullShare := rfl

/-- The body leaves an input block in place, so at every point it finds the block it left. -/
theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d
theorem before1_5 (c : Dev nD) (t : Fin cfg1.N) (d) : (dat1 V c).before 5 t d = iblk1 V c 5 t :=
  (dat1 V c).before_in_eq_fetched 5 rfl (fun _ => rfl) (fun _ _ _ => rfl) (fun _ => rfl) t d
theorem before1_6 (c : Dev nD) (t : Fin cfg1.N) (d) : (dat1 V c).before 6 t d = iblk1 V c 6 t :=
  (dat1 V c).before_in_eq_fetched 6 rfl (fun _ => rfl) (fun _ _ _ => rfl) (fun _ => rfl) t d

/-- The body at point `t`: the inputs hold their blocks, so the body's triple applies; the invariant and the debts pass by. -/
theorem sound_body1 (c : Dev nD) (t : Fin cfg1.N) :
    iprop((dat1 V c).Φ t.castSucc ∗ (dat1 V c).owesAt () t.castSucc
      ∗ inW (dat1 V c) t 0 ∗ inW (dat1 V c) t 1 ∗ inW (dat1 V c) t 2 ∗ inW (dat1 V c) t 3 ∗ inW (dat1 V c) t 4 ∗ inW (dat1 V c) t 5 ∗ inW (dat1 V c) t 6 ∗ inW (dat1 V c) t 7)
    ⊢ wp frame (wpE (defs₀ (F := F)) Variants.none c none) Set.univ (bodyAt1 t) (fun _ =>
      iprop((dat1 V c).Φ t.castSucc ∗ (dat1 V c).owesAt () t.castSucc
        ∗ outW (dat1 V c) t 0 ∗ outW (dat1 V c) t 1 ∗ outW (dat1 V c) t 2 ∗ outW (dat1 V c) t 3 ∗ outW (dat1 V c) t 4 ∗ outW (dat1 V c) t 5 ∗ outW (dat1 V c) t 6 ∗ outW (dat1 V c) t 7)) := by
  unfold inW outW bodyAt1
  simp only [before1_0, before1_1, before1_2, before1_3, before1_4, before1_5, before1_6]
  rw [after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  iframe H0 H1 H2 H3 H4 H5 H6
  isplitl [H7]; · iexists _; iexact H7
  iintro ⟨H0, H1, H2, H3, H4, H5, H6, H7⟩
  iframe
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KB.Reg2.lean ====
import proofs.«408774_j4466765988336_3_alg».proof.Proof.Gen.Kernel.Skeleton
import proofs.«408774_j4466765988336_3_alg».proof.Proof.Gen.Kernel.Points
import proofs.«408774_j4466765988336_3_alg».proof.Proof.KB.RegLib

set_option maxRecDepth 16384

noncomputable section

namespace Cert.Kernel.Fr

open Cert.Kernel Cert.Kernel.Gen
open Idealize.ShloMosaic Idealize.ShloMosaic.TcCoe
open Idealize.SL Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the body's one store leaves in window 4's buffer, from the four input blocks, -/
def out2_4 (xa xb : Vec F S10000x128 .f32) (xc : Vec F S128x128 .bf16) (xd : Vec F S1x1 .f32) : Vec F S10000x128 .f32 :=
  View.canon [⟨rA, k2_pay1 (View.ld xb rA) (View.ld xa rA) (View.ld xc rB) (View.ld xd rD)⟩]

/-- and in window 5's. -/
def out2_5 (xa xb : Vec F S10000x128 .f32) (xc : Vec F S128x128 .bf16) (xd : Vec F S1x1 .f32) : Vec F S10000x128 .bf16 :=
  View.canon [⟨rA, k2_pay2 (View.ld xb rA) (View.ld xa rA) (View.ld xc rB) (View.ld xd rD)⟩]

set_option maxHeartbeats 1000000 in
/-- The body on whole buffers: the inputs stay, each output is its one whole-buffer store. -/
theorem sound_kernel2 (c : Dev nD) (E : Set ℕ) (i : grid2.Coords)
    (ma : Memref sig .tc .vmem S10000x128 .f32) (wa : ma.IsWhole)
    (mb : Memref sig .tc .vmem S10000x128 .f32) (wb : mb.IsWhole)
    (mc : Memref sig .tc .vmem S128x128 .bf16) (wc : mc.IsWhole)
    (md : Memref sig .tc .vmem S1x1 .f32) (wd : md.IsWhole)
    (me : Memref sig .tc .vmem S10000x128 .f32) (we : me.IsWhole)
    (mf : Memref sig .tc .vmem S10000x128 .bf16) (wf : mf.IsWhole)
    (xa xb : Vec F S10000x128 .f32) (xc : Vec F S128x128 .bf16) (xd : Vec F S1x1 .f32) (K : PUnit → sProp 𝕄) :
    iprop(owns c ma fullShare xa ∗ owns c mb fullShare xb
        ∗ owns c mc fullShare xc ∗ owns c md fullShare xd
        ∗ (∃ d, owns c me fullShare d) ∗ (∃ d, owns c mf fullShare d)
        ∗ (iprop(owns c ma fullShare xa ∗ owns c mb fullShare xb
            ∗ owns c mc fullShare xc ∗ owns c md fullShare xd
            ∗ owns c me fullShare (out2_4 xa xb xc xd)
            ∗ owns c mf fullShare (out2_5 xa xb xc xd)) -∗ K ⟨⟩))
      ⊢ wp frame (wpE (defs₀ (F := F)) Variants.none c none) E
          (cc2__combine_kernel i ma wa mb wb mc wc md wd me we mf wf) K := by
  simp only [cc2__combine_kernel_eq_skeleton]; unfold cc2__combine_kernel_skel
  unfold owns
  iintro ⟨⟨%fa, %ea, Ha⟩, ⟨%fb, %eb, Hb⟩, ⟨%fc, %ec, Hc⟩, ⟨%fd, %ed, Hd⟩, ⟨%de, %fe, -, He⟩, ⟨%df, %ff, -, Hf⟩, Hk⟩
  subst ea; subst eb; subst ec; subst ed
  sl_exec
  sl_step
  iapply Hk
  isplitl [Ha]; · iapply keep; iexact Ha
  isplitl [Hb]; · iapply keep; iexact Hb
  isplitl [Hc]; · iapply keep; iexact Hc
  isplitl [Hd]; · iapply keep; iexact Hd
  isplitl [He]; · iapply stored; iexact He
  iapply stored; iexact Hf

/-- The proof data: inputs keep their blocks, each output ends at the body's store. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := rfl

theorem after2_4 (c : Dev nD) (t : Fin cfg2.N) :
    (dat2 V c).after 4 t = out2_4 (iblk2 V c 0 t) (iblk2 V c 1 t) (iblk2 V c 2 t) (iblk2 V c 3 t) := by dsimp only [dat2]
theorem after2_5 (c : Dev nD) (t : Fin cfg2.N) :
    (dat2 V c).after 5 t = out2_5 (iblk2 V c 0 t) (iblk2 V c 1 t) (iblk2 V c 2 t) (iblk2 V c 3 t) := by dsimp only [dat2]

/-- The body leaves an input block in place, so at every point it finds the block it left. -/
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

/-- The body at point `t`: the inputs hold their blocks, so the body's triple applies; the invariant and the debts pass by. -/
theorem sound_body2 (c : Dev nD) (t : Fin cfg2.N) :
    iprop((dat2 V c).Φ t.castSucc ∗ (dat2 V c).owesAt () t.castSucc
      ∗ inW (dat2 V c) t 0 ∗ inW (dat2 V c) t 1 ∗ inW (dat2 V c) t 2 ∗ inW (dat2 V c) t 3 ∗ inW (dat2 V c) t 4 ∗ inW (dat2 V c) t 5)
    ⊢ wp frame (wpE (defs₀ (F := F)) Variants.none c none) Set.univ (bodyAt2 t) (fun _ =>
      iprop((dat2 V c).Φ t.castSucc ∗ (dat2 V c).owesAt () t.castSucc
        ∗ outW (dat2 V c) t 0 ∗ outW (dat2 V c) t 1 ∗ outW (dat2 V c) t 2 ∗ outW (dat2 V c) t 3 ∗ outW (dat2 V c) t 4 ∗ outW (dat2 V c) t 5)) := by
  unfold inW outW bodyAt2
  simp only [before2_0, before2_1, before2_2, before2_3]
  rw [after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) _)
  iframe H0 H1 H2 H3
  isplitl [H4]; · iexists _; iexact H4
  isplitl [H5]; · iexists _; iexact H5
  iintro ⟨H0, H1, H2, H3, H4, H5⟩
  iframe
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KB.Reg3.lean ====
import proofs.«408774_j4466765988336_3_alg».proof.Proof.Gen.Kernel.Skeleton
import proofs.«408774_j4466765988336_3_alg».proof.Proof.Gen.Kernel.Points
import proofs.«408774_j4466765988336_3_alg».proof.Proof.KB.RegLib

set_option maxRecDepth 16384

noncomputable section

namespace Cert.Kernel.Fr

open Cert.Kernel Cert.Kernel.Gen
open Idealize.ShloMosaic Idealize.ShloMosaic.TcCoe
open Idealize.SL Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the body's one store leaves in window 7's buffer, from the seven input blocks. -/
def out3_7 (x0 : Vec F S10000x128 .bf16) (x1 : Vec F S10000x128 .bf16) (x2 : Vec F S128x128 .bf16) (x3 : Vec F S128x128 .bf16)
    (x4 : Vec F S1x128 .f32) (x5 : Vec F S1x128 .f32) (x6 : Vec F S1x1 .f32) : Vec F S10000x128 .f32 :=
  View.canon [⟨rA, k3_pay1 (View.ld x0 rA) (View.ld x1 rA) (View.ld x2 rB) (View.ld x3 rB) (View.ld x4 rC) (View.ld x5 rC) (View.ld x6 rD)⟩]

set_option maxHeartbeats 1000000 in
/-- The body on whole buffers: the inputs stay, the output is its one whole-buffer store. -/
theorem sound_kernel3 (c : Dev nD) (E : Set ℕ) (i : grid3.Coords)
    (arg0 : Memref sig .tc .vmem S10000x128 .bf16) (harg0 : arg0.IsWhole) (arg1 : Memref sig .tc .vmem S10000x128 .bf16) (harg1 : arg1.IsWhole)
    (arg2 : Memref sig .tc .vmem S128x128 .bf16) (harg2 : arg2.IsWhole) (arg3 : Memref sig .tc .vmem S128x128 .bf16) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S1x1 .f32) (harg6 : arg6.IsWhole) (arg7 : Memref sig .tc .vmem S10000x128 .f32) (harg7 : arg7.IsWhole)
    (x0 x1 : Vec F S10000x128 .bf16) (x2 x3 : Vec F S128x128 .bf16) (x4 x5 : Vec F S1x128 .f32) (x6 : Vec F S1x1 .f32) (K : PUnit → sProp 𝕄) :
    iprop(owns c arg0 fullShare x0 ∗ owns c arg1 fullShare x1
        ∗ owns c arg2 fullShare x2 ∗ owns c arg3 fullShare x3
        ∗ owns c arg4 fullShare x4 ∗ owns c arg5 fullShare x5
        ∗ owns c arg6 fullShare x6 ∗ (∃ d, owns c arg7 fullShare d)
        ∗ (iprop(owns c arg0 fullShare x0 ∗ owns c arg1 fullShare x1
            ∗ owns c arg2 fullShare x2 ∗ owns c arg3 fullShare x3
            ∗ owns c arg4 fullShare x4 ∗ owns c arg5 fullShare x5
            ∗ owns c arg6 fullShare x6
            ∗ owns c arg7 fullShare (out3_7 x0 x1 x2 x3 x4 x5 x6)) -∗ K ⟨⟩))
      ⊢ wp frame (wpE (defs₀ (F := F)) Variants.none c none) E
          (cc3__edge_kernel i arg0 harg0 arg1 harg1 arg2 harg2 arg3 harg3 arg4 harg4 arg5 harg5 arg6 harg6 arg7 harg7) K := by
  simp only [cc3__edge_kernel_eq_skeleton]; unfold cc3__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]; · iapply keep; iexact H0
  isplitl [H1]; · iapply keep; iexact H1
  isplitl [H2]; · iapply keep; iexact H2
  isplitl [H3]; · iapply keep; iexact H3
  isplitl [H4]; · iapply keep; iexact H4
  isplitl [H5]; · iapply keep; iexact H5
  isplitl [H6]; · iapply keep; iexact H6
  iapply stored; iexact H7

/-- The proof data: inputs keep their blocks, the output ends at the body's store; windows 0 and 1 halve the share of their one array. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q w := match w with
    | ⟨0, _⟩ => fullShare.left
    | ⟨1, _⟩ => fullShare.right
    | ⟨_ + 2, _⟩ => fullShare
  owed _ := 0

theorem A_eq3 (c : Dev nD) (w : Fin cfg3.W) : (dat3 V c).A w = V c (Pipeline.arrRef spec3 w) := rfl

theorem after3_7 (c : Dev nD) (t : Fin cfg3.N) : (dat3 V c).after 7 t =
    out3_7 (iblk3 V c 0 t) (iblk3 V c 1 t) (iblk3 V c 2 t) (iblk3 V c 3 t) (iblk3 V c 4 t) (iblk3 V c 5 t) (iblk3 V c 6 t) := by dsimp only [dat3]

theorem q3_0 (c : Dev nD) : (dat3 V c).q 0 = fullShare.left := rfl
theorem q3_1 (c : Dev nD) : (dat3 V c).q 1 = fullShare.right := rfl
theorem q3_2 (c : Dev nD) : (dat3 V c).q 2 = fullShare := rfl
theorem q3_3 (c : Dev nD) : (dat3 V c).q 3 = fullShare := rfl
theorem q3_4 (c : Dev nD) : (dat3 V c).q 4 = fullShare := rfl
theorem q3_5 (c : Dev nD) : (dat3 V c).q 5 = fullShare := rfl
theorem q3_6 (c : Dev nD) : (dat3 V c).q 6 = fullShare := rfl
theorem q3_7 (c : Dev nD) : (dat3 V c).q 7 = fullShare := rfl

/-- The body leaves an input block in place, so at every point it finds the block it left. -/
theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (c : Dev nD) (t : Fin cfg3.N) (d) : (dat3 V c).before 4 t d = iblk3 V c 4 t :=
  (dat3 V c).before_in_eq_fetched 4 rfl (fun _ => rfl) (fun _ _ _ => rfl) (fun _ => rfl) t d
theorem before3_5 (c : Dev nD) (t : Fin cfg3.N) (d) : (dat3 V c).before 5 t d = iblk3 V c 5 t :=
  (dat3 V c).before_in_eq_fetched 5 rfl (fun _ => rfl) (fun _ _ _ => rfl) (fun _ => rfl) t d
theorem before3_6 (c : Dev nD) (t : Fin cfg3.N) (d) : (dat3 V c).before 6 t d = iblk3 V c 6 t :=
  (dat3 V c).before_in_eq_fetched 6 rfl (fun _ => rfl) (fun _ _ _ => rfl) (fun _ => rfl) t d

/-- The body at point `t`: the inputs hold their blocks, so the body's triple applies; the invariant and the debts pass by. -/
theorem sound_body3 (c : Dev nD) (t : Fin cfg3.N) :
    iprop((dat3 V c).Φ t.castSucc ∗ (dat3 V c).owesAt () t.castSucc
      ∗ inW (dat3 V c) t 0 ∗ inW (dat3 V c) t 1 ∗ inW (dat3 V c) t 2 ∗ inW (dat3 V c) t 3 ∗ inW (dat3 V c) t 4 ∗ inW (dat3 V c) t 5 ∗ inW (dat3 V c) t 6 ∗ inW (dat3 V c) t 7)
    ⊢ wp frame (wpE (defs₀ (F := F)) Variants.none c none) Set.univ (bodyAt3 t) (fun _ =>
      iprop((dat3 V c).Φ t.castSucc ∗ (dat3 V c).owesAt () t.castSucc
        ∗ outW (dat3 V c) t 0 ∗ outW (dat3 V c) t 1 ∗ outW (dat3 V c) t 2 ∗ outW (dat3 V c) t 3 ∗ outW (dat3 V c) t 4 ∗ outW (dat3 V c) t 5 ∗ outW (dat3 V c) t 6 ∗ outW (dat3 V c) t 7)) := by
  unfold inW outW bodyAt3
  simp only [before3_0, before3_1, before3_2, before3_3, before3_4, before3_5, before3_6]
  rw [after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t) _)
  iframe H0 H1 H2 H3 H4 H5 H6
  isplitl [H7]; · iexists _; iexact H7
  iintro ⟨H0, H1, H2, H3, H4, H5, H6, H7⟩
  iframe
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KB.Reg4.lean ====
import proofs.«408774_j4466765988336_3_alg».proof.Proof.Gen.Kernel.Skeleton
import proofs.«408774_j4466765988336_3_alg».proof.Proof.Gen.Kernel.Points
import proofs.«408774_j4466765988336_3_alg».proof.Proof.KB.RegLib

set_option maxRecDepth 16384

noncomputable section

namespace Cert.Kernel.Fr

open Cert.Kernel Cert.Kernel.Gen
open Idealize.ShloMosaic Idealize.ShloMosaic.TcCoe
open Idealize.SL Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the body's one store leaves in window 4's buffer, from the four input blocks, -/
def out4_4 (xa xb : Vec F S10000x128 .f32) (xc : Vec F S128x128 .bf16) (xd : Vec F S1x1 .f32) : Vec F S10000x128 .f32 :=
  View.canon [⟨rA, k4_pay1 (View.ld xb rA) (View.ld xa rA) (View.ld xc rB) (View.ld xd rD)⟩]

/-- and in window 5's. -/
def out4_5 (xa xb : Vec F S10000x128 .f32) (xc : Vec F S128x128 .bf16) (xd : Vec F S1x1 .f32) : Vec F S10000x128 .bf16 :=
  View.canon [⟨rA, k4_pay2 (View.ld xb rA) (View.ld xa rA) (View.ld xc rB) (View.ld xd rD)⟩]

set_option maxHeartbeats 1000000 in
/-- The body on whole buffers: the inputs stay, each output is its one whole-buffer store. -/
theorem sound_kernel4 (c : Dev nD) (E : Set ℕ) (i : grid4.Coords)
    (ma : Memref sig .tc .vmem S10000x128 .f32) (wa : ma.IsWhole)
    (mb : Memref sig .tc .vmem S10000x128 .f32) (wb : mb.IsWhole)
    (mc : Memref sig .tc .vmem S128x128 .bf16) (wc : mc.IsWhole)
    (md : Memref sig .tc .vmem S1x1 .f32) (wd : md.IsWhole)
    (me : Memref sig .tc .vmem S10000x128 .f32) (we : me.IsWhole)
    (mf : Memref sig .tc .vmem S10000x128 .bf16) (wf : mf.IsWhole)
    (xa xb : Vec F S10000x128 .f32) (xc : Vec F S128x128 .bf16) (xd : Vec F S1x1 .f32) (K : PUnit → sProp 𝕄) :
    iprop(owns c ma fullShare xa ∗ owns c mb fullShare xb
        ∗ owns c mc fullShare xc ∗ owns c md fullShare xd
        ∗ (∃ d, owns c me fullShare d) ∗ (∃ d, owns c mf fullShare d)
        ∗ (iprop(owns c ma fullShare xa ∗ owns c mb fullShare xb
            ∗ owns c mc fullShare xc ∗ owns c md fullShare xd
            ∗ owns c me fullShare (out4_4 xa xb xc xd)
            ∗ owns c mf fullShare (out4_5 xa xb xc xd)) -∗ K ⟨⟩))
      ⊢ wp frame (wpE (defs₀ (F := F)) Variants.none c none) E
          (cc4__combine_kernel i ma wa mb wb mc wc md wd me we mf wf) K := by
  simp only [cc4__combine_kernel_eq_skeleton]; unfold cc4__combine_kernel_skel
  unfold owns
  iintro ⟨⟨%fa, %ea, Ha⟩, ⟨%fb, %eb, Hb⟩, ⟨%fc, %ec, Hc⟩, ⟨%fd, %ed, Hd⟩, ⟨%de, %fe, -, He⟩, ⟨%df, %ff, -, Hf⟩, Hk⟩
  subst ea; subst eb; subst ec; subst ed
  sl_exec
  sl_step
  iapply Hk
  isplitl [Ha]; · iapply keep; iexact Ha
  isplitl [Hb]; · iapply keep; iexact Hb
  isplitl [Hc]; · iapply keep; iexact Hc
  isplitl [Hd]; · iapply keep; iexact Hd
  isplitl [He]; · iapply stored; iexact He
  iapply stored; iexact Hf

/-- The proof data: inputs keep their blocks, each output ends at the body's store. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
    | ⟨5, _⟩ => out4_5 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := rfl

theorem after4_4 (c : Dev nD) (t : Fin cfg4.N) :
    (dat4 V c).after 4 t = out4_4 (iblk4 V c 0 t) (iblk4 V c 1 t) (iblk4 V c 2 t) (iblk4 V c 3 t) := by dsimp only [dat4]
theorem after4_5 (c : Dev nD) (t : Fin cfg4.N) :
    (dat4 V c).after 5 t = out4_5 (iblk4 V c 0 t) (iblk4 V c 1 t) (iblk4 V c 2 t) (iblk4 V c 3 t) := by dsimp only [dat4]

/-- The body leaves an input block in place, so at every point it finds the block it left. -/
theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d

/-- The body at point `t`: the inputs hold their blocks, so the body's triple applies; the invariant and the debts pass by. -/
theorem sound_body4 (c : Dev nD) (t : Fin cfg4.N) :
    iprop((dat4 V c).Φ t.castSucc ∗ (dat4 V c).owesAt () t.castSucc
      ∗ inW (dat4 V c) t 0 ∗ inW (dat4 V c) t 1 ∗ inW (dat4 V c) t 2 ∗ inW (dat4 V c) t 3 ∗ inW (dat4 V c) t 4 ∗ inW (dat4 V c) t 5)
    ⊢ wp frame (wpE (defs₀ (F := F)) Variants.none c none) Set.univ (bodyAt4 t) (fun _ =>
      iprop((dat4 V c).Φ t.castSucc ∗ (dat4 V c).owesAt () t.castSucc
        ∗ outW (dat4 V c) t 0 ∗ outW (dat4 V c) t 1 ∗ outW (dat4 V c) t 2 ∗ outW (dat4 V c) t 3 ∗ outW (dat4 V c) t 4 ∗ outW (dat4 V c) t 5)) := by
  unfold inW outW bodyAt4
  simp only [before4_0, before4_1, before4_2, before4_3]
  rw [after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _
    (iblk4 V c 0 t) (iblk4 V c 1 t) (iblk4 V c 2 t) (iblk4 V c 3 t) _)
  iframe H0 H1 H2 H3
  isplitl [H4]; · iexists _; iexact H4
  isplitl [H5]; · iexists _; iexact H5
  iintro ⟨H0, H1, H2, H3, H4, H5⟩
  iframe
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.KB.Reg5.lean ====
import proofs.«408774_j4466765988336_3_alg».proof.Proof.Gen.Kernel.Skeleton
import proofs.«408774_j4466765988336_3_alg».proof.Proof.Gen.Kernel.Points
import proofs.«408774_j4466765988336_3_alg».proof.Proof.KB.RegLib

set_option maxRecDepth 16384

noncomputable section

namespace Cert.Kernel.Fr

open Cert.Kernel Cert.Kernel.Gen
open Idealize.ShloMosaic Idealize.ShloMosaic.TcCoe
open Idealize.SL Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off the window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What the body's one store leaves in window 7's buffer, from the seven input blocks. -/
def out5_7 (x0 : Vec F S10000x128 .bf16) (x1 : Vec F S10000x128 .bf16) (x2 : Vec F S128x128 .bf16) (x3 : Vec F S128x128 .bf16)
    (x4 : Vec F S1x128 .f32) (x5 : Vec F S1x128 .f32) (x6 : Vec F S1x1 .f32) : Vec F S10000x128 .f32 :=
  View.canon [⟨rA, k5_pay1 (View.ld x0 rA) (View.ld x1 rA) (View.ld x2 rB) (View.ld x3 rB) (View.ld x4 rC) (View.ld x5 rC) (View.ld x6 rD)⟩]

set_option maxHeartbeats 1000000 in
/-- The body on whole buffers: the inputs stay, the output is its one whole-buffer store. -/
theorem sound_kernel5 (c : Dev nD) (E : Set ℕ) (i : grid5.Coords)
    (arg0 : Memref sig .tc .vmem S10000x128 .bf16) (harg0 : arg0.IsWhole) (arg1 : Memref sig .tc .vmem S10000x128 .bf16) (harg1 : arg1.IsWhole)
    (arg2 : Memref sig .tc .vmem S128x128 .bf16) (harg2 : arg2.IsWhole) (arg3 : Memref sig .tc .vmem S128x128 .bf16) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S1x1 .f32) (harg6 : arg6.IsWhole) (arg7 : Memref sig .tc .vmem S10000x128 .f32) (harg7 : arg7.IsWhole)
    (x0 x1 : Vec F S10000x128 .bf16) (x2 x3 : Vec F S128x128 .bf16) (x4 x5 : Vec F S1x128 .f32) (x6 : Vec F S1x1 .f32) (K : PUnit → sProp 𝕄) :
    iprop(owns c arg0 fullShare x0 ∗ owns c arg1 fullShare x1
        ∗ owns c arg2 fullShare x2 ∗ owns c arg3 fullShare x3
        ∗ owns c arg4 fullShare x4 ∗ owns c arg5 fullShare x5
        ∗ owns c arg6 fullShare x6 ∗ (∃ d, owns c arg7 fullShare d)
        ∗ (iprop(owns c arg0 fullShare x0 ∗ owns c arg1 fullShare x1
            ∗ owns c arg2 fullShare x2 ∗ owns c arg3 fullShare x3
            ∗ owns c arg4 fullShare x4 ∗ owns c arg5 fullShare x5
            ∗ owns c arg6 fullShare x6
            ∗ owns c arg7 fullShare (out5_7 x0 x1 x2 x3 x4 x5 x6)) -∗ K ⟨⟩))
      ⊢ wp frame (wpE (defs₀ (F := F)) Variants.none c none) E
          (cc5__edge_kernel i arg0 harg0 arg1 harg1 arg2 harg2 arg3 harg3 arg4 harg4 arg5 harg5 arg6 harg6 arg7 harg7) K := by
  simp only [cc5__edge_kernel_eq_skeleton]; unfold cc5__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]; · iapply keep; iexact H0
  isplitl [H1]; · iapply keep; iexact H1
  isplitl [H2]; · iapply keep; iexact H2
  isplitl [H3]; · iapply keep; iexact H3
  isplitl [H4]; · iapply keep; iexact H4
  isplitl [H5]; · iapply keep; iexact H5
  isplitl [H6]; · iapply keep; iexact H6
  iapply stored; iexact H7

/-- The proof data: inputs keep their blocks, the output ends at the body's store; windows 0 and 1 halve the share of their one array. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q w := match w with
    | ⟨0, _⟩ => fullShare.left
    | ⟨1, _⟩ => fullShare.right
    | ⟨_ + 2, _⟩ => fullShare
  owed _ := 0

theorem A_eq5 (c : Dev nD) (w : Fin cfg5.W) : (dat5 V c).A w = V c (Pipeline.arrRef spec5 w) := rfl

theorem after5_7 (c : Dev nD) (t : Fin cfg5.N) : (dat5 V c).after 7 t =
    out5_7 (iblk5 V c 0 t) (iblk5 V c 1 t) (iblk5 V c 2 t) (iblk5 V c 3 t) (iblk5 V c 4 t) (iblk5 V c 5 t) (iblk5 V c 6 t) := by dsimp only [dat5]

theorem q5_0 (c : Dev nD) : (dat5 V c).q 0 = fullShare.left := rfl
theorem q5_1 (c : Dev nD) : (dat5 V c).q 1 = fullShare.right := rfl
theorem q5_2 (c : Dev nD) : (dat5 V c).q 2 = fullShare := rfl
theorem q5_3 (c : Dev nD) : (dat5 V c).q 3 = fullShare := rfl
theorem q5_4 (c : Dev nD) : (dat5 V c).q 4 = fullShare := rfl
theorem q5_5 (c : Dev nD) : (dat5 V c).q 5 = fullShare := rfl
theorem q5_6 (c : Dev nD) : (dat5 V c).q 6 = fullShare := rfl
theorem q5_7 (c : Dev nD) : (dat5 V c).q 7 = fullShare := rfl

/-- The body leaves an input block in place, so at every point it finds the block it left. -/
theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d
theorem before5_4 (c : Dev nD) (t : Fin cfg5.N) (d) : (dat5 V c).before 4 t d = iblk5 V c 4 t :=
  (dat5 V c).before_in_eq_fetched 4 rfl (fun _ => rfl) (fun _ _ _ => rfl) (fun _ => rfl) t d
theorem before5_5 (c : Dev nD) (t : Fin cfg5.N) (d) : (dat5 V c).before 5 t d = iblk5 V c 5 t :=
  (dat5 V c).before_in_eq_fetched 5 rfl (fun _ => rfl) (fun _ _ _ => rfl) (fun _ => rfl) t d
theorem before5_6 (c : Dev nD) (t : Fin cfg5.N) (d) : (dat5 V c).before 6 t d = iblk5 V c 6 t :=
  (dat5 V c).before_in_eq_fetched 6 rfl (fun _ => rfl) (fun _ _ _ => rfl) (fun _ => rfl) t d

/-- The body at point `t`: the inputs hold their blocks, so the body's triple applies; the invariant and the debts pass by. -/
theorem sound_body5 (c : Dev nD) (t : Fin cfg5.N) :
    iprop((dat5 V c).Φ t.castSucc ∗ (dat5 V c).owesAt () t.castSucc
      ∗ inW (dat5 V c) t 0 ∗ inW (dat5 V c) t 1 ∗ inW (dat5 V c) t 2 ∗ inW (dat5 V c) t 3 ∗ inW (dat5 V c) t 4 ∗ inW (dat5 V c) t 5 ∗ inW (dat5 V c) t 6 ∗ inW (dat5 V c) t 7)
    ⊢ wp frame (wpE (defs₀ (F := F)) Variants.none c none) Set.univ (bodyAt5 t) (fun _ =>
      iprop((dat5 V c).Φ t.castSucc ∗ (dat5 V c).owesAt () t.castSucc
        ∗ outW (dat5 V c) t 0 ∗ outW (dat5 V c) t 1 ∗ outW (dat5 V c) t 2 ∗ outW (dat5 V c) t 3 ∗ outW (dat5 V c) t 4 ∗ outW (dat5 V c) t 5 ∗ outW (dat5 V c) t 6 ∗ outW (dat5 V c) t 7)) := by
  unfold inW outW bodyAt5
  simp only [before5_0, before5_1, before5_2, before5_3, before5_4, before5_5, before5_6]
  rw [after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _
    (iblk5 V c 0 t) (iblk5 V c 1 t) (iblk5 V c 2 t) (iblk5 V c 3 t) (iblk5 V c 4 t) (iblk5 V c 5 t) (iblk5 V c 6 t) _)
  iframe H0 H1 H2 H3 H4 H5 H6
  isplitl [H7]; · iexists _; iexact H7
  iintro ⟨H0, H1, H2, H3, H4, H5, H6, H7⟩
  iframe
  isplitl [H0]; · iexact H0
  isplitl [H1]; · iexact H1
  isplitl [H2]; · iexact H2
  isplitl [H3]; · iexact H3
  isplitl [H4]; · iexact H4
  isplitl [H5]; · iexact H5
  iexact H6

theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.KB.Reg6.lean ====
import proofs.«408774_j4466765988336_3_alg».proof.Proof.Gen.Kernel.Skeleton
import proofs.«408774_j4466765988336_3_alg».proof.Proof.Gen.Kernel.Points
import proofs.«408774_j4466765988336_3_alg».proof.Proof.KB.RegLib

set_option maxRecDepth 16384

noncomputable section

namespace Cert.Kernel.Fr

open Cert.Kernel Cert.Kernel.Gen
open Idealize.ShloMosaic Idealize.ShloMosaic.TcCoe
open Idealize.SL Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- What the body's one store leaves in window 4's buffer, from the four input blocks, -/
def out6_4 (xa xb : Vec F S10000x128 .f32) (xc : Vec F S128x128 .bf16) (xd : Vec F S1x1 .f32) : Vec F S10000x128 .f32 :=
  View.canon [⟨rA, k6_pay1 (View.ld xb rA) (View.ld xa rA) (View.ld xc rB) (View.ld xd rD)⟩]

/-- and in window 5's. -/
def out6_5 (xa xb : Vec F S10000x128 .f32) (xc : Vec F S128x128 .bf16) (xd : Vec F S1x1 .f32) : Vec F S10000x128 .bf16 :=
  View.canon [⟨rA, k6_pay2 (View.ld xb rA) (View.ld xa rA) (View.ld xc rB) (View.ld xd rD)⟩]

set_option maxHeartbeats 1000000 in
/-- The body on whole buffers: the inputs stay, each output is its one whole-buffer store. -/
theorem sound_kernel6 (c : Dev nD) (E : Set ℕ) (i : grid6.Coords)
    (ma : Memref sig .tc .vmem S10000x128 .f32) (wa : ma.IsWhole)
    (mb : Memref sig .tc .vmem S10000x128 .f32) (wb : mb.IsWhole)
    (mc : Memref sig .tc .vmem S128x128 .bf16) (wc : mc.IsWhole)
    (md : Memref sig .tc .vmem S1x1 .f32) (wd : md.IsWhole)
    (me : Memref sig .tc .vmem S10000x128 .f32) (we : me.IsWhole)
    (mf : Memref sig .tc .vmem S10000x128 .bf16) (wf : mf.IsWhole)
    (xa xb : Vec F S10000x128 .f32) (xc : Vec F S128x128 .bf16) (xd : Vec F S1x1 .f32) (K : PUnit → sProp 𝕄) :
    iprop(owns c ma fullShare xa ∗ owns c mb fullShare xb
        ∗ owns c mc fullShare xc ∗ owns c md fullShare xd
        ∗ (∃ d, owns c me fullShare d) ∗ (∃ d, owns c mf fullShare d)
        ∗ (iprop(owns c ma fullShare xa ∗ owns c mb fullShare xb
            ∗ owns c mc fullShare xc ∗ owns c md fullShare xd
            ∗ owns c me fullShare (out6_4 xa xb xc xd)
            ∗ owns c mf fullShare (out6_5 xa xb xc xd)) -∗ K ⟨⟩))
      ⊢ wp frame (wpE (defs₀ (F := F)) Variants.none c none) E
          (cc6__combine_kernel i ma wa mb wb mc wc md wd me we mf wf) K := by
  simp only [cc6__combine_kernel_eq_skeleton]; unfold cc6__combine_kernel_skel
  unfold owns
  iintro ⟨⟨%fa, %ea, Ha⟩, ⟨%fb, %eb, Hb⟩, ⟨%fc, %ec, Hc⟩, ⟨%fd, %ed, Hd⟩, ⟨%de, %fe, -, He⟩, ⟨%df, %ff, -, Hf⟩, Hk⟩
  subst ea; subst eb; subst ec; subst ed
  sl_exec
  sl_step
  iapply Hk
  isplitl [Ha]; · iapply keep; iexact Ha
  isplitl [Hb]; · iapply keep; iexact Hb
  isplitl [Hc]; · iapply keep; iexact Hc
  isplitl [Hd]; · iapply keep; iexact Hd
  isplitl [He]; · iapply stored; iexact He
  iapply stored; iexact Hf

/-- The proof data: inputs keep their blocks, each output ends at the body's store. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
    | ⟨5, _⟩ => out6_5 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := rfl

theorem after6_4 (c : Dev nD) (t : Fin cfg6.N) :
    (dat6 V c).after 4 t = out6_4 (iblk6 V c 0 t) (iblk6 V c 1 t) (iblk6 V c 2 t) (iblk6 V c 3 t) := by dsimp only [dat6]
theorem after6_5 (c : Dev nD) (t : Fin cfg6.N) :
    (dat6 V c).after 5 t = out6_5 (iblk6 V c 0 t) (iblk6 V c 1 t) (iblk6 V c 2 t) (iblk6 V c 3 t) := by dsimp only [dat6]

/-- The body leaves an input block in place, so at every point it finds the block it left. -/
theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d
theorem before6_3 (c : Dev nD) (t : Fin cfg6.N) (d) : (dat6 V c).before 3 t d = iblk6 V c 3 t :=
  (dat6 V c).before_in_eq_fetched 3 rfl (fun _ => rfl) (fun _ _ _ => rfl) (fun _ => rfl) t d

/-- The body at point `t`: the inputs hold their blocks, so the body's triple applies; the invariant and the debts pass by. -/
theorem sound_body6 (c : Dev nD) (t : Fin cfg6.N) :
    iprop((dat6 V c).Φ t.castSucc ∗ (dat6 V c).owesAt () t.castSucc
      ∗ inW (dat6 V c) t 0 ∗ inW (dat6 V c) t 1 ∗ inW (dat6 V c) t 2 ∗ inW (dat6 V c) t 3 ∗ inW (dat6 V c) t 4 ∗ inW (dat6 V c) t 5)
    ⊢ wp frame (wpE (defs₀ (F := F)) Variants.none c none) Set.univ (bodyAt6 t) (fun _ =>
      iprop((dat6 V c).Φ t.castSucc ∗ (dat6 V c).owesAt () t.castSucc
        ∗ outW (dat6 V c) t 0 ∗ outW (dat6 V c) t 1 ∗ outW (dat6 V c) t 2 ∗ outW (dat6 V c) t 3 ∗ outW (dat6 V c) t 4 ∗ outW (dat6 V c) t 5)) := by
  unfold inW outW bodyAt6
  simp only [before6_0, before6_1, before6_2, before6_3]
  rw [after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _
    (iblk6 V c 0 t) (iblk6 V c 1 t) (iblk6 V c 2 t) (iblk6 V c 3 t) _)
  iframe H0 H1 H2 H3
  isplitl [H4]; · iexists _; iexact H4
  isplitl [H5]; · iexists _; iexact H5
  iintro ⟨H0, H1, H2, H3, H4, H5⟩
  iframe
  isplitl [H0]; · iexact H0
  isplitl [H1]; · iexact H1
  isplitl [H2]; · iexact H2
  iexact H3

theorem body_obligation6 (c : Dev nD) : BodyObligation (dat6 (F := F) V c) (defs₀ (F := F)) Variants.none () Set.univ := fun t => by
  rw [bigSep_W6, bigSep_W6]
  exact sound_body6 V c t

end Cert.Kernel.Fr

end
-- ==== Proof.KB.Shared.lean ====
import proofs.«408774_j4466765988336_3_alg».proof.Proof.Gen.Kernel.Launch
import Idealize.ShloMosaic.Lib.Pipeline.FrameBody
import Idealize.ShloMosaic.Lib.Pipeline.RegionsLoop
import Idealize.ShloMosaic.Lib.Pipeline.FrameSuffix

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

local notation "𝕄" => MT nD τ sig Unit (Elt F) ℕ (UR sig nD τ) ℕ

variable {cfg : Cfg sig Λ₀} {c : Dev nD} (dat : Dat τ (Elt F) Unit ℕ (UR sig nD τ) ℕ cfg c)
    (hun : ∀ w, (Pipeline.arrRef cfg.spec w).isScoped = false) (harr : ∀ w, (cfg.spec w).arr.IsWhole)
    (i j : Fin cfg.W) (hij : i ≠ j) (hsame : Pipeline.arrRef cfg.spec i = Pipeline.arrRef cfg.spec j)
    (hinj : ∀ w w', Pipeline.arrRef cfg.spec w = Pipeline.arrRef cfg.spec w' → w = w' ∨ (w = i ∧ w' = j) ∨ (w = j ∧ w' = i))
    (hi : dat.share i = fullShare.left) (hj : dat.share j = fullShare.right)
    (hq : ∀ w, w ≠ i → w ≠ j → dat.share w = fullShare)

include harr hij hsame hinj hi hj hq in
private theorem arrBufs_eq_arrays_shared
    (V : (b : Ref sig .tc) → Buf (Elt F) ((c.tc : Thread nD τ).loc b)) :
    (Pipeline.arrBufs cfg.spec c V : sProp 𝕄) = dat.arrays (fun w => V (Pipeline.arrRef cfg.spec w)) := by
  classical
  have himg : Finset.univ.image (Pipeline.arrRef cfg.spec) = (Finset.univ.erase j).image (Pipeline.arrRef cfg.spec) := by
    ext b
    simp only [Finset.mem_image, Finset.mem_univ, true_and, Finset.mem_erase, ne_eq, and_true]
    constructor
    · rintro ⟨w, rfl⟩
      by_cases hw : w = j
      · exact ⟨i, hij, by rw [hw, hsame]⟩
      · exact ⟨w, hw, rfl⟩
    · rintro ⟨w, -, rfl⟩; exact ⟨w, rfl⟩
  have hinjOn : Set.InjOn (Pipeline.arrRef cfg.spec) ((Finset.univ.erase j : Finset (Fin cfg.W)) : Set (Fin cfg.W)) := by
    intro w hw w' hw' e
    have hwj : w ≠ j := (Finset.mem_erase.mp (Finset.mem_coe.mp hw)).1
    have hwj' : w' ≠ j := (Finset.mem_erase.mp (Finset.mem_coe.mp hw')).1
    rcases hinj w w' e with h | ⟨-, h⟩ | ⟨h, -⟩
    · exact h
    · exact absurd h hwj'
    · exact absurd h hwj
  have hmem : i ∈ (Finset.univ.erase j : Finset (Fin cfg.W)) := Finset.mem_erase.mpr ⟨hij, Finset.mem_univ i⟩
  have hhalf : (((c.tc : Thread nD τ).loc (Pipeline.arrRef cfg.spec i)) ↦{fullShare} V (Pipeline.arrRef cfg.spec i) : sProp 𝕄)
      = iprop((((c.tc : Thread nD τ).loc (Pipeline.arrRef cfg.spec i)) ↦{fullShare.left} V (Pipeline.arrRef cfg.spec i))
          ∗ (((c.tc : Thread nD τ).loc (Pipeline.arrRef cfg.spec j)) ↦{fullShare.right} V (Pipeline.arrRef cfg.spec j))) := by
    have hs : (((c.tc : Thread nD τ).loc (Pipeline.arrRef cfg.spec i)) ↦{fullShare} V (Pipeline.arrRef cfg.spec i) : sProp 𝕄)
        ⊣⊢ iprop((((c.tc : Thread nD τ).loc (Pipeline.arrRef cfg.spec i)) ↦{fullShare.left} V (Pipeline.arrRef cfg.spec i))
          ∗ (((c.tc : Thread nD τ).loc (Pipeline.arrRef cfg.spec i)) ↦{fullShare.right} V (Pipeline.arrRef cfg.spec i))) :=
      pointsTo_share (PosShare.mem_left_op_right fullShare)
    rw [BI.equiv_iff.mp ⟨hs.1, hs.2⟩]
    exact congrArg (fun b => iprop((((c.tc : Thread nD τ).loc (Pipeline.arrRef cfg.spec i)) ↦{fullShare.left} V (Pipeline.arrRef cfg.spec i))
      ∗ (((c.tc : Thread nD τ).loc b) ↦{fullShare.right} V b) : sProp 𝕄)) hsame
  unfold Pipeline.arrBufs Dat.arrays
  rw [himg, bigSep_image_of_injOn hinjOn, bigSep_erase hmem, bigSep_univ_split j, bigSep_erase hmem, hhalf]
  have hΘi : (((cfg.win i).arr.view.loc (c.tc : Thread nD τ)) ↦[(cfg.win i).arr.view.set]{dat.share i} V (Pipeline.arrRef cfg.spec i) : sProp 𝕄)
      = (((c.tc : Thread nD τ).loc (Pipeline.arrRef cfg.spec i)) ↦{fullShare.left} V (Pipeline.arrRef cfg.spec i)) := by
    rw [(harr i).set_eq_univ, hi]
  have hΘj : (((cfg.win j).arr.view.loc (c.tc : Thread nD τ)) ↦[(cfg.win j).arr.view.set]{dat.share j} V (Pipeline.arrRef cfg.spec j) : sProp 𝕄)
      = (((c.tc : Thread nD τ).loc (Pipeline.arrRef cfg.spec j)) ↦{fullShare.right} V (Pipeline.arrRef cfg.spec j)) := by
    rw [(harr j).set_eq_univ, hj]
  have hrest : bigSep ((Finset.univ.erase j).erase i) (fun w : Fin cfg.W =>
        (((cfg.win w).arr.view.loc (c.tc : Thread nD τ)) ↦[(cfg.win w).arr.view.set]{dat.share w} V (Pipeline.arrRef cfg.spec w) : sProp 𝕄))
      = bigSep ((Finset.univ.erase j).erase i) (fun w : Fin cfg.W =>
        (((c.tc : Thread nD τ).loc (Pipeline.arrRef cfg.spec w)) ↦{fullShare} V (Pipeline.arrRef cfg.spec w) : sProp 𝕄)) :=
    bigSep_congr fun w hw => by
      have hwi : w ≠ i := (Finset.mem_erase.mp hw).1
      have hwj : w ≠ j := (Finset.mem_erase.mp (Finset.mem_erase.mp hw).2).1
      rw [(harr w).set_eq_univ, hq w hwi hwj]
  rw [hΘi, hΘj, hrest]
  refine BI.equiv_iff.mp ⟨?_, ?_⟩
  · show (iprop((_ ∗ _) ∗ _) : sProp 𝕄) ⊢ iprop(_ ∗ _ ∗ _)
    iintro ⟨⟨Hi, Hj⟩, Hr⟩
    isplitl [Hj]; · iexact Hj
    isplitl [Hi]; · iexact Hi
    iexact Hr
  · show (iprop(_ ∗ _ ∗ _) : sProp 𝕄) ⊢ iprop((_ ∗ _) ∗ _)
    iintro ⟨Hj, Hi, Hr⟩
    isplitr [Hr]
    · isplitl [Hi]; · iexact Hi
      iexact Hj
    iexact Hr

include hun harr hij hsame hinj hi hj hq in
theorem arrays_of_unscopedBufs_shared
    (V : (b : Ref sig .tc) → Buf (Elt F) ((c.tc : Thread nD τ).loc b))
    (hA : ∀ w, dat.A w = V (Pipeline.arrRef cfg.spec w)) :
    (unscopedBufs c V : sProp 𝕄) ⊢ iprop(dat.arrays (dat.arrAt · 0) ∗ Pipeline.unscopedRest cfg.spec c V) := by
  have hsplit : (unscopedBufs c V : sProp 𝕄) = iprop((Pipeline.arrBufs cfg.spec c V : sProp 𝕄) ∗ Pipeline.unscopedRest cfg.spec c V) :=
    Pipeline.PerCore.unscopedBufs_split₀ (P := Unit) (fun _ _ => cfg) () c hun V
  rw [hsplit, arrBufs_eq_arrays_shared dat harr i j hij hsame hinj hi hj hq V]
  exact sep_mono (Entails.of_eq (congrArg dat.arrays (funext fun w => by
    rw [show dat.arrAt w 0 = dat.A w from rfl, hA]))) .rfl

include hun harr hij hsame hinj hi hj hq in
theorem unscopedBufs_of_arrays_shared
    (V V' : (b : Ref sig .tc) → Buf (Elt F) ((c.tc : Thread nD τ).loc b))
    (Fa : (w : Fin cfg.W) → Buf (Elt F) ((cfg.spec w).arr.view.loc (c.tc : Thread nD τ)))
    (hF : ∀ w, Fa w = V' (Pipeline.arrRef cfg.spec w))
    (hrest : ∀ b, b ∉ Finset.univ.image (Pipeline.arrRef cfg.spec) → V' b = V b) :
    iprop(dat.arrays Fa ∗ Pipeline.unscopedRest cfg.spec c V) ⊢ (unscopedBufs c V' : sProp 𝕄) := by
  have hsplit : (unscopedBufs c V' : sProp 𝕄) = iprop((Pipeline.arrBufs cfg.spec c V' : sProp 𝕄) ∗ Pipeline.unscopedRest cfg.spec c V') :=
    Pipeline.PerCore.unscopedBufs_split₀ (P := Unit) (fun _ _ => cfg) () c hun V'
  rw [hsplit, arrBufs_eq_arrays_shared dat harr i j hij hsame hinj hi hj hq V']
  refine sep_mono (Entails.of_eq (congrArg dat.arrays (funext fun w => hF w))) (Entails.of_eq ?_)
  unfold Pipeline.unscopedRest
  exact bigSep_congr fun b hb => by rw [hrest b (Finset.mem_sdiff.mp hb).2]

end Cert.Kernel.Fr

end
-- ==== Proof.KB.Run.lean ====
import proofs.«408774_j4466765988336_3_alg».proof.Proof.KB.Reg0
import proofs.«408774_j4466765988336_3_alg».proof.Proof.KB.Reg1
import proofs.«408774_j4466765988336_3_alg».proof.Proof.KB.Reg2
import proofs.«408774_j4466765988336_3_alg».proof.Proof.KB.Reg3
import proofs.«408774_j4466765988336_3_alg».proof.Proof.KB.Reg4
import proofs.«408774_j4466765988336_3_alg».proof.Proof.KB.Reg5
import proofs.«408774_j4466765988336_3_alg».proof.Proof.KB.Reg6
import proofs.«408774_j4466765988336_3_alg».proof.Proof.KB.Shared
import proofs.«408774_j4466765988336_3_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev Conts (F : FTy → Type) : Type := (c : Dev nD) → (b : Ref sig .tc) → Buf (Elt F) ((c : Thread nD τ).loc b)

def B2 (c : Dev nD) : Valuation τ sig (Elt F) :=
  Function.update (Function.update (Gen.V1 m c) main_v14_0 ((dat0 (fun c b => Gen.V1 m c b) c).arrAt 2 cfg0.N)) main_v14_1 ((dat0 (fun c b => Gen.V1 m c b) c).arrAt 3 cfg0.N)
abbrev B4 (c : Dev nD) : Valuation τ sig (Elt F) := StableHlo.after hostOps1_1 (StableHlo.after hostOps1 (B2 m c))

def B5 (c : Dev nD) : Valuation τ sig (Elt F) :=
  Function.update (B4 m c) main_v22 ((dat1 (fun (c : Dev nD) (b : Ref sig .tc) => B4 m c b) c).arrAt 7 cfg1.N)
abbrev B6 (c : Dev nD) : Valuation τ sig (Elt F) := StableHlo.after hostOps2 (B5 m c)

def B7 (c : Dev nD) : Valuation τ sig (Elt F) :=
  Function.update (Function.update (B6 m c) main_v48_0 ((dat2 (fun (c : Dev nD) (b : Ref sig .tc) => B6 m c b) c).arrAt 4 cfg2.N)) main_v48_1 ((dat2 (fun (c : Dev nD) (b : Ref sig .tc) => B6 m c b) c).arrAt 5 cfg2.N)
abbrev B9 (c : Dev nD) : Valuation τ sig (Elt F) := StableHlo.after hostOps3_1 (StableHlo.after hostOps3 (B7 m c))

def B10 (c : Dev nD) : Valuation τ sig (Elt F) :=
  Function.update (B9 m c) main_v56 ((dat3 (fun (c : Dev nD) (b : Ref sig .tc) => B9 m c b) c).arrAt 7 cfg3.N)
abbrev B11 (c : Dev nD) : Valuation τ sig (Elt F) := StableHlo.after hostOps4 (B10 m c)

def B12 (c : Dev nD) : Valuation τ sig (Elt F) :=
  Function.update (Function.update (B11 m c) main_v82_0 ((dat4 (fun (c : Dev nD) (b : Ref sig .tc) => B11 m c b) c).arrAt 4 cfg4.N)) main_v82_1 ((dat4 (fun (c : Dev nD) (b : Ref sig .tc) => B11 m c b) c).arrAt 5 cfg4.N)
abbrev B14 (c : Dev nD) : Valuation τ sig (Elt F) := StableHlo.after hostOps5_1 (StableHlo.after hostOps5 (B12 m c))

def B15 (c : Dev nD) : Valuation τ sig (Elt F) :=
  Function.update (B14 m c) main_v90 ((dat5 (fun (c : Dev nD) (b : Ref sig .tc) => B14 m c b) c).arrAt 7 cfg5.N)
abbrev B16 (c : Dev nD) : Valuation τ sig (Elt F) := StableHlo.after hostOps6 (B15 m c)

def B17 (c : Dev nD) : Valuation τ sig (Elt F) :=
  Function.update (Function.update (B16 m c) main_v116_0 ((dat6 (fun (c : Dev nD) (b : Ref sig .tc) => B16 m c b) c).arrAt 4 cfg6.N)) main_v116_1 ((dat6 (fun (c : Dev nD) (b : Ref sig .tc) => B16 m c b) c).arrAt 5 cfg6.N)

def outs : Gen.Outs (F := F) := fun J r c =>
  match J with
  | 2 => B2 m c r
  | 5 => B5 m c r
  | 7 => B7 m c r
  | 10 => B10 m c r
  | 12 => B12 m c r
  | 15 => B15 m c r
  | 17 => B17 m c r
  | _ => Gen.V1 m c r

theorem conts_ext {V W : Dev nD → Valuation τ sig (Elt F)} (h : ∀ c, V c = W c) :
    ((fun (c : Dev nD) (b : Ref sig .tc) => V c b) : Conts F) = fun (c : Dev nD) (b : Ref sig .tc) => W c b :=
  funext fun c => funext fun b => congrFun (h c) b

theorem upd_congr {α : Type _} [DecidableEq α] {β : α → Type _} {f g : ∀ a, β a} {a : α} {x y : β a}
    (hf : f = g) (hx : x = y) : Function.update f a x = Function.update g a y := by rw [hf, hx]

theorem outs_2_0 (c : Dev nD) : outs m 2 main_v14_0 c = (dat0 (fun c b => Gen.V1 m c b) c).arrAt 2 cfg0.N := by
  show B2 m c main_v14_0 = _
  unfold B2
  rw [Function.update_of_ne (StableHlo.devRef_ne_of_ne (show main_v14_0 ≠ main_v14_1 by decide)), Function.update_self]
theorem outs_2_1 (c : Dev nD) : outs m 2 main_v14_1 c = (dat0 (fun c b => Gen.V1 m c b) c).arrAt 3 cfg0.N := by
  show B2 m c main_v14_1 = _
  unfold B2
  rw [Function.update_self]
theorem V2_eq (c : Dev nD) : Gen.V2 m (outs m) c = B2 m c :=
  upd_congr (upd_congr rfl (outs_2_0 m c)) (outs_2_1 m c)
theorem V4_eq (c : Dev nD) : Gen.V4 m (outs m) c = B4 m c :=
  congrArg (fun W => StableHlo.after hostOps1_1 (StableHlo.after hostOps1 W)) (V2_eq m c)

theorem outs_5_raw (c : Dev nD) : outs m 5 main_v22 c = (dat1 (fun (c : Dev nD) (b : Ref sig .tc) => B4 m c b) c).arrAt 7 cfg1.N := by
  show B5 m c main_v22 = _
  unfold B5
  rw [Function.update_self]
theorem outs_5 (c : Dev nD) : outs m 5 main_v22 c = (dat1 (fun c b => Gen.V4 m (outs m) c b) c).arrAt 7 cfg1.N :=
  (outs_5_raw m c).trans (congrArg (fun V : Conts F => (dat1 V c).arrAt 7 cfg1.N) (conts_ext (V4_eq m))).symm
theorem V5_eq (c : Dev nD) : Gen.V5 m (outs m) c = B5 m c :=
  upd_congr (V4_eq m c) (outs_5_raw m c)
theorem V6_eq (c : Dev nD) : Gen.V6 m (outs m) c = B6 m c :=
  congrArg (fun W => StableHlo.after hostOps2 W) (V5_eq m c)

theorem outs_7_0_raw (c : Dev nD) : outs m 7 main_v48_0 c = (dat2 (fun (c : Dev nD) (b : Ref sig .tc) => B6 m c b) c).arrAt 4 cfg2.N := by
  show B7 m c main_v48_0 = _
  unfold B7
  rw [Function.update_of_ne (StableHlo.devRef_ne_of_ne (show main_v48_0 ≠ main_v48_1 by decide)), Function.update_self]
theorem outs_7_0 (c : Dev nD) : outs m 7 main_v48_0 c = (dat2 (fun c b => Gen.V6 m (outs m) c b) c).arrAt 4 cfg2.N :=
  (outs_7_0_raw m c).trans (congrArg (fun V : Conts F => (dat2 V c).arrAt 4 cfg2.N) (conts_ext (V6_eq m))).symm
theorem outs_7_1_raw (c : Dev nD) : outs m 7 main_v48_1 c = (dat2 (fun (c : Dev nD) (b : Ref sig .tc) => B6 m c b) c).arrAt 5 cfg2.N := by
  show B7 m c main_v48_1 = _
  unfold B7
  rw [Function.update_self]
theorem outs_7_1 (c : Dev nD) : outs m 7 main_v48_1 c = (dat2 (fun c b => Gen.V6 m (outs m) c b) c).arrAt 5 cfg2.N :=
  (outs_7_1_raw m c).trans (congrArg (fun V : Conts F => (dat2 V c).arrAt 5 cfg2.N) (conts_ext (V6_eq m))).symm
theorem V7_eq (c : Dev nD) : Gen.V7 m (outs m) c = B7 m c :=
  upd_congr (upd_congr (V6_eq m c) (outs_7_0_raw m c)) (outs_7_1_raw m c)
theorem V9_eq (c : Dev nD) : Gen.V9 m (outs m) c = B9 m c :=
  congrArg (fun W => StableHlo.after hostOps3_1 (StableHlo.after hostOps3 W)) (V7_eq m c)

theorem outs_10_raw (c : Dev nD) : outs m 10 main_v56 c = (dat3 (fun (c : Dev nD) (b : Ref sig .tc) => B9 m c b) c).arrAt 7 cfg3.N := by
  show B10 m c main_v56 = _
  unfold B10
  rw [Function.update_self]
theorem outs_10 (c : Dev nD) : outs m 10 main_v56 c = (dat3 (fun c b => Gen.V9 m (outs m) c b) c).arrAt 7 cfg3.N :=
  (outs_10_raw m c).trans (congrArg (fun V : Conts F => (dat3 V c).arrAt 7 cfg3.N) (conts_ext (V9_eq m))).symm
theorem V10_eq (c : Dev nD) : Gen.V10 m (outs m) c = B10 m c :=
  upd_congr (V9_eq m c) (outs_10_raw m c)
theorem V11_eq (c : Dev nD) : Gen.V11 m (outs m) c = B11 m c :=
  congrArg (fun W => StableHlo.after hostOps4 W) (V10_eq m c)

theorem outs_12_0_raw (c : Dev nD) : outs m 12 main_v82_0 c = (dat4 (fun (c : Dev nD) (b : Ref sig .tc) => B11 m c b) c).arrAt 4 cfg4.N := by
  show B12 m c main_v82_0 = _
  unfold B12
  rw [Function.update_of_ne (StableHlo.devRef_ne_of_ne (show main_v82_0 ≠ main_v82_1 by decide)), Function.update_self]
theorem outs_12_0 (c : Dev nD) : outs m 12 main_v82_0 c = (dat4 (fun c b => Gen.V11 m (outs m) c b) c).arrAt 4 cfg4.N :=
  (outs_12_0_raw m c).trans (congrArg (fun V : Conts F => (dat4 V c).arrAt 4 cfg4.N) (conts_ext (V11_eq m))).symm
theorem outs_12_1_raw (c : Dev nD) : outs m 12 main_v82_1 c = (dat4 (fun (c : Dev nD) (b : Ref sig .tc) => B11 m c b) c).arrAt 5 cfg4.N := by
  show B12 m c main_v82_1 = _
  unfold B12
  rw [Function.update_self]
theorem outs_12_1 (c : Dev nD) : outs m 12 main_v82_1 c = (dat4 (fun c b => Gen.V11 m (outs m) c b) c).arrAt 5 cfg4.N :=
  (outs_12_1_raw m c).trans (congrArg (fun V : Conts F => (dat4 V c).arrAt 5 cfg4.N) (conts_ext (V11_eq m))).symm
theorem V12_eq (c : Dev nD) : Gen.V12 m (outs m) c = B12 m c :=
  upd_congr (upd_congr (V11_eq m c) (outs_12_0_raw m c)) (outs_12_1_raw m c)
theorem V14_eq (c : Dev nD) : Gen.V14 m (outs m) c = B14 m c :=
  congrArg (fun W => StableHlo.after hostOps5_1 (StableHlo.after hostOps5 W)) (V12_eq m c)

theorem outs_15_raw (c : Dev nD) : outs m 15 main_v90 c = (dat5 (fun (c : Dev nD) (b : Ref sig .tc) => B14 m c b) c).arrAt 7 cfg5.N := by
  show B15 m c main_v90 = _
  unfold B15
  rw [Function.update_self]
theorem outs_15 (c : Dev nD) : outs m 15 main_v90 c = (dat5 (fun c b => Gen.V14 m (outs m) c b) c).arrAt 7 cfg5.N :=
  (outs_15_raw m c).trans (congrArg (fun V : Conts F => (dat5 V c).arrAt 7 cfg5.N) (conts_ext (V14_eq m))).symm
theorem V15_eq (c : Dev nD) : Gen.V15 m (outs m) c = B15 m c :=
  upd_congr (V14_eq m c) (outs_15_raw m c)
theorem V16_eq (c : Dev nD) : Gen.V16 m (outs m) c = B16 m c :=
  congrArg (fun W => StableHlo.after hostOps6 W) (V15_eq m c)

theorem outs_17_0_raw (c : Dev nD) : outs m 17 main_v116_0 c = (dat6 (fun (c : Dev nD) (b : Ref sig .tc) => B16 m c b) c).arrAt 4 cfg6.N := by
  show B17 m c main_v116_0 = _
  unfold B17
  rw [Function.update_of_ne (StableHlo.devRef_ne_of_ne (show main_v116_0 ≠ main_v116_1 by decide)), Function.update_self]
theorem outs_17_0 (c : Dev nD) : outs m 17 main_v116_0 c = (dat6 (fun c b => Gen.V16 m (outs m) c b) c).arrAt 4 cfg6.N :=
  (outs_17_0_raw m c).trans (congrArg (fun V : Conts F => (dat6 V c).arrAt 4 cfg6.N) (conts_ext (V16_eq m))).symm
theorem outs_17_1_raw (c : Dev nD) : outs m 17 main_v116_1 c = (dat6 (fun (c : Dev nD) (b : Ref sig .tc) => B16 m c b) c).arrAt 5 cfg6.N := by
  show B17 m c main_v116_1 = _
  unfold B17
  rw [Function.update_self]
theorem outs_17_1 (c : Dev nD) : outs m 17 main_v116_1 c = (dat6 (fun c b => Gen.V16 m (outs m) c b) c).arrAt 5 cfg6.N :=
  (outs_17_1_raw m c).trans (congrArg (fun V : Conts F => (dat6 V c).arrAt 5 cfg6.N) (conts_ext (V16_eq m))).symm
theorem V17_eq (c : Dev nD) : Gen.V17 m (outs m) c = B17 m c :=
  upd_congr (upd_congr (V16_eq m c) (outs_17_0_raw m c)) (outs_17_1_raw m c)

def pdats : (p : Fin 7) → (c : Dev nD) → Dat τ (Elt F) Unit ℕ (UR sig nD τ) ℕ (cfgs p) c
  | ⟨0, _⟩ => fun c => dat0 (fun c b => Gen.V1 m c b) c
  | ⟨1, _⟩ => fun c => dat1 (fun c b => Gen.V4 m (outs m) c b) c
  | ⟨2, _⟩ => fun c => dat2 (fun c b => Gen.V6 m (outs m) c b) c
  | ⟨3, _⟩ => fun c => dat3 (fun c b => Gen.V9 m (outs m) c b) c
  | ⟨4, _⟩ => fun c => dat4 (fun c b => Gen.V11 m (outs m) c b) c
  | ⟨5, _⟩ => fun c => dat5 (fun c b => Gen.V14 m (outs m) c b) c
  | ⟨6, _⟩ => fun c => dat6 (fun c b => Gen.V16 m (outs m) c b) c

abbrev Rst (c : Dev nD) : sProp 𝕄 :=
  iprop((∃ r, prngReg c r) ∗ ∃ W, owes (c : Thread nD τ) (0 : CellTallies nD τ sig Unit) W)

section Steps

variable {cfg : Cfg sig Λ₀} {c : Dev nD} (dat : Dat τ (Elt F) Unit ℕ (UR sig nD τ) ℕ cfg c)

theorem owesAt_intro (t : Fin (cfg.N + 1)) (ho : dat.owed t = 0) (hr : dat.recorded t = Set.univ) :
    (iprop(∃ W, owes (c : Thread nD τ) (0 : CellTallies nD τ sig Unit) W) : sProp 𝕄) ⊢ dat.owesAt () t := by
  show _ ⊢ iprop(∃ W, ⌜↑W ⊆ dat.bound () t⌝ ∗ owes (c : Thread nD τ) (dat.owed t) W)
  rw [ho]
  iintro ⟨%W, H⟩
  iexists W
  isplitr
  · ipureintro
    intro x _
    exact Or.inl (hr ▸ Set.mem_univ x)
  iexact H

theorem owesAt_elim (t : Fin (cfg.N + 1)) (ho : dat.owed t = 0) :
    dat.owesAt () t ⊢ (iprop(∃ W, owes (c : Thread nD τ) (0 : CellTallies nD τ sig Unit) W) : sProp 𝕄) := by
  show iprop(∃ W, ⌜↑W ⊆ dat.bound () t⌝ ∗ owes (c : Thread nD τ) (dat.owed t) W) ⊢ _
  rw [ho]
  iintro ⟨%W, -, H⟩
  iexists W
  iexact H

theorem share_of_q (w : Fin cfg.W) (h : dat.q w = fullShare) : dat.share w = fullShare := by
  unfold Dat.share
  split
  · rfl
  · exact h

theorem share_in (w : Fin cfg.W) (hin : (cfg.win w).isOut = false) : dat.share w = dat.q w := by
  unfold Dat.share
  rw [hin]
  rfl

theorem ne_arr {b : Ref sig .tc} (hb : b ∉ Finset.univ.image (Pipeline.arrRef cfg.spec)) (w : Fin cfg.W) :
    b ≠ Pipeline.arrRef cfg.spec w :=
  fun h => hb (h ▸ Finset.mem_image_of_mem _ (Finset.mem_univ w))

end Steps

theorem entry_of {A Zr Pf Ow S Lv : sProp 𝕄} {c : Dev nD} {W : Valuation τ sig (Elt F)}
    (hsplit : (unscopedBufs c (fun b => W b) : sProp 𝕄) ⊢ iprop(A ∗ Zr))
    (hPf : (BI.emp : sProp 𝕄) ⊢ Pf)
    (hOw : (iprop(∃ W, owes (c : Thread nD τ) (0 : CellTallies nD τ sig Unit) W) : sProp 𝕄) ⊢ Ow) :
    iprop((StableHlo.held (c : Thread nD τ) (Pipeline.ucRefs τ sig) W ∗ Rst c) ∗ S ∗ Lv)
      ⊢ (|={Set.univ}=> iprop(A ∗ Pf ∗ Ow ∗ (∃ r, prngReg c r) ∗ Zr) : sProp 𝕄) := by
  rw [← Pipeline.unscopedBufs_held (Ix := Unit) (Name := ℕ) (U := UR sig nD τ) (Lvl := ℕ) c W]
  iintro ⟨⟨Hh, Hp, HO⟩, -, -⟩
  ihave Hs := hsplit $$ Hh
  icases Hs with ⟨Ha, Hz⟩
  imodintro
  isplitl [Ha]; · iexact Ha
  isplitr
  · iapply hPf; iempintro
  isplitl [HO]
  · iapply hOw; iexact HO
  isplitl [Hp]; · iexact Hp
  iexact Hz

theorem in_of {X Pf Sr : sProp 𝕄} : iprop(X ∗ Pf ∗ Sr) ⊢ iprop(Sr ∗ X) := by
  iintro ⟨Hx, -, Hs⟩
  isplitl [Hs]; · iexact Hs
  iexact Hx

theorem out_of {Sr Y : sProp 𝕄} : iprop(Sr ∗ Y) ⊢ iprop(Y ∗ (BI.emp : sProp 𝕄) ∗ Sr) := by
  iintro ⟨Hs, Hy⟩
  isplitl [Hy]; · iexact Hy
  isplitr; · iempintro
  iexact Hs

theorem exit_of {A Zr Ow : sProp 𝕄} {c : Dev nD} {W' : Valuation τ sig (Elt F)}
    (hjoin : iprop(A ∗ Zr) ⊢ (unscopedBufs c (fun b => W' b) : sProp 𝕄))
    (hOw : Ow ⊢ (iprop(∃ W, owes (c : Thread nD τ) (0 : CellTallies nD τ sig Unit) W) : sProp 𝕄)) :
    iprop(A ∗ Ow ∗ (∃ r, prngReg c r) ∗ Zr)
      ⊢ (|={Set.univ}=> iprop(StableHlo.held (c : Thread nD τ) (Pipeline.ucRefs τ sig) W' ∗ Rst c) : sProp 𝕄) := by
  rw [← Pipeline.unscopedBufs_held (Ix := Unit) (Name := ℕ) (U := UR sig nD τ) (Lvl := ℕ) c W']
  iintro ⟨Ha, HO, Hp, Hz⟩
  imodintro
  isplitl [Ha Hz]
  · iapply hjoin
    isplitl [Ha]; · iexact Ha
    iexact Hz
  isplitl [Hp]; · iexact Hp
  iapply hOw; iexact HO

theorem prefHeld_none {pre : Pipeline.Prefetch sig} (hK : pre.K = 0) (c : Dev nD) (q : Fin pre.K → PosShare TreeShare)
    (V : pre.Contents (Elt F)) : (BI.emp : sProp 𝕄) ⊢ Pipeline.prefHeld pre c q V := by
  unfold Pipeline.prefHeld
  have he : (Finset.univ : Finset (Fin pre.K)) = ∅ := Finset.univ_eq_empty_iff.mpr (by rw [hK]; infer_instance)
  rw [he, BI.bigSep_empty]

set_option backward.isDefEq.respectTransparency.types false in
def regOf (p : Fin 7) (win : Pipeline.WinFacts₀ (pcfgs (F := F) p).spec)
    (hbp : ∀ w : Fin (cfgs p).W, 0 < ((cfgs p).spec w).block.numel)
    (hsw : ∀ (w : Fin (cfgs p).W) (s : Fin ((cfgs p).spec w).nbuf), (((cfgs p).spec w).stage s).IsWhole)
    (V V' : Dev nD → Valuation τ sig (Elt F))
    (hbody : ∀ c, Pipeline.BodyObligationLoose (pdats m p c) (defs₀ (F := F)) Variants.none () Set.univ)
    (hK : (pcfgs (F := F) p).pre.K = 0) (ho : ∀ c t, (pdats m p c).owed t = 0)
    (hr : ∀ c, (pdats m p c).recorded 0 = Set.univ)
    (hin : ∀ c, iprop((∃ r, prngReg c r) ∗ Pipeline.prefHeld (pcfgs (F := F) p).pre c (fun _ => fullShare) (Gen.adm p).1
        ∗ Pipeline.scopedRest (cfgs p).spec c) ⊢ (pdats m p c).Φ 0)
    (hout : ∀ c, (pdats m p c).Φ (Fin.last (cfgs p).N)
      ⊢ iprop((∃ r, prngReg c r) ∗ (BI.emp : sProp 𝕄) ∗ Pipeline.scopedRest (cfgs p).spec c))
    (hsplit : ∀ c, (unscopedBufs c (fun b => V c b) : sProp 𝕄)
      ⊢ iprop((pdats m p c).arrays ((pdats m p c).arrAt · 0) ∗ Pipeline.unscopedRest (cfgs p).spec c (fun b => V c b)))
    (hjoin : ∀ c, iprop((pdats m p c).arrays ((pdats m p c).arrAt · (cfgs p).N)
        ∗ Pipeline.unscopedRest (cfgs p).spec c (fun b => V c b)) ⊢ (unscopedBufs c (fun b => V' c b) : sProp 𝕄)) :
    Pipeline.RegionSeg (pcfgs (F := F)) Gen.adm (pdats m) () defs₀ Variants.none (fun _ => ∅) (fun _ _ => 0) p where
  win := win
  block_pos := hbp
  stage_whole := hsw
  K := PEmpty
  osem k := k.elim
  ho := Pipeline.OwnSemFacts.none _
  hbody := hbody
  hwaits := Pipeline.hwaits_of_owed_zero _ _ _ _ (fun _ => ∅) (fun _ _ => 0) p ho
  pre c := iprop(StableHlo.held (c : Thread nD τ) (Pipeline.ucRefs τ sig) (V c) ∗ Rst c)
  post c := iprop(StableHlo.held (c : Thread nD τ) (Pipeline.ucRefs τ sig) (V' c) ∗ Rst c)
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := entry_of (hsplit c) (prefHeld_none hK c _ _) (owesAt_intro (pdats m p c) 0 (ho c 0) (hr c))
  hin := hin
  hout c := by rw [Pipeline.ownSems0_none]; exact hout c
  hexit c := exit_of (hjoin c) (owesAt_elim (pdats m p c) _ (ho c _))

theorem V2_at_0 (c : Dev nD) : Gen.V2 m (outs m) c main_v14_0 = outs m 2 main_v14_0 c :=
  (Function.update_of_ne (StableHlo.devRef_ne_of_ne (by decide)) _ _).trans (Function.update_self ..)
theorem V2_at_1 (c : Dev nD) : Gen.V2 m (outs m) c main_v14_1 = outs m 2 main_v14_1 c :=
  Function.update_self ..
theorem V5_at_0 (c : Dev nD) : Gen.V5 m (outs m) c main_v22 = outs m 5 main_v22 c :=
  Function.update_self ..
theorem V7_at_0 (c : Dev nD) : Gen.V7 m (outs m) c main_v48_0 = outs m 7 main_v48_0 c :=
  (Function.update_of_ne (StableHlo.devRef_ne_of_ne (by decide)) _ _).trans (Function.update_self ..)
theorem V7_at_1 (c : Dev nD) : Gen.V7 m (outs m) c main_v48_1 = outs m 7 main_v48_1 c :=
  Function.update_self ..
theorem V10_at_0 (c : Dev nD) : Gen.V10 m (outs m) c main_v56 = outs m 10 main_v56 c :=
  Function.update_self ..
theorem V12_at_0 (c : Dev nD) : Gen.V12 m (outs m) c main_v82_0 = outs m 12 main_v82_0 c :=
  (Function.update_of_ne (StableHlo.devRef_ne_of_ne (by decide)) _ _).trans (Function.update_self ..)
theorem V12_at_1 (c : Dev nD) : Gen.V12 m (outs m) c main_v82_1 = outs m 12 main_v82_1 c :=
  Function.update_self ..
theorem V15_at_0 (c : Dev nD) : Gen.V15 m (outs m) c main_v90 = outs m 15 main_v90 c :=
  Function.update_self ..
theorem V17_at_0 (c : Dev nD) : Gen.V17 m (outs m) c main_v116_0 = outs m 17 main_v116_0 c :=
  (Function.update_of_ne (StableHlo.devRef_ne_of_ne (by decide)) _ _).trans (Function.update_self ..)
theorem V17_at_1 (c : Dev nD) : Gen.V17 m (outs m) c main_v116_1 = outs m 17 main_v116_1 c :=
  Function.update_self ..

abbrev pd0 (c : Dev nD) : Dat τ (Elt F) Unit ℕ (UR sig nD τ) ℕ cfg0 c := dat0 (fun c b => Gen.V1 m c b) c

theorem in0 : ∀ w : Fin cfg0.W, w ≠ 2 → w ≠ 3 →
    (cfg0.win w).isOut = false ∧ Pipeline.arrRef spec0 w ∉ ([main_v14_0, main_v14_1] : List (Ref sig .tc)) := by decide

theorem hF0 (c : Dev nD) (w : Fin cfg0.W) :
    (pd0 m c).arrAt w cfg0.N = Gen.V2 m (outs m) c (Pipeline.arrRef spec0 w) := by
  by_cases h2 : w = 2
  · subst h2; exact (outs_2_0 m c).symm.trans (V2_at_0 m c).symm
  by_cases h3 : w = 3
  · subst h3; exact (outs_2_1 m c).symm.trans (V2_at_1 m c).symm
  exact ((pd0 m c).arrAt_in w (in0 w h2 h3).1 _).trans ((A_eq0 _ c w).trans (Gen.V2_of m (outs m) c _ (in0 w h2 h3).2).symm)

theorem hrest0 (c : Dev nD) (b : Ref sig .tc) (hb : b ∉ Finset.univ.image (Pipeline.arrRef spec0)) :
    Gen.V2 m (outs m) c b = Gen.V1 m c b :=
  Gen.V2_of m (outs m) c b (List.not_mem_cons_of_ne_of_not_mem (ne_arr (cfg := cfg0) hb 2) (List.not_mem_cons_of_ne_of_not_mem (ne_arr (cfg := cfg0) hb 3) List.not_mem_nil))

set_option backward.isDefEq.respectTransparency.types false in
def reg0 : Pipeline.RegionSeg (pcfgs (F := F)) Gen.adm (pdats m) () defs₀ Variants.none (fun _ => ∅) (fun _ _ => 0) 0 :=
  regOf m 0 launch0.win.to₀ launch0.block_pos launch0.stage_whole (Gen.V1 m) (Gen.V2 m (outs m))
    (fun c => (body_obligation0 (fun c b => Gen.V1 m c b) c).loose) rfl (fun _ _ => rfl) (fun _ => rfl) (fun _ => in_of) (fun _ => out_of)
    (fun c => Pipeline.arrays_of_unscopedBufs (p := 0) (pcfgs (F := F)) Gen.adm (pdats m) launch0.win launch0.arr_whole c
      ((pd0 m c).share_full fun _ => rfl) (fun b => Gen.V1 m c b) fun w => A_eq0 (fun c b => Gen.V1 m c b) c w)
    (fun c => Pipeline.unscopedBufs_of_arrays (p := 0) (pcfgs (F := F)) Gen.adm launch0.win launch0.arr_whole c (pdats m)
      ((pd0 m c).share_full fun _ => rfl) (fun b => Gen.V1 m c b) (fun b => Gen.V2 m (outs m) c b)
      ((pd0 m c).arrAt · cfg0.N) (hF0 m c) (hrest0 m c))

abbrev pd1 (c : Dev nD) : Dat τ (Elt F) Unit ℕ (UR sig nD τ) ℕ cfg1 c := dat1 (fun c b => Gen.V4 m (outs m) c b) c

theorem in1 : ∀ w : Fin cfg1.W, w ≠ 7 →
    (cfg1.win w).isOut = false ∧ Pipeline.arrRef spec1 w ∉ ([main_v22] : List (Ref sig .tc)) := by decide

theorem hF1 (c : Dev nD) (w : Fin cfg1.W) :
    (pd1 m c).arrAt w cfg1.N = Gen.V5 m (outs m) c (Pipeline.arrRef spec1 w) := by
  by_cases h7 : w = 7
  · subst h7; exact (outs_5 m c).symm.trans (V5_at_0 m c).symm
  exact ((pd1 m c).arrAt_in w (in1 w h7).1 _).trans ((A_eq1 _ c w).trans (Gen.V5_of m (outs m) c _ (in1 w h7).2).symm)

theorem hrest1 (c : Dev nD) (b : Ref sig .tc) (hb : b ∉ Finset.univ.image (Pipeline.arrRef spec1)) :
    Gen.V5 m (outs m) c b = Gen.V4 m (outs m) c b :=
  Gen.V5_of m (outs m) c b (List.not_mem_cons_of_ne_of_not_mem (ne_arr (cfg := cfg1) hb 7) List.not_mem_nil)

theorem share1_0 (V : Conts F) (c : Dev nD) : (dat1 V c).share 0 = fullShare.left :=
  (share_in _ 0 rfl).trans (q1_0 V c)
theorem share1_1 (V : Conts F) (c : Dev nD) : (dat1 V c).share 1 = fullShare.right :=
  (share_in _ 1 rfl).trans (q1_1 V c)
theorem share1_rest (V : Conts F) (c : Dev nD) :
    ∀ w : Fin cfg1.W, w ≠ 0 → w ≠ 1 → (dat1 V c).share w = fullShare := fun w h0 h1 => by
  match w with
  | ⟨0, _⟩ => exact (h0 rfl).elim
  | ⟨1, _⟩ => exact (h1 rfl).elim
  | ⟨2, _⟩ => exact share_of_q _ _ (q1_2 V c)
  | ⟨3, _⟩ => exact share_of_q _ _ (q1_3 V c)
  | ⟨4, _⟩ => exact share_of_q _ _ (q1_4 V c)
  | ⟨5, _⟩ => exact share_of_q _ _ (q1_5 V c)
  | ⟨6, _⟩ => exact share_of_q _ _ (q1_6 V c)
  | ⟨7, _⟩ => exact share_of_q _ _ (q1_7 V c)
  | ⟨_ + 8, h⟩ => exact absurd h (Nat.not_lt.2 (Nat.le_add_left _ _))

theorem arr_inj1 : ∀ w w' : Fin cfg1.W, Pipeline.arrRef spec1 w = Pipeline.arrRef spec1 w' →
    w = w' ∨ (w = 0 ∧ w' = 1) ∨ (w = 1 ∧ w' = 0) := by decide

set_option backward.isDefEq.respectTransparency.types false in
def reg1 : Pipeline.RegionSeg (pcfgs (F := F)) Gen.adm (pdats m) () defs₀ Variants.none (fun _ => ∅) (fun _ _ => 0) 1 :=
  regOf m 1 winFacts₀1 block_pos1 stage_whole1 (Gen.V4 m (outs m)) (Gen.V5 m (outs m))
    (fun c => (body_obligation1 (fun c b => Gen.V4 m (outs m) c b) c).loose) rfl (fun _ _ => rfl) (fun _ => rfl) (fun _ => in_of) (fun _ => out_of)
    (fun c => arrays_of_unscopedBufs_shared (pd1 m c) winFacts₀1.arr_unscoped arr_whole1 0 1 (by decide) rfl arr_inj1
      (share1_0 _ c) (share1_1 _ c) (share1_rest _ c) (fun b => Gen.V4 m (outs m) c b) fun w => A_eq1 (fun c b => Gen.V4 m (outs m) c b) c w)
    (fun c => unscopedBufs_of_arrays_shared (pd1 m c) winFacts₀1.arr_unscoped arr_whole1 0 1 (by decide) rfl arr_inj1
      (share1_0 _ c) (share1_1 _ c) (share1_rest _ c) (fun b => Gen.V4 m (outs m) c b) (fun b => Gen.V5 m (outs m) c b)
      ((pd1 m c).arrAt · cfg1.N) (hF1 m c) (hrest1 m c))

abbrev pd2 (c : Dev nD) : Dat τ (Elt F) Unit ℕ (UR sig nD τ) ℕ cfg2 c := dat2 (fun c b => Gen.V6 m (outs m) c b) c

theorem in2 : ∀ w : Fin cfg2.W, w ≠ 4 → w ≠ 5 →
    (cfg2.win w).isOut = false ∧ Pipeline.arrRef spec2 w ∉ ([main_v48_0, main_v48_1] : List (Ref sig .tc)) := by decide

theorem hF2 (c : Dev nD) (w : Fin cfg2.W) :
    (pd2 m c).arrAt w cfg2.N = Gen.V7 m (outs m) c (Pipeline.arrRef spec2 w) := by
  by_cases h4 : w = 4
  · subst h4; exact (outs_7_0 m c).symm.trans (V7_at_0 m c).symm
  by_cases h5 : w = 5
  · subst h5; exact (outs_7_1 m c).symm.trans (V7_at_1 m c).symm
  exact ((pd2 m c).arrAt_in w (in2 w h4 h5).1 _).trans ((A_eq2 _ c w).trans (Gen.V7_of m (outs m) c _ (in2 w h4 h5).2).symm)

theorem hrest2 (c : Dev nD) (b : Ref sig .tc) (hb : b ∉ Finset.univ.image (Pipeline.arrRef spec2)) :
    Gen.V7 m (outs m) c b = Gen.V6 m (outs m) c b :=
  Gen.V7_of m (outs m) c b (List.not_mem_cons_of_ne_of_not_mem (ne_arr (cfg := cfg2) hb 4) (List.not_mem_cons_of_ne_of_not_mem (ne_arr (cfg := cfg2) hb 5) List.not_mem_nil))

set_option backward.isDefEq.respectTransparency.types false in
def reg2 : Pipeline.RegionSeg (pcfgs (F := F)) Gen.adm (pdats m) () defs₀ Variants.none (fun _ => ∅) (fun _ _ => 0) 2 :=
  regOf m 2 launch2.win.to₀ launch2.block_pos launch2.stage_whole (Gen.V6 m (outs m)) (Gen.V7 m (outs m))
    (fun c => (body_obligation2 (fun c b => Gen.V6 m (outs m) c b) c).loose) rfl (fun _ _ => rfl) (fun _ => rfl) (fun _ => in_of) (fun _ => out_of)
    (fun c => Pipeline.arrays_of_unscopedBufs (p := 2) (pcfgs (F := F)) Gen.adm (pdats m) launch2.win launch2.arr_whole c
      ((pd2 m c).share_full fun _ => rfl) (fun b => Gen.V6 m (outs m) c b) fun w => A_eq2 (fun c b => Gen.V6 m (outs m) c b) c w)
    (fun c => Pipeline.unscopedBufs_of_arrays (p := 2) (pcfgs (F := F)) Gen.adm launch2.win launch2.arr_whole c (pdats m)
      ((pd2 m c).share_full fun _ => rfl) (fun b => Gen.V6 m (outs m) c b) (fun b => Gen.V7 m (outs m) c b)
      ((pd2 m c).arrAt · cfg2.N) (hF2 m c) (hrest2 m c))

abbrev pd3 (c : Dev nD) : Dat τ (Elt F) Unit ℕ (UR sig nD τ) ℕ cfg3 c := dat3 (fun c b => Gen.V9 m (outs m) c b) c

theorem in3 : ∀ w : Fin cfg3.W, w ≠ 7 →
    (cfg3.win w).isOut = false ∧ Pipeline.arrRef spec3 w ∉ ([main_v56] : List (Ref sig .tc)) := by decide

theorem hF3 (c : Dev nD) (w : Fin cfg3.W) :
    (pd3 m c).arrAt w cfg3.N = Gen.V10 m (outs m) c (Pipeline.arrRef spec3 w) := by
  by_cases h7 : w = 7
  · subst h7; exact (outs_10 m c).symm.trans (V10_at_0 m c).symm
  exact ((pd3 m c).arrAt_in w (in3 w h7).1 _).trans ((A_eq3 _ c w).trans (Gen.V10_of m (outs m) c _ (in3 w h7).2).symm)

theorem hrest3 (c : Dev nD) (b : Ref sig .tc) (hb : b ∉ Finset.univ.image (Pipeline.arrRef spec3)) :
    Gen.V10 m (outs m) c b = Gen.V9 m (outs m) c b :=
  Gen.V10_of m (outs m) c b (List.not_mem_cons_of_ne_of_not_mem (ne_arr (cfg := cfg3) hb 7) List.not_mem_nil)

theorem share3_0 (V : Conts F) (c : Dev nD) : (dat3 V c).share 0 = fullShare.left :=
  (share_in _ 0 rfl).trans (q3_0 V c)
theorem share3_1 (V : Conts F) (c : Dev nD) : (dat3 V c).share 1 = fullShare.right :=
  (share_in _ 1 rfl).trans (q3_1 V c)
theorem share3_rest (V : Conts F) (c : Dev nD) :
    ∀ w : Fin cfg3.W, w ≠ 0 → w ≠ 1 → (dat3 V c).share w = fullShare := fun w h0 h1 => by
  match w with
  | ⟨0, _⟩ => exact (h0 rfl).elim
  | ⟨1, _⟩ => exact (h1 rfl).elim
  | ⟨2, _⟩ => exact share_of_q _ _ (q3_2 V c)
  | ⟨3, _⟩ => exact share_of_q _ _ (q3_3 V c)
  | ⟨4, _⟩ => exact share_of_q _ _ (q3_4 V c)
  | ⟨5, _⟩ => exact share_of_q _ _ (q3_5 V c)
  | ⟨6, _⟩ => exact share_of_q _ _ (q3_6 V c)
  | ⟨7, _⟩ => exact share_of_q _ _ (q3_7 V c)
  | ⟨_ + 8, h⟩ => exact absurd h (Nat.not_lt.2 (Nat.le_add_left _ _))

theorem arr_inj3 : ∀ w w' : Fin cfg3.W, Pipeline.arrRef spec3 w = Pipeline.arrRef spec3 w' →
    w = w' ∨ (w = 0 ∧ w' = 1) ∨ (w = 1 ∧ w' = 0) := by decide

set_option backward.isDefEq.respectTransparency.types false in
def reg3 : Pipeline.RegionSeg (pcfgs (F := F)) Gen.adm (pdats m) () defs₀ Variants.none (fun _ => ∅) (fun _ _ => 0) 3 :=
  regOf m 3 winFacts₀3 block_pos3 stage_whole3 (Gen.V9 m (outs m)) (Gen.V10 m (outs m))
    (fun c => (body_obligation3 (fun c b => Gen.V9 m (outs m) c b) c).loose) rfl (fun _ _ => rfl) (fun _ => rfl) (fun _ => in_of) (fun _ => out_of)
    (fun c => arrays_of_unscopedBufs_shared (pd3 m c) winFacts₀3.arr_unscoped arr_whole3 0 1 (by decide) rfl arr_inj3
      (share3_0 _ c) (share3_1 _ c) (share3_rest _ c) (fun b => Gen.V9 m (outs m) c b) fun w => A_eq3 (fun c b => Gen.V9 m (outs m) c b) c w)
    (fun c => unscopedBufs_of_arrays_shared (pd3 m c) winFacts₀3.arr_unscoped arr_whole3 0 1 (by decide) rfl arr_inj3
      (share3_0 _ c) (share3_1 _ c) (share3_rest _ c) (fun b => Gen.V9 m (outs m) c b) (fun b => Gen.V10 m (outs m) c b)
      ((pd3 m c).arrAt · cfg3.N) (hF3 m c) (hrest3 m c))

abbrev pd4 (c : Dev nD) : Dat τ (Elt F) Unit ℕ (UR sig nD τ) ℕ cfg4 c := dat4 (fun c b => Gen.V11 m (outs m) c b) c

theorem in4 : ∀ w : Fin cfg4.W, w ≠ 4 → w ≠ 5 →
    (cfg4.win w).isOut = false ∧ Pipeline.arrRef spec4 w ∉ ([main_v82_0, main_v82_1] : List (Ref sig .tc)) := by decide

theorem hF4 (c : Dev nD) (w : Fin cfg4.W) :
    (pd4 m c).arrAt w cfg4.N = Gen.V12 m (outs m) c (Pipeline.arrRef spec4 w) := by
  by_cases h4 : w = 4
  · subst h4; exact (outs_12_0 m c).symm.trans (V12_at_0 m c).symm
  by_cases h5 : w = 5
  · subst h5; exact (outs_12_1 m c).symm.trans (V12_at_1 m c).symm
  exact ((pd4 m c).arrAt_in w (in4 w h4 h5).1 _).trans ((A_eq4 _ c w).trans (Gen.V12_of m (outs m) c _ (in4 w h4 h5).2).symm)

theorem hrest4 (c : Dev nD) (b : Ref sig .tc) (hb : b ∉ Finset.univ.image (Pipeline.arrRef spec4)) :
    Gen.V12 m (outs m) c b = Gen.V11 m (outs m) c b :=
  Gen.V12_of m (outs m) c b (List.not_mem_cons_of_ne_of_not_mem (ne_arr (cfg := cfg4) hb 4) (List.not_mem_cons_of_ne_of_not_mem (ne_arr (cfg := cfg4) hb 5) List.not_mem_nil))

set_option backward.isDefEq.respectTransparency.types false in
def reg4 : Pipeline.RegionSeg (pcfgs (F := F)) Gen.adm (pdats m) () defs₀ Variants.none (fun _ => ∅) (fun _ _ => 0) 4 :=
  regOf m 4 launch4.win.to₀ launch4.block_pos launch4.stage_whole (Gen.V11 m (outs m)) (Gen.V12 m (outs m))
    (fun c => (body_obligation4 (fun c b => Gen.V11 m (outs m) c b) c).loose) rfl (fun _ _ => rfl) (fun _ => rfl) (fun _ => in_of) (fun _ => out_of)
    (fun c => Pipeline.arrays_of_unscopedBufs (p := 4) (pcfgs (F := F)) Gen.adm (pdats m) launch4.win launch4.arr_whole c
      ((pd4 m c).share_full fun _ => rfl) (fun b => Gen.V11 m (outs m) c b) fun w => A_eq4 (fun c b => Gen.V11 m (outs m) c b) c w)
    (fun c => Pipeline.unscopedBufs_of_arrays (p := 4) (pcfgs (F := F)) Gen.adm launch4.win launch4.arr_whole c (pdats m)
      ((pd4 m c).share_full fun _ => rfl) (fun b => Gen.V11 m (outs m) c b) (fun b => Gen.V12 m (outs m) c b)
      ((pd4 m c).arrAt · cfg4.N) (hF4 m c) (hrest4 m c))

abbrev pd5 (c : Dev nD) : Dat τ (Elt F) Unit ℕ (UR sig nD τ) ℕ cfg5 c := dat5 (fun c b => Gen.V14 m (outs m) c b) c

theorem in5 : ∀ w : Fin cfg5.W, w ≠ 7 →
    (cfg5.win w).isOut = false ∧ Pipeline.arrRef spec5 w ∉ ([main_v90] : List (Ref sig .tc)) := by decide

theorem hF5 (c : Dev nD) (w : Fin cfg5.W) :
    (pd5 m c).arrAt w cfg5.N = Gen.V15 m (outs m) c (Pipeline.arrRef spec5 w) := by
  by_cases h7 : w = 7
  · subst h7; exact (outs_15 m c).symm.trans (V15_at_0 m c).symm
  exact ((pd5 m c).arrAt_in w (in5 w h7).1 _).trans ((A_eq5 _ c w).trans (Gen.V15_of m (outs m) c _ (in5 w h7).2).symm)

theorem hrest5 (c : Dev nD) (b : Ref sig .tc) (hb : b ∉ Finset.univ.image (Pipeline.arrRef spec5)) :
    Gen.V15 m (outs m) c b = Gen.V14 m (outs m) c b :=
  Gen.V15_of m (outs m) c b (List.not_mem_cons_of_ne_of_not_mem (ne_arr (cfg := cfg5) hb 7) List.not_mem_nil)

theorem share5_0 (V : Conts F) (c : Dev nD) : (dat5 V c).share 0 = fullShare.left :=
  (share_in _ 0 rfl).trans (q5_0 V c)
theorem share5_1 (V : Conts F) (c : Dev nD) : (dat5 V c).share 1 = fullShare.right :=
  (share_in _ 1 rfl).trans (q5_1 V c)
theorem share5_rest (V : Conts F) (c : Dev nD) :
    ∀ w : Fin cfg5.W, w ≠ 0 → w ≠ 1 → (dat5 V c).share w = fullShare := fun w h0 h1 => by
  match w with
  | ⟨0, _⟩ => exact (h0 rfl).elim
  | ⟨1, _⟩ => exact (h1 rfl).elim
  | ⟨2, _⟩ => exact share_of_q _ _ (q5_2 V c)
  | ⟨3, _⟩ => exact share_of_q _ _ (q5_3 V c)
  | ⟨4, _⟩ => exact share_of_q _ _ (q5_4 V c)
  | ⟨5, _⟩ => exact share_of_q _ _ (q5_5 V c)
  | ⟨6, _⟩ => exact share_of_q _ _ (q5_6 V c)
  | ⟨7, _⟩ => exact share_of_q _ _ (q5_7 V c)
  | ⟨_ + 8, h⟩ => exact absurd h (Nat.not_lt.2 (Nat.le_add_left _ _))

theorem arr_inj5 : ∀ w w' : Fin cfg5.W, Pipeline.arrRef spec5 w = Pipeline.arrRef spec5 w' →
    w = w' ∨ (w = 0 ∧ w' = 1) ∨ (w = 1 ∧ w' = 0) := by decide

set_option backward.isDefEq.respectTransparency.types false in
def reg5 : Pipeline.RegionSeg (pcfgs (F := F)) Gen.adm (pdats m) () defs₀ Variants.none (fun _ => ∅) (fun _ _ => 0) 5 :=
  regOf m 5 winFacts₀5 block_pos5 stage_whole5 (Gen.V14 m (outs m)) (Gen.V15 m (outs m))
    (fun c => (body_obligation5 (fun c b => Gen.V14 m (outs m) c b) c).loose) rfl (fun _ _ => rfl) (fun _ => rfl) (fun _ => in_of) (fun _ => out_of)
    (fun c => arrays_of_unscopedBufs_shared (pd5 m c) winFacts₀5.arr_unscoped arr_whole5 0 1 (by decide) rfl arr_inj5
      (share5_0 _ c) (share5_1 _ c) (share5_rest _ c) (fun b => Gen.V14 m (outs m) c b) fun w => A_eq5 (fun c b => Gen.V14 m (outs m) c b) c w)
    (fun c => unscopedBufs_of_arrays_shared (pd5 m c) winFacts₀5.arr_unscoped arr_whole5 0 1 (by decide) rfl arr_inj5
      (share5_0 _ c) (share5_1 _ c) (share5_rest _ c) (fun b => Gen.V14 m (outs m) c b) (fun b => Gen.V15 m (outs m) c b)
      ((pd5 m c).arrAt · cfg5.N) (hF5 m c) (hrest5 m c))

abbrev pd6 (c : Dev nD) : Dat τ (Elt F) Unit ℕ (UR sig nD τ) ℕ cfg6 c := dat6 (fun c b => Gen.V16 m (outs m) c b) c

theorem in6 : ∀ w : Fin cfg6.W, w ≠ 4 → w ≠ 5 →
    (cfg6.win w).isOut = false ∧ Pipeline.arrRef spec6 w ∉ ([main_v116_0, main_v116_1] : List (Ref sig .tc)) := by decide

theorem hF6 (c : Dev nD) (w : Fin cfg6.W) :
    (pd6 m c).arrAt w cfg6.N = Gen.V17 m (outs m) c (Pipeline.arrRef spec6 w) := by
  by_cases h4 : w = 4
  · subst h4; exact (outs_17_0 m c).symm.trans (V17_at_0 m c).symm
  by_cases h5 : w = 5
  · subst h5; exact (outs_17_1 m c).symm.trans (V17_at_1 m c).symm
  exact ((pd6 m c).arrAt_in w (in6 w h4 h5).1 _).trans ((A_eq6 _ c w).trans (Gen.V17_of m (outs m) c _ (in6 w h4 h5).2).symm)

theorem hrest6 (c : Dev nD) (b : Ref sig .tc) (hb : b ∉ Finset.univ.image (Pipeline.arrRef spec6)) :
    Gen.V17 m (outs m) c b = Gen.V16 m (outs m) c b :=
  Gen.V17_of m (outs m) c b (List.not_mem_cons_of_ne_of_not_mem (ne_arr (cfg := cfg6) hb 4) (List.not_mem_cons_of_ne_of_not_mem (ne_arr (cfg := cfg6) hb 5) List.not_mem_nil))

set_option backward.isDefEq.respectTransparency.types false in
def reg6 : Pipeline.RegionSeg (pcfgs (F := F)) Gen.adm (pdats m) () defs₀ Variants.none (fun _ => ∅) (fun _ _ => 0) 6 :=
  regOf m 6 launch6.win.to₀ launch6.block_pos launch6.stage_whole (Gen.V16 m (outs m)) (Gen.V17 m (outs m))
    (fun c => (body_obligation6 (fun c b => Gen.V16 m (outs m) c b) c).loose) rfl (fun _ _ => rfl) (fun _ => rfl) (fun _ => in_of) (fun _ => out_of)
    (fun c => Pipeline.arrays_of_unscopedBufs (p := 6) (pcfgs (F := F)) Gen.adm (pdats m) launch6.win launch6.arr_whole c
      ((pd6 m c).share_full fun _ => rfl) (fun b => Gen.V16 m (outs m) c b) fun w => A_eq6 (fun c b => Gen.V16 m (outs m) c b) c w)
    (fun c => Pipeline.unscopedBufs_of_arrays (p := 6) (pcfgs (F := F)) Gen.adm launch6.win launch6.arr_whole c (pdats m)
      ((pd6 m c).share_full fun _ => rfl) (fun b => Gen.V16 m (outs m) c b) (fun b => Gen.V17 m (outs m) c b)
      ((pd6 m c).arrAt · cfg6.N) (hF6 m c) (hrest6 m c))

theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  rw [BI.bigSep_emp_const]
  have hown : (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) := .rfl
  iintro Hu
  imodintro
  isplitl [Hu]
  · iapply hown; iexact Hu
  iempintro

theorem launch_rest (ρ : Dev nD → PrngReg) :
    iprop((bigSep Finset.univ fun c : Dev nD => iprop(unscopedSems0 c
          ∗ owes (c : Thread nD τ) ((0 : Dev nD → CellTallies nD τ sig Unit) c) ∅
          ∗ Pipeline.launchCred (0 : Dev nD → CellTallies nD τ sig Unit) c ∗ prngReg c (ρ c) ∗ (BI.emp : sProp 𝕄)))
        ∗ levAts (fun _ => ∅) (fun _ _ => 0))
      ⊢ (|={Set.univ}=> bigSep Finset.univ (fun c : Dev nD => Rst c) : sProp 𝕄) := by
  refine Pipeline.initEach (fun _ => ∅) (fun _ _ => 0) fun c => ?_
  iintro ⟨⟨-, HO, -, Hp, -⟩, -⟩
  imodintro
  isplitl [Hp]
  · iexists _; iexact Hp
  iexists ∅
  iexact HO

theorem rest_owes (c : Dev nD) :
    Rst c ⊢ (iprop(∃ W, owes (c : Thread nD τ) (0 : CellTallies nD τ sig Unit) W) : sProp 𝕄) := by
  iintro ⟨-, H⟩
  iexact H

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Gen.frame_cond m emb₁ () Variants.none (fun _ => ∅) (fun _ _ => 0) (fun _ _ => rfl) ρ (outs m) (pdats m)
    0 (fun _ => (BI.emp : sProp 𝕄)) (initOf (Pipeline.cells cfgs cellOf_inj) (Pipeline.launchToks cfgs cellOf_inj)) launch_ghost
    (fun _ c => Rst c) (launch_rest ρ) (fun c => rest_owes c)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)

end Cert.Kernel.Fr

end
-- ==== Proof.KI.RegLib.lean ====
import proofs.«408774_j4466765988336_3_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.BI
open Idealize.SL.BI.BIBase Idealize.SL.Sem
open Idealize.ShloMosaic.Pipeline (Dat Cfg)

variable {F : FTy → Type} [FloatOps F]

local notation "𝕄" => MT nD τ sig Unit (Elt F) ℕ (UR sig nD τ) ℕ

/-- The whole rectangles of the four buffer shapes: every load and store of the seven bodies goes through one of them. -/
abbrev rA : Rect S10000x128 := Rect.unit (s := S10000x128) ![0, 0] S10000x128.size inb_S10000x128_S10000x128_0_0
abbrev rB : Rect S128x128 := Rect.unit (s := S128x128) ![0, 0] S128x128.size inb_S128x128_S128x128_0_0
abbrev rC : Rect S1x128 := Rect.unit (s := S1x128) ![0, 0] S1x128.size inb_S1x128_S1x128_0_0
abbrev rD : Rect S1x1 := Rect.unit (s := S1x1) ![0, 0] S1x1.size inb_S1x1_S1x1_0_0

/-- One store through the whole rectangle covers the buffer, whatever the element type. -/
theorem cover_rA {e : EltTy} (p : Vec F S10000x128 e) (y : S10000x128.Idx) :
    ∃ pc ∈ ([⟨rA, p⟩] : List (View.Piece (Elt F) S10000x128 e)), y ∈ pc.1.set :=
  View.cover_of_tiled [⟨rA, p⟩] S10000x128.size (by rfl) y

/-- Contents `f` of a buffer are owned at what the memref reads of them: `owns_intro`, with `owns` written out. -/
theorem keep (c : Thread nD τ) {sp : Space} {sh : Shape} {e : EltTy} (m : Memref sig c.2.kind sp sh e) (q : PosShare TreeShare)
    (f : m.view.ty.Contents (Elt F)) :
    (m.view.loc c ↦[m.view.set]{q} f : sProp 𝕄)
      ⊢ iprop(∃ g, ⌜m.view.read (Elt F) g = m.view.read (Elt F) f⌝ ∗ (m.view.loc c ↦[m.view.set]{q} g)) :=
  owns_intro c m q f

/-- After one store through the whole rectangle the buffer reads that store's canonical contents. -/
theorem stored (c : Thread nD τ) {sp : Space} {e : EltTy} (m : Memref sig c.2.kind sp S10000x128 e) (q : PosShare TreeShare)
    (f : m.view.ty.Contents (Elt F)) (p : Vec F S10000x128 e) :
    (m.view.loc c ↦[m.view.set]{q} m.view.writes (Elt F) f [⟨rA, p⟩] : sProp 𝕄)
      ⊢ iprop(∃ g, ⌜m.view.read (Elt F) g = View.canon [⟨rA, p⟩]⌝ ∗ (m.view.loc c ↦[m.view.set]{q} g)) := by
  iintro H; iexists _; isplitr
  swap; · iexact H
  ipureintro; exact View.read_writes_eq_canon _ _ _ (cover_rA _)

variable {cfg : Cfg sig Λ₀} {c : Dev nD} (dat : Dat τ (Elt F) Unit ℕ (UR sig nD τ) ℕ cfg c) (t : Fin cfg.N) (w : Fin cfg.W)

/-- What the body is handed for window `w` at point `t`, -/
def inW : sProp 𝕄 := iprop(∃ d, owns (c : Thread nD τ) ((cfg.win w).stage (cfg.slots t w)) fullShare (dat.before w t d))

/-- and what it hands back. -/
def outW : sProp 𝕄 := owns (c : Thread nD τ) ((cfg.win w).stage (cfg.slots t w)) fullShare (dat.after w t)

end Cert.KernelIdeal.Fr

end
-- ==== Proof.KI.Reg0.lean ====
import proofs.«408774_j4466765988336_3_alg».proof.Proof.Gen.KernelIdeal.Skeleton
import proofs.«408774_j4466765988336_3_alg».proof.Proof.Gen.KernelIdeal.Points
import proofs.«408774_j4466765988336_3_alg».proof.Proof.KI.RegLib

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body's one store leaves in window 2's buffer, from the two input blocks, -/
def out0_2 (x0 : Vec F S10000x128 .f32) (x1 : Vec F S128x128 .bf16) : Vec F S10000x128 .f32 :=
  View.canon [⟨rA, k0_pay1 (View.ld x0 rA) (View.ld x1 rB)⟩]

/-- and in window 3's. -/
def out0_3 (x0 : Vec F S10000x128 .f32) (x1 : Vec F S128x128 .bf16) : Vec F S10000x128 .bf16 :=
  View.canon [⟨rA, k0_pay2 (View.ld x0 rA) (View.ld x1 rB)⟩]

set_option maxHeartbeats 1000000 in
/-- The body on whole buffers: the inputs stay, each output is its one whole-buffer store. -/
theorem sound_kernel0 (c : Dev nD) (E : Set ℕ) (i : grid0.Coords)
    (arg1 : Memref sig .tc .vmem S10000x128 .f32) (harg1 : arg1.IsWhole)
    (arg2 : Memref sig .tc .vmem S128x128 .bf16) (harg2 : arg2.IsWhole)
    (arg3 : Memref sig .tc .vmem S10000x128 .f32) (harg3 : arg3.IsWhole)
    (arg4 : Memref sig .tc .vmem S10000x128 .bf16) (harg4 : arg4.IsWhole)
    (x0 : Vec F S10000x128 .f32) (x1 : Vec F S128x128 .bf16) (K : PUnit → sProp 𝕄) :
    iprop(owns c arg1 fullShare x0 ∗ owns c arg2 fullShare x1
        ∗ (∃ d, owns c arg3 fullShare d) ∗ (∃ d, owns c arg4 fullShare d)
        ∗ (iprop(owns c arg1 fullShare x0 ∗ owns c arg2 fullShare x1
            ∗ owns c arg3 fullShare (out0_2 x0 x1)
            ∗ owns c arg4 fullShare (out0_3 x0 x1)) -∗ K ⟨⟩))
      ⊢ wp frame (wpE (defs₀ (F := F)) Variants.none c none) E
          (cc0__linear_kernel i arg1 harg1 arg2 harg2 arg3 harg3 arg4 harg4) K := by
  simp only [cc0__linear_kernel_eq_skeleton]; unfold cc0__linear_kernel_skel
  unfold owns
  iintro ⟨⟨%f1, %hf1, H1⟩, ⟨%f2, %hf2, H2⟩, ⟨%d3, %f3, -, H3⟩, ⟨%d4, %f4, -, H4⟩, Hk⟩
  subst hf1; subst hf2
  sl_exec
  sl_step
  iapply Hk
  isplitl [H1]; · iapply keep; iexact H1
  isplitl [H2]; · iapply keep; iexact H2
  isplitl [H3]; · iapply stored; iexact H3
  iapply stored; iexact H4

/-- The proof data: inputs keep their blocks, each output ends at the body's store. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

theorem after0_2 (c : Dev nD) (t : Fin cfg0.N) :
    (dat0 V c).after 2 t = out0_2 (iblk0 V c 0 t) (iblk0 V c 1 t) := by dsimp only [dat0]
theorem after0_3 (c : Dev nD) (t : Fin cfg0.N) :
    (dat0 V c).after 3 t = out0_3 (iblk0 V c 0 t) (iblk0 V c 1 t) := by dsimp only [dat0]

/-- The body leaves an input block in place, so at every point it finds the block it left. -/
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

/-- The body at point `t`: the inputs hold their blocks, so the body's triple applies; the invariant and the debts pass by. -/
theorem sound_body0 (c : Dev nD) (t : Fin cfg0.N) :
    iprop((dat0 V c).Φ t.castSucc ∗ (dat0 V c).owesAt () t.castSucc
      ∗ inW (dat0 V c) t 0 ∗ inW (dat0 V c) t 1 ∗ inW (dat0 V c) t 2 ∗ inW (dat0 V c) t 3)
    ⊢ wp frame (wpE (defs₀ (F := F)) Variants.none c none) Set.univ (bodyAt0 t) (fun _ =>
      iprop((dat0 V c).Φ t.castSucc ∗ (dat0 V c).owesAt () t.castSucc
        ∗ outW (dat0 V c) t 0 ∗ outW (dat0 V c) t 1 ∗ outW (dat0 V c) t 2 ∗ outW (dat0 V c) t 3)) := by
  unfold inW outW bodyAt0
  simp only [before0_0, before0_1]
  rw [after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  iframe H0 H1
  isplitl [H2]; · iexists _; iexact H2
  isplitl [H3]; · iexists _; iexact H3
  iintro ⟨H0, H1, H2, H3⟩
  iframe
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
import proofs.«408774_j4466765988336_3_alg».proof.Proof.Gen.KernelIdeal.Skeleton
import proofs.«408774_j4466765988336_3_alg».proof.Proof.Gen.KernelIdeal.Points
import proofs.«408774_j4466765988336_3_alg».proof.Proof.KI.RegLib

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body's one store leaves in window 7's buffer, from the seven input blocks. -/
def out1_7 (x0 : Vec F S10000x128 .bf16) (x1 : Vec F S10000x128 .bf16) (x2 : Vec F S128x128 .bf16) (x3 : Vec F S128x128 .bf16)
    (x4 : Vec F S1x128 .f32) (x5 : Vec F S1x128 .f32) (x6 : Vec F S1x1 .f32) : Vec F S10000x128 .f32 :=
  View.canon [⟨rA, k1_pay1 (View.ld x0 rA) (View.ld x1 rA) (View.ld x2 rB) (View.ld x3 rB) (View.ld x4 rC) (View.ld x5 rC) (View.ld x6 rD)⟩]

set_option maxHeartbeats 1000000 in
/-- The body on whole buffers: the inputs stay, the output is its one whole-buffer store. -/
theorem sound_kernel1 (c : Dev nD) (E : Set ℕ) (i : grid1.Coords)
    (arg0 : Memref sig .tc .vmem S10000x128 .bf16) (harg0 : arg0.IsWhole) (arg1 : Memref sig .tc .vmem S10000x128 .bf16) (harg1 : arg1.IsWhole)
    (arg2 : Memref sig .tc .vmem S128x128 .bf16) (harg2 : arg2.IsWhole) (arg3 : Memref sig .tc .vmem S128x128 .bf16) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S1x1 .f32) (harg6 : arg6.IsWhole) (arg7 : Memref sig .tc .vmem S10000x128 .f32) (harg7 : arg7.IsWhole)
    (x0 x1 : Vec F S10000x128 .bf16) (x2 x3 : Vec F S128x128 .bf16) (x4 x5 : Vec F S1x128 .f32) (x6 : Vec F S1x1 .f32) (K : PUnit → sProp 𝕄) :
    iprop(owns c arg0 fullShare x0 ∗ owns c arg1 fullShare x1
        ∗ owns c arg2 fullShare x2 ∗ owns c arg3 fullShare x3
        ∗ owns c arg4 fullShare x4 ∗ owns c arg5 fullShare x5
        ∗ owns c arg6 fullShare x6 ∗ (∃ d, owns c arg7 fullShare d)
        ∗ (iprop(owns c arg0 fullShare x0 ∗ owns c arg1 fullShare x1
            ∗ owns c arg2 fullShare x2 ∗ owns c arg3 fullShare x3
            ∗ owns c arg4 fullShare x4 ∗ owns c arg5 fullShare x5
            ∗ owns c arg6 fullShare x6
            ∗ owns c arg7 fullShare (out1_7 x0 x1 x2 x3 x4 x5 x6)) -∗ K ⟨⟩))
      ⊢ wp frame (wpE (defs₀ (F := F)) Variants.none c none) E
          (cc1__edge_kernel i arg0 harg0 arg1 harg1 arg2 harg2 arg3 harg3 arg4 harg4 arg5 harg5 arg6 harg6 arg7 harg7) K := by
  simp only [cc1__edge_kernel_eq_skeleton]; unfold cc1__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]; · iapply keep; iexact H0
  isplitl [H1]; · iapply keep; iexact H1
  isplitl [H2]; · iapply keep; iexact H2
  isplitl [H3]; · iapply keep; iexact H3
  isplitl [H4]; · iapply keep; iexact H4
  isplitl [H5]; · iapply keep; iexact H5
  isplitl [H6]; · iapply keep; iexact H6
  iapply stored; iexact H7

/-- The proof data: inputs keep their blocks, the output ends at the body's store; windows 0 and 1 halve the share of their one array. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q w := match w with
    | ⟨0, _⟩ => fullShare.left
    | ⟨1, _⟩ => fullShare.right
    | ⟨_ + 2, _⟩ => fullShare
  owed _ := 0

theorem A_eq1 (c : Dev nD) (w : Fin cfg1.W) : (dat1 V c).A w = V c (Pipeline.arrRef spec1 w) := rfl

theorem after1_7 (c : Dev nD) (t : Fin cfg1.N) : (dat1 V c).after 7 t =
    out1_7 (iblk1 V c 0 t) (iblk1 V c 1 t) (iblk1 V c 2 t) (iblk1 V c 3 t) (iblk1 V c 4 t) (iblk1 V c 5 t) (iblk1 V c 6 t) := by dsimp only [dat1]

theorem q1_0 (c : Dev nD) : (dat1 V c).q 0 = fullShare.left := rfl
theorem q1_1 (c : Dev nD) : (dat1 V c).q 1 = fullShare.right := rfl
theorem q1_2 (c : Dev nD) : (dat1 V c).q 2 = fullShare := rfl
theorem q1_3 (c : Dev nD) : (dat1 V c).q 3 = fullShare := rfl
theorem q1_4 (c : Dev nD) : (dat1 V c).q 4 = fullShare := rfl
theorem q1_5 (c : Dev nD) : (dat1 V c).q 5 = fullShare := rfl
theorem q1_6 (c : Dev nD) : (dat1 V c).q 6 = fullShare := rfl
theorem q1_7 (c : Dev nD) : (dat1 V c).q 7 = fullShare := rfl

/-- The body leaves an input block in place, so at every point it finds the block it left. -/
theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d
theorem before1_5 (c : Dev nD) (t : Fin cfg1.N) (d) : (dat1 V c).before 5 t d = iblk1 V c 5 t :=
  (dat1 V c).before_in_eq_fetched 5 rfl (fun _ => rfl) (fun _ _ _ => rfl) (fun _ => rfl) t d
theorem before1_6 (c : Dev nD) (t : Fin cfg1.N) (d) : (dat1 V c).before 6 t d = iblk1 V c 6 t :=
  (dat1 V c).before_in_eq_fetched 6 rfl (fun _ => rfl) (fun _ _ _ => rfl) (fun _ => rfl) t d

/-- The body at point `t`: the inputs hold their blocks, so the body's triple applies; the invariant and the debts pass by. -/
theorem sound_body1 (c : Dev nD) (t : Fin cfg1.N) :
    iprop((dat1 V c).Φ t.castSucc ∗ (dat1 V c).owesAt () t.castSucc
      ∗ inW (dat1 V c) t 0 ∗ inW (dat1 V c) t 1 ∗ inW (dat1 V c) t 2 ∗ inW (dat1 V c) t 3 ∗ inW (dat1 V c) t 4 ∗ inW (dat1 V c) t 5 ∗ inW (dat1 V c) t 6 ∗ inW (dat1 V c) t 7)
    ⊢ wp frame (wpE (defs₀ (F := F)) Variants.none c none) Set.univ (bodyAt1 t) (fun _ =>
      iprop((dat1 V c).Φ t.castSucc ∗ (dat1 V c).owesAt () t.castSucc
        ∗ outW (dat1 V c) t 0 ∗ outW (dat1 V c) t 1 ∗ outW (dat1 V c) t 2 ∗ outW (dat1 V c) t 3 ∗ outW (dat1 V c) t 4 ∗ outW (dat1 V c) t 5 ∗ outW (dat1 V c) t 6 ∗ outW (dat1 V c) t 7)) := by
  unfold inW outW bodyAt1
  simp only [before1_0, before1_1, before1_2, before1_3, before1_4, before1_5, before1_6]
  rw [after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  iframe H0 H1 H2 H3 H4 H5 H6
  isplitl [H7]; · iexists _; iexact H7
  iintro ⟨H0, H1, H2, H3, H4, H5, H6, H7⟩
  iframe
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2.lean ====
import proofs.«408774_j4466765988336_3_alg».proof.Proof.Gen.KernelIdeal.Skeleton
import proofs.«408774_j4466765988336_3_alg».proof.Proof.Gen.KernelIdeal.Points
import proofs.«408774_j4466765988336_3_alg».proof.Proof.KI.RegLib

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the body's one store leaves in window 4's buffer, from the four input blocks, -/
def out2_4 (xa xb : Vec F S10000x128 .f32) (xc : Vec F S128x128 .bf16) (xd : Vec F S1x1 .f32) : Vec F S10000x128 .f32 :=
  View.canon [⟨rA, k2_pay1 (View.ld xb rA) (View.ld xa rA) (View.ld xc rB) (View.ld xd rD)⟩]

/-- and in window 5's. -/
def out2_5 (xa xb : Vec F S10000x128 .f32) (xc : Vec F S128x128 .bf16) (xd : Vec F S1x1 .f32) : Vec F S10000x128 .bf16 :=
  View.canon [⟨rA, k2_pay2 (View.ld xb rA) (View.ld xa rA) (View.ld xc rB) (View.ld xd rD)⟩]

set_option maxHeartbeats 1000000 in
/-- The body on whole buffers: the inputs stay, each output is its one whole-buffer store. -/
theorem sound_kernel2 (c : Dev nD) (E : Set ℕ) (i : grid2.Coords)
    (ma : Memref sig .tc .vmem S10000x128 .f32) (wa : ma.IsWhole)
    (mb : Memref sig .tc .vmem S10000x128 .f32) (wb : mb.IsWhole)
    (mc : Memref sig .tc .vmem S128x128 .bf16) (wc : mc.IsWhole)
    (md : Memref sig .tc .vmem S1x1 .f32) (wd : md.IsWhole)
    (me : Memref sig .tc .vmem S10000x128 .f32) (we : me.IsWhole)
    (mf : Memref sig .tc .vmem S10000x128 .bf16) (wf : mf.IsWhole)
    (xa xb : Vec F S10000x128 .f32) (xc : Vec F S128x128 .bf16) (xd : Vec F S1x1 .f32) (K : PUnit → sProp 𝕄) :
    iprop(owns c ma fullShare xa ∗ owns c mb fullShare xb
        ∗ owns c mc fullShare xc ∗ owns c md fullShare xd
        ∗ (∃ d, owns c me fullShare d) ∗ (∃ d, owns c mf fullShare d)
        ∗ (iprop(owns c ma fullShare xa ∗ owns c mb fullShare xb
            ∗ owns c mc fullShare xc ∗ owns c md fullShare xd
            ∗ owns c me fullShare (out2_4 xa xb xc xd)
            ∗ owns c mf fullShare (out2_5 xa xb xc xd)) -∗ K ⟨⟩))
      ⊢ wp frame (wpE (defs₀ (F := F)) Variants.none c none) E
          (cc2__combine_kernel i ma wa mb wb mc wc md wd me we mf wf) K := by
  simp only [cc2__combine_kernel_eq_skeleton]; unfold cc2__combine_kernel_skel
  unfold owns
  iintro ⟨⟨%fa, %ea, Ha⟩, ⟨%fb, %eb, Hb⟩, ⟨%fc, %ec, Hc⟩, ⟨%fd, %ed, Hd⟩, ⟨%de, %fe, -, He⟩, ⟨%df, %ff, -, Hf⟩, Hk⟩
  subst ea; subst eb; subst ec; subst ed
  sl_exec
  sl_step
  iapply Hk
  isplitl [Ha]; · iapply keep; iexact Ha
  isplitl [Hb]; · iapply keep; iexact Hb
  isplitl [Hc]; · iapply keep; iexact Hc
  isplitl [Hd]; · iapply keep; iexact Hd
  isplitl [He]; · iapply stored; iexact He
  iapply stored; iexact Hf

/-- The proof data: inputs keep their blocks, each output ends at the body's store. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := rfl

theorem after2_4 (c : Dev nD) (t : Fin cfg2.N) :
    (dat2 V c).after 4 t = out2_4 (iblk2 V c 0 t) (iblk2 V c 1 t) (iblk2 V c 2 t) (iblk2 V c 3 t) := by dsimp only [dat2]
theorem after2_5 (c : Dev nD) (t : Fin cfg2.N) :
    (dat2 V c).after 5 t = out2_5 (iblk2 V c 0 t) (iblk2 V c 1 t) (iblk2 V c 2 t) (iblk2 V c 3 t) := by dsimp only [dat2]

/-- The body leaves an input block in place, so at every point it finds the block it left. -/
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

/-- The body at point `t`: the inputs hold their blocks, so the body's triple applies; the invariant and the debts pass by. -/
theorem sound_body2 (c : Dev nD) (t : Fin cfg2.N) :
    iprop((dat2 V c).Φ t.castSucc ∗ (dat2 V c).owesAt () t.castSucc
      ∗ inW (dat2 V c) t 0 ∗ inW (dat2 V c) t 1 ∗ inW (dat2 V c) t 2 ∗ inW (dat2 V c) t 3 ∗ inW (dat2 V c) t 4 ∗ inW (dat2 V c) t 5)
    ⊢ wp frame (wpE (defs₀ (F := F)) Variants.none c none) Set.univ (bodyAt2 t) (fun _ =>
      iprop((dat2 V c).Φ t.castSucc ∗ (dat2 V c).owesAt () t.castSucc
        ∗ outW (dat2 V c) t 0 ∗ outW (dat2 V c) t 1 ∗ outW (dat2 V c) t 2 ∗ outW (dat2 V c) t 3 ∗ outW (dat2 V c) t 4 ∗ outW (dat2 V c) t 5)) := by
  unfold inW outW bodyAt2
  simp only [before2_0, before2_1, before2_2, before2_3]
  rw [after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) _)
  iframe H0 H1 H2 H3
  isplitl [H4]; · iexists _; iexact H4
  isplitl [H5]; · iexists _; iexact H5
  iintro ⟨H0, H1, H2, H3, H4, H5⟩
  iframe
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Reg3.lean ====
import proofs.«408774_j4466765988336_3_alg».proof.Proof.Gen.KernelIdeal.Skeleton
import proofs.«408774_j4466765988336_3_alg».proof.Proof.Gen.KernelIdeal.Points
import proofs.«408774_j4466765988336_3_alg».proof.Proof.KI.RegLib

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the body's one store leaves in window 7's buffer, from the seven input blocks. -/
def out3_7 (x0 : Vec F S10000x128 .bf16) (x1 : Vec F S10000x128 .bf16) (x2 : Vec F S128x128 .bf16) (x3 : Vec F S128x128 .bf16)
    (x4 : Vec F S1x128 .f32) (x5 : Vec F S1x128 .f32) (x6 : Vec F S1x1 .f32) : Vec F S10000x128 .f32 :=
  View.canon [⟨rA, k3_pay1 (View.ld x0 rA) (View.ld x1 rA) (View.ld x2 rB) (View.ld x3 rB) (View.ld x4 rC) (View.ld x5 rC) (View.ld x6 rD)⟩]

set_option maxHeartbeats 1000000 in
/-- The body on whole buffers: the inputs stay, the output is its one whole-buffer store. -/
theorem sound_kernel3 (c : Dev nD) (E : Set ℕ) (i : grid3.Coords)
    (arg0 : Memref sig .tc .vmem S10000x128 .bf16) (harg0 : arg0.IsWhole) (arg1 : Memref sig .tc .vmem S10000x128 .bf16) (harg1 : arg1.IsWhole)
    (arg2 : Memref sig .tc .vmem S128x128 .bf16) (harg2 : arg2.IsWhole) (arg3 : Memref sig .tc .vmem S128x128 .bf16) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S1x1 .f32) (harg6 : arg6.IsWhole) (arg7 : Memref sig .tc .vmem S10000x128 .f32) (harg7 : arg7.IsWhole)
    (x0 x1 : Vec F S10000x128 .bf16) (x2 x3 : Vec F S128x128 .bf16) (x4 x5 : Vec F S1x128 .f32) (x6 : Vec F S1x1 .f32) (K : PUnit → sProp 𝕄) :
    iprop(owns c arg0 fullShare x0 ∗ owns c arg1 fullShare x1
        ∗ owns c arg2 fullShare x2 ∗ owns c arg3 fullShare x3
        ∗ owns c arg4 fullShare x4 ∗ owns c arg5 fullShare x5
        ∗ owns c arg6 fullShare x6 ∗ (∃ d, owns c arg7 fullShare d)
        ∗ (iprop(owns c arg0 fullShare x0 ∗ owns c arg1 fullShare x1
            ∗ owns c arg2 fullShare x2 ∗ owns c arg3 fullShare x3
            ∗ owns c arg4 fullShare x4 ∗ owns c arg5 fullShare x5
            ∗ owns c arg6 fullShare x6
            ∗ owns c arg7 fullShare (out3_7 x0 x1 x2 x3 x4 x5 x6)) -∗ K ⟨⟩))
      ⊢ wp frame (wpE (defs₀ (F := F)) Variants.none c none) E
          (cc3__edge_kernel i arg0 harg0 arg1 harg1 arg2 harg2 arg3 harg3 arg4 harg4 arg5 harg5 arg6 harg6 arg7 harg7) K := by
  simp only [cc3__edge_kernel_eq_skeleton]; unfold cc3__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]; · iapply keep; iexact H0
  isplitl [H1]; · iapply keep; iexact H1
  isplitl [H2]; · iapply keep; iexact H2
  isplitl [H3]; · iapply keep; iexact H3
  isplitl [H4]; · iapply keep; iexact H4
  isplitl [H5]; · iapply keep; iexact H5
  isplitl [H6]; · iapply keep; iexact H6
  iapply stored; iexact H7

/-- The proof data: inputs keep their blocks, the output ends at the body's store; windows 0 and 1 halve the share of their one array. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q w := match w with
    | ⟨0, _⟩ => fullShare.left
    | ⟨1, _⟩ => fullShare.right
    | ⟨_ + 2, _⟩ => fullShare
  owed _ := 0

theorem A_eq3 (c : Dev nD) (w : Fin cfg3.W) : (dat3 V c).A w = V c (Pipeline.arrRef spec3 w) := rfl

theorem after3_7 (c : Dev nD) (t : Fin cfg3.N) : (dat3 V c).after 7 t =
    out3_7 (iblk3 V c 0 t) (iblk3 V c 1 t) (iblk3 V c 2 t) (iblk3 V c 3 t) (iblk3 V c 4 t) (iblk3 V c 5 t) (iblk3 V c 6 t) := by dsimp only [dat3]

theorem q3_0 (c : Dev nD) : (dat3 V c).q 0 = fullShare.left := rfl
theorem q3_1 (c : Dev nD) : (dat3 V c).q 1 = fullShare.right := rfl
theorem q3_2 (c : Dev nD) : (dat3 V c).q 2 = fullShare := rfl
theorem q3_3 (c : Dev nD) : (dat3 V c).q 3 = fullShare := rfl
theorem q3_4 (c : Dev nD) : (dat3 V c).q 4 = fullShare := rfl
theorem q3_5 (c : Dev nD) : (dat3 V c).q 5 = fullShare := rfl
theorem q3_6 (c : Dev nD) : (dat3 V c).q 6 = fullShare := rfl
theorem q3_7 (c : Dev nD) : (dat3 V c).q 7 = fullShare := rfl

/-- The body leaves an input block in place, so at every point it finds the block it left. -/
theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (c : Dev nD) (t : Fin cfg3.N) (d) : (dat3 V c).before 4 t d = iblk3 V c 4 t :=
  (dat3 V c).before_in_eq_fetched 4 rfl (fun _ => rfl) (fun _ _ _ => rfl) (fun _ => rfl) t d
theorem before3_5 (c : Dev nD) (t : Fin cfg3.N) (d) : (dat3 V c).before 5 t d = iblk3 V c 5 t :=
  (dat3 V c).before_in_eq_fetched 5 rfl (fun _ => rfl) (fun _ _ _ => rfl) (fun _ => rfl) t d
theorem before3_6 (c : Dev nD) (t : Fin cfg3.N) (d) : (dat3 V c).before 6 t d = iblk3 V c 6 t :=
  (dat3 V c).before_in_eq_fetched 6 rfl (fun _ => rfl) (fun _ _ _ => rfl) (fun _ => rfl) t d

/-- The body at point `t`: the inputs hold their blocks, so the body's triple applies; the invariant and the debts pass by. -/
theorem sound_body3 (c : Dev nD) (t : Fin cfg3.N) :
    iprop((dat3 V c).Φ t.castSucc ∗ (dat3 V c).owesAt () t.castSucc
      ∗ inW (dat3 V c) t 0 ∗ inW (dat3 V c) t 1 ∗ inW (dat3 V c) t 2 ∗ inW (dat3 V c) t 3 ∗ inW (dat3 V c) t 4 ∗ inW (dat3 V c) t 5 ∗ inW (dat3 V c) t 6 ∗ inW (dat3 V c) t 7)
    ⊢ wp frame (wpE (defs₀ (F := F)) Variants.none c none) Set.univ (bodyAt3 t) (fun _ =>
      iprop((dat3 V c).Φ t.castSucc ∗ (dat3 V c).owesAt () t.castSucc
        ∗ outW (dat3 V c) t 0 ∗ outW (dat3 V c) t 1 ∗ outW (dat3 V c) t 2 ∗ outW (dat3 V c) t 3 ∗ outW (dat3 V c) t 4 ∗ outW (dat3 V c) t 5 ∗ outW (dat3 V c) t 6 ∗ outW (dat3 V c) t 7)) := by
  unfold inW outW bodyAt3
  simp only [before3_0, before3_1, before3_2, before3_3, before3_4, before3_5, before3_6]
  rw [after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t) _)
  iframe H0 H1 H2 H3 H4 H5 H6
  isplitl [H7]; · iexists _; iexact H7
  iintro ⟨H0, H1, H2, H3, H4, H5, H6, H7⟩
  iframe
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Reg4.lean ====
import proofs.«408774_j4466765988336_3_alg».proof.Proof.Gen.KernelIdeal.Skeleton
import proofs.«408774_j4466765988336_3_alg».proof.Proof.Gen.KernelIdeal.Points
import proofs.«408774_j4466765988336_3_alg».proof.Proof.KI.RegLib

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the body's one store leaves in window 4's buffer, from the four input blocks, -/
def out4_4 (xa xb : Vec F S10000x128 .f32) (xc : Vec F S128x128 .bf16) (xd : Vec F S1x1 .f32) : Vec F S10000x128 .f32 :=
  View.canon [⟨rA, k4_pay1 (View.ld xb rA) (View.ld xa rA) (View.ld xc rB) (View.ld xd rD)⟩]

/-- and in window 5's. -/
def out4_5 (xa xb : Vec F S10000x128 .f32) (xc : Vec F S128x128 .bf16) (xd : Vec F S1x1 .f32) : Vec F S10000x128 .bf16 :=
  View.canon [⟨rA, k4_pay2 (View.ld xb rA) (View.ld xa rA) (View.ld xc rB) (View.ld xd rD)⟩]

set_option maxHeartbeats 1000000 in
/-- The body on whole buffers: the inputs stay, each output is its one whole-buffer store. -/
theorem sound_kernel4 (c : Dev nD) (E : Set ℕ) (i : grid4.Coords)
    (ma : Memref sig .tc .vmem S10000x128 .f32) (wa : ma.IsWhole)
    (mb : Memref sig .tc .vmem S10000x128 .f32) (wb : mb.IsWhole)
    (mc : Memref sig .tc .vmem S128x128 .bf16) (wc : mc.IsWhole)
    (md : Memref sig .tc .vmem S1x1 .f32) (wd : md.IsWhole)
    (me : Memref sig .tc .vmem S10000x128 .f32) (we : me.IsWhole)
    (mf : Memref sig .tc .vmem S10000x128 .bf16) (wf : mf.IsWhole)
    (xa xb : Vec F S10000x128 .f32) (xc : Vec F S128x128 .bf16) (xd : Vec F S1x1 .f32) (K : PUnit → sProp 𝕄) :
    iprop(owns c ma fullShare xa ∗ owns c mb fullShare xb
        ∗ owns c mc fullShare xc ∗ owns c md fullShare xd
        ∗ (∃ d, owns c me fullShare d) ∗ (∃ d, owns c mf fullShare d)
        ∗ (iprop(owns c ma fullShare xa ∗ owns c mb fullShare xb
            ∗ owns c mc fullShare xc ∗ owns c md fullShare xd
            ∗ owns c me fullShare (out4_4 xa xb xc xd)
            ∗ owns c mf fullShare (out4_5 xa xb xc xd)) -∗ K ⟨⟩))
      ⊢ wp frame (wpE (defs₀ (F := F)) Variants.none c none) E
          (cc4__combine_kernel i ma wa mb wb mc wc md wd me we mf wf) K := by
  simp only [cc4__combine_kernel_eq_skeleton]; unfold cc4__combine_kernel_skel
  unfold owns
  iintro ⟨⟨%fa, %ea, Ha⟩, ⟨%fb, %eb, Hb⟩, ⟨%fc, %ec, Hc⟩, ⟨%fd, %ed, Hd⟩, ⟨%de, %fe, -, He⟩, ⟨%df, %ff, -, Hf⟩, Hk⟩
  subst ea; subst eb; subst ec; subst ed
  sl_exec
  sl_step
  iapply Hk
  isplitl [Ha]; · iapply keep; iexact Ha
  isplitl [Hb]; · iapply keep; iexact Hb
  isplitl [Hc]; · iapply keep; iexact Hc
  isplitl [Hd]; · iapply keep; iexact Hd
  isplitl [He]; · iapply stored; iexact He
  iapply stored; iexact Hf

/-- The proof data: inputs keep their blocks, each output ends at the body's store. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
    | ⟨5, _⟩ => out4_5 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := rfl

theorem after4_4 (c : Dev nD) (t : Fin cfg4.N) :
    (dat4 V c).after 4 t = out4_4 (iblk4 V c 0 t) (iblk4 V c 1 t) (iblk4 V c 2 t) (iblk4 V c 3 t) := by dsimp only [dat4]
theorem after4_5 (c : Dev nD) (t : Fin cfg4.N) :
    (dat4 V c).after 5 t = out4_5 (iblk4 V c 0 t) (iblk4 V c 1 t) (iblk4 V c 2 t) (iblk4 V c 3 t) := by dsimp only [dat4]

/-- The body leaves an input block in place, so at every point it finds the block it left. -/
theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d

/-- The body at point `t`: the inputs hold their blocks, so the body's triple applies; the invariant and the debts pass by. -/
theorem sound_body4 (c : Dev nD) (t : Fin cfg4.N) :
    iprop((dat4 V c).Φ t.castSucc ∗ (dat4 V c).owesAt () t.castSucc
      ∗ inW (dat4 V c) t 0 ∗ inW (dat4 V c) t 1 ∗ inW (dat4 V c) t 2 ∗ inW (dat4 V c) t 3 ∗ inW (dat4 V c) t 4 ∗ inW (dat4 V c) t 5)
    ⊢ wp frame (wpE (defs₀ (F := F)) Variants.none c none) Set.univ (bodyAt4 t) (fun _ =>
      iprop((dat4 V c).Φ t.castSucc ∗ (dat4 V c).owesAt () t.castSucc
        ∗ outW (dat4 V c) t 0 ∗ outW (dat4 V c) t 1 ∗ outW (dat4 V c) t 2 ∗ outW (dat4 V c) t 3 ∗ outW (dat4 V c) t 4 ∗ outW (dat4 V c) t 5)) := by
  unfold inW outW bodyAt4
  simp only [before4_0, before4_1, before4_2, before4_3]
  rw [after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _
    (iblk4 V c 0 t) (iblk4 V c 1 t) (iblk4 V c 2 t) (iblk4 V c 3 t) _)
  iframe H0 H1 H2 H3
  isplitl [H4]; · iexists _; iexact H4
  isplitl [H5]; · iexists _; iexact H5
  iintro ⟨H0, H1, H2, H3, H4, H5⟩
  iframe
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KI.Reg5.lean ====
import proofs.«408774_j4466765988336_3_alg».proof.Proof.Gen.KernelIdeal.Skeleton
import proofs.«408774_j4466765988336_3_alg».proof.Proof.Gen.KernelIdeal.Points
import proofs.«408774_j4466765988336_3_alg».proof.Proof.KI.RegLib

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off the window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What the body's one store leaves in window 7's buffer, from the seven input blocks. -/
def out5_7 (x0 : Vec F S10000x128 .bf16) (x1 : Vec F S10000x128 .bf16) (x2 : Vec F S128x128 .bf16) (x3 : Vec F S128x128 .bf16)
    (x4 : Vec F S1x128 .f32) (x5 : Vec F S1x128 .f32) (x6 : Vec F S1x1 .f32) : Vec F S10000x128 .f32 :=
  View.canon [⟨rA, k5_pay1 (View.ld x0 rA) (View.ld x1 rA) (View.ld x2 rB) (View.ld x3 rB) (View.ld x4 rC) (View.ld x5 rC) (View.ld x6 rD)⟩]

set_option maxHeartbeats 1000000 in
/-- The body on whole buffers: the inputs stay, the output is its one whole-buffer store. -/
theorem sound_kernel5 (c : Dev nD) (E : Set ℕ) (i : grid5.Coords)
    (arg0 : Memref sig .tc .vmem S10000x128 .bf16) (harg0 : arg0.IsWhole) (arg1 : Memref sig .tc .vmem S10000x128 .bf16) (harg1 : arg1.IsWhole)
    (arg2 : Memref sig .tc .vmem S128x128 .bf16) (harg2 : arg2.IsWhole) (arg3 : Memref sig .tc .vmem S128x128 .bf16) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S1x1 .f32) (harg6 : arg6.IsWhole) (arg7 : Memref sig .tc .vmem S10000x128 .f32) (harg7 : arg7.IsWhole)
    (x0 x1 : Vec F S10000x128 .bf16) (x2 x3 : Vec F S128x128 .bf16) (x4 x5 : Vec F S1x128 .f32) (x6 : Vec F S1x1 .f32) (K : PUnit → sProp 𝕄) :
    iprop(owns c arg0 fullShare x0 ∗ owns c arg1 fullShare x1
        ∗ owns c arg2 fullShare x2 ∗ owns c arg3 fullShare x3
        ∗ owns c arg4 fullShare x4 ∗ owns c arg5 fullShare x5
        ∗ owns c arg6 fullShare x6 ∗ (∃ d, owns c arg7 fullShare d)
        ∗ (iprop(owns c arg0 fullShare x0 ∗ owns c arg1 fullShare x1
            ∗ owns c arg2 fullShare x2 ∗ owns c arg3 fullShare x3
            ∗ owns c arg4 fullShare x4 ∗ owns c arg5 fullShare x5
            ∗ owns c arg6 fullShare x6
            ∗ owns c arg7 fullShare (out5_7 x0 x1 x2 x3 x4 x5 x6)) -∗ K ⟨⟩))
      ⊢ wp frame (wpE (defs₀ (F := F)) Variants.none c none) E
          (cc5__edge_kernel i arg0 harg0 arg1 harg1 arg2 harg2 arg3 harg3 arg4 harg4 arg5 harg5 arg6 harg6 arg7 harg7) K := by
  simp only [cc5__edge_kernel_eq_skeleton]; unfold cc5__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]; · iapply keep; iexact H0
  isplitl [H1]; · iapply keep; iexact H1
  isplitl [H2]; · iapply keep; iexact H2
  isplitl [H3]; · iapply keep; iexact H3
  isplitl [H4]; · iapply keep; iexact H4
  isplitl [H5]; · iapply keep; iexact H5
  isplitl [H6]; · iapply keep; iexact H6
  iapply stored; iexact H7

/-- The proof data: inputs keep their blocks, the output ends at the body's store; windows 0 and 1 halve the share of their one array. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q w := match w with
    | ⟨0, _⟩ => fullShare.left
    | ⟨1, _⟩ => fullShare.right
    | ⟨_ + 2, _⟩ => fullShare
  owed _ := 0

theorem A_eq5 (c : Dev nD) (w : Fin cfg5.W) : (dat5 V c).A w = V c (Pipeline.arrRef spec5 w) := rfl

theorem after5_7 (c : Dev nD) (t : Fin cfg5.N) : (dat5 V c).after 7 t =
    out5_7 (iblk5 V c 0 t) (iblk5 V c 1 t) (iblk5 V c 2 t) (iblk5 V c 3 t) (iblk5 V c 4 t) (iblk5 V c 5 t) (iblk5 V c 6 t) := by dsimp only [dat5]

theorem q5_0 (c : Dev nD) : (dat5 V c).q 0 = fullShare.left := rfl
theorem q5_1 (c : Dev nD) : (dat5 V c).q 1 = fullShare.right := rfl
theorem q5_2 (c : Dev nD) : (dat5 V c).q 2 = fullShare := rfl
theorem q5_3 (c : Dev nD) : (dat5 V c).q 3 = fullShare := rfl
theorem q5_4 (c : Dev nD) : (dat5 V c).q 4 = fullShare := rfl
theorem q5_5 (c : Dev nD) : (dat5 V c).q 5 = fullShare := rfl
theorem q5_6 (c : Dev nD) : (dat5 V c).q 6 = fullShare := rfl
theorem q5_7 (c : Dev nD) : (dat5 V c).q 7 = fullShare := rfl

/-- The body leaves an input block in place, so at every point it finds the block it left. -/
theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d
theorem before5_4 (c : Dev nD) (t : Fin cfg5.N) (d) : (dat5 V c).before 4 t d = iblk5 V c 4 t :=
  (dat5 V c).before_in_eq_fetched 4 rfl (fun _ => rfl) (fun _ _ _ => rfl) (fun _ => rfl) t d
theorem before5_5 (c : Dev nD) (t : Fin cfg5.N) (d) : (dat5 V c).before 5 t d = iblk5 V c 5 t :=
  (dat5 V c).before_in_eq_fetched 5 rfl (fun _ => rfl) (fun _ _ _ => rfl) (fun _ => rfl) t d
theorem before5_6 (c : Dev nD) (t : Fin cfg5.N) (d) : (dat5 V c).before 6 t d = iblk5 V c 6 t :=
  (dat5 V c).before_in_eq_fetched 6 rfl (fun _ => rfl) (fun _ _ _ => rfl) (fun _ => rfl) t d

/-- The body at point `t`: the inputs hold their blocks, so the body's triple applies; the invariant and the debts pass by. -/
theorem sound_body5 (c : Dev nD) (t : Fin cfg5.N) :
    iprop((dat5 V c).Φ t.castSucc ∗ (dat5 V c).owesAt () t.castSucc
      ∗ inW (dat5 V c) t 0 ∗ inW (dat5 V c) t 1 ∗ inW (dat5 V c) t 2 ∗ inW (dat5 V c) t 3 ∗ inW (dat5 V c) t 4 ∗ inW (dat5 V c) t 5 ∗ inW (dat5 V c) t 6 ∗ inW (dat5 V c) t 7)
    ⊢ wp frame (wpE (defs₀ (F := F)) Variants.none c none) Set.univ (bodyAt5 t) (fun _ =>
      iprop((dat5 V c).Φ t.castSucc ∗ (dat5 V c).owesAt () t.castSucc
        ∗ outW (dat5 V c) t 0 ∗ outW (dat5 V c) t 1 ∗ outW (dat5 V c) t 2 ∗ outW (dat5 V c) t 3 ∗ outW (dat5 V c) t 4 ∗ outW (dat5 V c) t 5 ∗ outW (dat5 V c) t 6 ∗ outW (dat5 V c) t 7)) := by
  unfold inW outW bodyAt5
  simp only [before5_0, before5_1, before5_2, before5_3, before5_4, before5_5, before5_6]
  rw [after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _
    (iblk5 V c 0 t) (iblk5 V c 1 t) (iblk5 V c 2 t) (iblk5 V c 3 t) (iblk5 V c 4 t) (iblk5 V c 5 t) (iblk5 V c 6 t) _)
  iframe H0 H1 H2 H3 H4 H5 H6
  isplitl [H7]; · iexists _; iexact H7
  iintro ⟨H0, H1, H2, H3, H4, H5, H6, H7⟩
  iframe
  isplitl [H0]; · iexact H0
  isplitl [H1]; · iexact H1
  isplitl [H2]; · iexact H2
  isplitl [H3]; · iexact H3
  isplitl [H4]; · iexact H4
  isplitl [H5]; · iexact H5
  iexact H6

theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KI.Reg6.lean ====
import proofs.«408774_j4466765988336_3_alg».proof.Proof.Gen.KernelIdeal.Skeleton
import proofs.«408774_j4466765988336_3_alg».proof.Proof.Gen.KernelIdeal.Points
import proofs.«408774_j4466765988336_3_alg».proof.Proof.KI.RegLib

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- What the body's one store leaves in window 4's buffer, from the four input blocks, -/
def out6_4 (xa xb : Vec F S10000x128 .f32) (xc : Vec F S128x128 .bf16) (xd : Vec F S1x1 .f32) : Vec F S10000x128 .f32 :=
  View.canon [⟨rA, k6_pay1 (View.ld xb rA) (View.ld xa rA) (View.ld xc rB) (View.ld xd rD)⟩]

/-- and in window 5's. -/
def out6_5 (xa xb : Vec F S10000x128 .f32) (xc : Vec F S128x128 .bf16) (xd : Vec F S1x1 .f32) : Vec F S10000x128 .bf16 :=
  View.canon [⟨rA, k6_pay2 (View.ld xb rA) (View.ld xa rA) (View.ld xc rB) (View.ld xd rD)⟩]

set_option maxHeartbeats 1000000 in
/-- The body on whole buffers: the inputs stay, each output is its one whole-buffer store. -/
theorem sound_kernel6 (c : Dev nD) (E : Set ℕ) (i : grid6.Coords)
    (ma : Memref sig .tc .vmem S10000x128 .f32) (wa : ma.IsWhole)
    (mb : Memref sig .tc .vmem S10000x128 .f32) (wb : mb.IsWhole)
    (mc : Memref sig .tc .vmem S128x128 .bf16) (wc : mc.IsWhole)
    (md : Memref sig .tc .vmem S1x1 .f32) (wd : md.IsWhole)
    (me : Memref sig .tc .vmem S10000x128 .f32) (we : me.IsWhole)
    (mf : Memref sig .tc .vmem S10000x128 .bf16) (wf : mf.IsWhole)
    (xa xb : Vec F S10000x128 .f32) (xc : Vec F S128x128 .bf16) (xd : Vec F S1x1 .f32) (K : PUnit → sProp 𝕄) :
    iprop(owns c ma fullShare xa ∗ owns c mb fullShare xb
        ∗ owns c mc fullShare xc ∗ owns c md fullShare xd
        ∗ (∃ d, owns c me fullShare d) ∗ (∃ d, owns c mf fullShare d)
        ∗ (iprop(owns c ma fullShare xa ∗ owns c mb fullShare xb
            ∗ owns c mc fullShare xc ∗ owns c md fullShare xd
            ∗ owns c me fullShare (out6_4 xa xb xc xd)
            ∗ owns c mf fullShare (out6_5 xa xb xc xd)) -∗ K ⟨⟩))
      ⊢ wp frame (wpE (defs₀ (F := F)) Variants.none c none) E
          (cc6__combine_kernel i ma wa mb wb mc wc md wd me we mf wf) K := by
  simp only [cc6__combine_kernel_eq_skeleton]; unfold cc6__combine_kernel_skel
  unfold owns
  iintro ⟨⟨%fa, %ea, Ha⟩, ⟨%fb, %eb, Hb⟩, ⟨%fc, %ec, Hc⟩, ⟨%fd, %ed, Hd⟩, ⟨%de, %fe, -, He⟩, ⟨%df, %ff, -, Hf⟩, Hk⟩
  subst ea; subst eb; subst ec; subst ed
  sl_exec
  sl_step
  iapply Hk
  isplitl [Ha]; · iapply keep; iexact Ha
  isplitl [Hb]; · iapply keep; iexact Hb
  isplitl [Hc]; · iapply keep; iexact Hc
  isplitl [Hd]; · iapply keep; iexact Hd
  isplitl [He]; · iapply stored; iexact He
  iapply stored; iexact Hf

/-- The proof data: inputs keep their blocks, each output ends at the body's store. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
    | ⟨5, _⟩ => out6_5 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := rfl

theorem after6_4 (c : Dev nD) (t : Fin cfg6.N) :
    (dat6 V c).after 4 t = out6_4 (iblk6 V c 0 t) (iblk6 V c 1 t) (iblk6 V c 2 t) (iblk6 V c 3 t) := by dsimp only [dat6]
theorem after6_5 (c : Dev nD) (t : Fin cfg6.N) :
    (dat6 V c).after 5 t = out6_5 (iblk6 V c 0 t) (iblk6 V c 1 t) (iblk6 V c 2 t) (iblk6 V c 3 t) := by dsimp only [dat6]

/-- The body leaves an input block in place, so at every point it finds the block it left. -/
theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d
theorem before6_3 (c : Dev nD) (t : Fin cfg6.N) (d) : (dat6 V c).before 3 t d = iblk6 V c 3 t :=
  (dat6 V c).before_in_eq_fetched 3 rfl (fun _ => rfl) (fun _ _ _ => rfl) (fun _ => rfl) t d

/-- The body at point `t`: the inputs hold their blocks, so the body's triple applies; the invariant and the debts pass by. -/
theorem sound_body6 (c : Dev nD) (t : Fin cfg6.N) :
    iprop((dat6 V c).Φ t.castSucc ∗ (dat6 V c).owesAt () t.castSucc
      ∗ inW (dat6 V c) t 0 ∗ inW (dat6 V c) t 1 ∗ inW (dat6 V c) t 2 ∗ inW (dat6 V c) t 3 ∗ inW (dat6 V c) t 4 ∗ inW (dat6 V c) t 5)
    ⊢ wp frame (wpE (defs₀ (F := F)) Variants.none c none) Set.univ (bodyAt6 t) (fun _ =>
      iprop((dat6 V c).Φ t.castSucc ∗ (dat6 V c).owesAt () t.castSucc
        ∗ outW (dat6 V c) t 0 ∗ outW (dat6 V c) t 1 ∗ outW (dat6 V c) t 2 ∗ outW (dat6 V c) t 3 ∗ outW (dat6 V c) t 4 ∗ outW (dat6 V c) t 5)) := by
  unfold inW outW bodyAt6
  simp only [before6_0, before6_1, before6_2, before6_3]
  rw [after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _
    (iblk6 V c 0 t) (iblk6 V c 1 t) (iblk6 V c 2 t) (iblk6 V c 3 t) _)
  iframe H0 H1 H2 H3
  isplitl [H4]; · iexists _; iexact H4
  isplitl [H5]; · iexists _; iexact H5
  iintro ⟨H0, H1, H2, H3, H4, H5⟩
  iframe
  isplitl [H0]; · iexact H0
  isplitl [H1]; · iexact H1
  isplitl [H2]; · iexact H2
  iexact H3

theorem body_obligation6 (c : Dev nD) : BodyObligation (dat6 (F := F) V c) (defs₀ (F := F)) Variants.none () Set.univ := fun t => by
  rw [bigSep_W6, bigSep_W6]
  exact sound_body6 V c t

end Cert.KernelIdeal.Fr

end
-- ==== Proof.KI.Shared.lean ====
import proofs.«408774_j4466765988336_3_alg».proof.Proof.Gen.KernelIdeal.Launch
import Idealize.ShloMosaic.Lib.Pipeline.FrameBody
import Idealize.ShloMosaic.Lib.Pipeline.RegionsLoop
import Idealize.ShloMosaic.Lib.Pipeline.FrameSuffix

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

local notation "𝕄" => MT nD τ sig Unit (Elt F) ℕ (UR sig nD τ) ℕ

variable {cfg : Cfg sig Λ₀} {c : Dev nD} (dat : Dat τ (Elt F) Unit ℕ (UR sig nD τ) ℕ cfg c)
    (hun : ∀ w, (Pipeline.arrRef cfg.spec w).isScoped = false) (harr : ∀ w, (cfg.spec w).arr.IsWhole)
    (i j : Fin cfg.W) (hij : i ≠ j) (hsame : Pipeline.arrRef cfg.spec i = Pipeline.arrRef cfg.spec j)
    (hinj : ∀ w w', Pipeline.arrRef cfg.spec w = Pipeline.arrRef cfg.spec w' → w = w' ∨ (w = i ∧ w' = j) ∨ (w = j ∧ w' = i))
    (hi : dat.share i = fullShare.left) (hj : dat.share j = fullShare.right)
    (hq : ∀ w, w ≠ i → w ≠ j → dat.share w = fullShare)

include harr hij hsame hinj hi hj hq in
private theorem arrBufs_eq_arrays_shared
    (V : (b : Ref sig .tc) → Buf (Elt F) ((c.tc : Thread nD τ).loc b)) :
    (Pipeline.arrBufs cfg.spec c V : sProp 𝕄) = dat.arrays (fun w => V (Pipeline.arrRef cfg.spec w)) := by
  classical
  have himg : Finset.univ.image (Pipeline.arrRef cfg.spec) = (Finset.univ.erase j).image (Pipeline.arrRef cfg.spec) := by
    ext b
    simp only [Finset.mem_image, Finset.mem_univ, true_and, Finset.mem_erase, ne_eq, and_true]
    constructor
    · rintro ⟨w, rfl⟩
      by_cases hw : w = j
      · exact ⟨i, hij, by rw [hw, hsame]⟩
      · exact ⟨w, hw, rfl⟩
    · rintro ⟨w, -, rfl⟩; exact ⟨w, rfl⟩
  have hinjOn : Set.InjOn (Pipeline.arrRef cfg.spec) ((Finset.univ.erase j : Finset (Fin cfg.W)) : Set (Fin cfg.W)) := by
    intro w hw w' hw' e
    have hwj : w ≠ j := (Finset.mem_erase.mp (Finset.mem_coe.mp hw)).1
    have hwj' : w' ≠ j := (Finset.mem_erase.mp (Finset.mem_coe.mp hw')).1
    rcases hinj w w' e with h | ⟨-, h⟩ | ⟨h, -⟩
    · exact h
    · exact absurd h hwj'
    · exact absurd h hwj
  have hmem : i ∈ (Finset.univ.erase j : Finset (Fin cfg.W)) := Finset.mem_erase.mpr ⟨hij, Finset.mem_univ i⟩
  have hhalf : (((c.tc : Thread nD τ).loc (Pipeline.arrRef cfg.spec i)) ↦{fullShare} V (Pipeline.arrRef cfg.spec i) : sProp 𝕄)
      = iprop((((c.tc : Thread nD τ).loc (Pipeline.arrRef cfg.spec i)) ↦{fullShare.left} V (Pipeline.arrRef cfg.spec i))
          ∗ (((c.tc : Thread nD τ).loc (Pipeline.arrRef cfg.spec j)) ↦{fullShare.right} V (Pipeline.arrRef cfg.spec j))) := by
    have hs : (((c.tc : Thread nD τ).loc (Pipeline.arrRef cfg.spec i)) ↦{fullShare} V (Pipeline.arrRef cfg.spec i) : sProp 𝕄)
        ⊣⊢ iprop((((c.tc : Thread nD τ).loc (Pipeline.arrRef cfg.spec i)) ↦{fullShare.left} V (Pipeline.arrRef cfg.spec i))
          ∗ (((c.tc : Thread nD τ).loc (Pipeline.arrRef cfg.spec i)) ↦{fullShare.right} V (Pipeline.arrRef cfg.spec i))) :=
      pointsTo_share (PosShare.mem_left_op_right fullShare)
    rw [BI.equiv_iff.mp ⟨hs.1, hs.2⟩]
    exact congrArg (fun b => iprop((((c.tc : Thread nD τ).loc (Pipeline.arrRef cfg.spec i)) ↦{fullShare.left} V (Pipeline.arrRef cfg.spec i))
      ∗ (((c.tc : Thread nD τ).loc b) ↦{fullShare.right} V b) : sProp 𝕄)) hsame
  unfold Pipeline.arrBufs Dat.arrays
  rw [himg, bigSep_image_of_injOn hinjOn, bigSep_erase hmem, bigSep_univ_split j, bigSep_erase hmem, hhalf]
  have hΘi : (((cfg.win i).arr.view.loc (c.tc : Thread nD τ)) ↦[(cfg.win i).arr.view.set]{dat.share i} V (Pipeline.arrRef cfg.spec i) : sProp 𝕄)
      = (((c.tc : Thread nD τ).loc (Pipeline.arrRef cfg.spec i)) ↦{fullShare.left} V (Pipeline.arrRef cfg.spec i)) := by
    rw [(harr i).set_eq_univ, hi]
  have hΘj : (((cfg.win j).arr.view.loc (c.tc : Thread nD τ)) ↦[(cfg.win j).arr.view.set]{dat.share j} V (Pipeline.arrRef cfg.spec j) : sProp 𝕄)
      = (((c.tc : Thread nD τ).loc (Pipeline.arrRef cfg.spec j)) ↦{fullShare.right} V (Pipeline.arrRef cfg.spec j)) := by
    rw [(harr j).set_eq_univ, hj]
  have hrest : bigSep ((Finset.univ.erase j).erase i) (fun w : Fin cfg.W =>
        (((cfg.win w).arr.view.loc (c.tc : Thread nD τ)) ↦[(cfg.win w).arr.view.set]{dat.share w} V (Pipeline.arrRef cfg.spec w) : sProp 𝕄))
      = bigSep ((Finset.univ.erase j).erase i) (fun w : Fin cfg.W =>
        (((c.tc : Thread nD τ).loc (Pipeline.arrRef cfg.spec w)) ↦{fullShare} V (Pipeline.arrRef cfg.spec w) : sProp 𝕄)) :=
    bigSep_congr fun w hw => by
      have hwi : w ≠ i := (Finset.mem_erase.mp hw).1
      have hwj : w ≠ j := (Finset.mem_erase.mp (Finset.mem_erase.mp hw).2).1
      rw [(harr w).set_eq_univ, hq w hwi hwj]
  rw [hΘi, hΘj, hrest]
  refine BI.equiv_iff.mp ⟨?_, ?_⟩
  · show (iprop((_ ∗ _) ∗ _) : sProp 𝕄) ⊢ iprop(_ ∗ _ ∗ _)
    iintro ⟨⟨Hi, Hj⟩, Hr⟩
    isplitl [Hj]; · iexact Hj
    isplitl [Hi]; · iexact Hi
    iexact Hr
  · show (iprop(_ ∗ _ ∗ _) : sProp 𝕄) ⊢ iprop((_ ∗ _) ∗ _)
    iintro ⟨Hj, Hi, Hr⟩
    isplitr [Hr]
    · isplitl [Hi]; · iexact Hi
      iexact Hj
    iexact Hr

include hun harr hij hsame hinj hi hj hq in
theorem arrays_of_unscopedBufs_shared
    (V : (b : Ref sig .tc) → Buf (Elt F) ((c.tc : Thread nD τ).loc b))
    (hA : ∀ w, dat.A w = V (Pipeline.arrRef cfg.spec w)) :
    (unscopedBufs c V : sProp 𝕄) ⊢ iprop(dat.arrays (dat.arrAt · 0) ∗ Pipeline.unscopedRest cfg.spec c V) := by
  have hsplit : (unscopedBufs c V : sProp 𝕄) = iprop((Pipeline.arrBufs cfg.spec c V : sProp 𝕄) ∗ Pipeline.unscopedRest cfg.spec c V) :=
    Pipeline.PerCore.unscopedBufs_split₀ (P := Unit) (fun _ _ => cfg) () c hun V
  rw [hsplit, arrBufs_eq_arrays_shared dat harr i j hij hsame hinj hi hj hq V]
  exact sep_mono (Entails.of_eq (congrArg dat.arrays (funext fun w => by
    rw [show dat.arrAt w 0 = dat.A w from rfl, hA]))) .rfl

include hun harr hij hsame hinj hi hj hq in
theorem unscopedBufs_of_arrays_shared
    (V V' : (b : Ref sig .tc) → Buf (Elt F) ((c.tc : Thread nD τ).loc b))
    (Fa : (w : Fin cfg.W) → Buf (Elt F) ((cfg.spec w).arr.view.loc (c.tc : Thread nD τ)))
    (hF : ∀ w, Fa w = V' (Pipeline.arrRef cfg.spec w))
    (hrest : ∀ b, b ∉ Finset.univ.image (Pipeline.arrRef cfg.spec) → V' b = V b) :
    iprop(dat.arrays Fa ∗ Pipeline.unscopedRest cfg.spec c V) ⊢ (unscopedBufs c V' : sProp 𝕄) := by
  have hsplit : (unscopedBufs c V' : sProp 𝕄) = iprop((Pipeline.arrBufs cfg.spec c V' : sProp 𝕄) ∗ Pipeline.unscopedRest cfg.spec c V') :=
    Pipeline.PerCore.unscopedBufs_split₀ (P := Unit) (fun _ _ => cfg) () c hun V'
  rw [hsplit, arrBufs_eq_arrays_shared dat harr i j hij hsame hinj hi hj hq V']
  refine sep_mono (Entails.of_eq (congrArg dat.arrays (funext fun w => hF w))) (Entails.of_eq ?_)
  unfold Pipeline.unscopedRest
  exact bigSep_congr fun b hb => by rw [hrest b (Finset.mem_sdiff.mp hb).2]

end Cert.KernelIdeal.Fr

end
-- ==== Proof.KI.Run.lean ====
import proofs.«408774_j4466765988336_3_alg».proof.Proof.KI.Reg0
import proofs.«408774_j4466765988336_3_alg».proof.Proof.KI.Reg1
import proofs.«408774_j4466765988336_3_alg».proof.Proof.KI.Reg2
import proofs.«408774_j4466765988336_3_alg».proof.Proof.KI.Reg3
import proofs.«408774_j4466765988336_3_alg».proof.Proof.KI.Reg4
import proofs.«408774_j4466765988336_3_alg».proof.Proof.KI.Reg5
import proofs.«408774_j4466765988336_3_alg».proof.Proof.KI.Reg6
import proofs.«408774_j4466765988336_3_alg».proof.Proof.KI.Shared
import proofs.«408774_j4466765988336_3_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev Conts (F : FTy → Type) : Type := (c : Dev nD) → (b : Ref sig .tc) → Buf (Elt F) ((c : Thread nD τ).loc b)

def B2 (c : Dev nD) : Valuation τ sig (Elt F) :=
  Function.update (Function.update (Gen.V1 m c) main_v14_0 ((dat0 (fun c b => Gen.V1 m c b) c).arrAt 2 cfg0.N)) main_v14_1 ((dat0 (fun c b => Gen.V1 m c b) c).arrAt 3 cfg0.N)
abbrev B4 (c : Dev nD) : Valuation τ sig (Elt F) := StableHlo.after hostOps1_1 (StableHlo.after hostOps1 (B2 m c))

def B5 (c : Dev nD) : Valuation τ sig (Elt F) :=
  Function.update (B4 m c) main_v22 ((dat1 (fun (c : Dev nD) (b : Ref sig .tc) => B4 m c b) c).arrAt 7 cfg1.N)
abbrev B6 (c : Dev nD) : Valuation τ sig (Elt F) := StableHlo.after hostOps2 (B5 m c)

def B7 (c : Dev nD) : Valuation τ sig (Elt F) :=
  Function.update (Function.update (B6 m c) main_v48_0 ((dat2 (fun (c : Dev nD) (b : Ref sig .tc) => B6 m c b) c).arrAt 4 cfg2.N)) main_v48_1 ((dat2 (fun (c : Dev nD) (b : Ref sig .tc) => B6 m c b) c).arrAt 5 cfg2.N)
abbrev B9 (c : Dev nD) : Valuation τ sig (Elt F) := StableHlo.after hostOps3_1 (StableHlo.after hostOps3 (B7 m c))

def B10 (c : Dev nD) : Valuation τ sig (Elt F) :=
  Function.update (B9 m c) main_v56 ((dat3 (fun (c : Dev nD) (b : Ref sig .tc) => B9 m c b) c).arrAt 7 cfg3.N)
abbrev B11 (c : Dev nD) : Valuation τ sig (Elt F) := StableHlo.after hostOps4 (B10 m c)

def B12 (c : Dev nD) : Valuation τ sig (Elt F) :=
  Function.update (Function.update (B11 m c) main_v82_0 ((dat4 (fun (c : Dev nD) (b : Ref sig .tc) => B11 m c b) c).arrAt 4 cfg4.N)) main_v82_1 ((dat4 (fun (c : Dev nD) (b : Ref sig .tc) => B11 m c b) c).arrAt 5 cfg4.N)
abbrev B14 (c : Dev nD) : Valuation τ sig (Elt F) := StableHlo.after hostOps5_1 (StableHlo.after hostOps5 (B12 m c))

def B15 (c : Dev nD) : Valuation τ sig (Elt F) :=
  Function.update (B14 m c) main_v90 ((dat5 (fun (c : Dev nD) (b : Ref sig .tc) => B14 m c b) c).arrAt 7 cfg5.N)
abbrev B16 (c : Dev nD) : Valuation τ sig (Elt F) := StableHlo.after hostOps6 (B15 m c)

def B17 (c : Dev nD) : Valuation τ sig (Elt F) :=
  Function.update (Function.update (B16 m c) main_v116_0 ((dat6 (fun (c : Dev nD) (b : Ref sig .tc) => B16 m c b) c).arrAt 4 cfg6.N)) main_v116_1 ((dat6 (fun (c : Dev nD) (b : Ref sig .tc) => B16 m c b) c).arrAt 5 cfg6.N)

def outs : Gen.Outs (F := F) := fun J r c =>
  match J with
  | 2 => B2 m c r
  | 5 => B5 m c r
  | 7 => B7 m c r
  | 10 => B10 m c r
  | 12 => B12 m c r
  | 15 => B15 m c r
  | 17 => B17 m c r
  | _ => Gen.V1 m c r

theorem conts_ext {V W : Dev nD → Valuation τ sig (Elt F)} (h : ∀ c, V c = W c) :
    ((fun (c : Dev nD) (b : Ref sig .tc) => V c b) : Conts F) = fun (c : Dev nD) (b : Ref sig .tc) => W c b :=
  funext fun c => funext fun b => congrFun (h c) b

theorem upd_congr {α : Type _} [DecidableEq α] {β : α → Type _} {f g : ∀ a, β a} {a : α} {x y : β a}
    (hf : f = g) (hx : x = y) : Function.update f a x = Function.update g a y := by rw [hf, hx]

theorem outs_2_0 (c : Dev nD) : outs m 2 main_v14_0 c = (dat0 (fun c b => Gen.V1 m c b) c).arrAt 2 cfg0.N := by
  show B2 m c main_v14_0 = _
  unfold B2
  rw [Function.update_of_ne (StableHlo.devRef_ne_of_ne (show main_v14_0 ≠ main_v14_1 by decide)), Function.update_self]
theorem outs_2_1 (c : Dev nD) : outs m 2 main_v14_1 c = (dat0 (fun c b => Gen.V1 m c b) c).arrAt 3 cfg0.N := by
  show B2 m c main_v14_1 = _
  unfold B2
  rw [Function.update_self]
theorem V2_eq (c : Dev nD) : Gen.V2 m (outs m) c = B2 m c :=
  upd_congr (upd_congr rfl (outs_2_0 m c)) (outs_2_1 m c)
theorem V4_eq (c : Dev nD) : Gen.V4 m (outs m) c = B4 m c :=
  congrArg (fun W => StableHlo.after hostOps1_1 (StableHlo.after hostOps1 W)) (V2_eq m c)

theorem outs_5_raw (c : Dev nD) : outs m 5 main_v22 c = (dat1 (fun (c : Dev nD) (b : Ref sig .tc) => B4 m c b) c).arrAt 7 cfg1.N := by
  show B5 m c main_v22 = _
  unfold B5
  rw [Function.update_self]
theorem outs_5 (c : Dev nD) : outs m 5 main_v22 c = (dat1 (fun c b => Gen.V4 m (outs m) c b) c).arrAt 7 cfg1.N :=
  (outs_5_raw m c).trans (congrArg (fun V : Conts F => (dat1 V c).arrAt 7 cfg1.N) (conts_ext (V4_eq m))).symm
theorem V5_eq (c : Dev nD) : Gen.V5 m (outs m) c = B5 m c :=
  upd_congr (V4_eq m c) (outs_5_raw m c)
theorem V6_eq (c : Dev nD) : Gen.V6 m (outs m) c = B6 m c :=
  congrArg (fun W => StableHlo.after hostOps2 W) (V5_eq m c)

theorem outs_7_0_raw (c : Dev nD) : outs m 7 main_v48_0 c = (dat2 (fun (c : Dev nD) (b : Ref sig .tc) => B6 m c b) c).arrAt 4 cfg2.N := by
  show B7 m c main_v48_0 = _
  unfold B7
  rw [Function.update_of_ne (StableHlo.devRef_ne_of_ne (show main_v48_0 ≠ main_v48_1 by decide)), Function.update_self]
theorem outs_7_0 (c : Dev nD) : outs m 7 main_v48_0 c = (dat2 (fun c b => Gen.V6 m (outs m) c b) c).arrAt 4 cfg2.N :=
  (outs_7_0_raw m c).trans (congrArg (fun V : Conts F => (dat2 V c).arrAt 4 cfg2.N) (conts_ext (V6_eq m))).symm
theorem outs_7_1_raw (c : Dev nD) : outs m 7 main_v48_1 c = (dat2 (fun (c : Dev nD) (b : Ref sig .tc) => B6 m c b) c).arrAt 5 cfg2.N := by
  show B7 m c main_v48_1 = _
  unfold B7
  rw [Function.update_self]
theorem outs_7_1 (c : Dev nD) : outs m 7 main_v48_1 c = (dat2 (fun c b => Gen.V6 m (outs m) c b) c).arrAt 5 cfg2.N :=
  (outs_7_1_raw m c).trans (congrArg (fun V : Conts F => (dat2 V c).arrAt 5 cfg2.N) (conts_ext (V6_eq m))).symm
theorem V7_eq (c : Dev nD) : Gen.V7 m (outs m) c = B7 m c :=
  upd_congr (upd_congr (V6_eq m c) (outs_7_0_raw m c)) (outs_7_1_raw m c)
theorem V9_eq (c : Dev nD) : Gen.V9 m (outs m) c = B9 m c :=
  congrArg (fun W => StableHlo.after hostOps3_1 (StableHlo.after hostOps3 W)) (V7_eq m c)

theorem outs_10_raw (c : Dev nD) : outs m 10 main_v56 c = (dat3 (fun (c : Dev nD) (b : Ref sig .tc) => B9 m c b) c).arrAt 7 cfg3.N := by
  show B10 m c main_v56 = _
  unfold B10
  rw [Function.update_self]
theorem outs_10 (c : Dev nD) : outs m 10 main_v56 c = (dat3 (fun c b => Gen.V9 m (outs m) c b) c).arrAt 7 cfg3.N :=
  (outs_10_raw m c).trans (congrArg (fun V : Conts F => (dat3 V c).arrAt 7 cfg3.N) (conts_ext (V9_eq m))).symm
theorem V10_eq (c : Dev nD) : Gen.V10 m (outs m) c = B10 m c :=
  upd_congr (V9_eq m c) (outs_10_raw m c)
theorem V11_eq (c : Dev nD) : Gen.V11 m (outs m) c = B11 m c :=
  congrArg (fun W => StableHlo.after hostOps4 W) (V10_eq m c)

theorem outs_12_0_raw (c : Dev nD) : outs m 12 main_v82_0 c = (dat4 (fun (c : Dev nD) (b : Ref sig .tc) => B11 m c b) c).arrAt 4 cfg4.N := by
  show B12 m c main_v82_0 = _
  unfold B12
  rw [Function.update_of_ne (StableHlo.devRef_ne_of_ne (show main_v82_0 ≠ main_v82_1 by decide)), Function.update_self]
theorem outs_12_0 (c : Dev nD) : outs m 12 main_v82_0 c = (dat4 (fun c b => Gen.V11 m (outs m) c b) c).arrAt 4 cfg4.N :=
  (outs_12_0_raw m c).trans (congrArg (fun V : Conts F => (dat4 V c).arrAt 4 cfg4.N) (conts_ext (V11_eq m))).symm
theorem outs_12_1_raw (c : Dev nD) : outs m 12 main_v82_1 c = (dat4 (fun (c : Dev nD) (b : Ref sig .tc) => B11 m c b) c).arrAt 5 cfg4.N := by
  show B12 m c main_v82_1 = _
  unfold B12
  rw [Function.update_self]
theorem outs_12_1 (c : Dev nD) : outs m 12 main_v82_1 c = (dat4 (fun c b => Gen.V11 m (outs m) c b) c).arrAt 5 cfg4.N :=
  (outs_12_1_raw m c).trans (congrArg (fun V : Conts F => (dat4 V c).arrAt 5 cfg4.N) (conts_ext (V11_eq m))).symm
theorem V12_eq (c : Dev nD) : Gen.V12 m (outs m) c = B12 m c :=
  upd_congr (upd_congr (V11_eq m c) (outs_12_0_raw m c)) (outs_12_1_raw m c)
theorem V14_eq (c : Dev nD) : Gen.V14 m (outs m) c = B14 m c :=
  congrArg (fun W => StableHlo.after hostOps5_1 (StableHlo.after hostOps5 W)) (V12_eq m c)

theorem outs_15_raw (c : Dev nD) : outs m 15 main_v90 c = (dat5 (fun (c : Dev nD) (b : Ref sig .tc) => B14 m c b) c).arrAt 7 cfg5.N := by
  show B15 m c main_v90 = _
  unfold B15
  rw [Function.update_self]
theorem outs_15 (c : Dev nD) : outs m 15 main_v90 c = (dat5 (fun c b => Gen.V14 m (outs m) c b) c).arrAt 7 cfg5.N :=
  (outs_15_raw m c).trans (congrArg (fun V : Conts F => (dat5 V c).arrAt 7 cfg5.N) (conts_ext (V14_eq m))).symm
theorem V15_eq (c : Dev nD) : Gen.V15 m (outs m) c = B15 m c :=
  upd_congr (V14_eq m c) (outs_15_raw m c)
theorem V16_eq (c : Dev nD) : Gen.V16 m (outs m) c = B16 m c :=
  congrArg (fun W => StableHlo.after hostOps6 W) (V15_eq m c)

theorem outs_17_0_raw (c : Dev nD) : outs m 17 main_v116_0 c = (dat6 (fun (c : Dev nD) (b : Ref sig .tc) => B16 m c b) c).arrAt 4 cfg6.N := by
  show B17 m c main_v116_0 = _
  unfold B17
  rw [Function.update_of_ne (StableHlo.devRef_ne_of_ne (show main_v116_0 ≠ main_v116_1 by decide)), Function.update_self]
theorem outs_17_0 (c : Dev nD) : outs m 17 main_v116_0 c = (dat6 (fun c b => Gen.V16 m (outs m) c b) c).arrAt 4 cfg6.N :=
  (outs_17_0_raw m c).trans (congrArg (fun V : Conts F => (dat6 V c).arrAt 4 cfg6.N) (conts_ext (V16_eq m))).symm
theorem outs_17_1_raw (c : Dev nD) : outs m 17 main_v116_1 c = (dat6 (fun (c : Dev nD) (b : Ref sig .tc) => B16 m c b) c).arrAt 5 cfg6.N := by
  show B17 m c main_v116_1 = _
  unfold B17
  rw [Function.update_self]
theorem outs_17_1 (c : Dev nD) : outs m 17 main_v116_1 c = (dat6 (fun c b => Gen.V16 m (outs m) c b) c).arrAt 5 cfg6.N :=
  (outs_17_1_raw m c).trans (congrArg (fun V : Conts F => (dat6 V c).arrAt 5 cfg6.N) (conts_ext (V16_eq m))).symm
theorem V17_eq (c : Dev nD) : Gen.V17 m (outs m) c = B17 m c :=
  upd_congr (upd_congr (V16_eq m c) (outs_17_0_raw m c)) (outs_17_1_raw m c)

def pdats : (p : Fin 7) → (c : Dev nD) → Dat τ (Elt F) Unit ℕ (UR sig nD τ) ℕ (cfgs p) c
  | ⟨0, _⟩ => fun c => dat0 (fun c b => Gen.V1 m c b) c
  | ⟨1, _⟩ => fun c => dat1 (fun c b => Gen.V4 m (outs m) c b) c
  | ⟨2, _⟩ => fun c => dat2 (fun c b => Gen.V6 m (outs m) c b) c
  | ⟨3, _⟩ => fun c => dat3 (fun c b => Gen.V9 m (outs m) c b) c
  | ⟨4, _⟩ => fun c => dat4 (fun c b => Gen.V11 m (outs m) c b) c
  | ⟨5, _⟩ => fun c => dat5 (fun c b => Gen.V14 m (outs m) c b) c
  | ⟨6, _⟩ => fun c => dat6 (fun c b => Gen.V16 m (outs m) c b) c

abbrev Rst (c : Dev nD) : sProp 𝕄 :=
  iprop((∃ r, prngReg c r) ∗ ∃ W, owes (c : Thread nD τ) (0 : CellTallies nD τ sig Unit) W)

section Steps

variable {cfg : Cfg sig Λ₀} {c : Dev nD} (dat : Dat τ (Elt F) Unit ℕ (UR sig nD τ) ℕ cfg c)

theorem owesAt_intro (t : Fin (cfg.N + 1)) (ho : dat.owed t = 0) (hr : dat.recorded t = Set.univ) :
    (iprop(∃ W, owes (c : Thread nD τ) (0 : CellTallies nD τ sig Unit) W) : sProp 𝕄) ⊢ dat.owesAt () t := by
  show _ ⊢ iprop(∃ W, ⌜↑W ⊆ dat.bound () t⌝ ∗ owes (c : Thread nD τ) (dat.owed t) W)
  rw [ho]
  iintro ⟨%W, H⟩
  iexists W
  isplitr
  · ipureintro
    intro x _
    exact Or.inl (hr ▸ Set.mem_univ x)
  iexact H

theorem owesAt_elim (t : Fin (cfg.N + 1)) (ho : dat.owed t = 0) :
    dat.owesAt () t ⊢ (iprop(∃ W, owes (c : Thread nD τ) (0 : CellTallies nD τ sig Unit) W) : sProp 𝕄) := by
  show iprop(∃ W, ⌜↑W ⊆ dat.bound () t⌝ ∗ owes (c : Thread nD τ) (dat.owed t) W) ⊢ _
  rw [ho]
  iintro ⟨%W, -, H⟩
  iexists W
  iexact H

theorem share_of_q (w : Fin cfg.W) (h : dat.q w = fullShare) : dat.share w = fullShare := by
  unfold Dat.share
  split
  · rfl
  · exact h

theorem share_in (w : Fin cfg.W) (hin : (cfg.win w).isOut = false) : dat.share w = dat.q w := by
  unfold Dat.share
  rw [hin]
  rfl

theorem ne_arr {b : Ref sig .tc} (hb : b ∉ Finset.univ.image (Pipeline.arrRef cfg.spec)) (w : Fin cfg.W) :
    b ≠ Pipeline.arrRef cfg.spec w :=
  fun h => hb (h ▸ Finset.mem_image_of_mem _ (Finset.mem_univ w))

end Steps

theorem entry_of {A Zr Pf Ow S Lv : sProp 𝕄} {c : Dev nD} {W : Valuation τ sig (Elt F)}
    (hsplit : (unscopedBufs c (fun b => W b) : sProp 𝕄) ⊢ iprop(A ∗ Zr))
    (hPf : (BI.emp : sProp 𝕄) ⊢ Pf)
    (hOw : (iprop(∃ W, owes (c : Thread nD τ) (0 : CellTallies nD τ sig Unit) W) : sProp 𝕄) ⊢ Ow) :
    iprop((StableHlo.held (c : Thread nD τ) (Pipeline.ucRefs τ sig) W ∗ Rst c) ∗ S ∗ Lv)
      ⊢ (|={Set.univ}=> iprop(A ∗ Pf ∗ Ow ∗ (∃ r, prngReg c r) ∗ Zr) : sProp 𝕄) := by
  rw [← Pipeline.unscopedBufs_held (Ix := Unit) (Name := ℕ) (U := UR sig nD τ) (Lvl := ℕ) c W]
  iintro ⟨⟨Hh, Hp, HO⟩, -, -⟩
  ihave Hs := hsplit $$ Hh
  icases Hs with ⟨Ha, Hz⟩
  imodintro
  isplitl [Ha]; · iexact Ha
  isplitr
  · iapply hPf; iempintro
  isplitl [HO]
  · iapply hOw; iexact HO
  isplitl [Hp]; · iexact Hp
  iexact Hz

theorem in_of {X Pf Sr : sProp 𝕄} : iprop(X ∗ Pf ∗ Sr) ⊢ iprop(Sr ∗ X) := by
  iintro ⟨Hx, -, Hs⟩
  isplitl [Hs]; · iexact Hs
  iexact Hx

theorem out_of {Sr Y : sProp 𝕄} : iprop(Sr ∗ Y) ⊢ iprop(Y ∗ (BI.emp : sProp 𝕄) ∗ Sr) := by
  iintro ⟨Hs, Hy⟩
  isplitl [Hy]; · iexact Hy
  isplitr; · iempintro
  iexact Hs

theorem exit_of {A Zr Ow : sProp 𝕄} {c : Dev nD} {W' : Valuation τ sig (Elt F)}
    (hjoin : iprop(A ∗ Zr) ⊢ (unscopedBufs c (fun b => W' b) : sProp 𝕄))
    (hOw : Ow ⊢ (iprop(∃ W, owes (c : Thread nD τ) (0 : CellTallies nD τ sig Unit) W) : sProp 𝕄)) :
    iprop(A ∗ Ow ∗ (∃ r, prngReg c r) ∗ Zr)
      ⊢ (|={Set.univ}=> iprop(StableHlo.held (c : Thread nD τ) (Pipeline.ucRefs τ sig) W' ∗ Rst c) : sProp 𝕄) := by
  rw [← Pipeline.unscopedBufs_held (Ix := Unit) (Name := ℕ) (U := UR sig nD τ) (Lvl := ℕ) c W']
  iintro ⟨Ha, HO, Hp, Hz⟩
  imodintro
  isplitl [Ha Hz]
  · iapply hjoin
    isplitl [Ha]; · iexact Ha
    iexact Hz
  isplitl [Hp]; · iexact Hp
  iapply hOw; iexact HO

theorem prefHeld_none {pre : Pipeline.Prefetch sig} (hK : pre.K = 0) (c : Dev nD) (q : Fin pre.K → PosShare TreeShare)
    (V : pre.Contents (Elt F)) : (BI.emp : sProp 𝕄) ⊢ Pipeline.prefHeld pre c q V := by
  unfold Pipeline.prefHeld
  have he : (Finset.univ : Finset (Fin pre.K)) = ∅ := Finset.univ_eq_empty_iff.mpr (by rw [hK]; infer_instance)
  rw [he, BI.bigSep_empty]

set_option backward.isDefEq.respectTransparency.types false in
def regOf (p : Fin 7) (win : Pipeline.WinFacts₀ (pcfgs (F := F) p).spec)
    (hbp : ∀ w : Fin (cfgs p).W, 0 < ((cfgs p).spec w).block.numel)
    (hsw : ∀ (w : Fin (cfgs p).W) (s : Fin ((cfgs p).spec w).nbuf), (((cfgs p).spec w).stage s).IsWhole)
    (V V' : Dev nD → Valuation τ sig (Elt F))
    (hbody : ∀ c, Pipeline.BodyObligationLoose (pdats m p c) (defs₀ (F := F)) Variants.none () Set.univ)
    (hK : (pcfgs (F := F) p).pre.K = 0) (ho : ∀ c t, (pdats m p c).owed t = 0)
    (hr : ∀ c, (pdats m p c).recorded 0 = Set.univ)
    (hin : ∀ c, iprop((∃ r, prngReg c r) ∗ Pipeline.prefHeld (pcfgs (F := F) p).pre c (fun _ => fullShare) (Gen.adm p).1
        ∗ Pipeline.scopedRest (cfgs p).spec c) ⊢ (pdats m p c).Φ 0)
    (hout : ∀ c, (pdats m p c).Φ (Fin.last (cfgs p).N)
      ⊢ iprop((∃ r, prngReg c r) ∗ (BI.emp : sProp 𝕄) ∗ Pipeline.scopedRest (cfgs p).spec c))
    (hsplit : ∀ c, (unscopedBufs c (fun b => V c b) : sProp 𝕄)
      ⊢ iprop((pdats m p c).arrays ((pdats m p c).arrAt · 0) ∗ Pipeline.unscopedRest (cfgs p).spec c (fun b => V c b)))
    (hjoin : ∀ c, iprop((pdats m p c).arrays ((pdats m p c).arrAt · (cfgs p).N)
        ∗ Pipeline.unscopedRest (cfgs p).spec c (fun b => V c b)) ⊢ (unscopedBufs c (fun b => V' c b) : sProp 𝕄)) :
    Pipeline.RegionSeg (pcfgs (F := F)) Gen.adm (pdats m) () defs₀ Variants.none (fun _ => ∅) (fun _ _ => 0) p where
  win := win
  block_pos := hbp
  stage_whole := hsw
  K := PEmpty
  osem k := k.elim
  ho := Pipeline.OwnSemFacts.none _
  hbody := hbody
  hwaits := Pipeline.hwaits_of_owed_zero _ _ _ _ (fun _ => ∅) (fun _ _ => 0) p ho
  pre c := iprop(StableHlo.held (c : Thread nD τ) (Pipeline.ucRefs τ sig) (V c) ∗ Rst c)
  post c := iprop(StableHlo.held (c : Thread nD τ) (Pipeline.ucRefs τ sig) (V' c) ∗ Rst c)
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := entry_of (hsplit c) (prefHeld_none hK c _ _) (owesAt_intro (pdats m p c) 0 (ho c 0) (hr c))
  hin := hin
  hout c := by rw [Pipeline.ownSems0_none]; exact hout c
  hexit c := exit_of (hjoin c) (owesAt_elim (pdats m p c) _ (ho c _))

theorem V2_at_0 (c : Dev nD) : Gen.V2 m (outs m) c main_v14_0 = outs m 2 main_v14_0 c :=
  (Function.update_of_ne (StableHlo.devRef_ne_of_ne (by decide)) _ _).trans (Function.update_self ..)
theorem V2_at_1 (c : Dev nD) : Gen.V2 m (outs m) c main_v14_1 = outs m 2 main_v14_1 c :=
  Function.update_self ..
theorem V5_at_0 (c : Dev nD) : Gen.V5 m (outs m) c main_v22 = outs m 5 main_v22 c :=
  Function.update_self ..
theorem V7_at_0 (c : Dev nD) : Gen.V7 m (outs m) c main_v48_0 = outs m 7 main_v48_0 c :=
  (Function.update_of_ne (StableHlo.devRef_ne_of_ne (by decide)) _ _).trans (Function.update_self ..)
theorem V7_at_1 (c : Dev nD) : Gen.V7 m (outs m) c main_v48_1 = outs m 7 main_v48_1 c :=
  Function.update_self ..
theorem V10_at_0 (c : Dev nD) : Gen.V10 m (outs m) c main_v56 = outs m 10 main_v56 c :=
  Function.update_self ..
theorem V12_at_0 (c : Dev nD) : Gen.V12 m (outs m) c main_v82_0 = outs m 12 main_v82_0 c :=
  (Function.update_of_ne (StableHlo.devRef_ne_of_ne (by decide)) _ _).trans (Function.update_self ..)
theorem V12_at_1 (c : Dev nD) : Gen.V12 m (outs m) c main_v82_1 = outs m 12 main_v82_1 c :=
  Function.update_self ..
theorem V15_at_0 (c : Dev nD) : Gen.V15 m (outs m) c main_v90 = outs m 15 main_v90 c :=
  Function.update_self ..
theorem V17_at_0 (c : Dev nD) : Gen.V17 m (outs m) c main_v116_0 = outs m 17 main_v116_0 c :=
  (Function.update_of_ne (StableHlo.devRef_ne_of_ne (by decide)) _ _).trans (Function.update_self ..)
theorem V17_at_1 (c : Dev nD) : Gen.V17 m (outs m) c main_v116_1 = outs m 17 main_v116_1 c :=
  Function.update_self ..

abbrev pd0 (c : Dev nD) : Dat τ (Elt F) Unit ℕ (UR sig nD τ) ℕ cfg0 c := dat0 (fun c b => Gen.V1 m c b) c

theorem in0 : ∀ w : Fin cfg0.W, w ≠ 2 → w ≠ 3 →
    (cfg0.win w).isOut = false ∧ Pipeline.arrRef spec0 w ∉ ([main_v14_0, main_v14_1] : List (Ref sig .tc)) := by decide

theorem hF0 (c : Dev nD) (w : Fin cfg0.W) :
    (pd0 m c).arrAt w cfg0.N = Gen.V2 m (outs m) c (Pipeline.arrRef spec0 w) := by
  by_cases h2 : w = 2
  · subst h2; exact (outs_2_0 m c).symm.trans (V2_at_0 m c).symm
  by_cases h3 : w = 3
  · subst h3; exact (outs_2_1 m c).symm.trans (V2_at_1 m c).symm
  exact ((pd0 m c).arrAt_in w (in0 w h2 h3).1 _).trans ((A_eq0 _ c w).trans (Gen.V2_of m (outs m) c _ (in0 w h2 h3).2).symm)

theorem hrest0 (c : Dev nD) (b : Ref sig .tc) (hb : b ∉ Finset.univ.image (Pipeline.arrRef spec0)) :
    Gen.V2 m (outs m) c b = Gen.V1 m c b :=
  Gen.V2_of m (outs m) c b (List.not_mem_cons_of_ne_of_not_mem (ne_arr (cfg := cfg0) hb 2) (List.not_mem_cons_of_ne_of_not_mem (ne_arr (cfg := cfg0) hb 3) List.not_mem_nil))

set_option backward.isDefEq.respectTransparency.types false in
def reg0 : Pipeline.RegionSeg (pcfgs (F := F)) Gen.adm (pdats m) () defs₀ Variants.none (fun _ => ∅) (fun _ _ => 0) 0 :=
  regOf m 0 launch0.win.to₀ launch0.block_pos launch0.stage_whole (Gen.V1 m) (Gen.V2 m (outs m))
    (fun c => (body_obligation0 (fun c b => Gen.V1 m c b) c).loose) rfl (fun _ _ => rfl) (fun _ => rfl) (fun _ => in_of) (fun _ => out_of)
    (fun c => Pipeline.arrays_of_unscopedBufs (p := 0) (pcfgs (F := F)) Gen.adm (pdats m) launch0.win launch0.arr_whole c
      ((pd0 m c).share_full fun _ => rfl) (fun b => Gen.V1 m c b) fun w => A_eq0 (fun c b => Gen.V1 m c b) c w)
    (fun c => Pipeline.unscopedBufs_of_arrays (p := 0) (pcfgs (F := F)) Gen.adm launch0.win launch0.arr_whole c (pdats m)
      ((pd0 m c).share_full fun _ => rfl) (fun b => Gen.V1 m c b) (fun b => Gen.V2 m (outs m) c b)
      ((pd0 m c).arrAt · cfg0.N) (hF0 m c) (hrest0 m c))

abbrev pd1 (c : Dev nD) : Dat τ (Elt F) Unit ℕ (UR sig nD τ) ℕ cfg1 c := dat1 (fun c b => Gen.V4 m (outs m) c b) c

theorem in1 : ∀ w : Fin cfg1.W, w ≠ 7 →
    (cfg1.win w).isOut = false ∧ Pipeline.arrRef spec1 w ∉ ([main_v22] : List (Ref sig .tc)) := by decide

theorem hF1 (c : Dev nD) (w : Fin cfg1.W) :
    (pd1 m c).arrAt w cfg1.N = Gen.V5 m (outs m) c (Pipeline.arrRef spec1 w) := by
  by_cases h7 : w = 7
  · subst h7; exact (outs_5 m c).symm.trans (V5_at_0 m c).symm
  exact ((pd1 m c).arrAt_in w (in1 w h7).1 _).trans ((A_eq1 _ c w).trans (Gen.V5_of m (outs m) c _ (in1 w h7).2).symm)

theorem hrest1 (c : Dev nD) (b : Ref sig .tc) (hb : b ∉ Finset.univ.image (Pipeline.arrRef spec1)) :
    Gen.V5 m (outs m) c b = Gen.V4 m (outs m) c b :=
  Gen.V5_of m (outs m) c b (List.not_mem_cons_of_ne_of_not_mem (ne_arr (cfg := cfg1) hb 7) List.not_mem_nil)

theorem share1_0 (V : Conts F) (c : Dev nD) : (dat1 V c).share 0 = fullShare.left :=
  (share_in _ 0 rfl).trans (q1_0 V c)
theorem share1_1 (V : Conts F) (c : Dev nD) : (dat1 V c).share 1 = fullShare.right :=
  (share_in _ 1 rfl).trans (q1_1 V c)
theorem share1_rest (V : Conts F) (c : Dev nD) :
    ∀ w : Fin cfg1.W, w ≠ 0 → w ≠ 1 → (dat1 V c).share w = fullShare := fun w h0 h1 => by
  match w with
  | ⟨0, _⟩ => exact (h0 rfl).elim
  | ⟨1, _⟩ => exact (h1 rfl).elim
  | ⟨2, _⟩ => exact share_of_q _ _ (q1_2 V c)
  | ⟨3, _⟩ => exact share_of_q _ _ (q1_3 V c)
  | ⟨4, _⟩ => exact share_of_q _ _ (q1_4 V c)
  | ⟨5, _⟩ => exact share_of_q _ _ (q1_5 V c)
  | ⟨6, _⟩ => exact share_of_q _ _ (q1_6 V c)
  | ⟨7, _⟩ => exact share_of_q _ _ (q1_7 V c)
  | ⟨_ + 8, h⟩ => exact absurd h (Nat.not_lt.2 (Nat.le_add_left _ _))

theorem arr_inj1 : ∀ w w' : Fin cfg1.W, Pipeline.arrRef spec1 w = Pipeline.arrRef spec1 w' →
    w = w' ∨ (w = 0 ∧ w' = 1) ∨ (w = 1 ∧ w' = 0) := by decide

set_option backward.isDefEq.respectTransparency.types false in
def reg1 : Pipeline.RegionSeg (pcfgs (F := F)) Gen.adm (pdats m) () defs₀ Variants.none (fun _ => ∅) (fun _ _ => 0) 1 :=
  regOf m 1 winFacts₀1 block_pos1 stage_whole1 (Gen.V4 m (outs m)) (Gen.V5 m (outs m))
    (fun c => (body_obligation1 (fun c b => Gen.V4 m (outs m) c b) c).loose) rfl (fun _ _ => rfl) (fun _ => rfl) (fun _ => in_of) (fun _ => out_of)
    (fun c => arrays_of_unscopedBufs_shared (pd1 m c) winFacts₀1.arr_unscoped arr_whole1 0 1 (by decide) rfl arr_inj1
      (share1_0 _ c) (share1_1 _ c) (share1_rest _ c) (fun b => Gen.V4 m (outs m) c b) fun w => A_eq1 (fun c b => Gen.V4 m (outs m) c b) c w)
    (fun c => unscopedBufs_of_arrays_shared (pd1 m c) winFacts₀1.arr_unscoped arr_whole1 0 1 (by decide) rfl arr_inj1
      (share1_0 _ c) (share1_1 _ c) (share1_rest _ c) (fun b => Gen.V4 m (outs m) c b) (fun b => Gen.V5 m (outs m) c b)
      ((pd1 m c).arrAt · cfg1.N) (hF1 m c) (hrest1 m c))

abbrev pd2 (c : Dev nD) : Dat τ (Elt F) Unit ℕ (UR sig nD τ) ℕ cfg2 c := dat2 (fun c b => Gen.V6 m (outs m) c b) c

theorem in2 : ∀ w : Fin cfg2.W, w ≠ 4 → w ≠ 5 →
    (cfg2.win w).isOut = false ∧ Pipeline.arrRef spec2 w ∉ ([main_v48_0, main_v48_1] : List (Ref sig .tc)) := by decide

theorem hF2 (c : Dev nD) (w : Fin cfg2.W) :
    (pd2 m c).arrAt w cfg2.N = Gen.V7 m (outs m) c (Pipeline.arrRef spec2 w) := by
  by_cases h4 : w = 4
  · subst h4; exact (outs_7_0 m c).symm.trans (V7_at_0 m c).symm
  by_cases h5 : w = 5
  · subst h5; exact (outs_7_1 m c).symm.trans (V7_at_1 m c).symm
  exact ((pd2 m c).arrAt_in w (in2 w h4 h5).1 _).trans ((A_eq2 _ c w).trans (Gen.V7_of m (outs m) c _ (in2 w h4 h5).2).symm)

theorem hrest2 (c : Dev nD) (b : Ref sig .tc) (hb : b ∉ Finset.univ.image (Pipeline.arrRef spec2)) :
    Gen.V7 m (outs m) c b = Gen.V6 m (outs m) c b :=
  Gen.V7_of m (outs m) c b (List.not_mem_cons_of_ne_of_not_mem (ne_arr (cfg := cfg2) hb 4) (List.not_mem_cons_of_ne_of_not_mem (ne_arr (cfg := cfg2) hb 5) List.not_mem_nil))

set_option backward.isDefEq.respectTransparency.types false in
def reg2 : Pipeline.RegionSeg (pcfgs (F := F)) Gen.adm (pdats m) () defs₀ Variants.none (fun _ => ∅) (fun _ _ => 0) 2 :=
  regOf m 2 launch2.win.to₀ launch2.block_pos launch2.stage_whole (Gen.V6 m (outs m)) (Gen.V7 m (outs m))
    (fun c => (body_obligation2 (fun c b => Gen.V6 m (outs m) c b) c).loose) rfl (fun _ _ => rfl) (fun _ => rfl) (fun _ => in_of) (fun _ => out_of)
    (fun c => Pipeline.arrays_of_unscopedBufs (p := 2) (pcfgs (F := F)) Gen.adm (pdats m) launch2.win launch2.arr_whole c
      ((pd2 m c).share_full fun _ => rfl) (fun b => Gen.V6 m (outs m) c b) fun w => A_eq2 (fun c b => Gen.V6 m (outs m) c b) c w)
    (fun c => Pipeline.unscopedBufs_of_arrays (p := 2) (pcfgs (F := F)) Gen.adm launch2.win launch2.arr_whole c (pdats m)
      ((pd2 m c).share_full fun _ => rfl) (fun b => Gen.V6 m (outs m) c b) (fun b => Gen.V7 m (outs m) c b)
      ((pd2 m c).arrAt · cfg2.N) (hF2 m c) (hrest2 m c))

abbrev pd3 (c : Dev nD) : Dat τ (Elt F) Unit ℕ (UR sig nD τ) ℕ cfg3 c := dat3 (fun c b => Gen.V9 m (outs m) c b) c

theorem in3 : ∀ w : Fin cfg3.W, w ≠ 7 →
    (cfg3.win w).isOut = false ∧ Pipeline.arrRef spec3 w ∉ ([main_v56] : List (Ref sig .tc)) := by decide

theorem hF3 (c : Dev nD) (w : Fin cfg3.W) :
    (pd3 m c).arrAt w cfg3.N = Gen.V10 m (outs m) c (Pipeline.arrRef spec3 w) := by
  by_cases h7 : w = 7
  · subst h7; exact (outs_10 m c).symm.trans (V10_at_0 m c).symm
  exact ((pd3 m c).arrAt_in w (in3 w h7).1 _).trans ((A_eq3 _ c w).trans (Gen.V10_of m (outs m) c _ (in3 w h7).2).symm)

theorem hrest3 (c : Dev nD) (b : Ref sig .tc) (hb : b ∉ Finset.univ.image (Pipeline.arrRef spec3)) :
    Gen.V10 m (outs m) c b = Gen.V9 m (outs m) c b :=
  Gen.V10_of m (outs m) c b (List.not_mem_cons_of_ne_of_not_mem (ne_arr (cfg := cfg3) hb 7) List.not_mem_nil)

theorem share3_0 (V : Conts F) (c : Dev nD) : (dat3 V c).share 0 = fullShare.left :=
  (share_in _ 0 rfl).trans (q3_0 V c)
theorem share3_1 (V : Conts F) (c : Dev nD) : (dat3 V c).share 1 = fullShare.right :=
  (share_in _ 1 rfl).trans (q3_1 V c)
theorem share3_rest (V : Conts F) (c : Dev nD) :
    ∀ w : Fin cfg3.W, w ≠ 0 → w ≠ 1 → (dat3 V c).share w = fullShare := fun w h0 h1 => by
  match w with
  | ⟨0, _⟩ => exact (h0 rfl).elim
  | ⟨1, _⟩ => exact (h1 rfl).elim
  | ⟨2, _⟩ => exact share_of_q _ _ (q3_2 V c)
  | ⟨3, _⟩ => exact share_of_q _ _ (q3_3 V c)
  | ⟨4, _⟩ => exact share_of_q _ _ (q3_4 V c)
  | ⟨5, _⟩ => exact share_of_q _ _ (q3_5 V c)
  | ⟨6, _⟩ => exact share_of_q _ _ (q3_6 V c)
  | ⟨7, _⟩ => exact share_of_q _ _ (q3_7 V c)
  | ⟨_ + 8, h⟩ => exact absurd h (Nat.not_lt.2 (Nat.le_add_left _ _))

theorem arr_inj3 : ∀ w w' : Fin cfg3.W, Pipeline.arrRef spec3 w = Pipeline.arrRef spec3 w' →
    w = w' ∨ (w = 0 ∧ w' = 1) ∨ (w = 1 ∧ w' = 0) := by decide

set_option backward.isDefEq.respectTransparency.types false in
def reg3 : Pipeline.RegionSeg (pcfgs (F := F)) Gen.adm (pdats m) () defs₀ Variants.none (fun _ => ∅) (fun _ _ => 0) 3 :=
  regOf m 3 winFacts₀3 block_pos3 stage_whole3 (Gen.V9 m (outs m)) (Gen.V10 m (outs m))
    (fun c => (body_obligation3 (fun c b => Gen.V9 m (outs m) c b) c).loose) rfl (fun _ _ => rfl) (fun _ => rfl) (fun _ => in_of) (fun _ => out_of)
    (fun c => arrays_of_unscopedBufs_shared (pd3 m c) winFacts₀3.arr_unscoped arr_whole3 0 1 (by decide) rfl arr_inj3
      (share3_0 _ c) (share3_1 _ c) (share3_rest _ c) (fun b => Gen.V9 m (outs m) c b) fun w => A_eq3 (fun c b => Gen.V9 m (outs m) c b) c w)
    (fun c => unscopedBufs_of_arrays_shared (pd3 m c) winFacts₀3.arr_unscoped arr_whole3 0 1 (by decide) rfl arr_inj3
      (share3_0 _ c) (share3_1 _ c) (share3_rest _ c) (fun b => Gen.V9 m (outs m) c b) (fun b => Gen.V10 m (outs m) c b)
      ((pd3 m c).arrAt · cfg3.N) (hF3 m c) (hrest3 m c))

abbrev pd4 (c : Dev nD) : Dat τ (Elt F) Unit ℕ (UR sig nD τ) ℕ cfg4 c := dat4 (fun c b => Gen.V11 m (outs m) c b) c

theorem in4 : ∀ w : Fin cfg4.W, w ≠ 4 → w ≠ 5 →
    (cfg4.win w).isOut = false ∧ Pipeline.arrRef spec4 w ∉ ([main_v82_0, main_v82_1] : List (Ref sig .tc)) := by decide

theorem hF4 (c : Dev nD) (w : Fin cfg4.W) :
    (pd4 m c).arrAt w cfg4.N = Gen.V12 m (outs m) c (Pipeline.arrRef spec4 w) := by
  by_cases h4 : w = 4
  · subst h4; exact (outs_12_0 m c).symm.trans (V12_at_0 m c).symm
  by_cases h5 : w = 5
  · subst h5; exact (outs_12_1 m c).symm.trans (V12_at_1 m c).symm
  exact ((pd4 m c).arrAt_in w (in4 w h4 h5).1 _).trans ((A_eq4 _ c w).trans (Gen.V12_of m (outs m) c _ (in4 w h4 h5).2).symm)

theorem hrest4 (c : Dev nD) (b : Ref sig .tc) (hb : b ∉ Finset.univ.image (Pipeline.arrRef spec4)) :
    Gen.V12 m (outs m) c b = Gen.V11 m (outs m) c b :=
  Gen.V12_of m (outs m) c b (List.not_mem_cons_of_ne_of_not_mem (ne_arr (cfg := cfg4) hb 4) (List.not_mem_cons_of_ne_of_not_mem (ne_arr (cfg := cfg4) hb 5) List.not_mem_nil))

set_option backward.isDefEq.respectTransparency.types false in
def reg4 : Pipeline.RegionSeg (pcfgs (F := F)) Gen.adm (pdats m) () defs₀ Variants.none (fun _ => ∅) (fun _ _ => 0) 4 :=
  regOf m 4 launch4.win.to₀ launch4.block_pos launch4.stage_whole (Gen.V11 m (outs m)) (Gen.V12 m (outs m))
    (fun c => (body_obligation4 (fun c b => Gen.V11 m (outs m) c b) c).loose) rfl (fun _ _ => rfl) (fun _ => rfl) (fun _ => in_of) (fun _ => out_of)
    (fun c => Pipeline.arrays_of_unscopedBufs (p := 4) (pcfgs (F := F)) Gen.adm (pdats m) launch4.win launch4.arr_whole c
      ((pd4 m c).share_full fun _ => rfl) (fun b => Gen.V11 m (outs m) c b) fun w => A_eq4 (fun c b => Gen.V11 m (outs m) c b) c w)
    (fun c => Pipeline.unscopedBufs_of_arrays (p := 4) (pcfgs (F := F)) Gen.adm launch4.win launch4.arr_whole c (pdats m)
      ((pd4 m c).share_full fun _ => rfl) (fun b => Gen.V11 m (outs m) c b) (fun b => Gen.V12 m (outs m) c b)
      ((pd4 m c).arrAt · cfg4.N) (hF4 m c) (hrest4 m c))

abbrev pd5 (c : Dev nD) : Dat τ (Elt F) Unit ℕ (UR sig nD τ) ℕ cfg5 c := dat5 (fun c b => Gen.V14 m (outs m) c b) c

theorem in5 : ∀ w : Fin cfg5.W, w ≠ 7 →
    (cfg5.win w).isOut = false ∧ Pipeline.arrRef spec5 w ∉ ([main_v90] : List (Ref sig .tc)) := by decide

theorem hF5 (c : Dev nD) (w : Fin cfg5.W) :
    (pd5 m c).arrAt w cfg5.N = Gen.V15 m (outs m) c (Pipeline.arrRef spec5 w) := by
  by_cases h7 : w = 7
  · subst h7; exact (outs_15 m c).symm.trans (V15_at_0 m c).symm
  exact ((pd5 m c).arrAt_in w (in5 w h7).1 _).trans ((A_eq5 _ c w).trans (Gen.V15_of m (outs m) c _ (in5 w h7).2).symm)

theorem hrest5 (c : Dev nD) (b : Ref sig .tc) (hb : b ∉ Finset.univ.image (Pipeline.arrRef spec5)) :
    Gen.V15 m (outs m) c b = Gen.V14 m (outs m) c b :=
  Gen.V15_of m (outs m) c b (List.not_mem_cons_of_ne_of_not_mem (ne_arr (cfg := cfg5) hb 7) List.not_mem_nil)

theorem share5_0 (V : Conts F) (c : Dev nD) : (dat5 V c).share 0 = fullShare.left :=
  (share_in _ 0 rfl).trans (q5_0 V c)
theorem share5_1 (V : Conts F) (c : Dev nD) : (dat5 V c).share 1 = fullShare.right :=
  (share_in _ 1 rfl).trans (q5_1 V c)
theorem share5_rest (V : Conts F) (c : Dev nD) :
    ∀ w : Fin cfg5.W, w ≠ 0 → w ≠ 1 → (dat5 V c).share w = fullShare := fun w h0 h1 => by
  match w with
  | ⟨0, _⟩ => exact (h0 rfl).elim
  | ⟨1, _⟩ => exact (h1 rfl).elim
  | ⟨2, _⟩ => exact share_of_q _ _ (q5_2 V c)
  | ⟨3, _⟩ => exact share_of_q _ _ (q5_3 V c)
  | ⟨4, _⟩ => exact share_of_q _ _ (q5_4 V c)
  | ⟨5, _⟩ => exact share_of_q _ _ (q5_5 V c)
  | ⟨6, _⟩ => exact share_of_q _ _ (q5_6 V c)
  | ⟨7, _⟩ => exact share_of_q _ _ (q5_7 V c)
  | ⟨_ + 8, h⟩ => exact absurd h (Nat.not_lt.2 (Nat.le_add_left _ _))

theorem arr_inj5 : ∀ w w' : Fin cfg5.W, Pipeline.arrRef spec5 w = Pipeline.arrRef spec5 w' →
    w = w' ∨ (w = 0 ∧ w' = 1) ∨ (w = 1 ∧ w' = 0) := by decide

set_option backward.isDefEq.respectTransparency.types false in
def reg5 : Pipeline.RegionSeg (pcfgs (F := F)) Gen.adm (pdats m) () defs₀ Variants.none (fun _ => ∅) (fun _ _ => 0) 5 :=
  regOf m 5 winFacts₀5 block_pos5 stage_whole5 (Gen.V14 m (outs m)) (Gen.V15 m (outs m))
    (fun c => (body_obligation5 (fun c b => Gen.V14 m (outs m) c b) c).loose) rfl (fun _ _ => rfl) (fun _ => rfl) (fun _ => in_of) (fun _ => out_of)
    (fun c => arrays_of_unscopedBufs_shared (pd5 m c) winFacts₀5.arr_unscoped arr_whole5 0 1 (by decide) rfl arr_inj5
      (share5_0 _ c) (share5_1 _ c) (share5_rest _ c) (fun b => Gen.V14 m (outs m) c b) fun w => A_eq5 (fun c b => Gen.V14 m (outs m) c b) c w)
    (fun c => unscopedBufs_of_arrays_shared (pd5 m c) winFacts₀5.arr_unscoped arr_whole5 0 1 (by decide) rfl arr_inj5
      (share5_0 _ c) (share5_1 _ c) (share5_rest _ c) (fun b => Gen.V14 m (outs m) c b) (fun b => Gen.V15 m (outs m) c b)
      ((pd5 m c).arrAt · cfg5.N) (hF5 m c) (hrest5 m c))

abbrev pd6 (c : Dev nD) : Dat τ (Elt F) Unit ℕ (UR sig nD τ) ℕ cfg6 c := dat6 (fun c b => Gen.V16 m (outs m) c b) c

theorem in6 : ∀ w : Fin cfg6.W, w ≠ 4 → w ≠ 5 →
    (cfg6.win w).isOut = false ∧ Pipeline.arrRef spec6 w ∉ ([main_v116_0, main_v116_1] : List (Ref sig .tc)) := by decide

theorem hF6 (c : Dev nD) (w : Fin cfg6.W) :
    (pd6 m c).arrAt w cfg6.N = Gen.V17 m (outs m) c (Pipeline.arrRef spec6 w) := by
  by_cases h4 : w = 4
  · subst h4; exact (outs_17_0 m c).symm.trans (V17_at_0 m c).symm
  by_cases h5 : w = 5
  · subst h5; exact (outs_17_1 m c).symm.trans (V17_at_1 m c).symm
  exact ((pd6 m c).arrAt_in w (in6 w h4 h5).1 _).trans ((A_eq6 _ c w).trans (Gen.V17_of m (outs m) c _ (in6 w h4 h5).2).symm)

theorem hrest6 (c : Dev nD) (b : Ref sig .tc) (hb : b ∉ Finset.univ.image (Pipeline.arrRef spec6)) :
    Gen.V17 m (outs m) c b = Gen.V16 m (outs m) c b :=
  Gen.V17_of m (outs m) c b (List.not_mem_cons_of_ne_of_not_mem (ne_arr (cfg := cfg6) hb 4) (List.not_mem_cons_of_ne_of_not_mem (ne_arr (cfg := cfg6) hb 5) List.not_mem_nil))

set_option backward.isDefEq.respectTransparency.types false in
def reg6 : Pipeline.RegionSeg (pcfgs (F := F)) Gen.adm (pdats m) () defs₀ Variants.none (fun _ => ∅) (fun _ _ => 0) 6 :=
  regOf m 6 launch6.win.to₀ launch6.block_pos launch6.stage_whole (Gen.V16 m (outs m)) (Gen.V17 m (outs m))
    (fun c => (body_obligation6 (fun c b => Gen.V16 m (outs m) c b) c).loose) rfl (fun _ _ => rfl) (fun _ => rfl) (fun _ => in_of) (fun _ => out_of)
    (fun c => Pipeline.arrays_of_unscopedBufs (p := 6) (pcfgs (F := F)) Gen.adm (pdats m) launch6.win launch6.arr_whole c
      ((pd6 m c).share_full fun _ => rfl) (fun b => Gen.V16 m (outs m) c b) fun w => A_eq6 (fun c b => Gen.V16 m (outs m) c b) c w)
    (fun c => Pipeline.unscopedBufs_of_arrays (p := 6) (pcfgs (F := F)) Gen.adm launch6.win launch6.arr_whole c (pdats m)
      ((pd6 m c).share_full fun _ => rfl) (fun b => Gen.V16 m (outs m) c b) (fun b => Gen.V17 m (outs m) c b)
      ((pd6 m c).arrAt · cfg6.N) (hF6 m c) (hrest6 m c))

theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  rw [BI.bigSep_emp_const]
  have hown : (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) := .rfl
  iintro Hu
  imodintro
  isplitl [Hu]
  · iapply hown; iexact Hu
  iempintro

theorem launch_rest (ρ : Dev nD → PrngReg) :
    iprop((bigSep Finset.univ fun c : Dev nD => iprop(unscopedSems0 c
          ∗ owes (c : Thread nD τ) ((0 : Dev nD → CellTallies nD τ sig Unit) c) ∅
          ∗ Pipeline.launchCred (0 : Dev nD → CellTallies nD τ sig Unit) c ∗ prngReg c (ρ c) ∗ (BI.emp : sProp 𝕄)))
        ∗ levAts (fun _ => ∅) (fun _ _ => 0))
      ⊢ (|={Set.univ}=> bigSep Finset.univ (fun c : Dev nD => Rst c) : sProp 𝕄) := by
  refine Pipeline.initEach (fun _ => ∅) (fun _ _ => 0) fun c => ?_
  iintro ⟨⟨-, HO, -, Hp, -⟩, -⟩
  imodintro
  isplitl [Hp]
  · iexists _; iexact Hp
  iexists ∅
  iexact HO

theorem rest_owes (c : Dev nD) :
    Rst c ⊢ (iprop(∃ W, owes (c : Thread nD τ) (0 : CellTallies nD τ sig Unit) W) : sProp 𝕄) := by
  iintro ⟨-, H⟩
  iexact H

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Gen.frame_cond m emb₁ () Variants.none (fun _ => ∅) (fun _ _ => 0) (fun _ _ => rfl) ρ (outs m) (pdats m)
    0 (fun _ => (BI.emp : sProp 𝕄)) (initOf (Pipeline.cells cfgs cellOf_inj) (Pipeline.launchToks cfgs cellOf_inj)) launch_ghost
    (fun _ c => Rst c) (launch_rest ρ) (fun c => rest_owes c)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)

end Cert.KernelIdeal.Fr

end
-- ==== Proof.KI.RunOut.lean ====
import proofs.«408774_j4466765988336_3_alg».proof.Proof.KI.Run
import proofs.«408774_j4466765988336_3_alg».proof.Proof.KI.RunCond

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

theorem run_out (ρ : Dev nD → PrngReg) :
    θ_run defs (onTc (τ := τ) (main (F := F))) ⟨m, fun _ => 0, ρ⟩ (fun r => ∀ c : Dev nD,
      r.2.mem ((c.tc : Thread nD τ).loc main_v116_0) = Gen.V17 m (outs m) c main_v116_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_cond m emb₁ () Variants.none (fun _ => ∅) (fun _ _ => 0) (fun _ _ => rfl) ρ (outs m) (pdats m)
    0 (fun _ => (BI.emp : sProp 𝕄)) (initOf (Pipeline.cells cfgs cellOf_inj) (Pipeline.launchToks cfgs cellOf_inj)) launch_ghost
    (fun _ c => Rst c) (launch_rest ρ) (fun c => rest_owes c)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)

end Cert.KernelIdeal.Fr

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev SN : Shape := ⟨2, ![100000, 128]⟩
abbrev SE : Shape := ⟨2, ![500000, 128]⟩
abbrev SEI : Shape := ⟨2, ![500000, 1]⟩
abbrev SI : Shape := ⟨2, ![2, 500000]⟩
abbrev SW : Shape := ⟨2, ![128, 128]⟩
abbrev SWE : Shape := ⟨2, ![128, 256]⟩
abbrev SG : Shape := ⟨2, ![1, 256]⟩
abbrev SB : Shape := ⟨1, ![1]⟩
abbrev S0 : Shape := ⟨0, ![]⟩

def AllReal {S : Shape} (x : S.Idx → EReal) : Prop := ∀ i, ∃ r : ℝ, x i = (r : EReal)

/-- Every endpoint of every edge names a node: a signed word in `[0, 100000)`. -/
def InRange (idx : SI.Idx → BitVec 32) : Prop := ∀ i, 0 ≤ (idx i).toInt ∧ (idx i).toInt < 100000

/-- The node an index word names. -/
def node (v : BitVec 32) : Fin 100000 := ⟨v.toNat % 100000, Nat.mod_lt _ (by decide)⟩

def pcol (idx : SI.Idx → BitVec 32) : SEI.Idx → BitVec 32 := fun j => idx (ix2 0 (j 0))
def ccol (idx : SI.Idx → BitVec 32) : SEI.Idx → BitVec 32 := fun j => idx (ix2 1 (j 0))

/-- The accumulating scatter of edge rows into node rows, one index word an edge. -/
def scat : ScatterDims SN SEI SE where
  updateWindowDims := [1]
  insertedWindowDims := [0]
  scatterDimsToOperandDims := [0]
  indexVectorDim := 1
  wf := by decide

def one : EReal := Ideal.ofBits .f32 0x3F800000#32
def zero : EReal := Ideal.ofBits .f32 0x00000000#32

/-- The logistic function spelt out in negation, exponential, sum and quotient. -/
def sigH (x : EReal) : EReal := Ideal.div one (one + Ideal.exp (-x))

/-- The step weight `σ(T − s)`, `s` given by its word. -/
def wstep (T : S0.Idx → EReal) (s : BitVec 32) : EReal := sigH (T ix0 - Ideal.ofBits .f32 s)

def lin (x : SN.Idx → EReal) (W : SW.Idx → EReal) : SN.Idx → EReal :=
  fun i => ∑ k : Fin 128, x (ix2 (i 0) k) * W (ix2 (i 1) k)

def hp (h : SN.Idx → EReal) (idx : SI.Idx → BitVec 32) (e : Fin 500000) (k : Fin 128) : EReal :=
  h (ix2 (node (idx (ix2 0 e))) k)
def hc (h : SN.Idx → EReal) (idx : SI.Idx → BitVec 32) (e : Fin 500000) (k : Fin 128) : EReal :=
  h (ix2 (node (idx (ix2 1 e))) k)

def lo (k : Fin 128) : Fin 256 := ⟨k.val, by omega⟩
def hi (k : Fin 128) : Fin 256 := ⟨128 + k.val, by omega⟩

/-- The concatenated endpoint features of an edge. -/
def ec (h : SN.Idx → EReal) (idx : SI.Idx → BitVec 32) (e : Fin 500000) (k : Fin 256) : EReal :=
  if hk : k.val < 128 then hp h idx e ⟨k.val, hk⟩ else hc h idx e ⟨k.val - 128, by omega⟩

/-- The gated edge message, each contraction split into the two halves of the concatenation. -/
def msgK (h : SN.Idx → EReal) (idx : SI.Idx → BitVec 32) (We : SWE.Idx → EReal) (G : SG.Idx → EReal) (b : SB.Idx → EReal) :
    SE.Idx → EReal := fun j =>
  ((∑ k : Fin 128, hp h idx (j 0) k * We (ix2 (j 1) (lo k))) + (∑ k : Fin 128, hc h idx (j 0) k * We (ix2 (j 1) (hi k))))
    * Ideal.logistic (((∑ k : Fin 128, hp h idx (j 0) k * G (ix2 0 (lo k))) + (∑ k : Fin 128, hc h idx (j 0) k * G (ix2 0 (hi k))))
        + b (ix1 0))

/-- The gated edge message over the concatenation. -/
def msgR (h : SN.Idx → EReal) (idx : SI.Idx → BitVec 32) (We : SWE.Idx → EReal) (G : SG.Idx → EReal) (b : SB.Idx → EReal) :
    SE.Idx → EReal := fun j =>
  (∑ k : Fin 256, ec h idx (j 0) k * We (ix2 (j 1) k))
    * sigH ((∑ k : Fin 256, ec h idx (j 0) k * G (ix2 0 k)) + b (ix1 0))

/-- Every message added into both endpoint rows of a zero table. -/
def agg (idx : SI.Idx → BitVec 32) (msg : SE.Idx → EReal) : SN.Idx → EReal :=
  Ideal.hostScatterAdd scat (Ideal.hostScatterAdd scat (fun _ => zero) (pcol idx) msg) (ccol idx) msg

/-- The node update `h + w · relu(agg · W_pcᵀ + h)`, -/
def combK (h a : SN.Idx → EReal) (Wpc : SW.Idx → EReal) (w : EReal) : SN.Idx → EReal := fun i =>
  h i + w * max ((∑ k : Fin 128, a (ix2 (i 0) k) * Wpc (ix2 (i 1) k)) + h i) zero
/-- and with the residual unfolded: `h + w · ((relu(agg · W_pcᵀ + h) + h) − h)`. -/
def combR (h a : SN.Idx → EReal) (Wpc : SW.Idx → EReal) (w : EReal) : SN.Idx → EReal := fun i =>
  h i + w * ((max ((∑ k : Fin 128, a (ix2 (i 0) k) * Wpc (ix2 (i 1) k)) + h i) zero + h i) - h i)

def stepK (idx : SI.Idx → BitVec 32) (Wpc : SW.Idx → EReal) (We : SWE.Idx → EReal) (G : SG.Idx → EReal) (b : SB.Idx → EReal)
    (w : EReal) (h : SN.Idx → EReal) : SN.Idx → EReal :=
  combK h (agg idx (msgK h idx We G b)) Wpc w
def stepR (idx : SI.Idx → BitVec 32) (Wpc : SW.Idx → EReal) (We : SWE.Idx → EReal) (G : SG.Idx → EReal) (b : SB.Idx → EReal)
    (w : EReal) (h : SN.Idx → EReal) : SN.Idx → EReal :=
  combR h (agg idx (msgR h idx We G b)) Wpc w

/-- The layer: the projection, then the iterations at `s = 0, 1, 2`, in the split arrangement, -/
def resultK (x : SN.Idx → EReal) (idx : SI.Idx → BitVec 32) (Ws Wpc : SW.Idx → EReal) (We : SWE.Idx → EReal) (G : SG.Idx → EReal)
    (b : SB.Idx → EReal) (T : S0.Idx → EReal) : SN.Idx → EReal :=
  stepK idx Wpc We G b (wstep T 0x40000000#32) (stepK idx Wpc We G b (wstep T 0x3F800000#32)
    (stepK idx Wpc We G b (wstep T 0x00000000#32) (lin x Ws)))
/-- and over the concatenation. -/
def resultR (x : SN.Idx → EReal) (idx : SI.Idx → BitVec 32) (Ws Wpc : SW.Idx → EReal) (We : SWE.Idx → EReal) (G : SG.Idx → EReal)
    (b : SB.Idx → EReal) (T : S0.Idx → EReal) : SN.Idx → EReal :=
  stepR idx Wpc We G b (wstep T 0x40000000#32) (stepR idx Wpc We G b (wstep T 0x3F800000#32)
    (stepR idx Wpc We G b (wstep T 0x00000000#32) (lin x Ws)))

end Cert.Spec

end
-- ==== Proof.KI.ValLib.lean ====
import proofs.«408774_j4466765988336_3_alg».proof.Proof.Gen.KernelIdeal.Skeleton
import proofs.«408774_j4466765988336_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Fr

open Cert.KernelIdeal Cert.KernelIdeal.Gen
open Idealize.ShloMosaic Idealize.ShloMosaic.TcCoe Idealize.SL.Sem Idealize.ShloMosaic.ValueIdx

theorem mm_lhs_0 (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl

theorem mm_rhs_0 (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl

/-- A 10000 × 128 block times a transposed 128 × 128 matrix, from zero: entry `(p, q)` is row `p` against row `q`. -/
theorem mm_apply (a : FVec Ideal S10000x128 .bf16) (b : FVec Ideal S128x128 .bf16) (p : Fin 10000) (q : Fin 128) :
    matmul dot_S10000x128_S128x128_S10000x128_1_1_0_0_n_n none a b (constant (F := Ideal) S10000x128 .f32 0x00000000#32) (ix2 p q)
      = ∑ k : Fin 128, a (ix2 p k) * b (ix2 q k) := by
  simp only [matmul]
  rw [Ideal.matmul_constant_zero_apply, ← Equiv.sum_comp (contrEquiv1 dot_S10000x128_S128x128_S10000x128_1_1_0_0_n_n 128 rfl rfl).symm]
  refine Finset.sum_congr rfl fun k _ => ?_
  have hk := contrEquiv1_symm_val dot_S10000x128_S128x128_S10000x128_1_1_0_0_n_n 128 rfl rfl k
  rw [show dot_S10000x128_S128x128_S10000x128_1_1_0_0_n_n.lhsIdx (ix2 p q) ((contrEquiv1 dot_S10000x128_S128x128_S10000x128_1_1_0_0_n_n 128 rfl rfl).symm k) = ix2 p k from
      Shape.idx_ext₂ (mm_lhs_0 _ _) ((dot_S10000x128_S128x128_S10000x128_1_1_0_0_n_n.lhsIdx_val_of_single rfl _ _).trans hk),
    show dot_S10000x128_S128x128_S10000x128_1_1_0_0_n_n.rhsIdx (ix2 p q) ((contrEquiv1 dot_S10000x128_S128x128_S10000x128_1_1_0_0_n_n 128 rfl rfl).symm k) = ix2 q k from
      Shape.idx_ext₂ (mm_rhs_0 _ _) ((dot_S10000x128_S128x128_S10000x128_1_1_0_0_n_n.rhsIdx_val_of_single rfl _ _).trans hk)]

theorem red_apply (src : FVec Ideal S10000x128 .f32) (p : Fin 10000) :
    multiReduction (F := Ideal) .add [1] S10000 src 0x00000000#32 reduces_S10000x128_S10000 (.inl rfl) rfl (ix1 p)
      = ∑ k : Fin 128, src (ix2 p k) :=
  (Ideal.multiReduction_add_single src 0x00000000#32 reduces_S10000x128_S10000 (.inl rfl) rfl (ix1 p)).trans
    (Finset.sum_congr rfl fun k _ => congrArg src (funext fun a => Fin.ext (by
      match a with
      | ⟨0, _⟩ => rfl
      | ⟨1, _⟩ => rfl)))

theorem col_apply (v : FVec Ideal S10000 .f32) (p : Fin 10000) (u : Fin 1) :
    shapeCast S10000x1 v shapeCasts_S10000_S10000x1 (ix2 p u) = v (ix1 p) :=
  shapeCast_apply v shapeCasts_S10000_S10000x1 _ _ (by
    have hu : u.val = 0 := by omega
    rw [Shape.rowMajor_val_one, Shape.rowMajor_val_two]
    show p.val = p.val * 1 + u.val
    omega)

theorem spread_apply (v : FVec Ideal S10000x1 .f32) (p : Fin 10000) (q : Fin 128) :
    broadcastTo S10000x128 v broadcasts_S10000x1_S10000x128 (ix2 p q) = v (ix2 p (0 : Fin 1)) := by
  refine broadcastTo_apply v broadcasts_S10000x1_S10000x128 (ix2 p q) (ix2 p (0 : Fin 1)) fun ax => ?_
  match ax with
  | ⟨0, _⟩ => show p.val = if (10000 : Nat) = 1 then 0 else p.val; rw [if_neg (by decide)]
  | ⟨1, _⟩ => rfl

theorem hz : (![0, 0] : Fin 2 → Nat) = fun _ => 0 := funext fun a => by fin_cases a <;> rfl

/-- In a unit-stride block of a rank-2 array the entry under `y` sits at the block's offset plus `y`, axis by axis. -/
theorem unit2_emb {R C : Nat} {o s : Fin 2 → Nat} {inb : ∀ a, o a + s a ≤ (⟨2, ![R, C]⟩ : Shape).size a}
    (y : (⟨2, s⟩ : Shape).Idx) (i : (⟨2, ![R, C]⟩ : Shape).Idx)
    (h0 : (i 0).val = o 0 + (y 0).val) (h1 : (i 1).val = o 1 + (y 1).val) :
    (Rect.unit (s := ⟨2, ![R, C]⟩) o s inb).emb y = i :=
  Shape.idx_ext₂ (by rw [Rect.emb_apply]; show o 0 + 1 * (y 0).val = _; omega)
    (by rw [Rect.emb_apply]; show o 1 + 1 * (y 1).val = _; omega)

/-- An entry lies in the full-width block of 10000 rows that holds its row. -/
theorem unit2_mem_rows {R C : Nat} {o s : Fin 2 → Nat} {inb : ∀ a, o a + s a ≤ (⟨2, ![R, C]⟩ : Shape).size a}
    (i : (⟨2, ![R, C]⟩ : Shape).Idx) (h0 : o 0 = (i 0).val / 10000 * 10000) (hs0 : s 0 = 10000)
    (h1 : o 1 = 0) (hs1 : s 1 = C) : i ∈ (Rect.unit (s := ⟨2, ![R, C]⟩) o s inb).set :=
  Rect.mem_set_unit.mpr (Fin.forall_fin_two.mpr
    ⟨by rw [h0, hs0]; omega, by rw [h1, hs1]; have := idx2_lt1 i; omega⟩)

/-- The gated message at edge row `r`, lane `q`: rows `r` and `500000 + r` of `A` against the weight halves, gated by the logistic of the gate products plus the bias. -/
abbrev gate (A : S1000000x128.Idx → EReal) (W2 W3 : S128x128.Idx → EReal) (g4 g5 : S1x128.Idx → EReal)
    (b6 : S1x1.Idx → EReal) : S500000x128.Idx → EReal := fun j =>
  ((∑ k : Fin 128, A (ix2 (⟨(j 0).val, by have := idx2_lt0 j; omega⟩ : Fin 1000000) k) * W2 (ix2 (j 1) k))
      + (∑ k : Fin 128, A (ix2 (⟨500000 + (j 0).val, by have := idx2_lt0 j; omega⟩ : Fin 1000000) k) * W3 (ix2 (j 1) k)))
    * Ideal.logistic (((∑ k : Fin 128, A (ix2 (⟨(j 0).val, by have := idx2_lt0 j; omega⟩ : Fin 1000000) k) * g4 (ix2 (0 : Fin 1) k))
        + (∑ k : Fin 128, A (ix2 (⟨500000 + (j 0).val, by have := idx2_lt0 j; omega⟩ : Fin 1000000) k) * g5 (ix2 (0 : Fin 1) k)))
      + b6 (ix2 (0 : Fin 1) (0 : Fin 1)))

/-- The edge body at row `p`, lane `q`, when its two large blocks hold rows `r` and `500000 + r` of `A`, is the gated message at row `r`. -/
theorem gate_block (A : S1000000x128.Idx → EReal) (W2 W3 : FVec Ideal S128x128 .bf16) (g4 g5 : FVec Ideal S1x128 .f32)
    (b6 : FVec Ideal S1x1 .f32) (x0 x1 : FVec Ideal S10000x128 .bf16) (p : Fin 10000) (q : Fin 128) (r : Fin 500000)
    (h0 : ∀ k, x0 (ix2 p k) = A (ix2 (⟨r.val, by have := r.isLt; omega⟩ : Fin 1000000) k))
    (h1 : ∀ k, x1 (ix2 p k) = A (ix2 (⟨500000 + r.val, by have := r.isLt; omega⟩ : Fin 1000000) k)) :
    mulf (addf (matmul dot_S10000x128_S128x128_S10000x128_1_1_0_0_n_n none x0 W2 (constant (F := Ideal) S10000x128 .f32 0x00000000#32)) (matmul dot_S10000x128_S128x128_S10000x128_1_1_0_0_n_n none x1 W3 (constant (F := Ideal) S10000x128 .f32 0x00000000#32)))
      (broadcastTo S10000x128 (logistic (addf (addf
        (shapeCast S10000x1 (multiReduction .add [1] S10000 (mulf (extf .f32 x0 bitsLt_bf16_f32)
          (broadcastTo S10000x128 g4 broadcasts_S1x128_S10000x128)) 0x00000000#32 reduces_S10000x128_S10000 (.inl rfl) rfl) shapeCasts_S10000_S10000x1)
        (shapeCast S10000x1 (multiReduction .add [1] S10000 (mulf (extf .f32 x1 bitsLt_bf16_f32)
          (broadcastTo S10000x128 g5 broadcasts_S1x128_S10000x128)) 0x00000000#32 reduces_S10000x128_S10000 (.inl rfl) rfl) shapeCasts_S10000_S10000x1))
        (broadcastTo S10000x1 b6 broadcasts_S1x1_S10000x1))) broadcasts_S10000x1_S10000x128) (ix2 p q)
      = gate A W2 W3 g4 g5 b6 (ix2 r q) := by
  refine congrArg₂ (· * ·) (congrArg₂ (· + ·)
    ((mm_apply _ _ p q).trans (Finset.sum_congr rfl fun k _ => congrArg (· * W2 (ix2 q k)) (h0 k)))
    ((mm_apply _ _ p q).trans (Finset.sum_congr rfl fun k _ => congrArg (· * W3 (ix2 q k)) (h1 k)))) ?_
  refine (spread_apply _ p q).trans (congrArg Ideal.logistic ?_)
  refine congrArg₂ (· + ·) (congrArg₂ (· + ·) ?_ ?_) (broadcastTo_1b_ab_apply _ _ p (0 : Fin 1))
  · exact (col_apply _ p 0).trans ((red_apply _ p).trans (Finset.sum_congr rfl fun k _ =>
      congrArg₂ (· * ·) (h0 k) (broadcastTo_1b_ab_apply _ _ p k)))
  · exact (col_apply _ p 0).trans ((red_apply _ p).trans (Finset.sum_congr rfl fun k _ =>
      congrArg₂ (· * ·) (h1 k) (broadcastTo_1b_ab_apply _ _ p k)))

/-- The node-update body at row `p`, lane `q`, when its two large blocks hold row `r` of `h` and of `a`, is the node update at row `r`. -/
theorem comb_block (h a : Cert.Spec.SN.Idx → EReal) (W : FVec Ideal S128x128 .bf16) (s : FVec Ideal S1x1 .f32)
    (x0 x2 : FVec Ideal S10000x128 .f32) (p : Fin 10000) (q : Fin 128) (r : Fin 100000)
    (h0 : x0 (ix2 p q) = h (ix2 r q)) (h2 : ∀ k, x2 (ix2 p k) = a (ix2 r k)) :
    addf x0 (mulf (broadcastTo S10000x128 s broadcasts_S1x1_S10000x128) (maximumf
      (addf (matmul dot_S10000x128_S128x128_S10000x128_1_1_0_0_n_n none (truncf .bf16 x2 bitsLt_bf16_f32) W (constant (F := Ideal) S10000x128 .f32 0x00000000#32)) x0)
      (broadcast S10000x128 (Scalar.ofBits .f32 0x00000000#32 : Ideal .f32)))) (ix2 p q)
      = Cert.Spec.combK h a W (s (ix2 0 0)) (ix2 r q) := by
  rw [addf_apply, mulf_apply, maximumf_apply, addf_apply, broadcast_apply, mm_apply, h0,
    broadcastTo_apply s broadcasts_S1x1_S10000x128 (ix2 p q) (ix2 0 0) (fun a => by
      match a with
      | ⟨0, _⟩ => rfl
      | ⟨1, _⟩ => rfl)]
  exact congrArg (fun z => h (ix2 r q) + s (ix2 0 0) * max (z + h (ix2 r q)) Cert.Spec.zero)
    (Finset.sum_congr rfl fun k _ => congrArg (· * W (ix2 q k)) (h2 k))

end Cert.KernelIdeal.Fr

end
-- ==== Proof.KI.Val0.lean ====
import proofs.«408774_j4466765988336_3_alg».proof.Proof.KI.Reg0
import proofs.«408774_j4466765988336_3_alg».proof.Proof.KI.ValLib

noncomputable section

namespace Cert.KernelIdeal.Fr

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The body at point `t`, row `p`, is row `10000·t + p` of the features against the weight; narrowing changes no extended real. -/
theorem point0 (c : Dev nD) (t : Fin cfg0.N) (p : Fin 10000) (q : Fin 128) (h : 10000 * t.val + p.val < 100000) :
    k0_pay1 (F := Ideal) (iblk0 V c 0 t) (iblk0 V c 1 t) (ix2 p q)
      = Cert.Spec.lin (V c main_arg0) (V c main_v5) (ix2 (⟨10000 * t.val + p.val, h⟩ : Fin 100000) q) := by
  obtain ⟨e0, e1, e2, e3, -⟩ := idx_facts0 t
  unfold k0_pay1
  simp only [shapeCast_self]
  show _ = ∑ k : Fin 128, _
  exact (mm_apply _ _ p q).trans (Finset.sum_congr rfl fun k _ => congrArg₂ (· * ·)
    (congrArg (V c main_arg0 : S100000x128.Idx → EReal) (unit2_emb (ix2 p k) _
      (by show 10000 * t.val + p.val = win0_0.index t 0 * 10000 + p.val; rw [e0]; omega)
      (by show k.val = win0_0.index t 1 * 128 + k.val; rw [e1]; omega)))
    (congrArg (V c main_v5 : S128x128.Idx → EReal) (unit2_emb (ix2 q k) _
      (by show q.val = win0_1.index t 0 * 128 + q.val; rw [e2]; omega)
      (by show k.val = win0_1.index t 1 * 128 + k.val; rw [e3]; omega))))

/-- Point `t` writes rows `10000·t …` of the first projection into the single-width result, -/
theorem flushed0_2 (c : Dev nD) (t : Fin cfg0.N) :
    (dat0 (F := Ideal) V c).flushed 2 t = ((cfg0.win 2).blk t).view.read (Elt Ideal) (Cert.Spec.lin (V c main_arg0) (V c main_v5)) := by
  obtain ⟨-, -, -, -, e4, e5, -⟩ := idx_facts0 t
  have ht : t.val < 10 := t.isLt.trans_eq N_0
  show (cfg0.win 2).cut (grid0.coords t) ((dat0 (F := Ideal) V c).after 2 t) = _
  rw [after0_2]
  unfold out0_2
  rw [View.canon_unit_zero hz]
  simp only [View.ld_unit_zero (S := S10000x128) hz, View.ld_unit_zero (S := S128x128) hz]
  funext j
  obtain ⟨p, q, rfl⟩ : ∃ (p : Fin 10000) (q : Fin 128), j = ix2 p q := ⟨j 0, j 1, eq_ix2 j⟩
  have hp := p.isLt
  exact (point0 V c t p q (by omega)).trans (congrArg (Cert.Spec.lin (V c main_arg0) (V c main_v5)) (unit2_emb (ix2 p q) _
    (by show 10000 * t.val + p.val = win0_2.index t 0 * 10000 + p.val; rw [e4]; omega)
    (by show q.val = win0_2.index t 1 * 128 + q.val; rw [e5]; omega))).symm

/-- and the same numbers into the half-width one. -/
theorem flushed0_3 (c : Dev nD) (t : Fin cfg0.N) :
    (dat0 (F := Ideal) V c).flushed 3 t = ((cfg0.win 3).blk t).view.read (Elt Ideal) (Cert.Spec.lin (V c main_arg0) (V c main_v5)) := by
  obtain ⟨-, -, -, -, -, -, e6, e7⟩ := idx_facts0 t
  have ht : t.val < 10 := t.isLt.trans_eq N_0
  show (cfg0.win 3).cut (grid0.coords t) ((dat0 (F := Ideal) V c).after 3 t) = _
  rw [after0_3]
  unfold out0_3
  rw [View.canon_unit_zero hz]
  simp only [View.ld_unit_zero (S := S10000x128) hz, View.ld_unit_zero (S := S128x128) hz]
  funext j
  obtain ⟨p, q, rfl⟩ : ∃ (p : Fin 10000) (q : Fin 128), j = ix2 p q := ⟨j 0, j 1, eq_ix2 j⟩
  have hp := p.isLt
  exact (point0 V c t p q (by omega)).trans (congrArg (Cert.Spec.lin (V c main_arg0) (V c main_v5)) (unit2_emb (ix2 p q) _
    (by show 10000 * t.val + p.val = win0_3.index t 0 * 10000 + p.val; rw [e6]; omega)
    (by show q.val = win0_3.index t 1 * 128 + q.val; rw [e7]; omega))).symm

/-- Row `r` is written by point `r / 10000`. -/
theorem tiles0_2 (i : S100000x128.Idx) :
    ∃ t : Fin cfg0.N, (cfg0.win 2).flush t = true ∧ i ∈ ((cfg0.win 2).blk t).view.set := by
  have hi := idx2_lt0 i
  let t : Fin cfg0.N := ⟨(i 0).val / 10000, (show (i 0).val / 10000 < 10 by omega).trans_eq N_0.symm⟩
  obtain ⟨-, -, -, -, e4, e5, -⟩ := idx_facts0 t
  refine ⟨t, flush0_2 t, ?_⟩
  show i ∈ ((View.whole (Pipeline.arrRef spec0 2)).slice (win0_2.rect t)).set
  rw [View.set_slice_whole]
  exact unit2_mem_rows i (by show win0_2.index t 0 * 10000 = _; rw [e4]) rfl
    (by show win0_2.index t 1 * 128 = 0; rw [e5]) rfl

theorem tiles0_3 (i : S100000x128.Idx) :
    ∃ t : Fin cfg0.N, (cfg0.win 3).flush t = true ∧ i ∈ ((cfg0.win 3).blk t).view.set := by
  have hi := idx2_lt0 i
  let t : Fin cfg0.N := ⟨(i 0).val / 10000, (show (i 0).val / 10000 < 10 by omega).trans_eq N_0.symm⟩
  obtain ⟨-, -, -, -, -, -, e6, e7⟩ := idx_facts0 t
  refine ⟨t, flush0_3 t, ?_⟩
  show i ∈ ((View.whole (Pipeline.arrRef spec0 3)).slice (win0_3.rect t)).set
  rw [View.set_slice_whole]
  exact unit2_mem_rows i (by show win0_3.index t 0 * 10000 = _; rw [e6]) rfl
    (by show win0_3.index t 1 * 128 = 0; rw [e7]) rfl

theorem val0_2 (c : Dev nD) :
    ((dat0 (F := Ideal) V c).arrAt 2 cfg0.N : Cert.Spec.SN.Idx → EReal) = Cert.Spec.lin (V c main_arg0) (V c main_v5) :=
  (dat0 (F := Ideal) V c).arrAt_eq_of_cover 2 (Cert.Spec.lin (V c main_arg0) (V c main_v5)) (fun t _ => flushed0_2 V c t) tiles0_2

theorem val0_3 (c : Dev nD) :
    ((dat0 (F := Ideal) V c).arrAt 3 cfg0.N : Cert.Spec.SN.Idx → EReal) = Cert.Spec.lin (V c main_arg0) (V c main_v5) :=
  (dat0 (F := Ideal) V c).arrAt_eq_of_cover 3 (Cert.Spec.lin (V c main_arg0) (V c main_v5)) (fun t _ => flushed0_3 V c t) tiles0_3

end Cert.KernelIdeal.Fr

end
-- ==== Proof.LibGather.lean ====
import Idealize.ShloMosaic.PureOps.ShapeOps
import Idealize.ShloMosaic.PureOps.Dims
import Idealize.ShloMosaic.Lib.ValueIdx

noncomputable section

namespace Cert.LibGather

open Idealize.ShloMosaic Idealize.ShloMosaic.ValueIdx

theorem toInt_eq_toNat_of_nonneg {v : BitVec 32} (h0 : 0 ≤ v.toInt) : v.toInt = (v.toNat : Int) := by
  have h := BitVec.toInt_eq_toNat_cond v
  have hlt := v.isLt
  split at h
  · exact h
  · omega

theorem toNat_lt_of_toInt {v : BitVec 32} {N : Nat} (h0 : 0 ≤ v.toInt) (hN : v.toInt < N) : v.toNat < N := by
  have h := toInt_eq_toNat_of_nonneg h0
  omega

theorem clamp_of_inRange {v : BitVec 32} {N : Nat} (h0 : 0 ≤ v.toInt) (hN : v.toInt < N) :
    min v.toInt.toNat (N - 1) = v.toNat := by
  have h := toInt_eq_toNat_of_nonneg h0
  omega

/-- A whole-row gather at an index word in range reads the row the word names: the clamp is the identity there. -/
theorem gather_rows_apply {N M C : Nat} (d : GatherDims ⟨2, ![N, C]⟩ ⟨2, ![M, 1]⟩ ⟨2, ![M, C]⟩)
    (hd : d.offsetDims = [1] ∧ d.collapsedSliceDims = [0] ∧ d.operandBatchingDims = [] ∧ d.startIndicesBatchingDims = []
      ∧ d.startIndexMap = [0] ∧ d.indexVectorDim = 1 ∧ d.sliceSizes = ![1, C])
    {α : Type} (x : (⟨2, ![N, C]⟩ : Shape).Idx → α) (idx : IVec ⟨2, ![M, 1]⟩ 32) (e : Fin M) (k : Fin C)
    (h0 : 0 ≤ (idx (ix2 e 0)).toInt) (hN : (idx (ix2 e 0)).toInt < N) :
    Host.gather d x idx (ix2 e k) = x (ix2 ⟨(idx (ix2 e 0)).toNat, toNat_lt_of_toInt h0 hN⟩ k) := by
  obtain ⟨od, cd, ob, sb, sm, iv, ss, wf⟩ := d
  simp only at hd
  obtain ⟨rfl, rfl, rfl, rfl, rfl, rfl, rfl⟩ := hd
  unfold Host.gather
  congr 1
  funext a
  refine Fin.ext ?_

  generalize hD : (GatherDims.mk [1] [0] [] [] [0] 1 ![1, C] wf :
    GatherDims ⟨2, ![N, C]⟩ ⟨2, ![M, 1]⟩ ⟨2, ![M, C]⟩) = D
  have hob : D.operandBatchingDims = [] := by rw [← hD]
  have hcd : D.collapsedSliceDims = [0] := by rw [← hD]
  have hsm : D.startIndexMap = [0] := by rw [← hD]
  show D.start (ix2 e k) idx a + D.batchCoord (ix2 e k) a + D.offCoord (ix2 e k) a = _
  rw [D.batchCoord_eq_zero _ a (by rw [hob]; exact List.not_mem_nil), Nat.add_zero]
  obtain ⟨av, hav⟩ := a
  have h2 : av < 2 := hav
  have hcases : av = 0 ∨ av = 1 := by omega
  rcases hcases with rfl | rfl
  ·
    have hmem : (⟨0, hav⟩ : Fin 2) ∈ D.startIndexMap := by rw [hsm]; exact List.mem_singleton.2 rfl
    rw [D.offCoord_eq_zero _ _ (fun h => ((D.mem_sKept _).1 h).1 (by rw [hcd]; exact List.mem_singleton.2 rfl)), Nat.add_zero]
    unfold GatherDims.start
    rw [dif_pos hmem]

    have hsi : ∀ c : Fin D.startIndexMap.length, D.siIdx (ix2 e k) c = ix2 e 0 := by
      subst hD
      intro c
      have hc : c.val < 1 := c.isLt
      funext b; refine Fin.ext ?_
      match b with
      | ⟨0, _⟩ => rfl
      | ⟨1, _⟩ => show c.val = 0; omega
    rw [hsi]
    subst hD
    exact clamp_of_inRange h0 hN
  ·
    have hne : (⟨1, hav⟩ : Fin 2) ≠ 0 := fun h => Nat.one_ne_zero (congrArg Fin.val h)
    have hnm : (⟨1, hav⟩ : Fin 2) ∉ D.startIndexMap := by rw [hsm, List.mem_singleton]; exact hne
    have hk : (⟨1, hav⟩ : Fin 2) ∈ D.sKept :=
      (D.mem_sKept _).2 ⟨by rw [hcd, List.mem_singleton]; exact hne, by rw [hob]; exact List.not_mem_nil⟩
    unfold GatherDims.start GatherDims.offCoord
    rw [dif_neg hnm, dif_pos hk, Nat.zero_add]
    subst hD
    rfl

end Cert.LibGather

end
-- ==== Proof.KI.HostVal.lean ====
import proofs.«408774_j4466765988336_3_alg».proof.Proof.Gen.KernelIdeal.Launch
import proofs.«408774_j4466765988336_3_alg».proof.Proof.Spec
import proofs.«408774_j4466765988336_3_alg».proof.Proof.LibGather
import Idealize.ShloMosaic.Lib.StableHlo.Run
import Idealize.ShloMosaic.Lib.ValueIdx
import Idealize.ShloMosaic.Lib.Pipeline.Value
import Idealize.ShloMosaic.Lib.ValueLayout
import Idealize.ShloMosaic.Lib.StableHlo.Predicate

set_option maxRecDepth 1488

noncomputable section

namespace Cert.KernelIdeal.Fr

open Idealize.ShloMosaic Idealize.ShloMosaic.TcCoe Idealize.ShloMosaic.ValueIdx
open Cert.KernelIdeal Cert.KernelIdeal.Gen
open Cert.LibGather (toInt_eq_toNat_of_nonneg)

variable (Vp : Valuation τ sig (Elt Ideal))

theorem after0_v5 : (StableHlo.after hostOps0 Vp main_v5 : Cert.Spec.SW.Idx → EReal) = Vp main_arg2 := by
  after_results; rfl

theorem after0_v13 : (StableHlo.after hostOps0 Vp main_v13 : Cert.Spec.SW.Idx → EReal) = Vp main_arg3 := by
  after_results; rfl

theorem after0_v7 : (StableHlo.after hostOps0 Vp main_v7 : Cert.Spec.SW.Idx → EReal)
    = fun i => (Vp main_arg4 : Cert.Spec.SWE.Idx → EReal) (ix2 (i 0) (Cert.Spec.lo (i 1))) := by
  after_results
  funext i
  obtain ⟨a, b, rfl⟩ : ∃ a b, i = ix2 a b := ⟨i 0, i 1, eq_ix2 i⟩
  show extractStridedSlice S128x128 ![0, 0] (Vp main_arg4 : Cert.Spec.SWE.Idx → EReal) slices_S128x256_S128x128_0_0 (ix2 a b) = _
  exact slice2_axis1_apply 0 _ _ a b (Cert.Spec.lo b) (Nat.zero_add _).symm

theorem after0_v9 : (StableHlo.after hostOps0 Vp main_v9 : Cert.Spec.SW.Idx → EReal)
    = fun i => (Vp main_arg4 : Cert.Spec.SWE.Idx → EReal) (ix2 (i 0) (Cert.Spec.hi (i 1))) := by
  after_results
  funext i
  obtain ⟨a, b, rfl⟩ : ∃ a b, i = ix2 a b := ⟨i 0, i 1, eq_ix2 i⟩
  show extractStridedSlice S128x128 ![0, 128] (Vp main_arg4 : Cert.Spec.SWE.Idx → EReal) slices_S128x256_S128x128_0_128 (ix2 a b) = _
  exact slice2_axis1_apply 128 _ _ a b (Cert.Spec.hi b) rfl

theorem after0_v10 : (StableHlo.after hostOps0 Vp main_v10 : (⟨2, ![1, 128]⟩ : Shape).Idx → EReal)
    = fun i => (Vp main_arg5 : Cert.Spec.SG.Idx → EReal) (ix2 0 (Cert.Spec.lo (i 1))) := by
  after_results
  funext i
  obtain ⟨a, b, rfl⟩ : ∃ a b, i = ix2 a b := ⟨i 0, i 1, eq_ix2 i⟩
  obtain rfl : a = 0 := Subsingleton.elim _ _
  exact slice2_axis1_apply 0 _ _ 0 b (Cert.Spec.lo b) (Nat.zero_add _).symm

theorem after0_v11 : (StableHlo.after hostOps0 Vp main_v11 : (⟨2, ![1, 128]⟩ : Shape).Idx → EReal)
    = fun i => (Vp main_arg5 : Cert.Spec.SG.Idx → EReal) (ix2 0 (Cert.Spec.hi (i 1))) := by
  after_results
  funext i
  obtain ⟨a, b, rfl⟩ : ∃ a b, i = ix2 a b := ⟨i 0, i 1, eq_ix2 i⟩
  obtain rfl : a = 0 := Subsingleton.elim _ _
  exact slice2_axis1_apply 128 _ _ 0 b (Cert.Spec.hi b) rfl

theorem after0_v12 : (StableHlo.after hostOps0 Vp main_v12 : (⟨2, ![1, 1]⟩ : Shape).Idx → EReal) (ix2 0 0)
    = (Vp main_arg6 : Cert.Spec.SB.Idx → EReal) (ix1 0) := by
  after_results
  exact shapeCast_a_1a_apply _ _ 0 0

theorem after0_v1 : (StableHlo.after hostOps0 Vp main_v1 : (⟨1, ![500000]⟩ : Shape).Idx → BitVec 32)
    = fun i => (Vp main_arg1 : Cert.Spec.SI.Idx → BitVec 32) (ix2 0 (i 0)) := by
  after_results
  funext i
  obtain ⟨a, rfl⟩ : ∃ a, i = ix1 a := ⟨i 0, eq_ix1 i⟩
  refine (shapeCast_1a_a_apply _ _ a).trans ?_
  exact slice2_axis0_apply 0 _ _ 0 a 0 rfl

theorem after0_v3 : (StableHlo.after hostOps0 Vp main_v3 : (⟨1, ![500000]⟩ : Shape).Idx → BitVec 32)
    = fun i => (Vp main_arg1 : Cert.Spec.SI.Idx → BitVec 32) (ix2 1 (i 0)) := by
  after_results
  funext i
  obtain ⟨a, rfl⟩ : ∃ a, i = ix1 a := ⟨i 0, eq_ix1 i⟩
  refine (shapeCast_1a_a_apply _ _ a).trans ?_
  exact slice2_axis0_apply 1 _ _ 0 a 1 rfl

theorem after0_v4 : (StableHlo.after hostOps0 Vp main_v4 : (⟨1, ![1000000]⟩ : Shape).Idx → BitVec 32)
    = fun i => if h : (i 0).val < 500000 then (Vp main_arg1 : Cert.Spec.SI.Idx → BitVec 32) (ix2 0 ⟨(i 0).val, h⟩)
        else (Vp main_arg1 : Cert.Spec.SI.Idx → BitVec 32)
          (ix2 1 ⟨(i 0).val - 500000, by have h2 : (i 0).val < 1000000 := (i 0).isLt; omega⟩) := by
  after_results
  funext i
  obtain ⟨a, rfl⟩ : ∃ a, i = ix1 a := ⟨i 0, eq_ix1 i⟩
  have ha : a.val < 1000000 := a.isLt
  split
  ·
    next h =>
    have h' : a.val < 500000 := h
    refine (concatenate_pair_apply_left (t := S1000000) (s₁ := S500000) (s₂ := S500000) (0 : Fin 1) _ _ _ (ix1 a) rfl
      (ix1 (⟨a.val, h'⟩ : Fin 500000)) ?_).trans ?_
    · intro b; obtain rfl : b = 0 := Subsingleton.elim _ _; rfl
    · refine (shapeCast_1a_a_apply _ _ _).trans ?_
      exact slice2_axis0_apply 0 _ _ 0 _ 0 rfl
  ·
    next h =>
    have h' : ¬ a.val < 500000 := h
    refine (concatenate_pair_apply_right (t := S1000000) (s₁ := S500000) (s₂ := S500000) (0 : Fin 1) _ _ _ (ix1 a) rfl rfl
      (ix1 (⟨a.val - 500000, by omega⟩ : Fin 500000)) ?_ ?_).trans ?_
    · intro b hb; exact absurd (Subsingleton.elim _ _) hb
    · show a.val - 500000 + 500000 = a.val; omega
    · refine (shapeCast_1a_a_apply _ _ _).trans ?_
      exact slice2_axis0_apply 1 _ _ 0 _ 1 rfl

theorem shapeCast_scalar_11 {α : Type} (x : (⟨0, ![]⟩ : Shape).Idx → α) (h : (⟨0, ![]⟩ : Shape).ShapeCasts ⟨2, ![1, 1]⟩) :
    shapeCast ⟨2, ![1, 1]⟩ x h (ix2 0 0) = x ix0 :=
  shapeCast_apply x h _ _ (by
    have h1 : ((⟨0, ![]⟩ : Shape).rowMajor ix0).val < 1 := ((⟨0, ![]⟩ : Shape).rowMajor ix0).isLt
    have h2 : ((⟨2, ![1, 1]⟩ : Shape).rowMajor (ix2 0 0)).val < 1 := ((⟨2, ![1, 1]⟩ : Shape).rowMajor (ix2 0 0)).isLt
    omega)

theorem after1_v20 : (StableHlo.after hostOps1 Vp main_v20 : (⟨2, ![1, 1]⟩ : Shape).Idx → EReal) (ix2 0 0)
    = Cert.Spec.wstep (Vp main_arg7) 0x00000000#32 := by
  after_results
  exact (shapeCast_scalar_11 _ _).trans rfl

theorem after3_v54 : (StableHlo.after hostOps3 Vp main_v54 : (⟨2, ![1, 1]⟩ : Shape).Idx → EReal) (ix2 0 0)
    = Cert.Spec.wstep (Vp main_arg7) 0x3F800000#32 := by
  after_results
  exact (shapeCast_scalar_11 _ _).trans rfl

theorem after5_v88 : (StableHlo.after hostOps5 Vp main_v88 : (⟨2, ![1, 1]⟩ : Shape).Idx → EReal) (ix2 0 0)
    = Cert.Spec.wstep (Vp main_arg7) 0x40000000#32 := by
  after_results
  exact (shapeCast_scalar_11 _ _).trans rfl

theorem bcast_col_apply {α : Type} {n : Nat} (h : (⟨1, ![n]⟩ : Shape).BroadcastsInDim ⟨2, ![n, 1]⟩ ![0])
    (v : (⟨1, ![n]⟩ : Shape).Idx → α) (j : (⟨2, ![n, 1]⟩ : Shape).Idx) :
    broadcastInDim ⟨2, ![n, 1]⟩ ![0] h v j = v (ix1 (j 0)) := by
  unfold broadcastInDim
  congr 1; funext a
  obtain rfl : a = 0 := Subsingleton.elim _ _
  refine Fin.ext ?_
  have hj : (j 0).val < n := (j 0).isLt
  split
  · next h1 => have h1' : n = 1 := h1; show 0 = (j 0).val; omega
  · rfl

theorem bcast_one_apply {α : Type} {t : Shape} (dims : Fin 1 → Fin t.rank) (h : (⟨1, ![1]⟩ : Shape).BroadcastsInDim t dims)
    (v : (⟨1, ![1]⟩ : Shape).Idx → α) (j : t.Idx) : broadcastInDim t dims h v j = v (ix1 0) := by
  unfold broadcastInDim
  congr 1; funext a
  obtain rfl : a = 0 := Subsingleton.elim _ _
  split
  · rfl
  · next h1 => exact absurd rfl h1

/-- The gather of node rows by a column of words, at an entry: the row the word names, for a word in range. -/
theorem gather_col (T : Cert.Spec.SN.Idx → EReal) (col : (⟨1, ![1000000]⟩ : Shape).Idx → BitVec 32) (e : Fin 1000000)
    (k : Fin 128) (h0 : 0 ≤ (col (ix1 e)).toInt) (hN : (col (ix1 e)).toInt < 100000) :
    Host.gather gather_S100000x128_S1000000x1_S1000000x128_1_0_n_n_0_1_1128 T
      (broadcastInDim S1000000x1 ![0] bcast_S1000000_S1000000x1_0 col) (ix2 e k)
    = T (ix2 ⟨(col (ix1 e)).toNat, Cert.LibGather.toNat_lt_of_toInt h0 hN⟩ k) := by
  rw [show broadcastInDim S1000000x1 ![0] bcast_S1000000_S1000000x1_0 col = fun j => col (ix1 (j 0)) from
    funext (bcast_col_apply _ _)]
  exact Cert.LibGather.gather_rows_apply _ ⟨rfl, rfl, rfl, rfl, rfl, rfl, rfl⟩ _ _ e k h0 hN

theorem after11_v21 (e : Fin 1000000) (k : Fin 128)
    (h0 : 0 ≤ ((Vp main_v4 : (⟨1, ![1000000]⟩ : Shape).Idx → BitVec 32) (ix1 e)).toInt)
    (hN : ((Vp main_v4 : (⟨1, ![1000000]⟩ : Shape).Idx → BitVec 32) (ix1 e)).toInt < 100000) :
    (StableHlo.after hostOps1_1 Vp main_v21 : (⟨2, ![1000000, 128]⟩ : Shape).Idx → EReal) (ix2 e k)
    = (Vp main_v14_1 : Cert.Spec.SN.Idx → EReal)
        (ix2 ⟨((Vp main_v4 : (⟨1, ![1000000]⟩ : Shape).Idx → BitVec 32) (ix1 e)).toNat,
          Cert.LibGather.toNat_lt_of_toInt h0 hN⟩ k) := by
  after_results
  simp only [StableHlo.TRef.ofBuf, StableHlo.TRef.toBuf, cast_eq]
  exact gather_col _ _ e k h0 hN

theorem after31_v55 (e : Fin 1000000) (k : Fin 128)
    (h0 : 0 ≤ ((Vp main_v4 : (⟨1, ![1000000]⟩ : Shape).Idx → BitVec 32) (ix1 e)).toInt)
    (hN : ((Vp main_v4 : (⟨1, ![1000000]⟩ : Shape).Idx → BitVec 32) (ix1 e)).toInt < 100000) :
    (StableHlo.after hostOps3_1 Vp main_v55 : (⟨2, ![1000000, 128]⟩ : Shape).Idx → EReal) (ix2 e k)
    = (Vp main_v48_1 : Cert.Spec.SN.Idx → EReal)
        (ix2 ⟨((Vp main_v4 : (⟨1, ![1000000]⟩ : Shape).Idx → BitVec 32) (ix1 e)).toNat,
          Cert.LibGather.toNat_lt_of_toInt h0 hN⟩ k) := by
  after_results
  simp only [StableHlo.TRef.ofBuf, StableHlo.TRef.toBuf, cast_eq]
  exact gather_col _ _ e k h0 hN

theorem after51_v89 (e : Fin 1000000) (k : Fin 128)
    (h0 : 0 ≤ ((Vp main_v4 : (⟨1, ![1000000]⟩ : Shape).Idx → BitVec 32) (ix1 e)).toInt)
    (hN : ((Vp main_v4 : (⟨1, ![1000000]⟩ : Shape).Idx → BitVec 32) (ix1 e)).toInt < 100000) :
    (StableHlo.after hostOps5_1 Vp main_v89 : (⟨2, ![1000000, 128]⟩ : Shape).Idx → EReal) (ix2 e k)
    = (Vp main_v82_1 : Cert.Spec.SN.Idx → EReal)
        (ix2 ⟨((Vp main_v4 : (⟨1, ![1000000]⟩ : Shape).Idx → BitVec 32) (ix1 e)).toNat,
          Cert.LibGather.toNat_lt_of_toInt h0 hN⟩ k) := by
  after_results
  simp only [StableHlo.TRef.ofBuf, StableHlo.TRef.toBuf, cast_eq]
  exact gather_col _ _ e k h0 hN

section Words
variable {s : Shape} {w : Nat}

theorem minsi_apply (x y : IVec s w) (i : s.Idx) : minsi x y i = IntOp.minsi (x i) (y i) := rfl
theorem maxsi_apply (x y : IVec s w) (i : s.Idx) : maxsi x y i = IntOp.maxsi (x i) (y i) := rfl
theorem addi_apply (x y : IVec s w) (i : s.Idx) : addi x y i = IntOp.addi (x i) (y i) := rfl
theorem cmpi_apply (p : CmpIPredicate) (x y : IVec s w) (i : s.Idx) : cmpi p x y i = IntOp.cmpi p (x i) (y i) := rfl

theorem bcast_constI_apply {s' t : Shape} (dims : Fin s'.rank → Fin t.rank) (h : s'.BroadcastsInDim t dims) (b : BitVec w)
    (j : t.Idx) : broadcastInDim t dims h (constantI s' w b) j = b := rfl

end Words

def wrapClamp (col : IVec S500000 32) : IVec S500000x1 32 :=
  minsi (maxsi (broadcastInDim S500000x1 ![0] bcast_S500000_S500000x1_0
      (select (cmpi .slt col (broadcastInDim S500000 ![] bcast_S_S500000 (constantI S_ 32 0#32)))
        (addi col (broadcastInDim S500000 ![] bcast_S_S500000 (constantI S_ 32 100000#32))) col))
    (broadcastInDim S500000x1 ![] bcast_S_S500000x1 (constantI S_ 32 0#32)))
    (broadcastInDim S500000x1 ![1] bcast_S1_S500000x1_1
      (minsi (constantI S1 32 99999#32) (broadcastInDim S1 ![] bcast_S_S1 (constantI S_ 32 2147483647#32))))

theorem wrapClamp_word (w : BitVec 32) (h0 : 0 ≤ w.toInt) (hN : w.toInt < 100000) :
    IntOp.minsi (IntOp.maxsi (Scalar.select (IntOp.cmpi .slt w 0#32) (IntOp.addi w 100000#32) w) 0#32)
      (IntOp.minsi 99999#32 2147483647#32) = w := by
  have hnat : w.toInt = (w.toNat : Int) := toInt_eq_toNat_of_nonneg h0
  have hs : IntOp.cmpi .slt w 0#32 = 0#1 := by
    show BitVec.ofBool (w.slt 0#32) = 0#1
    have hf : w.slt 0#32 = false := by
      simp only [BitVec.slt, show (0#32 : BitVec 32).toInt = 0 from by decide, decide_eq_false_iff_not]; omega
    rw [hf]; rfl
  rw [hs, select_zero, show IntOp.minsi 99999#32 2147483647#32 = 99999#32 from by decide]
  exact StableHlo.Predicate.clamp_eval w 99999#32 (by decide) (by
    have : (99999#32 : BitVec 32).toNat = 99999 := by decide
    omega)

theorem wrapClamp_eq (col : IVec S500000 32) (h : ∀ i, 0 ≤ (col i).toInt ∧ (col i).toInt < 100000) :
    wrapClamp col = fun j => col (ix1 (j 0)) := by
  funext j
  unfold wrapClamp
  rw [minsi_apply, maxsi_apply, bcast_col_apply, select_apply, cmpi_apply, addi_apply, bcast_one_apply, minsi_apply]
  simp only [bcast_constI_apply, constantI_apply]
  exact wrapClamp_word _ (h _).1 (h _).2

theorem scat2_congr (z z' : Cert.Spec.SN.Idx → EReal) (i1 i1' i3 i3' : IVec S500000x1 32) (u : Cert.Spec.SE.Idx → EReal)
    (hz : z = z') (h1 : i1 = i1') (h3 : i3 = i3') :
    Host.scatterAdd (F := Ideal) (φ := .f32) scatter_S100000x128_S500000x1_S500000x128_1_0_0_1
      (Host.scatterAdd (F := Ideal) (φ := .f32) scatter_S100000x128_S500000x1_S500000x128_1_0_0_1 z i1 u) i3 u
    = Ideal.hostScatterAdd Cert.Spec.scat (Ideal.hostScatterAdd Cert.Spec.scat z' i1' u) i3' u := by
  subst hz h1 h3
  rfl

theorem after2_v47 (h1 : ∀ i, 0 ≤ ((Vp main_v1 : (⟨1, ![500000]⟩ : Shape).Idx → BitVec 32) i).toInt
      ∧ ((Vp main_v1 : (⟨1, ![500000]⟩ : Shape).Idx → BitVec 32) i).toInt < 100000)
    (h3 : ∀ i, 0 ≤ ((Vp main_v3 : (⟨1, ![500000]⟩ : Shape).Idx → BitVec 32) i).toInt
      ∧ ((Vp main_v3 : (⟨1, ![500000]⟩ : Shape).Idx → BitVec 32) i).toInt < 100000) :
    (StableHlo.after hostOps2 Vp main_v47 : Cert.Spec.SN.Idx → EReal)
    = Ideal.hostScatterAdd Cert.Spec.scat
        (Ideal.hostScatterAdd Cert.Spec.scat (fun _ => Cert.Spec.zero)
          (fun j => (Vp main_v1 : (⟨1, ![500000]⟩ : Shape).Idx → BitVec 32) (ix1 (j 0))) (Vp main_v22))
        (fun j => (Vp main_v3 : (⟨1, ![500000]⟩ : Shape).Idx → BitVec 32) (ix1 (j 0))) (Vp main_v22) := by
  after_results_simp
  exact scat2_congr _ _ _ _ _ _ _ (funext fun _ => rfl) (wrapClamp_eq _ h1) (wrapClamp_eq _ h3)

theorem after4_v81 (h1 : ∀ i, 0 ≤ ((Vp main_v1 : (⟨1, ![500000]⟩ : Shape).Idx → BitVec 32) i).toInt
      ∧ ((Vp main_v1 : (⟨1, ![500000]⟩ : Shape).Idx → BitVec 32) i).toInt < 100000)
    (h3 : ∀ i, 0 ≤ ((Vp main_v3 : (⟨1, ![500000]⟩ : Shape).Idx → BitVec 32) i).toInt
      ∧ ((Vp main_v3 : (⟨1, ![500000]⟩ : Shape).Idx → BitVec 32) i).toInt < 100000) :
    (StableHlo.after hostOps4 Vp main_v81 : Cert.Spec.SN.Idx → EReal)
    = Ideal.hostScatterAdd Cert.Spec.scat
        (Ideal.hostScatterAdd Cert.Spec.scat (fun _ => Cert.Spec.zero)
          (fun j => (Vp main_v1 : (⟨1, ![500000]⟩ : Shape).Idx → BitVec 32) (ix1 (j 0))) (Vp main_v56))
        (fun j => (Vp main_v3 : (⟨1, ![500000]⟩ : Shape).Idx → BitVec 32) (ix1 (j 0))) (Vp main_v56) := by
  after_results_simp
  exact scat2_congr _ _ _ _ _ _ _ (funext fun _ => rfl) (wrapClamp_eq _ h1) (wrapClamp_eq _ h3)

theorem after6_v115 (h1 : ∀ i, 0 ≤ ((Vp main_v1 : (⟨1, ![500000]⟩ : Shape).Idx → BitVec 32) i).toInt
      ∧ ((Vp main_v1 : (⟨1, ![500000]⟩ : Shape).Idx → BitVec 32) i).toInt < 100000)
    (h3 : ∀ i, 0 ≤ ((Vp main_v3 : (⟨1, ![500000]⟩ : Shape).Idx → BitVec 32) i).toInt
      ∧ ((Vp main_v3 : (⟨1, ![500000]⟩ : Shape).Idx → BitVec 32) i).toInt < 100000) :
    (StableHlo.after hostOps6 Vp main_v115 : Cert.Spec.SN.Idx → EReal)
    = Ideal.hostScatterAdd Cert.Spec.scat
        (Ideal.hostScatterAdd Cert.Spec.scat (fun _ => Cert.Spec.zero)
          (fun j => (Vp main_v1 : (⟨1, ![500000]⟩ : Shape).Idx → BitVec 32) (ix1 (j 0))) (Vp main_v90))
        (fun j => (Vp main_v3 : (⟨1, ![500000]⟩ : Shape).Idx → BitVec 32) (ix1 (j 0))) (Vp main_v90) := by
  after_results_simp
  exact scat2_congr _ _ _ _ _ _ _ (funext fun _ => rfl) (wrapClamp_eq _ h1) (wrapClamp_eq _ h3)

end Cert.KernelIdeal.Fr

end
-- ==== Proof.KI.ChainBase.lean ====
import proofs.«408774_j4466765988336_3_alg».proof.Proof.Gen.KernelIdeal.Regions
import proofs.«408774_j4466765988336_3_alg».proof.Proof.Spec
import proofs.«408774_j4466765988336_3_alg».proof.Proof.KI.Run
import proofs.«408774_j4466765988336_3_alg».proof.Proof.KI.Val0
import proofs.«408774_j4466765988336_3_alg».proof.Proof.KI.HostVal
import Idealize.ShloMosaic.PureOps.Ideal
import Idealize.ShloMosaic.Lib.ValueIdx

set_option maxRecDepth 1488

noncomputable section

namespace Cert.KernelIdeal.Fr

open Cert.KernelIdeal Cert.KernelIdeal.Gen
open Idealize.ShloMosaic Idealize.ShloMosaic.TcCoe Idealize.ShloMosaic.ValueIdx

theorem node_of_lt {v : BitVec 32} (hlt : v.toNat < 100000) : (⟨v.toNat, hlt⟩ : Fin 100000) = Cert.Spec.node v :=
  Fin.ext (Nat.mod_eq_of_lt hlt).symm

section Keep
variable (m : (ℓ : Loc nD τ sig) → Buf (Elt Ideal) ℓ) (os : Gen.Outs (F := Ideal)) (c : Dev nD)

abbrev L2 : List (Ref sig .tc) := [main_v14_0, main_v14_1]
abbrev L3 : List (Ref sig .tc) := hostOps1_W ++ L2
abbrev L4 : List (Ref sig .tc) := hostOps1_1_W ++ L3
abbrev L5 : List (Ref sig .tc) := [main_v22] ++ L4
abbrev L6 : List (Ref sig .tc) := hostOps2_W ++ L5
abbrev L7 : List (Ref sig .tc) := [main_v48_0, main_v48_1] ++ L6
abbrev L8 : List (Ref sig .tc) := hostOps3_W ++ L7
abbrev L9 : List (Ref sig .tc) := hostOps3_1_W ++ L8
abbrev L10 : List (Ref sig .tc) := [main_v56] ++ L9
abbrev L11 : List (Ref sig .tc) := hostOps4_W ++ L10
abbrev L12 : List (Ref sig .tc) := [main_v82_0, main_v82_1] ++ L11
abbrev L13 : List (Ref sig .tc) := hostOps5_W ++ L12
abbrev L14 : List (Ref sig .tc) := hostOps5_1_W ++ L13
abbrev L15 : List (Ref sig .tc) := [main_v90] ++ L14
abbrev L16 : List (Ref sig .tc) := hostOps6_W ++ L15

/-- What a step leaves alone and nothing before it wrote is still at the first contents. -/
theorem keep_of {A B X : Valuation τ sig (Elt Ideal)} {L L' : List (Ref sig .tc)}
    (hB : ∀ r, r ∉ L' → B r = A r) (hA : ∀ r, r ∉ L → A r = X r) (r : Ref sig .tc) (h : r ∉ L' ++ L) : B r = X r :=
  (hB r fun hm => h (List.mem_append_left _ hm)).trans (hA r fun hm => h (List.mem_append_right _ hm))

theorem V2_keep (r : Ref sig .tc) (h : r ∉ L2) : Gen.V2 m os c r = Gen.V1 m c r := Gen.V2_of m os c r h
theorem V3_keep (r : Ref sig .tc) (h : r ∉ L3) : Gen.V3 m os c r = Gen.V1 m c r :=
  keep_of (Gen.V3_of m os c) (V2_keep m os c) r h
theorem V4_keep (r : Ref sig .tc) (h : r ∉ L4) : Gen.V4 m os c r = Gen.V1 m c r :=
  keep_of (Gen.V4_of m os c) (V3_keep m os c) r h
theorem V5_keep (r : Ref sig .tc) (h : r ∉ L5) : Gen.V5 m os c r = Gen.V1 m c r :=
  keep_of (Gen.V5_of m os c) (V4_keep m os c) r h
theorem V6_keep (r : Ref sig .tc) (h : r ∉ L6) : Gen.V6 m os c r = Gen.V1 m c r :=
  keep_of (Gen.V6_of m os c) (V5_keep m os c) r h
theorem V7_keep (r : Ref sig .tc) (h : r ∉ L7) : Gen.V7 m os c r = Gen.V1 m c r :=
  keep_of (Gen.V7_of m os c) (V6_keep m os c) r h
theorem V8_keep (r : Ref sig .tc) (h : r ∉ L8) : Gen.V8 m os c r = Gen.V1 m c r :=
  keep_of (Gen.V8_of m os c) (V7_keep m os c) r h
theorem V9_keep (r : Ref sig .tc) (h : r ∉ L9) : Gen.V9 m os c r = Gen.V1 m c r :=
  keep_of (Gen.V9_of m os c) (V8_keep m os c) r h
theorem V10_keep (r : Ref sig .tc) (h : r ∉ L10) : Gen.V10 m os c r = Gen.V1 m c r :=
  keep_of (Gen.V10_of m os c) (V9_keep m os c) r h
theorem V11_keep (r : Ref sig .tc) (h : r ∉ L11) : Gen.V11 m os c r = Gen.V1 m c r :=
  keep_of (Gen.V11_of m os c) (V10_keep m os c) r h
theorem V12_keep (r : Ref sig .tc) (h : r ∉ L12) : Gen.V12 m os c r = Gen.V1 m c r :=
  keep_of (Gen.V12_of m os c) (V11_keep m os c) r h
theorem V13_keep (r : Ref sig .tc) (h : r ∉ L13) : Gen.V13 m os c r = Gen.V1 m c r :=
  keep_of (Gen.V13_of m os c) (V12_keep m os c) r h
theorem V14_keep (r : Ref sig .tc) (h : r ∉ L14) : Gen.V14 m os c r = Gen.V1 m c r :=
  keep_of (Gen.V14_of m os c) (V13_keep m os c) r h
theorem V15_keep (r : Ref sig .tc) (h : r ∉ L15) : Gen.V15 m os c r = Gen.V1 m c r :=
  keep_of (Gen.V15_of m os c) (V14_keep m os c) r h
theorem V16_keep (r : Ref sig .tc) (h : r ∉ L16) : Gen.V16 m os c r = Gen.V1 m c r :=
  keep_of (Gen.V16_of m os c) (V15_keep m os c) r h

end Keep

section Glue

open Cert.Spec in
theorem row_eq {x : SN.Idx → EReal} {w v : BitVec 32} (hw : w = v) (h1 : w.toNat < 100000) (k : Fin 128) :
    x (ix2 ⟨w.toNat, h1⟩ k) = x (ix2 (node v) k) := by
  subst hw
  rw [node_of_lt h1]

open Cert.Spec in
theorem msg_glue (h : SN.Idx → EReal) (idx : SI.Idx → BitVec 32) (We : SWE.Idx → EReal) (G : SG.Idx → EReal) (b : SB.Idx → EReal)
    (A : (⟨2, ![1000000, 128]⟩ : Shape).Idx → EReal) (W7 W9 : SW.Idx → EReal)
    (g10 g11 : (⟨2, ![1, 128]⟩ : Shape).Idx → EReal) (b12 : (⟨2, ![1, 1]⟩ : Shape).Idx → EReal)
    (hP : ∀ (e : Fin 500000) (k : Fin 128) (he : e.val < 1000000), A (ix2 ⟨e.val, he⟩ k) = hp h idx e k)
    (hC : ∀ (e : Fin 500000) (k : Fin 128) (he : 500000 + e.val < 1000000), A (ix2 ⟨500000 + e.val, he⟩ k) = hc h idx e k)
    (h7 : W7 = fun i => We (ix2 (i 0) (lo (i 1)))) (h9 : W9 = fun i => We (ix2 (i 0) (hi (i 1))))
    (h10 : g10 = fun i => G (ix2 0 (lo (i 1)))) (h11 : g11 = fun i => G (ix2 0 (hi (i 1))))
    (h12 : b12 (ix2 0 0) = b (ix1 0)) :
    (fun (j : SE.Idx) =>
      let A' : (⟨2, ![1000000, 128]⟩ : Shape).Idx → EReal := A
      let p (k : Fin 128) := A' (ix2 (⟨(j 0).val, by have h2 : (j 0).val < 500000 := (j 0).isLt; omega⟩ : Fin 1000000) k)
      let q (k : Fin 128) := A' (ix2 (⟨500000 + (j 0).val, by have h2 : (j 0).val < 500000 := (j 0).isLt; omega⟩ : Fin 1000000) k)
      ((∑ k : Fin 128, p k * W7 (ix2 (j 1) k)) + (∑ k : Fin 128, q k * W9 (ix2 (j 1) k)))
        * Ideal.logistic (((∑ k : Fin 128, p k * g10 (ix2 0 k)) + (∑ k : Fin 128, q k * g11 (ix2 0 k))) + b12 (ix2 0 0)))
      = msgK h idx We G b := by
  subst h7 h9 h10 h11
  funext j
  have eP : ∀ (k : Fin 128) (he : (j 0).val < 1000000), A (ix2 ⟨(j 0).val, he⟩ k) = hp h idx (j 0) k := fun k he => hP (j 0) k he
  have eC : ∀ (k : Fin 128) (he : 500000 + (j 0).val < 1000000), A (ix2 ⟨500000 + (j 0).val, he⟩ k) = hc h idx (j 0) k :=
    fun k he => hC (j 0) k he
  simp only [eP, eC, h12]
  rfl

open Cert.Spec in
theorem agg_glue (idx : SI.Idx → BitVec 32) (msg : SE.Idx → EReal) (c1 c3 : (⟨1, ![500000]⟩ : Shape).Idx → BitVec 32)
    (h1 : c1 = fun i => idx (ix2 0 (i 0))) (h3 : c3 = fun i => idx (ix2 1 (i 0))) :
    Ideal.hostScatterAdd scat (Ideal.hostScatterAdd scat (fun _ => zero) (fun j => c1 (ix1 (j 0))) msg) (fun j => c3 (ix1 (j 0))) msg
      = agg idx msg := by
  subst h1 h3
  rfl

open Cert.Spec in
theorem comb_glue {a h g ag : SN.Idx → EReal} {W Wpc : SW.Idx → EReal} {w0 w : EReal}
    (e1 : a = h) (e2 : g = ag) (e3 : W = Wpc) (e4 : w0 = w) : combK a g W w0 = combK h ag Wpc w := by
  subst e1 e2 e3 e4
  rfl

end Glue

section Chain
variable (m : (ℓ : Loc nD τ sig) → Buf (Elt Ideal) ℓ) (c : Dev nD)

abbrev aX : Cert.Spec.SN.Idx → EReal := m ((c.tc : Thread nD τ).loc main_arg0)
abbrev aI : Cert.Spec.SI.Idx → BitVec 32 := m ((c.tc : Thread nD τ).loc main_arg1)
abbrev aWs : Cert.Spec.SW.Idx → EReal := m ((c.tc : Thread nD τ).loc main_arg2)
abbrev aWpc : Cert.Spec.SW.Idx → EReal := m ((c.tc : Thread nD τ).loc main_arg3)
abbrev aWe : Cert.Spec.SWE.Idx → EReal := m ((c.tc : Thread nD τ).loc main_arg4)
abbrev aG : Cert.Spec.SG.Idx → EReal := m ((c.tc : Thread nD τ).loc main_arg5)
abbrev aB : Cert.Spec.SB.Idx → EReal := m ((c.tc : Thread nD τ).loc main_arg6)
abbrev aT : Cert.Spec.S0.Idx → EReal := m ((c.tc : Thread nD τ).loc main_arg7)

abbrev s1 : BitVec 32 := 0x00000000#32
abbrev s2 : BitVec 32 := 0x3F800000#32
abbrev s3 : BitVec 32 := 0x40000000#32

theorem V1_arg (r : Ref sig .tc) (h : r ∉ hostOps0_W) : Gen.V1 m c r = m ((c.tc : Thread nD τ).loc r) := Gen.V1_of m c r h

theorem V1_v5 : (Gen.V1 m c main_v5 : Cert.Spec.SW.Idx → EReal) = aWs m c := after0_v5 (Gen.V0 m c)
theorem V1_v13 : (Gen.V1 m c main_v13 : Cert.Spec.SW.Idx → EReal) = aWpc m c := after0_v13 (Gen.V0 m c)
theorem V1_v7 : (Gen.V1 m c main_v7 : Cert.Spec.SW.Idx → EReal) = fun i => aWe m c (ix2 (i 0) (Cert.Spec.lo (i 1))) :=
  after0_v7 (Gen.V0 m c)
theorem V1_v9 : (Gen.V1 m c main_v9 : Cert.Spec.SW.Idx → EReal) = fun i => aWe m c (ix2 (i 0) (Cert.Spec.hi (i 1))) :=
  after0_v9 (Gen.V0 m c)
theorem V1_v10 : (Gen.V1 m c main_v10 : (⟨2, ![1, 128]⟩ : Shape).Idx → EReal) = fun i => aG m c (ix2 0 (Cert.Spec.lo (i 1))) :=
  after0_v10 (Gen.V0 m c)
theorem V1_v11 : (Gen.V1 m c main_v11 : (⟨2, ![1, 128]⟩ : Shape).Idx → EReal) = fun i => aG m c (ix2 0 (Cert.Spec.hi (i 1))) :=
  after0_v11 (Gen.V0 m c)
theorem V1_v12 : (Gen.V1 m c main_v12 : (⟨2, ![1, 1]⟩ : Shape).Idx → EReal) (ix2 0 0) = aB m c (ix1 0) := after0_v12 (Gen.V0 m c)
theorem V1_v1 : (Gen.V1 m c main_v1 : (⟨1, ![500000]⟩ : Shape).Idx → BitVec 32) = fun i => aI m c (ix2 0 (i 0)) :=
  after0_v1 (Gen.V0 m c)
theorem V1_v3 : (Gen.V1 m c main_v3 : (⟨1, ![500000]⟩ : Shape).Idx → BitVec 32) = fun i => aI m c (ix2 1 (i 0)) :=
  after0_v3 (Gen.V0 m c)

theorem V1_v4P (e : Fin 500000) (he : e.val < 1000000) :
    (Gen.V1 m c main_v4 : (⟨1, ![1000000]⟩ : Shape).Idx → BitVec 32) (ix1 ⟨e.val, he⟩) = aI m c (ix2 0 e) := by
  refine (congrFun (after0_v4 (Gen.V0 m c)) (ix1 ⟨e.val, he⟩)).trans ?_
  have h : ((ix1 (⟨e.val, he⟩ : Fin 1000000) : (⟨1, ![1000000]⟩ : Shape).Idx) 0).val < 500000 := e.isLt
  exact (dif_pos h).trans rfl

theorem V1_v4C (e : Fin 500000) (he : 500000 + e.val < 1000000) :
    (Gen.V1 m c main_v4 : (⟨1, ![1000000]⟩ : Shape).Idx → BitVec 32) (ix1 ⟨500000 + e.val, he⟩) = aI m c (ix2 1 e) := by
  refine (congrFun (after0_v4 (Gen.V0 m c)) (ix1 ⟨500000 + e.val, he⟩)).trans ?_
  have h : ¬ ((ix1 (⟨500000 + e.val, he⟩ : Fin 1000000) : (⟨1, ![1000000]⟩ : Shape).Idx) 0).val < 500000 := by
    show ¬ 500000 + e.val < 500000; omega
  refine (dif_neg h).trans ?_
  exact congrArg (fun t : Fin 500000 => aI m c (ix2 1 t)) (Fin.ext (by show 500000 + e.val - 500000 = e.val; omega))

theorem h0_0 : (Gen.V2 m (outs m) c main_v14_0 : Cert.Spec.SN.Idx → EReal) = Cert.Spec.lin (aX m c) (aWs m c) :=
  (V2_at_0 m c).trans ((outs_2_0 m c).trans ((val0_2 (fun c b => Gen.V1 m c b) c).trans
    (congrArg₂ Cert.Spec.lin (V1_arg m c main_arg0 (by decide)) (V1_v5 m c))))

theorem h0_1 : (Gen.V2 m (outs m) c main_v14_1 : Cert.Spec.SN.Idx → EReal) = Cert.Spec.lin (aX m c) (aWs m c) :=
  (V2_at_1 m c).trans ((outs_2_1 m c).trans ((val0_3 (fun c b => Gen.V1 m c b) c).trans
    (congrArg₂ Cert.Spec.lin (V1_arg m c main_arg0 (by decide)) (V1_v5 m c))))

end Chain

end Cert.KernelIdeal.Fr

end
-- ==== Proof.KI.Val1.lean ====
import proofs.«408774_j4466765988336_3_alg».proof.Proof.KI.Reg1
import proofs.«408774_j4466765988336_3_alg».proof.Proof.KI.ValLib

noncomputable section

namespace Cert.KernelIdeal.Fr

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem idx_facts1 : ∀ t : Fin cfg1.N, win1_0.index t (0 : Fin 2) = t.val ∧ win1_0.index t (1 : Fin 2) = 0
    ∧ win1_1.index t (0 : Fin 2) = t.val + 50 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Point `t` writes rows `10000·t …` of the gated message: the small blocks are their arrays, the large ones row blocks of the gathered features. -/
theorem flushed1_7_eq (c : Dev nD) (t : Fin cfg1.N) :
    (dat1 (F := Ideal) V c).flushed 7 t = ((cfg1.win 7).blk t).view.read (Elt Ideal)
      (gate (V c main_v21) (V c main_v7) (V c main_v9) (V c main_v10) (V c main_v11) (V c main_v12)) := by
  obtain ⟨e0, e1, e2, e3, e4, e5, e6, e7, e8, e9, e10, e11, e12, e13, e14, e15⟩ := idx_facts1 t
  have ht : t.val < 50 := t.isLt.trans_eq N_1
  show (cfg1.win 7).cut (grid1.coords t) ((dat1 (F := Ideal) V c).after 7 t) = _
  rw [after1_7,
    show iblk1 V c 2 t = V c main_v7 from funext fun y => congrArg (V c main_v7 : S128x128.Idx → EReal)
      (Shape.idx_ext₂ (win1_2.rect_emb_val_of_index_zero t 0 e4 y) (win1_2.rect_emb_val_of_index_zero t 1 e5 y)),
    show iblk1 V c 3 t = V c main_v9 from funext fun y => congrArg (V c main_v9 : S128x128.Idx → EReal)
      (Shape.idx_ext₂ (win1_3.rect_emb_val_of_index_zero t 0 e6 y) (win1_3.rect_emb_val_of_index_zero t 1 e7 y)),
    show iblk1 V c 4 t = V c main_v10 from funext fun y => congrArg (V c main_v10 : S1x128.Idx → EReal)
      (Shape.idx_ext₂ (win1_4.rect_emb_val_of_index_zero t 0 e8 y) (win1_4.rect_emb_val_of_index_zero t 1 e9 y)),
    show iblk1 V c 5 t = V c main_v11 from funext fun y => congrArg (V c main_v11 : S1x128.Idx → EReal)
      (Shape.idx_ext₂ (win1_5.rect_emb_val_of_index_zero t 0 e10 y) (win1_5.rect_emb_val_of_index_zero t 1 e11 y)),
    show iblk1 V c 6 t = V c main_v12 from funext fun y => congrArg (V c main_v12 : S1x1.Idx → EReal)
      (Shape.idx_ext₂ (win1_6.rect_emb_val_of_index_zero t 0 e12 y) (win1_6.rect_emb_val_of_index_zero t 1 e13 y))]
  unfold out1_7 k1_pay1
  rw [View.canon_unit_zero hz]
  simp only [View.ld_unit_zero (S := S10000x128) hz, View.ld_unit_zero (S := S128x128) hz,
    View.ld_unit_zero (S := S1x128) hz, View.ld_unit_zero (S := S1x1) hz, shapeCast_self]
  funext j
  obtain ⟨p, q, rfl⟩ : ∃ (p : Fin 10000) (q : Fin 128), j = ix2 p q := ⟨j 0, j 1, eq_ix2 j⟩
  have hp := p.isLt
  refine (gate_block (V c main_v21) (V c main_v7) (V c main_v9) (V c main_v10) (V c main_v11) (V c main_v12)
    (iblk1 V c 0 t) (iblk1 V c 1 t) p q ⟨10000 * t.val + p.val, by omega⟩
    (fun k => congrArg (V c main_v21 : S1000000x128.Idx → EReal) (unit2_emb (ix2 p k) _
      (by show 10000 * t.val + p.val = win1_0.index t 0 * 10000 + p.val; rw [e0]; omega)
      (by show k.val = win1_0.index t 1 * 128 + k.val; rw [e1]; omega)))
    (fun k => congrArg (V c main_v21 : S1000000x128.Idx → EReal) (unit2_emb (ix2 p k) _
      (by show 500000 + (10000 * t.val + p.val) = win1_1.index t 0 * 10000 + p.val; rw [e2]; omega)
      (by show k.val = win1_1.index t 1 * 128 + k.val; rw [e3]; omega)))).trans ?_
  exact (congrArg (gate (V c main_v21) (V c main_v7) (V c main_v9) (V c main_v10) (V c main_v11) (V c main_v12))
    (unit2_emb (ix2 p q) _ (by show 10000 * t.val + p.val = win1_7.index t 0 * 10000 + p.val; rw [e14]; omega)
      (by show q.val = win1_7.index t 1 * 128 + q.val; rw [e15]; omega))).symm

/-- Row `r` of the result is written by point `r / 10000`. -/
theorem tiles1_7 (i : S500000x128.Idx) :
    ∃ t : Fin cfg1.N, (cfg1.win 7).flush t = true ∧ i ∈ ((cfg1.win 7).blk t).view.set := by
  have hi := idx2_lt0 i
  let t : Fin cfg1.N := ⟨(i 0).val / 10000, (show (i 0).val / 10000 < 50 by omega).trans_eq N_1.symm⟩
  obtain ⟨-, -, -, -, -, -, -, -, -, -, -, -, -, -, e14, e15⟩ := idx_facts1 t
  refine ⟨t, flush1_7 t, ?_⟩
  show i ∈ ((View.whole (Pipeline.arrRef spec1 7)).slice (win1_7.rect t)).set
  rw [View.set_slice_whole]
  exact unit2_mem_rows i (by show win1_7.index t 0 * 10000 = _; rw [e14]) rfl
    (by show win1_7.index t 1 * 128 = 0; rw [e15]) rfl

theorem val1_7 (c : Dev nD) :
    ((dat1 (F := Ideal) V c).arrAt 7 cfg1.N : Cert.Spec.SE.Idx → EReal) = fun j =>
      let A : (⟨2, ![1000000, 128]⟩ : Shape).Idx → EReal := V c main_v21
      let p (k : Fin 128) := A (ix2 (⟨(j 0).val, by have := idx2_lt0 j; omega⟩ : Fin 1000000) k)
      let q (k : Fin 128) := A (ix2 (⟨500000 + (j 0).val, by have := idx2_lt0 j; omega⟩ : Fin 1000000) k)
      ((∑ k : Fin 128, p k * (V c main_v7 : Cert.Spec.SW.Idx → EReal) (ix2 (j 1) k))
          + (∑ k : Fin 128, q k * (V c main_v9 : Cert.Spec.SW.Idx → EReal) (ix2 (j 1) k)))
        * Ideal.logistic (((∑ k : Fin 128, p k * (V c main_v10 : (⟨2, ![1, 128]⟩ : Shape).Idx → EReal) (ix2 0 k))
            + (∑ k : Fin 128, q k * (V c main_v11 : (⟨2, ![1, 128]⟩ : Shape).Idx → EReal) (ix2 0 k)))
          + (V c main_v12 : (⟨2, ![1, 1]⟩ : Shape).Idx → EReal) (ix2 0 0)) :=
  (dat1 (F := Ideal) V c).arrAt_eq_of_cover 7
    (gate (V c main_v21) (V c main_v7) (V c main_v9) (V c main_v10) (V c main_v11) (V c main_v12))
    (fun t _ => flushed1_7_eq V c t) tiles1_7

end Cert.KernelIdeal.Fr

end
-- ==== Proof.KI.Val2.lean ====
import proofs.«408774_j4466765988336_3_alg».proof.Proof.KI.Reg2
import proofs.«408774_j4466765988336_3_alg».proof.Proof.KI.ValLib

noncomputable section

namespace Cert.KernelIdeal.Fr

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- The node update of the layer on the arrays the region finds. -/
abbrev G2 (c : Dev nD) : S100000x128.Idx → EReal :=
  Cert.Spec.combK (V c main_v14_0) (V c main_v47) (V c main_v13) ((V c main_v20 : (⟨2, ![1, 1]⟩ : Shape).Idx → EReal) (ix2 0 0))

/-- The body at point `t`, row `p`, is the node update at row `10000·t + p`: the small blocks are their arrays, the large ones row blocks. -/
theorem point2 (c : Dev nD) (t : Fin cfg2.N) (p : Fin 10000) (q : Fin 128) (h : 10000 * t.val + p.val < 100000) :
    k2_pay1 (F := Ideal) (iblk2 V c 1 t) (iblk2 V c 0 t) (iblk2 V c 2 t) (iblk2 V c 3 t) (ix2 p q)
      = G2 V c (ix2 (⟨10000 * t.val + p.val, h⟩ : Fin 100000) q) := by
  obtain ⟨e0, e1, e2, e3, e4, e5, e6, e7, -⟩ := idx_facts2 t
  rw [show iblk2 V c 2 t = V c main_v13 from funext fun y => congrArg (V c main_v13 : S128x128.Idx → EReal)
      (Shape.idx_ext₂ (win2_2.rect_emb_val_of_index_zero t 0 e4 y) (win2_2.rect_emb_val_of_index_zero t 1 e5 y)),
    show iblk2 V c 3 t = V c main_v20 from funext fun y => congrArg (V c main_v20 : S1x1.Idx → EReal)
      (Shape.idx_ext₂ (win2_3.rect_emb_val_of_index_zero t 0 e6 y) (win2_3.rect_emb_val_of_index_zero t 1 e7 y))]
  unfold k2_pay1
  simp only [shapeCast_self]
  exact comb_block (V c main_v14_0) (V c main_v47) (V c main_v13) (V c main_v20) (iblk2 V c 1 t) (iblk2 V c 0 t) p q ⟨_, h⟩
    (congrArg (V c main_v14_0 : S100000x128.Idx → EReal) (unit2_emb (ix2 p q) _
      (by show 10000 * t.val + p.val = win2_1.index t 0 * 10000 + p.val; rw [e2]; omega)
      (by show q.val = win2_1.index t 1 * 128 + q.val; rw [e3]; omega)))
    (fun k => congrArg (V c main_v47 : S100000x128.Idx → EReal) (unit2_emb (ix2 p k) _
      (by show 10000 * t.val + p.val = win2_0.index t 0 * 10000 + p.val; rw [e0]; omega)
      (by show k.val = win2_0.index t 1 * 128 + k.val; rw [e1]; omega)))

/-- Point `t` writes rows `10000·t …` of the node update through the full-width window, -/
theorem flushed2_4 (c : Dev nD) (t : Fin cfg2.N) :
    (dat2 (F := Ideal) V c).flushed 4 t = ((cfg2.win 4).blk t).view.read (Elt Ideal) (G2 V c) := by
  obtain ⟨-, -, -, -, -, -, -, -, e8, e9, -⟩ := idx_facts2 t
  have ht : t.val < 10 := t.isLt.trans_eq N_2
  show (cfg2.win 4).cut (grid2.coords t) ((dat2 (F := Ideal) V c).after 4 t) = _
  rw [after2_4]
  unfold out2_4
  rw [View.canon_unit_zero hz]
  simp only [View.ld_unit_zero (S := S10000x128) hz, View.ld_unit_zero (S := S128x128) hz, View.ld_unit_zero (S := S1x1) hz]
  funext j
  obtain ⟨p, q, rfl⟩ : ∃ (p : Fin 10000) (q : Fin 128), j = ix2 p q := ⟨j 0, j 1, eq_ix2 j⟩
  have hp := p.isLt
  exact (point2 V c t p q (by omega)).trans (congrArg (G2 V c) (unit2_emb (ix2 p q) _
    (by show 10000 * t.val + p.val = win2_4.index t 0 * 10000 + p.val; rw [e8]; omega)
    (by show q.val = win2_4.index t 1 * 128 + q.val; rw [e9]; omega))).symm

/-- and the same values through the half-width one: narrowing changes no extended real. -/
theorem flushed2_5 (c : Dev nD) (t : Fin cfg2.N) :
    (dat2 (F := Ideal) V c).flushed 5 t = ((cfg2.win 5).blk t).view.read (Elt Ideal) (G2 V c) := by
  obtain ⟨-, -, -, -, -, -, -, -, -, -, e10, e11⟩ := idx_facts2 t
  have ht : t.val < 10 := t.isLt.trans_eq N_2
  show (cfg2.win 5).cut (grid2.coords t) ((dat2 (F := Ideal) V c).after 5 t) = _
  rw [after2_5]
  unfold out2_5
  rw [View.canon_unit_zero hz]
  simp only [View.ld_unit_zero (S := S10000x128) hz, View.ld_unit_zero (S := S128x128) hz, View.ld_unit_zero (S := S1x1) hz]
  funext j
  obtain ⟨p, q, rfl⟩ : ∃ (p : Fin 10000) (q : Fin 128), j = ix2 p q := ⟨j 0, j 1, eq_ix2 j⟩
  have hp := p.isLt
  exact (point2 V c t p q (by omega)).trans (congrArg (G2 V c) (unit2_emb (ix2 p q) _
    (by show 10000 * t.val + p.val = win2_5.index t 0 * 10000 + p.val; rw [e10]; omega)
    (by show q.val = win2_5.index t 1 * 128 + q.val; rw [e11]; omega))).symm

/-- Row `r` lies in the block of point `r / 10000`. -/
theorem tiles2_4 (i : S100000x128.Idx) :
    ∃ t : Fin cfg2.N, (cfg2.win 4).flush t = true ∧ i ∈ ((cfg2.win 4).blk t).view.set := by
  have hi := idx2_lt0 i
  let t : Fin cfg2.N := ⟨(i 0).val / 10000, (show (i 0).val / 10000 < 10 by omega).trans_eq N_2.symm⟩
  obtain ⟨-, -, -, -, -, -, -, -, e8, e9, -⟩ := idx_facts2 t
  refine ⟨t, flush2_4 t, ?_⟩
  show i ∈ ((View.whole (Pipeline.arrRef spec2 4)).slice (win2_4.rect t)).set
  rw [View.set_slice_whole]
  exact unit2_mem_rows i (by show win2_4.index t 0 * 10000 = _; rw [e8]) rfl
    (by show win2_4.index t 1 * 128 = 0; rw [e9]) rfl

theorem tiles2_5 (i : S100000x128.Idx) :
    ∃ t : Fin cfg2.N, (cfg2.win 5).flush t = true ∧ i ∈ ((cfg2.win 5).blk t).view.set := by
  have hi := idx2_lt0 i
  let t : Fin cfg2.N := ⟨(i 0).val / 10000, (show (i 0).val / 10000 < 10 by omega).trans_eq N_2.symm⟩
  obtain ⟨-, -, -, -, -, -, -, -, -, -, e10, e11⟩ := idx_facts2 t
  refine ⟨t, flush2_5 t, ?_⟩
  show i ∈ ((View.whole (Pipeline.arrRef spec2 5)).slice (win2_5.rect t)).set
  rw [View.set_slice_whole]
  exact unit2_mem_rows i (by show win2_5.index t 0 * 10000 = _; rw [e10]) rfl
    (by show win2_5.index t 1 * 128 = 0; rw [e11]) rfl

theorem val2_4 (c : Dev nD) :
    ((dat2 (F := Ideal) V c).arrAt 4 cfg2.N : Cert.Spec.SN.Idx → EReal)
      = Cert.Spec.combK (V c main_v14_0) (V c main_v47) (V c main_v13)
          ((V c main_v20 : (⟨2, ![1, 1]⟩ : Shape).Idx → EReal) (ix2 0 0)) :=
  (dat2 (F := Ideal) V c).arrAt_eq_of_cover 4 (G2 V c) (fun t _ => flushed2_4 V c t) tiles2_4

theorem val2_5 (c : Dev nD) :
    ((dat2 (F := Ideal) V c).arrAt 5 cfg2.N : Cert.Spec.SN.Idx → EReal)
      = Cert.Spec.combK (V c main_v14_0) (V c main_v47) (V c main_v13)
          ((V c main_v20 : (⟨2, ![1, 1]⟩ : Shape).Idx → EReal) (ix2 0 0)) :=
  (dat2 (F := Ideal) V c).arrAt_eq_of_cover 5 (G2 V c) (fun t _ => flushed2_5 V c t) tiles2_5

end Cert.KernelIdeal.Fr

end
-- ==== Proof.KI.Chain1.lean ====
import proofs.«408774_j4466765988336_3_alg».proof.Proof.KI.ChainBase
import proofs.«408774_j4466765988336_3_alg».proof.Proof.KI.Val1
import proofs.«408774_j4466765988336_3_alg».proof.Proof.KI.Val2

set_option maxRecDepth 1488

noncomputable section

namespace Cert.KernelIdeal.Fr

open Cert.KernelIdeal Cert.KernelIdeal.Gen
open Idealize.ShloMosaic Idealize.ShloMosaic.TcCoe Idealize.ShloMosaic.ValueIdx

section Iter1
variable (m : (ℓ : Loc nD τ sig) → Buf (Elt Ideal) ℓ) (c : Dev nD)
variable (hR : Cert.Spec.InRange (aI m c)) (h : Cert.Spec.SN.Idx → EReal)
  (h0 : (Gen.V2 m (outs m) c main_v14_0 : Cert.Spec.SN.Idx → EReal) = h)
  (h1 : (Gen.V2 m (outs m) c main_v14_1 : Cert.Spec.SN.Idx → EReal) = h)

theorem w1 : (Gen.V6 m (outs m) c main_v20 : (⟨2, ![1, 1]⟩ : Shape).Idx → EReal) (ix2 0 0)
    = Cert.Spec.wstep (aT m c) s1 := by
  have e : (Gen.V6 m (outs m) c main_v20 : (⟨2, ![1, 1]⟩ : Shape).Idx → EReal) = Gen.V3 m (outs m) c main_v20 :=
    (Gen.V6_of m (outs m) c main_v20 (by decide)).trans
      ((Gen.V5_of m (outs m) c main_v20 (by decide)).trans (Gen.V4_of m (outs m) c main_v20 (by decide)))
  have eT : Gen.V2 m (outs m) c main_arg7 = aT m c :=
    (V2_keep m (outs m) c main_arg7 (by decide)).trans (V1_arg m c main_arg7 (by decide))
  exact (congrFun e (ix2 0 0)).trans
    ((after1_v20 (Gen.V2 m (outs m) c)).trans (congrArg (fun t => Cert.Spec.wstep t s1) eT))

include hR h1 in
/-- A gathered row is the handed table's row at the node its word names. -/
theorem g1 (i : Fin 1000000) (k : Fin 128) (j : Cert.Spec.SI.Idx)
    (hw : (Gen.V3 m (outs m) c main_v4 : (⟨1, ![1000000]⟩ : Shape).Idx → BitVec 32) (ix1 i) = aI m c j) :
    (Gen.V4 m (outs m) c main_v21 : (⟨2, ![1000000, 128]⟩ : Shape).Idx → EReal) (ix2 i k)
      = h (ix2 (Cert.Spec.node (aI m c j)) k) := by
  have hr := hR j
  rw [← hw] at hr
  exact (after11_v21 (Gen.V3 m (outs m) c) i k hr.1 hr.2).trans
    ((congrFun ((Gen.V3_of m (outs m) c main_v14_1 (by decide)).trans h1) _).trans (row_eq hw _ k))

include hR h1 in
theorem msg1 : (Gen.V5 m (outs m) c main_v22 : Cert.Spec.SE.Idx → EReal)
    = Cert.Spec.msgK h (aI m c) (aWe m c) (aG m c) (aB m c) := by
  refine (V5_at_0 m c).trans ((outs_5 m c).trans ((val1_7 (fun c b => Gen.V4 m (outs m) c b) c).trans ?_))
  exact msg_glue h (aI m c) (aWe m c) (aG m c) (aB m c) _ _ _ _ _ _
    (fun e k he => g1 m c hR h h1 ⟨e.val, he⟩ k (ix2 0 e)
      ((congrFun (V3_keep m (outs m) c main_v4 (by decide)) _).trans (V1_v4P m c e he)))
    (fun e k he => g1 m c hR h h1 ⟨500000 + e.val, he⟩ k (ix2 1 e)
      ((congrFun (V3_keep m (outs m) c main_v4 (by decide)) _).trans (V1_v4C m c e he)))
    ((V4_keep m (outs m) c main_v7 (by decide)).trans (V1_v7 m c))
    ((V4_keep m (outs m) c main_v9 (by decide)).trans (V1_v9 m c))
    ((V4_keep m (outs m) c main_v10 (by decide)).trans (V1_v10 m c))
    ((V4_keep m (outs m) c main_v11 (by decide)).trans (V1_v11 m c))
    ((congrFun (V4_keep m (outs m) c main_v12 (by decide)) _).trans (V1_v12 m c))

include hR h1 in
theorem agg1 : (Gen.V6 m (outs m) c main_v47 : Cert.Spec.SN.Idx → EReal)
    = Cert.Spec.agg (aI m c) (Cert.Spec.msgK h (aI m c) (aWe m c) (aG m c) (aB m c)) := by
  have c1 : (Gen.V5 m (outs m) c main_v1 : (⟨1, ![500000]⟩ : Shape).Idx → BitVec 32) = fun i => aI m c (ix2 0 (i 0)) :=
    (V5_keep m (outs m) c main_v1 (by decide)).trans (V1_v1 m c)
  have c3 : (Gen.V5 m (outs m) c main_v3 : (⟨1, ![500000]⟩ : Shape).Idx → BitVec 32) = fun i => aI m c (ix2 1 (i 0)) :=
    (V5_keep m (outs m) c main_v3 (by decide)).trans (V1_v3 m c)
  exact (after2_v47 (Gen.V5 m (outs m) c) (fun i => by rw [c1]; exact hR _) (fun i => by rw [c3]; exact hR _)).trans
    ((agg_glue (aI m c) (Gen.V5 m (outs m) c main_v22) _ _ c1 c3).trans
      (congrArg (Cert.Spec.agg (aI m c)) (msg1 m c hR h h1)))

include hR h0 h1 in
theorem res1_0 : (Gen.V7 m (outs m) c main_v48_0 : Cert.Spec.SN.Idx → EReal)
    = Cert.Spec.stepK (aI m c) (aWpc m c) (aWe m c) (aG m c) (aB m c) (Cert.Spec.wstep (aT m c) s1) h := by
  have eh : (Gen.V6 m (outs m) c main_v14_0 : Cert.Spec.SN.Idx → EReal) = h :=
    (Gen.V6_of m (outs m) c main_v14_0 (by decide)).trans ((Gen.V5_of m (outs m) c main_v14_0 (by decide)).trans
      ((Gen.V4_of m (outs m) c main_v14_0 (by decide)).trans ((Gen.V3_of m (outs m) c main_v14_0 (by decide)).trans h0)))
  have eW : (Gen.V6 m (outs m) c main_v13 : Cert.Spec.SW.Idx → EReal) = aWpc m c :=
    (V6_keep m (outs m) c main_v13 (by decide)).trans (V1_v13 m c)
  exact (V7_at_0 m c).trans ((outs_7_0 m c).trans ((val2_4 (fun c b => Gen.V6 m (outs m) c b) c).trans
    (comb_glue eh (agg1 m c hR h h1) eW (w1 m c))))

include hR h0 h1 in
theorem res1_1 : (Gen.V7 m (outs m) c main_v48_1 : Cert.Spec.SN.Idx → EReal)
    = Cert.Spec.stepK (aI m c) (aWpc m c) (aWe m c) (aG m c) (aB m c) (Cert.Spec.wstep (aT m c) s1) h :=
  (V7_at_1 m c).trans ((outs_7_1 m c).trans ((val2_5 (fun c b => Gen.V6 m (outs m) c b) c).trans
    ((val2_4 (fun c b => Gen.V6 m (outs m) c b) c).symm.trans ((outs_7_0 m c).symm.trans
      ((V7_at_0 m c).symm.trans (res1_0 m c hR h h0 h1))))))

end Iter1

end Cert.KernelIdeal.Fr

end
-- ==== Proof.KI.Val3.lean ====
import proofs.«408774_j4466765988336_3_alg».proof.Proof.KI.Reg3
import proofs.«408774_j4466765988336_3_alg».proof.Proof.KI.ValLib

noncomputable section

namespace Cert.KernelIdeal.Fr

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem idx_facts3 : ∀ t : Fin cfg3.N, win3_0.index t (0 : Fin 2) = t.val ∧ win3_0.index t (1 : Fin 2) = 0
    ∧ win3_1.index t (0 : Fin 2) = t.val + 50 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- Point `t` writes rows `10000·t …` of the gated message: the small blocks are their arrays, the large ones row blocks of the gathered features. -/
theorem flushed3_7_eq (c : Dev nD) (t : Fin cfg3.N) :
    (dat3 (F := Ideal) V c).flushed 7 t = ((cfg3.win 7).blk t).view.read (Elt Ideal)
      (gate (V c main_v55) (V c main_v7) (V c main_v9) (V c main_v10) (V c main_v11) (V c main_v12)) := by
  obtain ⟨e0, e1, e2, e3, e4, e5, e6, e7, e8, e9, e10, e11, e12, e13, e14, e15⟩ := idx_facts3 t
  have ht : t.val < 50 := t.isLt.trans_eq N_3
  show (cfg3.win 7).cut (grid3.coords t) ((dat3 (F := Ideal) V c).after 7 t) = _
  rw [after3_7,
    show iblk3 V c 2 t = V c main_v7 from funext fun y => congrArg (V c main_v7 : S128x128.Idx → EReal)
      (Shape.idx_ext₂ (win3_2.rect_emb_val_of_index_zero t 0 e4 y) (win3_2.rect_emb_val_of_index_zero t 1 e5 y)),
    show iblk3 V c 3 t = V c main_v9 from funext fun y => congrArg (V c main_v9 : S128x128.Idx → EReal)
      (Shape.idx_ext₂ (win3_3.rect_emb_val_of_index_zero t 0 e6 y) (win3_3.rect_emb_val_of_index_zero t 1 e7 y)),
    show iblk3 V c 4 t = V c main_v10 from funext fun y => congrArg (V c main_v10 : S1x128.Idx → EReal)
      (Shape.idx_ext₂ (win3_4.rect_emb_val_of_index_zero t 0 e8 y) (win3_4.rect_emb_val_of_index_zero t 1 e9 y)),
    show iblk3 V c 5 t = V c main_v11 from funext fun y => congrArg (V c main_v11 : S1x128.Idx → EReal)
      (Shape.idx_ext₂ (win3_5.rect_emb_val_of_index_zero t 0 e10 y) (win3_5.rect_emb_val_of_index_zero t 1 e11 y)),
    show iblk3 V c 6 t = V c main_v12 from funext fun y => congrArg (V c main_v12 : S1x1.Idx → EReal)
      (Shape.idx_ext₂ (win3_6.rect_emb_val_of_index_zero t 0 e12 y) (win3_6.rect_emb_val_of_index_zero t 1 e13 y))]
  unfold out3_7 k3_pay1
  rw [View.canon_unit_zero hz]
  simp only [View.ld_unit_zero (S := S10000x128) hz, View.ld_unit_zero (S := S128x128) hz,
    View.ld_unit_zero (S := S1x128) hz, View.ld_unit_zero (S := S1x1) hz, shapeCast_self]
  funext j
  obtain ⟨p, q, rfl⟩ : ∃ (p : Fin 10000) (q : Fin 128), j = ix2 p q := ⟨j 0, j 1, eq_ix2 j⟩
  have hp := p.isLt
  refine (gate_block (V c main_v55) (V c main_v7) (V c main_v9) (V c main_v10) (V c main_v11) (V c main_v12)
    (iblk3 V c 0 t) (iblk3 V c 1 t) p q ⟨10000 * t.val + p.val, by omega⟩
    (fun k => congrArg (V c main_v55 : S1000000x128.Idx → EReal) (unit2_emb (ix2 p k) _
      (by show 10000 * t.val + p.val = win3_0.index t 0 * 10000 + p.val; rw [e0]; omega)
      (by show k.val = win3_0.index t 1 * 128 + k.val; rw [e1]; omega)))
    (fun k => congrArg (V c main_v55 : S1000000x128.Idx → EReal) (unit2_emb (ix2 p k) _
      (by show 500000 + (10000 * t.val + p.val) = win3_1.index t 0 * 10000 + p.val; rw [e2]; omega)
      (by show k.val = win3_1.index t 1 * 128 + k.val; rw [e3]; omega)))).trans ?_
  exact (congrArg (gate (V c main_v55) (V c main_v7) (V c main_v9) (V c main_v10) (V c main_v11) (V c main_v12))
    (unit2_emb (ix2 p q) _ (by show 10000 * t.val + p.val = win3_7.index t 0 * 10000 + p.val; rw [e14]; omega)
      (by show q.val = win3_7.index t 1 * 128 + q.val; rw [e15]; omega))).symm

/-- Row `r` of the result is written by point `r / 10000`. -/
theorem tiles3_7 (i : S500000x128.Idx) :
    ∃ t : Fin cfg3.N, (cfg3.win 7).flush t = true ∧ i ∈ ((cfg3.win 7).blk t).view.set := by
  have hi := idx2_lt0 i
  let t : Fin cfg3.N := ⟨(i 0).val / 10000, (show (i 0).val / 10000 < 50 by omega).trans_eq N_3.symm⟩
  obtain ⟨-, -, -, -, -, -, -, -, -, -, -, -, -, -, e14, e15⟩ := idx_facts3 t
  refine ⟨t, flush3_7 t, ?_⟩
  show i ∈ ((View.whole (Pipeline.arrRef spec3 7)).slice (win3_7.rect t)).set
  rw [View.set_slice_whole]
  exact unit2_mem_rows i (by show win3_7.index t 0 * 10000 = _; rw [e14]) rfl
    (by show win3_7.index t 1 * 128 = 0; rw [e15]) rfl

theorem val3_7 (c : Dev nD) :
    ((dat3 (F := Ideal) V c).arrAt 7 cfg3.N : Cert.Spec.SE.Idx → EReal) = fun j =>
      let A : (⟨2, ![1000000, 128]⟩ : Shape).Idx → EReal := V c main_v55
      let p (k : Fin 128) := A (ix2 (⟨(j 0).val, by have := idx2_lt0 j; omega⟩ : Fin 1000000) k)
      let q (k : Fin 128) := A (ix2 (⟨500000 + (j 0).val, by have := idx2_lt0 j; omega⟩ : Fin 1000000) k)
      ((∑ k : Fin 128, p k * (V c main_v7 : Cert.Spec.SW.Idx → EReal) (ix2 (j 1) k))
          + (∑ k : Fin 128, q k * (V c main_v9 : Cert.Spec.SW.Idx → EReal) (ix2 (j 1) k)))
        * Ideal.logistic (((∑ k : Fin 128, p k * (V c main_v10 : (⟨2, ![1, 128]⟩ : Shape).Idx → EReal) (ix2 0 k))
            + (∑ k : Fin 128, q k * (V c main_v11 : (⟨2, ![1, 128]⟩ : Shape).Idx → EReal) (ix2 0 k)))
          + (V c main_v12 : (⟨2, ![1, 1]⟩ : Shape).Idx → EReal) (ix2 0 0)) :=
  (dat3 (F := Ideal) V c).arrAt_eq_of_cover 7
    (gate (V c main_v55) (V c main_v7) (V c main_v9) (V c main_v10) (V c main_v11) (V c main_v12))
    (fun t _ => flushed3_7_eq V c t) tiles3_7

end Cert.KernelIdeal.Fr

end
-- ==== Proof.KI.Val4.lean ====
import proofs.«408774_j4466765988336_3_alg».proof.Proof.KI.Reg4
import proofs.«408774_j4466765988336_3_alg».proof.Proof.KI.ValLib

noncomputable section

namespace Cert.KernelIdeal.Fr

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- The node update of the layer on the arrays the region finds. -/
abbrev G4 (c : Dev nD) : S100000x128.Idx → EReal :=
  Cert.Spec.combK (V c main_v48_0) (V c main_v81) (V c main_v13) ((V c main_v54 : (⟨2, ![1, 1]⟩ : Shape).Idx → EReal) (ix2 0 0))

/-- The body at point `t`, row `p`, is the node update at row `10000·t + p`: the small blocks are their arrays, the large ones row blocks. -/
theorem point4 (c : Dev nD) (t : Fin cfg4.N) (p : Fin 10000) (q : Fin 128) (h : 10000 * t.val + p.val < 100000) :
    k4_pay1 (F := Ideal) (iblk4 V c 1 t) (iblk4 V c 0 t) (iblk4 V c 2 t) (iblk4 V c 3 t) (ix2 p q)
      = G4 V c (ix2 (⟨10000 * t.val + p.val, h⟩ : Fin 100000) q) := by
  obtain ⟨e0, e1, e2, e3, e4, e5, e6, e7, -⟩ := idx_facts4 t
  rw [show iblk4 V c 2 t = V c main_v13 from funext fun y => congrArg (V c main_v13 : S128x128.Idx → EReal)
      (Shape.idx_ext₂ (win4_2.rect_emb_val_of_index_zero t 0 e4 y) (win4_2.rect_emb_val_of_index_zero t 1 e5 y)),
    show iblk4 V c 3 t = V c main_v54 from funext fun y => congrArg (V c main_v54 : S1x1.Idx → EReal)
      (Shape.idx_ext₂ (win4_3.rect_emb_val_of_index_zero t 0 e6 y) (win4_3.rect_emb_val_of_index_zero t 1 e7 y))]
  unfold k4_pay1
  simp only [shapeCast_self]
  exact comb_block (V c main_v48_0) (V c main_v81) (V c main_v13) (V c main_v54) (iblk4 V c 1 t) (iblk4 V c 0 t) p q ⟨_, h⟩
    (congrArg (V c main_v48_0 : S100000x128.Idx → EReal) (unit2_emb (ix2 p q) _
      (by show 10000 * t.val + p.val = win4_1.index t 0 * 10000 + p.val; rw [e2]; omega)
      (by show q.val = win4_1.index t 1 * 128 + q.val; rw [e3]; omega)))
    (fun k => congrArg (V c main_v81 : S100000x128.Idx → EReal) (unit2_emb (ix2 p k) _
      (by show 10000 * t.val + p.val = win4_0.index t 0 * 10000 + p.val; rw [e0]; omega)
      (by show k.val = win4_0.index t 1 * 128 + k.val; rw [e1]; omega)))

/-- Point `t` writes rows `10000·t …` of the node update through the full-width window, -/
theorem flushed4_4 (c : Dev nD) (t : Fin cfg4.N) :
    (dat4 (F := Ideal) V c).flushed 4 t = ((cfg4.win 4).blk t).view.read (Elt Ideal) (G4 V c) := by
  obtain ⟨-, -, -, -, -, -, -, -, e8, e9, -⟩ := idx_facts4 t
  have ht : t.val < 10 := t.isLt.trans_eq N_4
  show (cfg4.win 4).cut (grid4.coords t) ((dat4 (F := Ideal) V c).after 4 t) = _
  rw [after4_4]
  unfold out4_4
  rw [View.canon_unit_zero hz]
  simp only [View.ld_unit_zero (S := S10000x128) hz, View.ld_unit_zero (S := S128x128) hz, View.ld_unit_zero (S := S1x1) hz]
  funext j
  obtain ⟨p, q, rfl⟩ : ∃ (p : Fin 10000) (q : Fin 128), j = ix2 p q := ⟨j 0, j 1, eq_ix2 j⟩
  have hp := p.isLt
  exact (point4 V c t p q (by omega)).trans (congrArg (G4 V c) (unit2_emb (ix2 p q) _
    (by show 10000 * t.val + p.val = win4_4.index t 0 * 10000 + p.val; rw [e8]; omega)
    (by show q.val = win4_4.index t 1 * 128 + q.val; rw [e9]; omega))).symm

/-- and the same values through the half-width one: narrowing changes no extended real. -/
theorem flushed4_5 (c : Dev nD) (t : Fin cfg4.N) :
    (dat4 (F := Ideal) V c).flushed 5 t = ((cfg4.win 5).blk t).view.read (Elt Ideal) (G4 V c) := by
  obtain ⟨-, -, -, -, -, -, -, -, -, -, e10, e11⟩ := idx_facts4 t
  have ht : t.val < 10 := t.isLt.trans_eq N_4
  show (cfg4.win 5).cut (grid4.coords t) ((dat4 (F := Ideal) V c).after 5 t) = _
  rw [after4_5]
  unfold out4_5
  rw [View.canon_unit_zero hz]
  simp only [View.ld_unit_zero (S := S10000x128) hz, View.ld_unit_zero (S := S128x128) hz, View.ld_unit_zero (S := S1x1) hz]
  funext j
  obtain ⟨p, q, rfl⟩ : ∃ (p : Fin 10000) (q : Fin 128), j = ix2 p q := ⟨j 0, j 1, eq_ix2 j⟩
  have hp := p.isLt
  exact (point4 V c t p q (by omega)).trans (congrArg (G4 V c) (unit2_emb (ix2 p q) _
    (by show 10000 * t.val + p.val = win4_5.index t 0 * 10000 + p.val; rw [e10]; omega)
    (by show q.val = win4_5.index t 1 * 128 + q.val; rw [e11]; omega))).symm

/-- Row `r` lies in the block of point `r / 10000`. -/
theorem tiles4_4 (i : S100000x128.Idx) :
    ∃ t : Fin cfg4.N, (cfg4.win 4).flush t = true ∧ i ∈ ((cfg4.win 4).blk t).view.set := by
  have hi := idx2_lt0 i
  let t : Fin cfg4.N := ⟨(i 0).val / 10000, (show (i 0).val / 10000 < 10 by omega).trans_eq N_4.symm⟩
  obtain ⟨-, -, -, -, -, -, -, -, e8, e9, -⟩ := idx_facts4 t
  refine ⟨t, flush4_4 t, ?_⟩
  show i ∈ ((View.whole (Pipeline.arrRef spec4 4)).slice (win4_4.rect t)).set
  rw [View.set_slice_whole]
  exact unit2_mem_rows i (by show win4_4.index t 0 * 10000 = _; rw [e8]) rfl
    (by show win4_4.index t 1 * 128 = 0; rw [e9]) rfl

theorem tiles4_5 (i : S100000x128.Idx) :
    ∃ t : Fin cfg4.N, (cfg4.win 5).flush t = true ∧ i ∈ ((cfg4.win 5).blk t).view.set := by
  have hi := idx2_lt0 i
  let t : Fin cfg4.N := ⟨(i 0).val / 10000, (show (i 0).val / 10000 < 10 by omega).trans_eq N_4.symm⟩
  obtain ⟨-, -, -, -, -, -, -, -, -, -, e10, e11⟩ := idx_facts4 t
  refine ⟨t, flush4_5 t, ?_⟩
  show i ∈ ((View.whole (Pipeline.arrRef spec4 5)).slice (win4_5.rect t)).set
  rw [View.set_slice_whole]
  exact unit2_mem_rows i (by show win4_5.index t 0 * 10000 = _; rw [e10]) rfl
    (by show win4_5.index t 1 * 128 = 0; rw [e11]) rfl

theorem val4_4 (c : Dev nD) :
    ((dat4 (F := Ideal) V c).arrAt 4 cfg4.N : Cert.Spec.SN.Idx → EReal)
      = Cert.Spec.combK (V c main_v48_0) (V c main_v81) (V c main_v13)
          ((V c main_v54 : (⟨2, ![1, 1]⟩ : Shape).Idx → EReal) (ix2 0 0)) :=
  (dat4 (F := Ideal) V c).arrAt_eq_of_cover 4 (G4 V c) (fun t _ => flushed4_4 V c t) tiles4_4

theorem val4_5 (c : Dev nD) :
    ((dat4 (F := Ideal) V c).arrAt 5 cfg4.N : Cert.Spec.SN.Idx → EReal)
      = Cert.Spec.combK (V c main_v48_0) (V c main_v81) (V c main_v13)
          ((V c main_v54 : (⟨2, ![1, 1]⟩ : Shape).Idx → EReal) (ix2 0 0)) :=
  (dat4 (F := Ideal) V c).arrAt_eq_of_cover 5 (G4 V c) (fun t _ => flushed4_5 V c t) tiles4_5

end Cert.KernelIdeal.Fr

end
-- ==== Proof.KI.Chain2.lean ====
import proofs.«408774_j4466765988336_3_alg».proof.Proof.KI.ChainBase
import proofs.«408774_j4466765988336_3_alg».proof.Proof.KI.Val3
import proofs.«408774_j4466765988336_3_alg».proof.Proof.KI.Val4

set_option maxRecDepth 1488

noncomputable section

namespace Cert.KernelIdeal.Fr

open Cert.KernelIdeal Cert.KernelIdeal.Gen
open Idealize.ShloMosaic Idealize.ShloMosaic.TcCoe Idealize.ShloMosaic.ValueIdx

section Iter2
variable (m : (ℓ : Loc nD τ sig) → Buf (Elt Ideal) ℓ) (c : Dev nD)
variable (hR : Cert.Spec.InRange (aI m c)) (h : Cert.Spec.SN.Idx → EReal)
  (h0 : (Gen.V7 m (outs m) c main_v48_0 : Cert.Spec.SN.Idx → EReal) = h)
  (h1 : (Gen.V7 m (outs m) c main_v48_1 : Cert.Spec.SN.Idx → EReal) = h)

theorem w2 : (Gen.V11 m (outs m) c main_v54 : (⟨2, ![1, 1]⟩ : Shape).Idx → EReal) (ix2 0 0)
    = Cert.Spec.wstep (aT m c) s2 := by
  have e : (Gen.V11 m (outs m) c main_v54 : (⟨2, ![1, 1]⟩ : Shape).Idx → EReal) = Gen.V8 m (outs m) c main_v54 :=
    (Gen.V11_of m (outs m) c main_v54 (by decide)).trans
      ((Gen.V10_of m (outs m) c main_v54 (by decide)).trans (Gen.V9_of m (outs m) c main_v54 (by decide)))
  have eT : Gen.V7 m (outs m) c main_arg7 = aT m c :=
    (V7_keep m (outs m) c main_arg7 (by decide)).trans (V1_arg m c main_arg7 (by decide))
  exact (congrFun e (ix2 0 0)).trans
    ((after3_v54 (Gen.V7 m (outs m) c)).trans (congrArg (fun t => Cert.Spec.wstep t s2) eT))

include hR h1 in
/-- A gathered row is the handed table's row at the node its word names. -/
theorem g2 (i : Fin 1000000) (k : Fin 128) (j : Cert.Spec.SI.Idx)
    (hw : (Gen.V8 m (outs m) c main_v4 : (⟨1, ![1000000]⟩ : Shape).Idx → BitVec 32) (ix1 i) = aI m c j) :
    (Gen.V9 m (outs m) c main_v55 : (⟨2, ![1000000, 128]⟩ : Shape).Idx → EReal) (ix2 i k)
      = h (ix2 (Cert.Spec.node (aI m c j)) k) := by
  have hr := hR j
  rw [← hw] at hr
  exact (after31_v55 (Gen.V8 m (outs m) c) i k hr.1 hr.2).trans
    ((congrFun ((Gen.V8_of m (outs m) c main_v48_1 (by decide)).trans h1) _).trans (row_eq hw _ k))

include hR h1 in
theorem msg2 : (Gen.V10 m (outs m) c main_v56 : Cert.Spec.SE.Idx → EReal)
    = Cert.Spec.msgK h (aI m c) (aWe m c) (aG m c) (aB m c) := by
  refine (V10_at_0 m c).trans ((outs_10 m c).trans ((val3_7 (fun c b => Gen.V9 m (outs m) c b) c).trans ?_))
  exact msg_glue h (aI m c) (aWe m c) (aG m c) (aB m c) _ _ _ _ _ _
    (fun e k he => g2 m c hR h h1 ⟨e.val, he⟩ k (ix2 0 e)
      ((congrFun (V8_keep m (outs m) c main_v4 (by decide)) _).trans (V1_v4P m c e he)))
    (fun e k he => g2 m c hR h h1 ⟨500000 + e.val, he⟩ k (ix2 1 e)
      ((congrFun (V8_keep m (outs m) c main_v4 (by decide)) _).trans (V1_v4C m c e he)))
    ((V9_keep m (outs m) c main_v7 (by decide)).trans (V1_v7 m c))
    ((V9_keep m (outs m) c main_v9 (by decide)).trans (V1_v9 m c))
    ((V9_keep m (outs m) c main_v10 (by decide)).trans (V1_v10 m c))
    ((V9_keep m (outs m) c main_v11 (by decide)).trans (V1_v11 m c))
    ((congrFun (V9_keep m (outs m) c main_v12 (by decide)) _).trans (V1_v12 m c))

include hR h1 in
theorem agg2 : (Gen.V11 m (outs m) c main_v81 : Cert.Spec.SN.Idx → EReal)
    = Cert.Spec.agg (aI m c) (Cert.Spec.msgK h (aI m c) (aWe m c) (aG m c) (aB m c)) := by
  have c1 : (Gen.V10 m (outs m) c main_v1 : (⟨1, ![500000]⟩ : Shape).Idx → BitVec 32) = fun i => aI m c (ix2 0 (i 0)) :=
    (V10_keep m (outs m) c main_v1 (by decide)).trans (V1_v1 m c)
  have c3 : (Gen.V10 m (outs m) c main_v3 : (⟨1, ![500000]⟩ : Shape).Idx → BitVec 32) = fun i => aI m c (ix2 1 (i 0)) :=
    (V10_keep m (outs m) c main_v3 (by decide)).trans (V1_v3 m c)
  exact (after4_v81 (Gen.V10 m (outs m) c) (fun i => by rw [c1]; exact hR _) (fun i => by rw [c3]; exact hR _)).trans
    ((agg_glue (aI m c) (Gen.V10 m (outs m) c main_v56) _ _ c1 c3).trans
      (congrArg (Cert.Spec.agg (aI m c)) (msg2 m c hR h h1)))

include hR h0 h1 in
theorem res2_0 : (Gen.V12 m (outs m) c main_v82_0 : Cert.Spec.SN.Idx → EReal)
    = Cert.Spec.stepK (aI m c) (aWpc m c) (aWe m c) (aG m c) (aB m c) (Cert.Spec.wstep (aT m c) s2) h := by
  have eh : (Gen.V11 m (outs m) c main_v48_0 : Cert.Spec.SN.Idx → EReal) = h :=
    (Gen.V11_of m (outs m) c main_v48_0 (by decide)).trans ((Gen.V10_of m (outs m) c main_v48_0 (by decide)).trans
      ((Gen.V9_of m (outs m) c main_v48_0 (by decide)).trans ((Gen.V8_of m (outs m) c main_v48_0 (by decide)).trans h0)))
  have eW : (Gen.V11 m (outs m) c main_v13 : Cert.Spec.SW.Idx → EReal) = aWpc m c :=
    (V11_keep m (outs m) c main_v13 (by decide)).trans (V1_v13 m c)
  exact (V12_at_0 m c).trans ((outs_12_0 m c).trans ((val4_4 (fun c b => Gen.V11 m (outs m) c b) c).trans
    (comb_glue eh (agg2 m c hR h h1) eW (w2 m c))))

include hR h0 h1 in
theorem res2_1 : (Gen.V12 m (outs m) c main_v82_1 : Cert.Spec.SN.Idx → EReal)
    = Cert.Spec.stepK (aI m c) (aWpc m c) (aWe m c) (aG m c) (aB m c) (Cert.Spec.wstep (aT m c) s2) h :=
  (V12_at_1 m c).trans ((outs_12_1 m c).trans ((val4_5 (fun c b => Gen.V11 m (outs m) c b) c).trans
    ((val4_4 (fun c b => Gen.V11 m (outs m) c b) c).symm.trans ((outs_12_0 m c).symm.trans
      ((V12_at_0 m c).symm.trans (res2_0 m c hR h h0 h1))))))

end Iter2

end Cert.KernelIdeal.Fr

end
-- ==== Proof.KI.Val5.lean ====
import proofs.«408774_j4466765988336_3_alg».proof.Proof.KI.Reg5
import proofs.«408774_j4466765988336_3_alg».proof.Proof.KI.ValLib

noncomputable section

namespace Cert.KernelIdeal.Fr

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem idx_facts5 : ∀ t : Fin cfg5.N, win5_0.index t (0 : Fin 2) = t.val ∧ win5_0.index t (1 : Fin 2) = 0
    ∧ win5_1.index t (0 : Fin 2) = t.val + 50 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

/-- Point `t` writes rows `10000·t …` of the gated message: the small blocks are their arrays, the large ones row blocks of the gathered features. -/
theorem flushed5_7_eq (c : Dev nD) (t : Fin cfg5.N) :
    (dat5 (F := Ideal) V c).flushed 7 t = ((cfg5.win 7).blk t).view.read (Elt Ideal)
      (gate (V c main_v89) (V c main_v7) (V c main_v9) (V c main_v10) (V c main_v11) (V c main_v12)) := by
  obtain ⟨e0, e1, e2, e3, e4, e5, e6, e7, e8, e9, e10, e11, e12, e13, e14, e15⟩ := idx_facts5 t
  have ht : t.val < 50 := t.isLt.trans_eq N_5
  show (cfg5.win 7).cut (grid5.coords t) ((dat5 (F := Ideal) V c).after 7 t) = _
  rw [after5_7,
    show iblk5 V c 2 t = V c main_v7 from funext fun y => congrArg (V c main_v7 : S128x128.Idx → EReal)
      (Shape.idx_ext₂ (win5_2.rect_emb_val_of_index_zero t 0 e4 y) (win5_2.rect_emb_val_of_index_zero t 1 e5 y)),
    show iblk5 V c 3 t = V c main_v9 from funext fun y => congrArg (V c main_v9 : S128x128.Idx → EReal)
      (Shape.idx_ext₂ (win5_3.rect_emb_val_of_index_zero t 0 e6 y) (win5_3.rect_emb_val_of_index_zero t 1 e7 y)),
    show iblk5 V c 4 t = V c main_v10 from funext fun y => congrArg (V c main_v10 : S1x128.Idx → EReal)
      (Shape.idx_ext₂ (win5_4.rect_emb_val_of_index_zero t 0 e8 y) (win5_4.rect_emb_val_of_index_zero t 1 e9 y)),
    show iblk5 V c 5 t = V c main_v11 from funext fun y => congrArg (V c main_v11 : S1x128.Idx → EReal)
      (Shape.idx_ext₂ (win5_5.rect_emb_val_of_index_zero t 0 e10 y) (win5_5.rect_emb_val_of_index_zero t 1 e11 y)),
    show iblk5 V c 6 t = V c main_v12 from funext fun y => congrArg (V c main_v12 : S1x1.Idx → EReal)
      (Shape.idx_ext₂ (win5_6.rect_emb_val_of_index_zero t 0 e12 y) (win5_6.rect_emb_val_of_index_zero t 1 e13 y))]
  unfold out5_7 k5_pay1
  rw [View.canon_unit_zero hz]
  simp only [View.ld_unit_zero (S := S10000x128) hz, View.ld_unit_zero (S := S128x128) hz,
    View.ld_unit_zero (S := S1x128) hz, View.ld_unit_zero (S := S1x1) hz, shapeCast_self]
  funext j
  obtain ⟨p, q, rfl⟩ : ∃ (p : Fin 10000) (q : Fin 128), j = ix2 p q := ⟨j 0, j 1, eq_ix2 j⟩
  have hp := p.isLt
  refine (gate_block (V c main_v89) (V c main_v7) (V c main_v9) (V c main_v10) (V c main_v11) (V c main_v12)
    (iblk5 V c 0 t) (iblk5 V c 1 t) p q ⟨10000 * t.val + p.val, by omega⟩
    (fun k => congrArg (V c main_v89 : S1000000x128.Idx → EReal) (unit2_emb (ix2 p k) _
      (by show 10000 * t.val + p.val = win5_0.index t 0 * 10000 + p.val; rw [e0]; omega)
      (by show k.val = win5_0.index t 1 * 128 + k.val; rw [e1]; omega)))
    (fun k => congrArg (V c main_v89 : S1000000x128.Idx → EReal) (unit2_emb (ix2 p k) _
      (by show 500000 + (10000 * t.val + p.val) = win5_1.index t 0 * 10000 + p.val; rw [e2]; omega)
      (by show k.val = win5_1.index t 1 * 128 + k.val; rw [e3]; omega)))).trans ?_
  exact (congrArg (gate (V c main_v89) (V c main_v7) (V c main_v9) (V c main_v10) (V c main_v11) (V c main_v12))
    (unit2_emb (ix2 p q) _ (by show 10000 * t.val + p.val = win5_7.index t 0 * 10000 + p.val; rw [e14]; omega)
      (by show q.val = win5_7.index t 1 * 128 + q.val; rw [e15]; omega))).symm

/-- Row `r` of the result is written by point `r / 10000`. -/
theorem tiles5_7 (i : S500000x128.Idx) :
    ∃ t : Fin cfg5.N, (cfg5.win 7).flush t = true ∧ i ∈ ((cfg5.win 7).blk t).view.set := by
  have hi := idx2_lt0 i
  let t : Fin cfg5.N := ⟨(i 0).val / 10000, (show (i 0).val / 10000 < 50 by omega).trans_eq N_5.symm⟩
  obtain ⟨-, -, -, -, -, -, -, -, -, -, -, -, -, -, e14, e15⟩ := idx_facts5 t
  refine ⟨t, flush5_7 t, ?_⟩
  show i ∈ ((View.whole (Pipeline.arrRef spec5 7)).slice (win5_7.rect t)).set
  rw [View.set_slice_whole]
  exact unit2_mem_rows i (by show win5_7.index t 0 * 10000 = _; rw [e14]) rfl
    (by show win5_7.index t 1 * 128 = 0; rw [e15]) rfl

theorem val5_7 (c : Dev nD) :
    ((dat5 (F := Ideal) V c).arrAt 7 cfg5.N : Cert.Spec.SE.Idx → EReal) = fun j =>
      let A : (⟨2, ![1000000, 128]⟩ : Shape).Idx → EReal := V c main_v89
      let p (k : Fin 128) := A (ix2 (⟨(j 0).val, by have := idx2_lt0 j; omega⟩ : Fin 1000000) k)
      let q (k : Fin 128) := A (ix2 (⟨500000 + (j 0).val, by have := idx2_lt0 j; omega⟩ : Fin 1000000) k)
      ((∑ k : Fin 128, p k * (V c main_v7 : Cert.Spec.SW.Idx → EReal) (ix2 (j 1) k))
          + (∑ k : Fin 128, q k * (V c main_v9 : Cert.Spec.SW.Idx → EReal) (ix2 (j 1) k)))
        * Ideal.logistic (((∑ k : Fin 128, p k * (V c main_v10 : (⟨2, ![1, 128]⟩ : Shape).Idx → EReal) (ix2 0 k))
            + (∑ k : Fin 128, q k * (V c main_v11 : (⟨2, ![1, 128]⟩ : Shape).Idx → EReal) (ix2 0 k)))
          + (V c main_v12 : (⟨2, ![1, 1]⟩ : Shape).Idx → EReal) (ix2 0 0)) :=
  (dat5 (F := Ideal) V c).arrAt_eq_of_cover 7
    (gate (V c main_v89) (V c main_v7) (V c main_v9) (V c main_v10) (V c main_v11) (V c main_v12))
    (fun t _ => flushed5_7_eq V c t) tiles5_7

end Cert.KernelIdeal.Fr

end
-- ==== Proof.KI.Val6.lean ====
import proofs.«408774_j4466765988336_3_alg».proof.Proof.KI.Reg6
import proofs.«408774_j4466765988336_3_alg».proof.Proof.KI.ValLib

noncomputable section

namespace Cert.KernelIdeal.Fr

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 2) = t.val ∧ win6_5.index t (1 : Fin 2) = 0 :=
  (by decide +kernel : ∀ t : Fin grid6.N, _)

/-- The node update of the layer on the arrays the region finds. -/
abbrev G6 (c : Dev nD) : S100000x128.Idx → EReal :=
  Cert.Spec.combK (V c main_v82_0) (V c main_v115) (V c main_v13) ((V c main_v88 : (⟨2, ![1, 1]⟩ : Shape).Idx → EReal) (ix2 0 0))

/-- The body at point `t`, row `p`, is the node update at row `10000·t + p`: the small blocks are their arrays, the large ones row blocks. -/
theorem point6 (c : Dev nD) (t : Fin cfg6.N) (p : Fin 10000) (q : Fin 128) (h : 10000 * t.val + p.val < 100000) :
    k6_pay1 (F := Ideal) (iblk6 V c 1 t) (iblk6 V c 0 t) (iblk6 V c 2 t) (iblk6 V c 3 t) (ix2 p q)
      = G6 V c (ix2 (⟨10000 * t.val + p.val, h⟩ : Fin 100000) q) := by
  obtain ⟨e0, e1, e2, e3, e4, e5, e6, e7, -⟩ := idx_facts6 t
  rw [show iblk6 V c 2 t = V c main_v13 from funext fun y => congrArg (V c main_v13 : S128x128.Idx → EReal)
      (Shape.idx_ext₂ (win6_2.rect_emb_val_of_index_zero t 0 e4 y) (win6_2.rect_emb_val_of_index_zero t 1 e5 y)),
    show iblk6 V c 3 t = V c main_v88 from funext fun y => congrArg (V c main_v88 : S1x1.Idx → EReal)
      (Shape.idx_ext₂ (win6_3.rect_emb_val_of_index_zero t 0 e6 y) (win6_3.rect_emb_val_of_index_zero t 1 e7 y))]
  unfold k6_pay1
  simp only [shapeCast_self]
  exact comb_block (V c main_v82_0) (V c main_v115) (V c main_v13) (V c main_v88) (iblk6 V c 1 t) (iblk6 V c 0 t) p q ⟨_, h⟩
    (congrArg (V c main_v82_0 : S100000x128.Idx → EReal) (unit2_emb (ix2 p q) _
      (by show 10000 * t.val + p.val = win6_1.index t 0 * 10000 + p.val; rw [e2]; omega)
      (by show q.val = win6_1.index t 1 * 128 + q.val; rw [e3]; omega)))
    (fun k => congrArg (V c main_v115 : S100000x128.Idx → EReal) (unit2_emb (ix2 p k) _
      (by show 10000 * t.val + p.val = win6_0.index t 0 * 10000 + p.val; rw [e0]; omega)
      (by show k.val = win6_0.index t 1 * 128 + k.val; rw [e1]; omega)))

/-- Point `t` writes rows `10000·t …` of the node update through the full-width window, -/
theorem flushed6_4 (c : Dev nD) (t : Fin cfg6.N) :
    (dat6 (F := Ideal) V c).flushed 4 t = ((cfg6.win 4).blk t).view.read (Elt Ideal) (G6 V c) := by
  obtain ⟨-, -, -, -, -, -, -, -, e8, e9, -⟩ := idx_facts6 t
  have ht : t.val < 10 := t.isLt.trans_eq N_6
  show (cfg6.win 4).cut (grid6.coords t) ((dat6 (F := Ideal) V c).after 4 t) = _
  rw [after6_4]
  unfold out6_4
  rw [View.canon_unit_zero hz]
  simp only [View.ld_unit_zero (S := S10000x128) hz, View.ld_unit_zero (S := S128x128) hz, View.ld_unit_zero (S := S1x1) hz]
  funext j
  obtain ⟨p, q, rfl⟩ : ∃ (p : Fin 10000) (q : Fin 128), j = ix2 p q := ⟨j 0, j 1, eq_ix2 j⟩
  have hp := p.isLt
  exact (point6 V c t p q (by omega)).trans (congrArg (G6 V c) (unit2_emb (ix2 p q) _
    (by show 10000 * t.val + p.val = win6_4.index t 0 * 10000 + p.val; rw [e8]; omega)
    (by show q.val = win6_4.index t 1 * 128 + q.val; rw [e9]; omega))).symm

/-- and the same values through the half-width one: narrowing changes no extended real. -/
theorem flushed6_5 (c : Dev nD) (t : Fin cfg6.N) :
    (dat6 (F := Ideal) V c).flushed 5 t = ((cfg6.win 5).blk t).view.read (Elt Ideal) (G6 V c) := by
  obtain ⟨-, -, -, -, -, -, -, -, -, -, e10, e11⟩ := idx_facts6 t
  have ht : t.val < 10 := t.isLt.trans_eq N_6
  show (cfg6.win 5).cut (grid6.coords t) ((dat6 (F := Ideal) V c).after 5 t) = _
  rw [after6_5]
  unfold out6_5
  rw [View.canon_unit_zero hz]
  simp only [View.ld_unit_zero (S := S10000x128) hz, View.ld_unit_zero (S := S128x128) hz, View.ld_unit_zero (S := S1x1) hz]
  funext j
  obtain ⟨p, q, rfl⟩ : ∃ (p : Fin 10000) (q : Fin 128), j = ix2 p q := ⟨j 0, j 1, eq_ix2 j⟩
  have hp := p.isLt
  exact (point6 V c t p q (by omega)).trans (congrArg (G6 V c) (unit2_emb (ix2 p q) _
    (by show 10000 * t.val + p.val = win6_5.index t 0 * 10000 + p.val; rw [e10]; omega)
    (by show q.val = win6_5.index t 1 * 128 + q.val; rw [e11]; omega))).symm

/-- Row `r` lies in the block of point `r / 10000`. -/
theorem tiles6_4 (i : S100000x128.Idx) :
    ∃ t : Fin cfg6.N, (cfg6.win 4).flush t = true ∧ i ∈ ((cfg6.win 4).blk t).view.set := by
  have hi := idx2_lt0 i
  let t : Fin cfg6.N := ⟨(i 0).val / 10000, (show (i 0).val / 10000 < 10 by omega).trans_eq N_6.symm⟩
  obtain ⟨-, -, -, -, -, -, -, -, e8, e9, -⟩ := idx_facts6 t
  refine ⟨t, flush6_4 t, ?_⟩
  show i ∈ ((View.whole (Pipeline.arrRef spec6 4)).slice (win6_4.rect t)).set
  rw [View.set_slice_whole]
  exact unit2_mem_rows i (by show win6_4.index t 0 * 10000 = _; rw [e8]) rfl
    (by show win6_4.index t 1 * 128 = 0; rw [e9]) rfl

theorem tiles6_5 (i : S100000x128.Idx) :
    ∃ t : Fin cfg6.N, (cfg6.win 5).flush t = true ∧ i ∈ ((cfg6.win 5).blk t).view.set := by
  have hi := idx2_lt0 i
  let t : Fin cfg6.N := ⟨(i 0).val / 10000, (show (i 0).val / 10000 < 10 by omega).trans_eq N_6.symm⟩
  obtain ⟨-, -, -, -, -, -, -, -, -, -, e10, e11⟩ := idx_facts6 t
  refine ⟨t, flush6_5 t, ?_⟩
  show i ∈ ((View.whole (Pipeline.arrRef spec6 5)).slice (win6_5.rect t)).set
  rw [View.set_slice_whole]
  exact unit2_mem_rows i (by show win6_5.index t 0 * 10000 = _; rw [e10]) rfl
    (by show win6_5.index t 1 * 128 = 0; rw [e11]) rfl

theorem val6_4 (c : Dev nD) :
    ((dat6 (F := Ideal) V c).arrAt 4 cfg6.N : Cert.Spec.SN.Idx → EReal)
      = Cert.Spec.combK (V c main_v82_0) (V c main_v115) (V c main_v13)
          ((V c main_v88 : (⟨2, ![1, 1]⟩ : Shape).Idx → EReal) (ix2 0 0)) :=
  (dat6 (F := Ideal) V c).arrAt_eq_of_cover 4 (G6 V c) (fun t _ => flushed6_4 V c t) tiles6_4

theorem val6_5 (c : Dev nD) :
    ((dat6 (F := Ideal) V c).arrAt 5 cfg6.N : Cert.Spec.SN.Idx → EReal)
      = Cert.Spec.combK (V c main_v82_0) (V c main_v115) (V c main_v13)
          ((V c main_v88 : (⟨2, ![1, 1]⟩ : Shape).Idx → EReal) (ix2 0 0)) :=
  (dat6 (F := Ideal) V c).arrAt_eq_of_cover 5 (G6 V c) (fun t _ => flushed6_5 V c t) tiles6_5

end Cert.KernelIdeal.Fr

end
-- ==== Proof.KI.Chain3.lean ====
import proofs.«408774_j4466765988336_3_alg».proof.Proof.KI.ChainBase
import proofs.«408774_j4466765988336_3_alg».proof.Proof.KI.Val5
import proofs.«408774_j4466765988336_3_alg».proof.Proof.KI.Val6

set_option maxRecDepth 1488

noncomputable section

namespace Cert.KernelIdeal.Fr

open Cert.KernelIdeal Cert.KernelIdeal.Gen
open Idealize.ShloMosaic Idealize.ShloMosaic.TcCoe Idealize.ShloMosaic.ValueIdx

section Iter3
variable (m : (ℓ : Loc nD τ sig) → Buf (Elt Ideal) ℓ) (c : Dev nD)
variable (hR : Cert.Spec.InRange (aI m c)) (h : Cert.Spec.SN.Idx → EReal)
  (h0 : (Gen.V12 m (outs m) c main_v82_0 : Cert.Spec.SN.Idx → EReal) = h)
  (h1 : (Gen.V12 m (outs m) c main_v82_1 : Cert.Spec.SN.Idx → EReal) = h)

theorem w3 : (Gen.V16 m (outs m) c main_v88 : (⟨2, ![1, 1]⟩ : Shape).Idx → EReal) (ix2 0 0)
    = Cert.Spec.wstep (aT m c) s3 := by
  have e : (Gen.V16 m (outs m) c main_v88 : (⟨2, ![1, 1]⟩ : Shape).Idx → EReal) = Gen.V13 m (outs m) c main_v88 :=
    (Gen.V16_of m (outs m) c main_v88 (by decide)).trans
      ((Gen.V15_of m (outs m) c main_v88 (by decide)).trans (Gen.V14_of m (outs m) c main_v88 (by decide)))
  have eT : Gen.V12 m (outs m) c main_arg7 = aT m c :=
    (V12_keep m (outs m) c main_arg7 (by decide)).trans (V1_arg m c main_arg7 (by decide))
  exact (congrFun e (ix2 0 0)).trans
    ((after5_v88 (Gen.V12 m (outs m) c)).trans (congrArg (fun t => Cert.Spec.wstep t s3) eT))

include hR h1 in
/-- A gathered row is the handed table's row at the node its word names. -/
theorem g3 (i : Fin 1000000) (k : Fin 128) (j : Cert.Spec.SI.Idx)
    (hw : (Gen.V13 m (outs m) c main_v4 : (⟨1, ![1000000]⟩ : Shape).Idx → BitVec 32) (ix1 i) = aI m c j) :
    (Gen.V14 m (outs m) c main_v89 : (⟨2, ![1000000, 128]⟩ : Shape).Idx → EReal) (ix2 i k)
      = h (ix2 (Cert.Spec.node (aI m c j)) k) := by
  have hr := hR j
  rw [← hw] at hr
  exact (after51_v89 (Gen.V13 m (outs m) c) i k hr.1 hr.2).trans
    ((congrFun ((Gen.V13_of m (outs m) c main_v82_1 (by decide)).trans h1) _).trans (row_eq hw _ k))

include hR h1 in
theorem msg3 : (Gen.V15 m (outs m) c main_v90 : Cert.Spec.SE.Idx → EReal)
    = Cert.Spec.msgK h (aI m c) (aWe m c) (aG m c) (aB m c) := by
  refine (V15_at_0 m c).trans ((outs_15 m c).trans ((val5_7 (fun c b => Gen.V14 m (outs m) c b) c).trans ?_))
  exact msg_glue h (aI m c) (aWe m c) (aG m c) (aB m c) _ _ _ _ _ _
    (fun e k he => g3 m c hR h h1 ⟨e.val, he⟩ k (ix2 0 e)
      ((congrFun (V13_keep m (outs m) c main_v4 (by decide)) _).trans (V1_v4P m c e he)))
    (fun e k he => g3 m c hR h h1 ⟨500000 + e.val, he⟩ k (ix2 1 e)
      ((congrFun (V13_keep m (outs m) c main_v4 (by decide)) _).trans (V1_v4C m c e he)))
    ((V14_keep m (outs m) c main_v7 (by decide)).trans (V1_v7 m c))
    ((V14_keep m (outs m) c main_v9 (by decide)).trans (V1_v9 m c))
    ((V14_keep m (outs m) c main_v10 (by decide)).trans (V1_v10 m c))
    ((V14_keep m (outs m) c main_v11 (by decide)).trans (V1_v11 m c))
    ((congrFun (V14_keep m (outs m) c main_v12 (by decide)) _).trans (V1_v12 m c))

include hR h1 in
theorem agg3 : (Gen.V16 m (outs m) c main_v115 : Cert.Spec.SN.Idx → EReal)
    = Cert.Spec.agg (aI m c) (Cert.Spec.msgK h (aI m c) (aWe m c) (aG m c) (aB m c)) := by
  have c1 : (Gen.V15 m (outs m) c main_v1 : (⟨1, ![500000]⟩ : Shape).Idx → BitVec 32) = fun i => aI m c (ix2 0 (i 0)) :=
    (V15_keep m (outs m) c main_v1 (by decide)).trans (V1_v1 m c)
  have c3 : (Gen.V15 m (outs m) c main_v3 : (⟨1, ![500000]⟩ : Shape).Idx → BitVec 32) = fun i => aI m c (ix2 1 (i 0)) :=
    (V15_keep m (outs m) c main_v3 (by decide)).trans (V1_v3 m c)
  exact (after6_v115 (Gen.V15 m (outs m) c) (fun i => by rw [c1]; exact hR _) (fun i => by rw [c3]; exact hR _)).trans
    ((agg_glue (aI m c) (Gen.V15 m (outs m) c main_v90) _ _ c1 c3).trans
      (congrArg (Cert.Spec.agg (aI m c)) (msg3 m c hR h h1)))

include hR h0 h1 in
theorem res3_0 : (Gen.V17 m (outs m) c main_v116_0 : Cert.Spec.SN.Idx → EReal)
    = Cert.Spec.stepK (aI m c) (aWpc m c) (aWe m c) (aG m c) (aB m c) (Cert.Spec.wstep (aT m c) s3) h := by
  have eh : (Gen.V16 m (outs m) c main_v82_0 : Cert.Spec.SN.Idx → EReal) = h :=
    (Gen.V16_of m (outs m) c main_v82_0 (by decide)).trans ((Gen.V15_of m (outs m) c main_v82_0 (by decide)).trans
      ((Gen.V14_of m (outs m) c main_v82_0 (by decide)).trans ((Gen.V13_of m (outs m) c main_v82_0 (by decide)).trans h0)))
  have eW : (Gen.V16 m (outs m) c main_v13 : Cert.Spec.SW.Idx → EReal) = aWpc m c :=
    (V16_keep m (outs m) c main_v13 (by decide)).trans (V1_v13 m c)
  exact (V17_at_0 m c).trans ((outs_17_0 m c).trans ((val6_4 (fun c b => Gen.V16 m (outs m) c b) c).trans
    (comb_glue eh (agg3 m c hR h h1) eW (w3 m c))))

include hR h0 h1 in
theorem res3_1 : (Gen.V17 m (outs m) c main_v116_1 : Cert.Spec.SN.Idx → EReal)
    = Cert.Spec.stepK (aI m c) (aWpc m c) (aWe m c) (aG m c) (aB m c) (Cert.Spec.wstep (aT m c) s3) h :=
  (V17_at_1 m c).trans ((outs_17_1 m c).trans ((val6_5 (fun c b => Gen.V16 m (outs m) c b) c).trans
    ((val6_4 (fun c b => Gen.V16 m (outs m) c b) c).symm.trans ((outs_17_0 m c).symm.trans
      ((V17_at_0 m c).symm.trans (res3_0 m c hR h h0 h1))))))

end Iter3

end Cert.KernelIdeal.Fr

end
-- ==== Proof.KI.Chain.lean ====
import proofs.«408774_j4466765988336_3_alg».proof.Proof.KI.Chain1
import proofs.«408774_j4466765988336_3_alg».proof.Proof.KI.Chain2
import proofs.«408774_j4466765988336_3_alg».proof.Proof.KI.Chain3

set_option maxRecDepth 1488

noncomputable section

namespace Cert.KernelIdeal.Fr

open Cert.KernelIdeal Cert.KernelIdeal.Gen
open Idealize.ShloMosaic Idealize.ShloMosaic.TcCoe Idealize.ShloMosaic.ValueIdx

theorem kernel_value (m : (ℓ : Loc nD τ sig) → Buf (Elt Ideal) ℓ) (c : Dev nD)
    (hR : Cert.Spec.InRange (m ((c.tc : Thread nD τ).loc main_arg1))) :
    (Gen.V17 m (outs m) c main_v116_0 : Cert.Spec.SN.Idx → EReal)
      = Cert.Spec.resultK (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  have a1_0 := res1_0 m c hR _ (h0_0 m c) (h0_1 m c)
  have a1_1 := res1_1 m c hR _ (h0_0 m c) (h0_1 m c)
  have a2_0 := res2_0 m c hR _ a1_0 a1_1
  have a2_1 := res2_1 m c hR _ a1_0 a1_1
  exact res3_0 m c hR _ a2_0 a2_1

end Cert.KernelIdeal.Fr

end
-- ==== Proof.RefReadP.lean ====
/- The reference program one operation at a time; an iteration's stages are functions of the features `h` entering it and of the word `s` of its step weight, so one reading serves all three. -/
import proofs.«408774_j4466765988336_3_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

def val_main_v0 (x1 : (⟨S2x500000, .i32⟩ : BufTy).Contents (Elt F)) : (⟨S1x500000, .i32⟩ : BufTy).Contents (Elt F) :=
  extractStridedSlice S1x500000 ![0, 0] (x1) slices_S2x500000_S1x500000_0_0
abbrev idx_main_v0 (i : S1x500000.Idx) : S2x500000.Idx := fun a => match a with
  | ⟨0, _⟩ => ⟨(i 0).val, by have h0 : (i 0).val < 1 := (i 0).isLt; show (i 0).val < 2; omega⟩
  | ⟨1, _⟩ => ⟨(i 1).val, (i 1).isLt⟩
theorem val_main_v0_apply (x1 : (⟨S2x500000, .i32⟩ : BufTy).Contents (Elt F)) (i : S1x500000.Idx) :
    val_main_v0 (F := F) x1 i = x1 (idx_main_v0 i) := by
  unfold val_main_v0
  exact extractStridedSlice_apply ![0, 0] x1 slices_S2x500000_S1x500000_0_0 i (idx_main_v0 i) (fun a => match a with
    | ⟨0, _⟩ => by show (i 0).val = 0 + (i 0).val; omega
    | ⟨1, _⟩ => by show (i 1).val = 0 + (i 1).val; omega)

def val_main_v1 (x1 : (⟨S2x500000, .i32⟩ : BufTy).Contents (Elt F)) : (⟨S500000, .i32⟩ : BufTy).Contents (Elt F) :=
  shapeCast _ (val_main_v0 (F := F) x1) shapeCasts_S1x500000_S500000
abbrev idx_main_v1 (i : S500000.Idx) : S1x500000.Idx := fun a => match a with
  | ⟨0, _⟩ => ⟨0, Nat.one_pos⟩
  | ⟨1, _⟩ => ⟨((i 0).val) % 500000, by have h0 : (i 0).val < 500000 := (i 0).isLt; show ((i 0).val) % 500000 < 500000; omega⟩
theorem val_main_v1_apply (x1 : (⟨S2x500000, .i32⟩ : BufTy).Contents (Elt F)) (i : S500000.Idx) :
    val_main_v1 (F := F) x1 i = val_main_v0 (F := F) x1 (idx_main_v1 i) := by
  unfold val_main_v1
  generalize val_main_v0 (F := F) x1 = y
  exact shapeCast_apply y shapeCasts_S1x500000_S500000 i (idx_main_v1 i)
    (by rewrite [Shape.rowMajor_val_two, Shape.rowMajor_val_one]; have h0 : (i 0).val < 500000 := (i 0).isLt; show 0 * 500000 + ((i 0).val) % 500000 = (i 0).val; omega)

def val_main_v2 (x1 : (⟨S2x500000, .i32⟩ : BufTy).Contents (Elt F)) : (⟨S1x500000, .i32⟩ : BufTy).Contents (Elt F) :=
  extractStridedSlice S1x500000 ![1, 0] (x1) slices_S2x500000_S1x500000_1_0
abbrev idx_main_v2 (i : S1x500000.Idx) : S2x500000.Idx := fun a => match a with
  | ⟨0, _⟩ => ⟨1 + (i 0).val, by have h0 : (i 0).val < 1 := (i 0).isLt; show 1 + (i 0).val < 2; omega⟩
  | ⟨1, _⟩ => ⟨(i 1).val, (i 1).isLt⟩
theorem val_main_v2_apply (x1 : (⟨S2x500000, .i32⟩ : BufTy).Contents (Elt F)) (i : S1x500000.Idx) :
    val_main_v2 (F := F) x1 i = x1 (idx_main_v2 i) := by
  unfold val_main_v2
  exact extractStridedSlice_apply ![1, 0] x1 slices_S2x500000_S1x500000_1_0 i (idx_main_v2 i) (fun a => match a with
    | ⟨0, _⟩ => by show 1 + (i 0).val = 1 + (i 0).val; omega
    | ⟨1, _⟩ => by show (i 1).val = 0 + (i 1).val; omega)

def val_main_v3 (x1 : (⟨S2x500000, .i32⟩ : BufTy).Contents (Elt F)) : (⟨S500000, .i32⟩ : BufTy).Contents (Elt F) :=
  shapeCast _ (val_main_v2 (F := F) x1) shapeCasts_S1x500000_S500000
abbrev idx_main_v3 (i : S500000.Idx) : S1x500000.Idx := fun a => match a with
  | ⟨0, _⟩ => ⟨0, Nat.one_pos⟩
  | ⟨1, _⟩ => ⟨((i 0).val) % 500000, by have h0 : (i 0).val < 500000 := (i 0).isLt; show ((i 0).val) % 500000 < 500000; omega⟩
theorem val_main_v3_apply (x1 : (⟨S2x500000, .i32⟩ : BufTy).Contents (Elt F)) (i : S500000.Idx) :
    val_main_v3 (F := F) x1 i = val_main_v2 (F := F) x1 (idx_main_v3 i) := by
  unfold val_main_v3
  generalize val_main_v2 (F := F) x1 = y
  exact shapeCast_apply y shapeCasts_S1x500000_S500000 i (idx_main_v3 i)
    (by rewrite [Shape.rowMajor_val_two, Shape.rowMajor_val_one]; have h0 : (i 0).val < 500000 := (i 0).isLt; show 0 * 500000 + ((i 0).val) % 500000 = (i 0).val; omega)

def val_main_v4 (x2 : (⟨S128x128, .f32⟩ : BufTy).Contents (Elt F)) : (⟨S128x128, .f32⟩ : BufTy).Contents (Elt F) :=
  transpose S128x128 [1, 0] (x2) transposes_S128x128_S128x128_1_0
abbrev idx_main_v4 (i : S128x128.Idx) : S128x128.Idx := fun a => match a with
  | ⟨0, _⟩ => ⟨(i 1).val, (i 1).isLt⟩
  | ⟨1, _⟩ => ⟨(i 0).val, (i 0).isLt⟩
theorem val_main_v4_apply (x2 : (⟨S128x128, .f32⟩ : BufTy).Contents (Elt F)) (i : S128x128.Idx) :
    val_main_v4 (F := F) x2 i = x2 (idx_main_v4 i) := by
  unfold val_main_v4
  exact transpose_apply [1, 0] x2 transposes_S128x128_S128x128_1_0 i (idx_main_v4 i) (fun b => match b with
    | ⟨0, _⟩ => rfl
    | ⟨1, _⟩ => rfl)

def val_main_v5 (x0 : (⟨S100000x128, .f32⟩ : BufTy).Contents (Elt F)) (x2 : (⟨S128x128, .f32⟩ : BufTy).Contents (Elt F)) : (⟨S100000x128, .f32⟩ : BufTy).Contents (Elt F) :=
  Host.dotGeneral dot_S100000x128_S128x128_S100000x128_1_0_0_1_n_n none (x0) (val_main_v4 (F := F) x2)
theorem lhs_main_v5_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_main_v5_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_main_v5_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_main_v5_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl
abbrev lidx_main_v5 (i : S100000x128.Idx) (k : Fin 128) : S100000x128.Idx := fun a => match a with
  | ⟨0, _⟩ => ⟨(i 0).val, (i 0).isLt⟩
  | ⟨1, _⟩ => ⟨k.val, k.isLt⟩
abbrev ridx_main_v5 (i : S100000x128.Idx) (k : Fin 128) : S128x128.Idx := fun a => match a with
  | ⟨0, _⟩ => ⟨k.val, k.isLt⟩
  | ⟨1, _⟩ => ⟨(i 1).val, (i 1).isLt⟩
theorem val_main_v5_apply (x0 : (⟨S100000x128, .f32⟩ : BufTy).Contents (Elt Ideal)) (x2 : (⟨S128x128, .f32⟩ : BufTy).Contents (Elt Ideal)) (i : S100000x128.Idx) :
    val_main_v5 (F := Ideal) x0 x2 i = ∑ k : Fin 128, x0 (lidx_main_v5 i k) * (val_main_v4 (F := Ideal) x2) (ridx_main_v5 i k) := by
  unfold val_main_v5
  generalize val_main_v4 (F := Ideal) x2 = y0
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = lidx_main_v5 i k := funext fun a => Fin.ext (by
    match a with
    | ⟨0, _⟩ => exact lhs_main_v5_0 _ _
    | ⟨1, _⟩ => exact (lhs_main_v5_1 _ _).trans hk)
  have er : dot_S100000x128_S128x128_S100000x128_1_0_0_1_n_n.rhsIdx i ((ValueIdx.contrEquiv1 dot_S100000x128_S128x128_S100000x128_1_0_0_1_n_n 128 rfl rfl).symm k) = ridx_main_v5 i k := funext fun a => Fin.ext (by
    match a with
    | ⟨0, _⟩ => exact (rhs_main_v5_0 _ _).trans hk
    | ⟨1, _⟩ => exact rhs_main_v5_1 _ _)
  rw [el, er]

def val_main_cst (s : BitVec 32) : (⟨S_, .f32⟩ : BufTy).Contents (Elt F) :=
  constant S_ .f32 s
theorem val_main_cst_apply (s : BitVec 32) (i : S_.Idx) :
    val_main_cst (F := F) s i = FloatOps.ofBits .f32 s := rfl

def val_main_v6 (x7 : (⟨S_, .f32⟩ : BufTy).Contents (Elt F)) (s : BitVec 32) : (⟨S_, .f32⟩ : BufTy).Contents (Elt F) :=
  subf (x7) (val_main_cst (F := F) s)
theorem val_main_v6_apply (x7 : (⟨S_, .f32⟩ : BufTy).Contents (Elt F)) (s : BitVec 32) (i : S_.Idx) :
    val_main_v6 (F := F) x7 s i = FloatOps.subf (x7 i) (val_main_cst (F := F) s i) := rfl

def val_main_v7 (x7 : (⟨S_, .f32⟩ : BufTy).Contents (Elt F)) (s : BitVec 32) : (⟨S_, .f32⟩ : BufTy).Contents (Elt F) :=
  Host.negf (val_main_v6 (F := F) x7 s)
theorem val_main_v7_apply (x7 : (⟨S_, .f32⟩ : BufTy).Contents (Elt F)) (s : BitVec 32) (i : S_.Idx) :
    val_main_v7 (F := F) x7 s i = FloatOps.hostNegf (val_main_v6 (F := F) x7 s i) := rfl

def val_main_v8 (x7 : (⟨S_, .f32⟩ : BufTy).Contents (Elt F)) (s : BitVec 32) : (⟨S_, .f32⟩ : BufTy).Contents (Elt F) :=
  Host.exp (val_main_v7 (F := F) x7 s)
theorem val_main_v8_apply (x7 : (⟨S_, .f32⟩ : BufTy).Contents (Elt F)) (s : BitVec 32) (i : S_.Idx) :
    val_main_v8 (F := F) x7 s i = FloatOps.hostUnary .exp (val_main_v7 (F := F) x7 s i) := rfl

def val_main_cst_0 : (⟨S_, .f32⟩ : BufTy).Contents (Elt F) :=
  constant S_ .f32 0x3F800000#32
theorem val_main_cst_0_apply (i : S_.Idx) :
    val_main_cst_0 (F := F) i = FloatOps.ofBits .f32 0x3F800000#32 := rfl

def val_main_v9 (x7 : (⟨S_, .f32⟩ : BufTy).Contents (Elt F)) (s : BitVec 32) : (⟨S_, .f32⟩ : BufTy).Contents (Elt F) :=
  addf (val_main_cst_0 (F := F)) (val_main_v8 (F := F) x7 s)
theorem val_main_v9_apply (x7 : (⟨S_, .f32⟩ : BufTy).Contents (Elt F)) (s : BitVec 32) (i : S_.Idx) :
    val_main_v9 (F := F) x7 s i = FloatOps.addf (val_main_cst_0 (F := F) i) (val_main_v8 (F := F) x7 s i) := rfl

def val_main_cst_1 : (⟨S_, .f32⟩ : BufTy).Contents (Elt F) :=
  constant S_ .f32 0x3F800000#32
theorem val_main_cst_1_apply (i : S_.Idx) :
    val_main_cst_1 (F := F) i = FloatOps.ofBits .f32 0x3F800000#32 := rfl

def val_main_v10 (x7 : (⟨S_, .f32⟩ : BufTy).Contents (Elt F)) (s : BitVec 32) : (⟨S_, .f32⟩ : BufTy).Contents (Elt F) :=
  Host.divf (val_main_cst_1 (F := F)) (val_main_v9 (F := F) x7 s)
theorem val_main_v10_apply (x7 : (⟨S_, .f32⟩ : BufTy).Contents (Elt F)) (s : BitVec 32) (i : S_.Idx) :
    val_main_v10 (F := F) x7 s i = FloatOps.hostDivf (val_main_cst_1 (F := F) i) (val_main_v9 (F := F) x7 s i) := rfl

def val_main_c : (⟨S_, .i32⟩ : BufTy).Contents (Elt F) :=
  constantI S_ 32 0#32
theorem val_main_c_apply (i : S_.Idx) :
    val_main_c (F := F) i = 0#32 := rfl

def val_main_v11 : (⟨S500000, .i32⟩ : BufTy).Contents (Elt F) :=
  broadcastInDim S500000 ![] bcast_S_S500000 (val_main_c (F := F))
abbrev idx_main_v11 (i : S500000.Idx) : S_.Idx := fun a => a.elim0
theorem val_main_v11_apply (i : S500000.Idx) :
    val_main_v11 (F := F) i = val_main_c (F := F) (idx_main_v11 i) := by
  unfold val_main_v11
  generalize val_main_c (F := F) = y
  exact broadcastInDim_apply _ bcast_S_S500000 y i (idx_main_v11 i) (fun a => a.elim0)

def val_main_v12 (x1 : (⟨S2x500000, .i32⟩ : BufTy).Contents (Elt F)) : (⟨S500000, .i1⟩ : BufTy).Contents (Elt F) :=
  cmpi .slt (val_main_v1 (F := F) x1) (val_main_v11 (F := F))
theorem val_main_v12_apply (x1 : (⟨S2x500000, .i32⟩ : BufTy).Contents (Elt F)) (i : S500000.Idx) :
    val_main_v12 (F := F) x1 i = IntOp.cmpi .slt (val_main_v1 (F := F) x1 i) (val_main_v11 (F := F) i) := rfl

def val_main_c_2 : (⟨S_, .i32⟩ : BufTy).Contents (Elt F) :=
  constantI S_ 32 100000#32
theorem val_main_c_2_apply (i : S_.Idx) :
    val_main_c_2 (F := F) i = 100000#32 := rfl

def val_main_v13 : (⟨S500000, .i32⟩ : BufTy).Contents (Elt F) :=
  broadcastInDim S500000 ![] bcast_S_S500000 (val_main_c_2 (F := F))
abbrev idx_main_v13 (i : S500000.Idx) : S_.Idx := fun a => a.elim0
theorem val_main_v13_apply (i : S500000.Idx) :
    val_main_v13 (F := F) i = val_main_c_2 (F := F) (idx_main_v13 i) := by
  unfold val_main_v13
  generalize val_main_c_2 (F := F) = y
  exact broadcastInDim_apply _ bcast_S_S500000 y i (idx_main_v13 i) (fun a => a.elim0)

def val_main_v14 (x1 : (⟨S2x500000, .i32⟩ : BufTy).Contents (Elt F)) : (⟨S500000, .i32⟩ : BufTy).Contents (Elt F) :=
  addi (val_main_v1 (F := F) x1) (val_main_v13 (F := F))
theorem val_main_v14_apply (x1 : (⟨S2x500000, .i32⟩ : BufTy).Contents (Elt F)) (i : S500000.Idx) :
    val_main_v14 (F := F) x1 i = IntOp.addi (val_main_v1 (F := F) x1 i) (val_main_v13 (F := F) i) := rfl

def val_main_v15 (x1 : (⟨S2x500000, .i32⟩ : BufTy).Contents (Elt F)) : (⟨S500000, .i32⟩ : BufTy).Contents (Elt F) :=
  select (val_main_v12 (F := F) x1) (val_main_v14 (F := F) x1) (val_main_v1 (F := F) x1)
theorem val_main_v15_apply (x1 : (⟨S2x500000, .i32⟩ : BufTy).Contents (Elt F)) (i : S500000.Idx) :
    val_main_v15 (F := F) x1 i = Scalar.select (val_main_v12 (F := F) x1 i) (val_main_v14 (F := F) x1 i) (val_main_v1 (F := F) x1 i) := rfl

def val_main_v16 (x1 : (⟨S2x500000, .i32⟩ : BufTy).Contents (Elt F)) : (⟨S500000x1, .i32⟩ : BufTy).Contents (Elt F) :=
  broadcastInDim S500000x1 ![0] bcast_S500000_S500000x1_0 (val_main_v15 (F := F) x1)
abbrev idx_main_v16 (i : S500000x1.Idx) : S500000.Idx := fun a => match a with
  | ⟨0, _⟩ => ⟨(i 0).val, (i 0).isLt⟩
theorem val_main_v16_apply (x1 : (⟨S2x500000, .i32⟩ : BufTy).Contents (Elt F)) (i : S500000x1.Idx) :
    val_main_v16 (F := F) x1 i = val_main_v15 (F := F) x1 (idx_main_v16 i) := by
  unfold val_main_v16
  generalize val_main_v15 (F := F) x1 = y
  exact broadcastInDim_apply _ bcast_S500000_S500000x1_0 y i (idx_main_v16 i) (fun a => match a with
    | ⟨0, _⟩ => by show (i 0).val = if (500000 : Nat) = 1 then 0 else (i 0).val; rw [if_neg (by decide)])

def val_main_v17 (h : (⟨S100000x128, .f32⟩ : BufTy).Contents (Elt F)) (x1 : (⟨S2x500000, .i32⟩ : BufTy).Contents (Elt F)) : (⟨S500000x128, .f32⟩ : BufTy).Contents (Elt F) :=
  Host.gather gather_S100000x128_S500000x1_S500000x128_1_0_n_n_0_1_1128 (h) (val_main_v16 (F := F) x1)

def val_main_c_3 : (⟨S_, .i32⟩ : BufTy).Contents (Elt F) :=
  constantI S_ 32 0#32
theorem val_main_c_3_apply (i : S_.Idx) :
    val_main_c_3 (F := F) i = 0#32 := rfl

def val_main_v18 : (⟨S500000, .i32⟩ : BufTy).Contents (Elt F) :=
  broadcastInDim S500000 ![] bcast_S_S500000 (val_main_c_3 (F := F))
abbrev idx_main_v18 (i : S500000.Idx) : S_.Idx := fun a => a.elim0
theorem val_main_v18_apply (i : S500000.Idx) :
    val_main_v18 (F := F) i = val_main_c_3 (F := F) (idx_main_v18 i) := by
  unfold val_main_v18
  generalize val_main_c_3 (F := F) = y
  exact broadcastInDim_apply _ bcast_S_S500000 y i (idx_main_v18 i) (fun a => a.elim0)

def val_main_v19 (x1 : (⟨S2x500000, .i32⟩ : BufTy).Contents (Elt F)) : (⟨S500000, .i1⟩ : BufTy).Contents (Elt F) :=
  cmpi .slt (val_main_v3 (F := F) x1) (val_main_v18 (F := F))
theorem val_main_v19_apply (x1 : (⟨S2x500000, .i32⟩ : BufTy).Contents (Elt F)) (i : S500000.Idx) :
    val_main_v19 (F := F) x1 i = IntOp.cmpi .slt (val_main_v3 (F := F) x1 i) (val_main_v18 (F := F) i) := rfl

def val_main_c_4 : (⟨S_, .i32⟩ : BufTy).Contents (Elt F) :=
  constantI S_ 32 100000#32
theorem val_main_c_4_apply (i : S_.Idx) :
    val_main_c_4 (F := F) i = 100000#32 := rfl

def val_main_v20 : (⟨S500000, .i32⟩ : BufTy).Contents (Elt F) :=
  broadcastInDim S500000 ![] bcast_S_S500000 (val_main_c_4 (F := F))
abbrev idx_main_v20 (i : S500000.Idx) : S_.Idx := fun a => a.elim0
theorem val_main_v20_apply (i : S500000.Idx) :
    val_main_v20 (F := F) i = val_main_c_4 (F := F) (idx_main_v20 i) := by
  unfold val_main_v20
  generalize val_main_c_4 (F := F) = y
  exact broadcastInDim_apply _ bcast_S_S500000 y i (idx_main_v20 i) (fun a => a.elim0)

def val_main_v21 (x1 : (⟨S2x500000, .i32⟩ : BufTy).Contents (Elt F)) : (⟨S500000, .i32⟩ : BufTy).Contents (Elt F) :=
  addi (val_main_v3 (F := F) x1) (val_main_v20 (F := F))
theorem val_main_v21_apply (x1 : (⟨S2x500000, .i32⟩ : BufTy).Contents (Elt F)) (i : S500000.Idx) :
    val_main_v21 (F := F) x1 i = IntOp.addi (val_main_v3 (F := F) x1 i) (val_main_v20 (F := F) i) := rfl

def val_main_v22 (x1 : (⟨S2x500000, .i32⟩ : BufTy).Contents (Elt F)) : (⟨S500000, .i32⟩ : BufTy).Contents (Elt F) :=
  select (val_main_v19 (F := F) x1) (val_main_v21 (F := F) x1) (val_main_v3 (F := F) x1)
theorem val_main_v22_apply (x1 : (⟨S2x500000, .i32⟩ : BufTy).Contents (Elt F)) (i : S500000.Idx) :
    val_main_v22 (F := F) x1 i = Scalar.select (val_main_v19 (F := F) x1 i) (val_main_v21 (F := F) x1 i) (val_main_v3 (F := F) x1 i) := rfl

def val_main_v23 (x1 : (⟨S2x500000, .i32⟩ : BufTy).Contents (Elt F)) : (⟨S500000x1, .i32⟩ : BufTy).Contents (Elt F) :=
  broadcastInDim S500000x1 ![0] bcast_S500000_S500000x1_0 (val_main_v22 (F := F) x1)
abbrev idx_main_v23 (i : S500000x1.Idx) : S500000.Idx := fun a => match a with
  | ⟨0, _⟩ => ⟨(i 0).val, (i 0).isLt⟩
theorem val_main_v23_apply (x1 : (⟨S2x500000, .i32⟩ : BufTy).Contents (Elt F)) (i : S500000x1.Idx) :
    val_main_v23 (F := F) x1 i = val_main_v22 (F := F) x1 (idx_main_v23 i) := by
  unfold val_main_v23
  generalize val_main_v22 (F := F) x1 = y
  exact broadcastInDim_apply _ bcast_S500000_S500000x1_0 y i (idx_main_v23 i) (fun a => match a with
    | ⟨0, _⟩ => by show (i 0).val = if (500000 : Nat) = 1 then 0 else (i 0).val; rw [if_neg (by decide)])

def val_main_v24 (h : (⟨S100000x128, .f32⟩ : BufTy).Contents (Elt F)) (x1 : (⟨S2x500000, .i32⟩ : BufTy).Contents (Elt F)) : (⟨S500000x128, .f32⟩ : BufTy).Contents (Elt F) :=
  Host.gather gather_S100000x128_S500000x1_S500000x128_1_0_n_n_0_1_1128 (h) (val_main_v23 (F := F) x1)

def val_main_v25 (h : (⟨S100000x128, .f32⟩ : BufTy).Contents (Elt F)) (x1 : (⟨S2x500000, .i32⟩ : BufTy).Contents (Elt F)) : (⟨S500000x256, .f32⟩ : BufTy).Contents (Elt F) :=
  concatenate S500000x256 1 [⟨S500000x128, (val_main_v17 (F := F) h x1)⟩, ⟨S500000x128, (val_main_v24 (F := F) h x1)⟩] concatenates_S500000x128_S500000x128_S500000x256_d1

def val_main_v26 (x4 : (⟨S128x256, .f32⟩ : BufTy).Contents (Elt F)) : (⟨S256x128, .f32⟩ : BufTy).Contents (Elt F) :=
  transpose S256x128 [1, 0] (x4) transposes_S128x256_S256x128_1_0
abbrev idx_main_v26 (i : S256x128.Idx) : S128x256.Idx := fun a => match a with
  | ⟨0, _⟩ => ⟨(i 1).val, (i 1).isLt⟩
  | ⟨1, _⟩ => ⟨(i 0).val, (i 0).isLt⟩
theorem val_main_v26_apply (x4 : (⟨S128x256, .f32⟩ : BufTy).Contents (Elt F)) (i : S256x128.Idx) :
    val_main_v26 (F := F) x4 i = x4 (idx_main_v26 i) := by
  unfold val_main_v26
  exact transpose_apply [1, 0] x4 transposes_S128x256_S256x128_1_0 i (idx_main_v26 i) (fun b => match b with
    | ⟨0, _⟩ => rfl
    | ⟨1, _⟩ => rfl)

def val_main_v27 (h : (⟨S100000x128, .f32⟩ : BufTy).Contents (Elt F)) (x1 : (⟨S2x500000, .i32⟩ : BufTy).Contents (Elt F)) (x4 : (⟨S128x256, .f32⟩ : BufTy).Contents (Elt F)) : (⟨S500000x128, .f32⟩ : BufTy).Contents (Elt F) :=
  Host.dotGeneral dot_S500000x256_S256x128_S500000x128_1_0_0_1_n_n none (val_main_v25 (F := F) h x1) (val_main_v26 (F := F) x4)
theorem lhs_main_v27_0 (i : S500000x128.Idx) (q : dot_S500000x256_S256x128_S500000x128_1_0_0_1_n_n.contr.Idx) :
    (dot_S500000x256_S256x128_S500000x128_1_0_0_1_n_n.lhsIdx i q 0).val = (i 0).val := by
  unfold DotDims.lhsIdx
  rw [dif_neg (show ¬(0 : Fin S500000x256.rank) ∈ dot_S500000x256_S256x128_S500000x128_1_0_0_1_n_n.lhsBatch by decide), dif_pos (show (0 : Fin S500000x256.rank) ∈ dot_S500000x256_S256x128_S500000x128_1_0_0_1_n_n.lhsNonContracting by decide)]
  rfl
theorem lhs_main_v27_1 (i : S500000x128.Idx) (q : dot_S500000x256_S256x128_S500000x128_1_0_0_1_n_n.contr.Idx) :
    (dot_S500000x256_S256x128_S500000x128_1_0_0_1_n_n.lhsIdx i q 1).val = (q ⟨0, by decide⟩).val :=
  dot_S500000x256_S256x128_S500000x128_1_0_0_1_n_n.lhsIdx_val_of_single rfl i q
theorem rhs_main_v27_0 (i : S500000x128.Idx) (q : dot_S500000x256_S256x128_S500000x128_1_0_0_1_n_n.contr.Idx) :
    (dot_S500000x256_S256x128_S500000x128_1_0_0_1_n_n.rhsIdx i q 0).val = (q ⟨0, by decide⟩).val :=
  dot_S500000x256_S256x128_S500000x128_1_0_0_1_n_n.rhsIdx_val_of_single rfl i q
theorem rhs_main_v27_1 (i : S500000x128.Idx) (q : dot_S500000x256_S256x128_S500000x128_1_0_0_1_n_n.contr.Idx) :
    (dot_S500000x256_S256x128_S500000x128_1_0_0_1_n_n.rhsIdx i q 1).val = (i 1).val := by
  unfold DotDims.rhsIdx
  rw [dif_neg (show ¬(1 : Fin S256x128.rank) ∈ dot_S500000x256_S256x128_S500000x128_1_0_0_1_n_n.rhsBatch by decide), dif_pos (show (1 : Fin S256x128.rank) ∈ dot_S500000x256_S256x128_S500000x128_1_0_0_1_n_n.rhsNonContracting by decide)]
  rfl
abbrev lidx_main_v27 (i : S500000x128.Idx) (k : Fin 256) : S500000x256.Idx := fun a => match a with
  | ⟨0, _⟩ => ⟨(i 0).val, (i 0).isLt⟩
  | ⟨1, _⟩ => ⟨k.val, k.isLt⟩
abbrev ridx_main_v27 (i : S500000x128.Idx) (k : Fin 256) : S256x128.Idx := fun a => match a with
  | ⟨0, _⟩ => ⟨k.val, k.isLt⟩
  | ⟨1, _⟩ => ⟨(i 1).val, (i 1).isLt⟩
theorem val_main_v27_apply (h : (⟨S100000x128, .f32⟩ : BufTy).Contents (Elt Ideal)) (x1 : (⟨S2x500000, .i32⟩ : BufTy).Contents (Elt Ideal)) (x4 : (⟨S128x256, .f32⟩ : BufTy).Contents (Elt Ideal)) (i : S500000x128.Idx) :
    val_main_v27 (F := Ideal) h x1 x4 i = ∑ k : Fin 256, (val_main_v25 (F := Ideal) h x1) (lidx_main_v27 i k) * (val_main_v26 (F := Ideal) x4) (ridx_main_v27 i k) := by
  unfold val_main_v27
  generalize val_main_v25 (F := Ideal) h x1 = y0
  generalize val_main_v26 (F := Ideal) x4 = y1
  simp only [Host.dotGeneral]
  rw [Ideal.dotGeneral_apply, ← Equiv.sum_comp (ValueIdx.contrEquiv1 dot_S500000x256_S256x128_S500000x128_1_0_0_1_n_n 256 rfl rfl).symm]
  refine Finset.sum_congr rfl fun k _ => ?_
  have hk := ValueIdx.contrEquiv1_symm_val dot_S500000x256_S256x128_S500000x128_1_0_0_1_n_n 256 rfl rfl k
  have el : dot_S500000x256_S256x128_S500000x128_1_0_0_1_n_n.lhsIdx i ((ValueIdx.contrEquiv1 dot_S500000x256_S256x128_S500000x128_1_0_0_1_n_n 256 rfl rfl).symm k) = lidx_main_v27 i k := funext fun a => Fin.ext (by
    match a with
    | ⟨0, _⟩ => exact lhs_main_v27_0 _ _
    | ⟨1, _⟩ => exact (lhs_main_v27_1 _ _).trans hk)
  have er : dot_S500000x256_S256x128_S500000x128_1_0_0_1_n_n.rhsIdx i ((ValueIdx.contrEquiv1 dot_S500000x256_S256x128_S500000x128_1_0_0_1_n_n 256 rfl rfl).symm k) = ridx_main_v27 i k := funext fun a => Fin.ext (by
    match a with
    | ⟨0, _⟩ => exact (rhs_main_v27_0 _ _).trans hk
    | ⟨1, _⟩ => exact rhs_main_v27_1 _ _)
  rw [el, er]

def val_main_v28 (x5 : (⟨S1x256, .f32⟩ : BufTy).Contents (Elt F)) : (⟨S256x1, .f32⟩ : BufTy).Contents (Elt F) :=
  transpose S256x1 [1, 0] (x5) transposes_S1x256_S256x1_1_0
abbrev idx_main_v28 (i : S256x1.Idx) : S1x256.Idx := fun a => match a with
  | ⟨0, _⟩ => ⟨(i 1).val, (i 1).isLt⟩
  | ⟨1, _⟩ => ⟨(i 0).val, (i 0).isLt⟩
theorem val_main_v28_apply (x5 : (⟨S1x256, .f32⟩ : BufTy).Contents (Elt F)) (i : S256x1.Idx) :
    val_main_v28 (F := F) x5 i = x5 (idx_main_v28 i) := by
  unfold val_main_v28
  exact transpose_apply [1, 0] x5 transposes_S1x256_S256x1_1_0 i (idx_main_v28 i) (fun b => match b with
    | ⟨0, _⟩ => rfl
    | ⟨1, _⟩ => rfl)

def val_main_v29 (h : (⟨S100000x128, .f32⟩ : BufTy).Contents (Elt F)) (x1 : (⟨S2x500000, .i32⟩ : BufTy).Contents (Elt F)) (x5 : (⟨S1x256, .f32⟩ : BufTy).Contents (Elt F)) : (⟨S500000x1, .f32⟩ : BufTy).Contents (Elt F) :=
  Host.dotGeneral dot_S500000x256_S256x1_S500000x1_1_0_0_1_n_n none (val_main_v25 (F := F) h x1) (val_main_v28 (F := F) x5)
theorem lhs_main_v29_0 (i : S500000x1.Idx) (q : dot_S500000x256_S256x1_S500000x1_1_0_0_1_n_n.contr.Idx) :
    (dot_S500000x256_S256x1_S500000x1_1_0_0_1_n_n.lhsIdx i q 0).val = (i 0).val := by
  unfold DotDims.lhsIdx
  rw [dif_neg (show ¬(0 : Fin S500000x256.rank) ∈ dot_S500000x256_S256x1_S500000x1_1_0_0_1_n_n.lhsBatch by decide), dif_pos (show (0 : Fin S500000x256.rank) ∈ dot_S500000x256_S256x1_S500000x1_1_0_0_1_n_n.lhsNonContracting by decide)]
  rfl
theorem lhs_main_v29_1 (i : S500000x1.Idx) (q : dot_S500000x256_S256x1_S500000x1_1_0_0_1_n_n.contr.Idx) :
    (dot_S500000x256_S256x1_S500000x1_1_0_0_1_n_n.lhsIdx i q 1).val = (q ⟨0, by decide⟩).val :=
  dot_S500000x256_S256x1_S500000x1_1_0_0_1_n_n.lhsIdx_val_of_single rfl i q
theorem rhs_main_v29_0 (i : S500000x1.Idx) (q : dot_S500000x256_S256x1_S500000x1_1_0_0_1_n_n.contr.Idx) :
    (dot_S500000x256_S256x1_S500000x1_1_0_0_1_n_n.rhsIdx i q 0).val = (q ⟨0, by decide⟩).val :=
  dot_S500000x256_S256x1_S500000x1_1_0_0_1_n_n.rhsIdx_val_of_single rfl i q
theorem rhs_main_v29_1 (i : S500000x1.Idx) (q : dot_S500000x256_S256x1_S500000x1_1_0_0_1_n_n.contr.Idx) :
    (dot_S500000x256_S256x1_S500000x1_1_0_0_1_n_n.rhsIdx i q 1).val = (i 1).val := by
  unfold DotDims.rhsIdx
  rw [dif_neg (show ¬(1 : Fin S256x1.rank) ∈ dot_S500000x256_S256x1_S500000x1_1_0_0_1_n_n.rhsBatch by decide), dif_pos (show (1 : Fin S256x1.rank) ∈ dot_S500000x256_S256x1_S500000x1_1_0_0_1_n_n.rhsNonContracting by decide)]
  rfl
abbrev lidx_main_v29 (i : S500000x1.Idx) (k : Fin 256) : S500000x256.Idx := fun a => match a with
  | ⟨0, _⟩ => ⟨(i 0).val, (i 0).isLt⟩
  | ⟨1, _⟩ => ⟨k.val, k.isLt⟩
abbrev ridx_main_v29 (i : S500000x1.Idx) (k : Fin 256) : S256x1.Idx := fun a => match a with
  | ⟨0, _⟩ => ⟨k.val, k.isLt⟩
  | ⟨1, _⟩ => ⟨(i 1).val, (i 1).isLt⟩
theorem val_main_v29_apply (h : (⟨S100000x128, .f32⟩ : BufTy).Contents (Elt Ideal)) (x1 : (⟨S2x500000, .i32⟩ : BufTy).Contents (Elt Ideal)) (x5 : (⟨S1x256, .f32⟩ : BufTy).Contents (Elt Ideal)) (i : S500000x1.Idx) :
    val_main_v29 (F := Ideal) h x1 x5 i = ∑ k : Fin 256, (val_main_v25 (F := Ideal) h x1) (lidx_main_v29 i k) * (val_main_v28 (F := Ideal) x5) (ridx_main_v29 i k) := by
  unfold val_main_v29
  generalize val_main_v25 (F := Ideal) h x1 = y0
  generalize val_main_v28 (F := Ideal) x5 = y1
  simp only [Host.dotGeneral]
  rw [Ideal.dotGeneral_apply, ← Equiv.sum_comp (ValueIdx.contrEquiv1 dot_S500000x256_S256x1_S500000x1_1_0_0_1_n_n 256 rfl rfl).symm]
  refine Finset.sum_congr rfl fun k _ => ?_
  have hk := ValueIdx.contrEquiv1_symm_val dot_S500000x256_S256x1_S500000x1_1_0_0_1_n_n 256 rfl rfl k
  have el : dot_S500000x256_S256x1_S500000x1_1_0_0_1_n_n.lhsIdx i ((ValueIdx.contrEquiv1 dot_S500000x256_S256x1_S500000x1_1_0_0_1_n_n 256 rfl rfl).symm k) = lidx_main_v29 i k := funext fun a => Fin.ext (by
    match a with
    | ⟨0, _⟩ => exact lhs_main_v29_0 _ _
    | ⟨1, _⟩ => exact (lhs_main_v29_1 _ _).trans hk)
  have er : dot_S500000x256_S256x1_S500000x1_1_0_0_1_n_n.rhsIdx i ((ValueIdx.contrEquiv1 dot_S500000x256_S256x1_S500000x1_1_0_0_1_n_n 256 rfl rfl).symm k) = ridx_main_v29 i k := funext fun a => Fin.ext (by
    match a with
    | ⟨0, _⟩ => exact (rhs_main_v29_0 _ _).trans hk
    | ⟨1, _⟩ => exact rhs_main_v29_1 _ _)
  rw [el, er]

def val_main_v30 (x6 : (⟨S1, .f32⟩ : BufTy).Contents (Elt F)) : (⟨S1x1, .f32⟩ : BufTy).Contents (Elt F) :=
  broadcastInDim S1x1 ![1] bcast_S1_S1x1_1 (x6)
abbrev idx_main_v30 (i : S1x1.Idx) : S1.Idx := fun a => match a with
  | ⟨0, _⟩ => ⟨0, Nat.one_pos⟩
theorem val_main_v30_apply (x6 : (⟨S1, .f32⟩ : BufTy).Contents (Elt F)) (i : S1x1.Idx) :
    val_main_v30 (F := F) x6 i = x6 (idx_main_v30 i) := by
  unfold val_main_v30
  exact broadcastInDim_apply _ bcast_S1_S1x1_1 x6 i (idx_main_v30 i) (fun a => match a with
    | ⟨0, _⟩ => by show 0 = if (1 : Nat) = 1 then 0 else (i 1).val; rw [if_pos rfl])

def val_main_v31 (x6 : (⟨S1, .f32⟩ : BufTy).Contents (Elt F)) : (⟨S500000x1, .f32⟩ : BufTy).Contents (Elt F) :=
  broadcastInDim S500000x1 ![0, 1] bcast_S1x1_S500000x1_0_1 (val_main_v30 (F := F) x6)
abbrev idx_main_v31 (i : S500000x1.Idx) : S1x1.Idx := fun a => match a with
  | ⟨0, _⟩ => ⟨0, Nat.one_pos⟩
  | ⟨1, _⟩ => ⟨0, Nat.one_pos⟩
theorem val_main_v31_apply (x6 : (⟨S1, .f32⟩ : BufTy).Contents (Elt F)) (i : S500000x1.Idx) :
    val_main_v31 (F := F) x6 i = val_main_v30 (F := F) x6 (idx_main_v31 i) := by
  unfold val_main_v31
  generalize val_main_v30 (F := F) x6 = y
  exact broadcastInDim_apply _ bcast_S1x1_S500000x1_0_1 y i (idx_main_v31 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

def val_main_v32 (h : (⟨S100000x128, .f32⟩ : BufTy).Contents (Elt F)) (x1 : (⟨S2x500000, .i32⟩ : BufTy).Contents (Elt F)) (x5 : (⟨S1x256, .f32⟩ : BufTy).Contents (Elt F)) (x6 : (⟨S1, .f32⟩ : BufTy).Contents (Elt F)) : (⟨S500000x1, .f32⟩ : BufTy).Contents (Elt F) :=
  addf (val_main_v29 (F := F) h x1 x5) (val_main_v31 (F := F) x6)
theorem val_main_v32_apply (h : (⟨S100000x128, .f32⟩ : BufTy).Contents (Elt F)) (x1 : (⟨S2x500000, .i32⟩ : BufTy).Contents (Elt F)) (x5 : (⟨S1x256, .f32⟩ : BufTy).Contents (Elt F)) (x6 : (⟨S1, .f32⟩ : BufTy).Contents (Elt F)) (i : S500000x1.Idx) :
    val_main_v32 (F := F) h x1 x5 x6 i = FloatOps.addf (val_main_v29 (F := F) h x1 x5 i) (val_main_v31 (F := F) x6 i) := rfl

def val_main_v33 (h : (⟨S100000x128, .f32⟩ : BufTy).Contents (Elt F)) (x1 : (⟨S2x500000, .i32⟩ : BufTy).Contents (Elt F)) (x5 : (⟨S1x256, .f32⟩ : BufTy).Contents (Elt F)) (x6 : (⟨S1, .f32⟩ : BufTy).Contents (Elt F)) : (⟨S500000x1, .f32⟩ : BufTy).Contents (Elt F) :=
  Host.negf (val_main_v32 (F := F) h x1 x5 x6)
theorem val_main_v33_apply (h : (⟨S100000x128, .f32⟩ : BufTy).Contents (Elt F)) (x1 : (⟨S2x500000, .i32⟩ : BufTy).Contents (Elt F)) (x5 : (⟨S1x256, .f32⟩ : BufTy).Contents (Elt F)) (x6 : (⟨S1, .f32⟩ : BufTy).Contents (Elt F)) (i : S500000x1.Idx) :
    val_main_v33 (F := F) h x1 x5 x6 i = FloatOps.hostNegf (val_main_v32 (F := F) h x1 x5 x6 i) := rfl

def val_main_v34 (h : (⟨S100000x128, .f32⟩ : BufTy).Contents (Elt F)) (x1 : (⟨S2x500000, .i32⟩ : BufTy).Contents (Elt F)) (x5 : (⟨S1x256, .f32⟩ : BufTy).Contents (Elt F)) (x6 : (⟨S1, .f32⟩ : BufTy).Contents (Elt F)) : (⟨S500000x1, .f32⟩ : BufTy).Contents (Elt F) :=
  Host.exp (val_main_v33 (F := F) h x1 x5 x6)
theorem val_main_v34_apply (h : (⟨S100000x128, .f32⟩ : BufTy).Contents (Elt F)) (x1 : (⟨S2x500000, .i32⟩ : BufTy).Contents (Elt F)) (x5 : (⟨S1x256, .f32⟩ : BufTy).Contents (Elt F)) (x6 : (⟨S1, .f32⟩ : BufTy).Contents (Elt F)) (i : S500000x1.Idx) :
    val_main_v34 (F := F) h x1 x5 x6 i = FloatOps.hostUnary .exp (val_main_v33 (F := F) h x1 x5 x6 i) := rfl

def val_main_cst_5 : (⟨S_, .f32⟩ : BufTy).Contents (Elt F) :=
  constant S_ .f32 0x3F800000#32
theorem val_main_cst_5_apply (i : S_.Idx) :
    val_main_cst_5 (F := F) i = FloatOps.ofBits .f32 0x3F800000#32 := rfl

def val_main_v35 : (⟨S500000x1, .f32⟩ : BufTy).Contents (Elt F) :=
  broadcastInDim S500000x1 ![] bcast_S_S500000x1 (val_main_cst_5 (F := F))
abbrev idx_main_v35 (i : S500000x1.Idx) : S_.Idx := fun a => a.elim0
theorem val_main_v35_apply (i : S500000x1.Idx) :
    val_main_v35 (F := F) i = val_main_cst_5 (F := F) (idx_main_v35 i) := by
  unfold val_main_v35
  generalize val_main_cst_5 (F := F) = y
  exact broadcastInDim_apply _ bcast_S_S500000x1 y i (idx_main_v35 i) (fun a => a.elim0)

def val_main_v36 (h : (⟨S100000x128, .f32⟩ : BufTy).Contents (Elt F)) (x1 : (⟨S2x500000, .i32⟩ : BufTy).Contents (Elt F)) (x5 : (⟨S1x256, .f32⟩ : BufTy).Contents (Elt F)) (x6 : (⟨S1, .f32⟩ : BufTy).Contents (Elt F)) : (⟨S500000x1, .f32⟩ : BufTy).Contents (Elt F) :=
  addf (val_main_v35 (F := F)) (val_main_v34 (F := F) h x1 x5 x6)
theorem val_main_v36_apply (h : (⟨S100000x128, .f32⟩ : BufTy).Contents (Elt F)) (x1 : (⟨S2x500000, .i32⟩ : BufTy).Contents (Elt F)) (x5 : (⟨S1x256, .f32⟩ : BufTy).Contents (Elt F)) (x6 : (⟨S1, .f32⟩ : BufTy).Contents (Elt F)) (i : S500000x1.Idx) :
    val_main_v36 (F := F) h x1 x5 x6 i = FloatOps.addf (val_main_v35 (F := F) i) (val_main_v34 (F := F) h x1 x5 x6 i) := rfl

def val_main_cst_6 : (⟨S_, .f32⟩ : BufTy).Contents (Elt F) :=
  constant S_ .f32 0x3F800000#32
theorem val_main_cst_6_apply (i : S_.Idx) :
    val_main_cst_6 (F := F) i = FloatOps.ofBits .f32 0x3F800000#32 := rfl

def val_main_v37 : (⟨S500000x1, .f32⟩ : BufTy).Contents (Elt F) :=
  broadcastInDim S500000x1 ![] bcast_S_S500000x1 (val_main_cst_6 (F := F))
abbrev idx_main_v37 (i : S500000x1.Idx) : S_.Idx := fun a => a.elim0
theorem val_main_v37_apply (i : S500000x1.Idx) :
    val_main_v37 (F := F) i = val_main_cst_6 (F := F) (idx_main_v37 i) := by
  unfold val_main_v37
  generalize val_main_cst_6 (F := F) = y
  exact broadcastInDim_apply _ bcast_S_S500000x1 y i (idx_main_v37 i) (fun a => a.elim0)

def val_main_v38 (h : (⟨S100000x128, .f32⟩ : BufTy).Contents (Elt F)) (x1 : (⟨S2x500000, .i32⟩ : BufTy).Contents (Elt F)) (x5 : (⟨S1x256, .f32⟩ : BufTy).Contents (Elt F)) (x6 : (⟨S1, .f32⟩ : BufTy).Contents (Elt F)) : (⟨S500000x1, .f32⟩ : BufTy).Contents (Elt F) :=
  Host.divf (val_main_v37 (F := F)) (val_main_v36 (F := F) h x1 x5 x6)
theorem val_main_v38_apply (h : (⟨S100000x128, .f32⟩ : BufTy).Contents (Elt F)) (x1 : (⟨S2x500000, .i32⟩ : BufTy).Contents (Elt F)) (x5 : (⟨S1x256, .f32⟩ : BufTy).Contents (Elt F)) (x6 : (⟨S1, .f32⟩ : BufTy).Contents (Elt F)) (i : S500000x1.Idx) :
    val_main_v38 (F := F) h x1 x5 x6 i = FloatOps.hostDivf (val_main_v37 (F := F) i) (val_main_v36 (F := F) h x1 x5 x6 i) := rfl

def val_main_v39 (h : (⟨S100000x128, .f32⟩ : BufTy).Contents (Elt F)) (x1 : (⟨S2x500000, .i32⟩ : BufTy).Contents (Elt F)) (x5 : (⟨S1x256, .f32⟩ : BufTy).Contents (Elt F)) (x6 : (⟨S1, .f32⟩ : BufTy).Contents (Elt F)) : (⟨S500000x128, .f32⟩ : BufTy).Contents (Elt F) :=
  broadcastInDim S500000x128 ![0, 1] bcast_S500000x1_S500000x128_0_1 (val_main_v38 (F := F) h x1 x5 x6)
abbrev idx_main_v39 (i : S500000x128.Idx) : S500000x1.Idx := fun a => match a with
  | ⟨0, _⟩ => ⟨(i 0).val, (i 0).isLt⟩
  | ⟨1, _⟩ => ⟨0, Nat.one_pos⟩
theorem val_main_v39_apply (h : (⟨S100000x128, .f32⟩ : BufTy).Contents (Elt F)) (x1 : (⟨S2x500000, .i32⟩ : BufTy).Contents (Elt F)) (x5 : (⟨S1x256, .f32⟩ : BufTy).Contents (Elt F)) (x6 : (⟨S1, .f32⟩ : BufTy).Contents (Elt F)) (i : S500000x128.Idx) :
    val_main_v39 (F := F) h x1 x5 x6 i = val_main_v38 (F := F) h x1 x5 x6 (idx_main_v39 i) := by
  unfold val_main_v39
  generalize val_main_v38 (F := F) h x1 x5 x6 = y
  exact broadcastInDim_apply _ bcast_S500000x1_S500000x128_0_1 y i (idx_main_v39 i) (fun a => match a with
    | ⟨0, _⟩ => by show (i 0).val = if (500000 : Nat) = 1 then 0 else (i 0).val; rw [if_neg (by decide)]
    | ⟨1, _⟩ => by show 0 = if (1 : Nat) = 1 then 0 else (i 1).val; rw [if_pos rfl])

def val_main_v40 (h : (⟨S100000x128, .f32⟩ : BufTy).Contents (Elt F)) (x1 : (⟨S2x500000, .i32⟩ : BufTy).Contents (Elt F)) (x4 : (⟨S128x256, .f32⟩ : BufTy).Contents (Elt F)) (x5 : (⟨S1x256, .f32⟩ : BufTy).Contents (Elt F)) (x6 : (⟨S1, .f32⟩ : BufTy).Contents (Elt F)) : (⟨S500000x128, .f32⟩ : BufTy).Contents (Elt F) :=
  mulf (val_main_v27 (F := F) h x1 x4) (val_main_v39 (F := F) h x1 x5 x6)
theorem val_main_v40_apply (h : (⟨S100000x128, .f32⟩ : BufTy).Contents (Elt F)) (x1 : (⟨S2x500000, .i32⟩ : BufTy).Contents (Elt F)) (x4 : (⟨S128x256, .f32⟩ : BufTy).Contents (Elt F)) (x5 : (⟨S1x256, .f32⟩ : BufTy).Contents (Elt F)) (x6 : (⟨S1, .f32⟩ : BufTy).Contents (Elt F)) (i : S500000x128.Idx) :
    val_main_v40 (F := F) h x1 x4 x5 x6 i = FloatOps.mulf (val_main_v27 (F := F) h x1 x4 i) (val_main_v39 (F := F) h x1 x5 x6 i) := rfl

def val_main_cst_7 : (⟨S_, .f32⟩ : BufTy).Contents (Elt F) :=
  constant S_ .f32 0x00000000#32
theorem val_main_cst_7_apply (i : S_.Idx) :
    val_main_cst_7 (F := F) i = FloatOps.ofBits .f32 0x00000000#32 := rfl

def val_main_v41 : (⟨S100000x128, .f32⟩ : BufTy).Contents (Elt F) :=
  broadcastInDim S100000x128 ![] bcast_S_S100000x128 (val_main_cst_7 (F := F))
abbrev idx_main_v41 (i : S100000x128.Idx) : S_.Idx := fun a => a.elim0
theorem val_main_v41_apply (i : S100000x128.Idx) :
    val_main_v41 (F := F) i = val_main_cst_7 (F := F) (idx_main_v41 i) := by
  unfold val_main_v41
  generalize val_main_cst_7 (F := F) = y
  exact broadcastInDim_apply _ bcast_S_S100000x128 y i (idx_main_v41 i) (fun a => a.elim0)

def val_main_c_8 : (⟨S_, .i32⟩ : BufTy).Contents (Elt F) :=
  constantI S_ 32 0#32
theorem val_main_c_8_apply (i : S_.Idx) :
    val_main_c_8 (F := F) i = 0#32 := rfl

def val_main_v42 : (⟨S500000, .i32⟩ : BufTy).Contents (Elt F) :=
  broadcastInDim S500000 ![] bcast_S_S500000 (val_main_c_8 (F := F))
abbrev idx_main_v42 (i : S500000.Idx) : S_.Idx := fun a => a.elim0
theorem val_main_v42_apply (i : S500000.Idx) :
    val_main_v42 (F := F) i = val_main_c_8 (F := F) (idx_main_v42 i) := by
  unfold val_main_v42
  generalize val_main_c_8 (F := F) = y
  exact broadcastInDim_apply _ bcast_S_S500000 y i (idx_main_v42 i) (fun a => a.elim0)

def val_main_v43 (x1 : (⟨S2x500000, .i32⟩ : BufTy).Contents (Elt F)) : (⟨S500000, .i1⟩ : BufTy).Contents (Elt F) :=
  cmpi .slt (val_main_v1 (F := F) x1) (val_main_v42 (F := F))
theorem val_main_v43_apply (x1 : (⟨S2x500000, .i32⟩ : BufTy).Contents (Elt F)) (i : S500000.Idx) :
    val_main_v43 (F := F) x1 i = IntOp.cmpi .slt (val_main_v1 (F := F) x1 i) (val_main_v42 (F := F) i) := rfl

def val_main_c_9 : (⟨S_, .i32⟩ : BufTy).Contents (Elt F) :=
  constantI S_ 32 100000#32
theorem val_main_c_9_apply (i : S_.Idx) :
    val_main_c_9 (F := F) i = 100000#32 := rfl

def val_main_v44 : (⟨S500000, .i32⟩ : BufTy).Contents (Elt F) :=
  broadcastInDim S500000 ![] bcast_S_S500000 (val_main_c_9 (F := F))
abbrev idx_main_v44 (i : S500000.Idx) : S_.Idx := fun a => a.elim0
theorem val_main_v44_apply (i : S500000.Idx) :
    val_main_v44 (F := F) i = val_main_c_9 (F := F) (idx_main_v44 i) := by
  unfold val_main_v44
  generalize val_main_c_9 (F := F) = y
  exact broadcastInDim_apply _ bcast_S_S500000 y i (idx_main_v44 i) (fun a => a.elim0)

def val_main_v45 (x1 : (⟨S2x500000, .i32⟩ : BufTy).Contents (Elt F)) : (⟨S500000, .i32⟩ : BufTy).Contents (Elt F) :=
  addi (val_main_v1 (F := F) x1) (val_main_v44 (F := F))
theorem val_main_v45_apply (x1 : (⟨S2x500000, .i32⟩ : BufTy).Contents (Elt F)) (i : S500000.Idx) :
    val_main_v45 (F := F) x1 i = IntOp.addi (val_main_v1 (F := F) x1 i) (val_main_v44 (F := F) i) := rfl

def val_main_v46 (x1 : (⟨S2x500000, .i32⟩ : BufTy).Contents (Elt F)) : (⟨S500000, .i32⟩ : BufTy).Contents (Elt F) :=
  select (val_main_v43 (F := F) x1) (val_main_v45 (F := F) x1) (val_main_v1 (F := F) x1)
theorem val_main_v46_apply (x1 : (⟨S2x500000, .i32⟩ : BufTy).Contents (Elt F)) (i : S500000.Idx) :
    val_main_v46 (F := F) x1 i = Scalar.select (val_main_v43 (F := F) x1 i) (val_main_v45 (F := F) x1 i) (val_main_v1 (F := F) x1 i) := rfl

def val_main_v47 (x1 : (⟨S2x500000, .i32⟩ : BufTy).Contents (Elt F)) : (⟨S500000x1, .i32⟩ : BufTy).Contents (Elt F) :=
  broadcastInDim S500000x1 ![0] bcast_S500000_S500000x1_0 (val_main_v46 (F := F) x1)
abbrev idx_main_v47 (i : S500000x1.Idx) : S500000.Idx := fun a => match a with
  | ⟨0, _⟩ => ⟨(i 0).val, (i 0).isLt⟩
theorem val_main_v47_apply (x1 : (⟨S2x500000, .i32⟩ : BufTy).Contents (Elt F)) (i : S500000x1.Idx) :
    val_main_v47 (F := F) x1 i = val_main_v46 (F := F) x1 (idx_main_v47 i) := by
  unfold val_main_v47
  generalize val_main_v46 (F := F) x1 = y
  exact broadcastInDim_apply _ bcast_S500000_S500000x1_0 y i (idx_main_v47 i) (fun a => match a with
    | ⟨0, _⟩ => by show (i 0).val = if (500000 : Nat) = 1 then 0 else (i 0).val; rw [if_neg (by decide)])

def val_main_v48 (h : (⟨S100000x128, .f32⟩ : BufTy).Contents (Elt F)) (x1 : (⟨S2x500000, .i32⟩ : BufTy).Contents (Elt F)) (x4 : (⟨S128x256, .f32⟩ : BufTy).Contents (Elt F)) (x5 : (⟨S1x256, .f32⟩ : BufTy).Contents (Elt F)) (x6 : (⟨S1, .f32⟩ : BufTy).Contents (Elt F)) : (⟨S100000x128, .f32⟩ : BufTy).Contents (Elt F) :=
  Host.scatterAdd scatter_S100000x128_S500000x1_S500000x128_1_0_0_1 (val_main_v41 (F := F)) (val_main_v47 (F := F) x1) (val_main_v40 (F := F) h x1 x4 x5 x6)

def val_main_c_10 : (⟨S_, .i32⟩ : BufTy).Contents (Elt F) :=
  constantI S_ 32 0#32
theorem val_main_c_10_apply (i : S_.Idx) :
    val_main_c_10 (F := F) i = 0#32 := rfl

def val_main_v49 : (⟨S500000, .i32⟩ : BufTy).Contents (Elt F) :=
  broadcastInDim S500000 ![] bcast_S_S500000 (val_main_c_10 (F := F))
abbrev idx_main_v49 (i : S500000.Idx) : S_.Idx := fun a => a.elim0
theorem val_main_v49_apply (i : S500000.Idx) :
    val_main_v49 (F := F) i = val_main_c_10 (F := F) (idx_main_v49 i) := by
  unfold val_main_v49
  generalize val_main_c_10 (F := F) = y
  exact broadcastInDim_apply _ bcast_S_S500000 y i (idx_main_v49 i) (fun a => a.elim0)

def val_main_v50 (x1 : (⟨S2x500000, .i32⟩ : BufTy).Contents (Elt F)) : (⟨S500000, .i1⟩ : BufTy).Contents (Elt F) :=
  cmpi .slt (val_main_v3 (F := F) x1) (val_main_v49 (F := F))
theorem val_main_v50_apply (x1 : (⟨S2x500000, .i32⟩ : BufTy).Contents (Elt F)) (i : S500000.Idx) :
    val_main_v50 (F := F) x1 i = IntOp.cmpi .slt (val_main_v3 (F := F) x1 i) (val_main_v49 (F := F) i) := rfl

def val_main_c_11 : (⟨S_, .i32⟩ : BufTy).Contents (Elt F) :=
  constantI S_ 32 100000#32
theorem val_main_c_11_apply (i : S_.Idx) :
    val_main_c_11 (F := F) i = 100000#32 := rfl

def val_main_v51 : (⟨S500000, .i32⟩ : BufTy).Contents (Elt F) :=
  broadcastInDim S500000 ![] bcast_S_S500000 (val_main_c_11 (F := F))
abbrev idx_main_v51 (i : S500000.Idx) : S_.Idx := fun a => a.elim0
theorem val_main_v51_apply (i : S500000.Idx) :
    val_main_v51 (F := F) i = val_main_c_11 (F := F) (idx_main_v51 i) := by
  unfold val_main_v51
  generalize val_main_c_11 (F := F) = y
  exact broadcastInDim_apply _ bcast_S_S500000 y i (idx_main_v51 i) (fun a => a.elim0)

def val_main_v52 (x1 : (⟨S2x500000, .i32⟩ : BufTy).Contents (Elt F)) : (⟨S500000, .i32⟩ : BufTy).Contents (Elt F) :=
  addi (val_main_v3 (F := F) x1) (val_main_v51 (F := F))
theorem val_main_v52_apply (x1 : (⟨S2x500000, .i32⟩ : BufTy).Contents (Elt F)) (i : S500000.Idx) :
    val_main_v52 (F := F) x1 i = IntOp.addi (val_main_v3 (F := F) x1 i) (val_main_v51 (F := F) i) := rfl

def val_main_v53 (x1 : (⟨S2x500000, .i32⟩ : BufTy).Contents (Elt F)) : (⟨S500000, .i32⟩ : BufTy).Contents (Elt F) :=
  select (val_main_v50 (F := F) x1) (val_main_v52 (F := F) x1) (val_main_v3 (F := F) x1)
theorem val_main_v53_apply (x1 : (⟨S2x500000, .i32⟩ : BufTy).Contents (Elt F)) (i : S500000.Idx) :
    val_main_v53 (F := F) x1 i = Scalar.select (val_main_v50 (F := F) x1 i) (val_main_v52 (F := F) x1 i) (val_main_v3 (F := F) x1 i) := rfl

def val_main_v54 (x1 : (⟨S2x500000, .i32⟩ : BufTy).Contents (Elt F)) : (⟨S500000x1, .i32⟩ : BufTy).Contents (Elt F) :=
  broadcastInDim S500000x1 ![0] bcast_S500000_S500000x1_0 (val_main_v53 (F := F) x1)
abbrev idx_main_v54 (i : S500000x1.Idx) : S500000.Idx := fun a => match a with
  | ⟨0, _⟩ => ⟨(i 0).val, (i 0).isLt⟩
theorem val_main_v54_apply (x1 : (⟨S2x500000, .i32⟩ : BufTy).Contents (Elt F)) (i : S500000x1.Idx) :
    val_main_v54 (F := F) x1 i = val_main_v53 (F := F) x1 (idx_main_v54 i) := by
  unfold val_main_v54
  generalize val_main_v53 (F := F) x1 = y
  exact broadcastInDim_apply _ bcast_S500000_S500000x1_0 y i (idx_main_v54 i) (fun a => match a with
    | ⟨0, _⟩ => by show (i 0).val = if (500000 : Nat) = 1 then 0 else (i 0).val; rw [if_neg (by decide)])

def val_main_v55 (h : (⟨S100000x128, .f32⟩ : BufTy).Contents (Elt F)) (x1 : (⟨S2x500000, .i32⟩ : BufTy).Contents (Elt F)) (x4 : (⟨S128x256, .f32⟩ : BufTy).Contents (Elt F)) (x5 : (⟨S1x256, .f32⟩ : BufTy).Contents (Elt F)) (x6 : (⟨S1, .f32⟩ : BufTy).Contents (Elt F)) : (⟨S100000x128, .f32⟩ : BufTy).Contents (Elt F) :=
  Host.scatterAdd scatter_S100000x128_S500000x1_S500000x128_1_0_0_1 (val_main_v48 (F := F) h x1 x4 x5 x6) (val_main_v54 (F := F) x1) (val_main_v40 (F := F) h x1 x4 x5 x6)

def val_main_v56 (x3 : (⟨S128x128, .f32⟩ : BufTy).Contents (Elt F)) : (⟨S128x128, .f32⟩ : BufTy).Contents (Elt F) :=
  transpose S128x128 [1, 0] (x3) transposes_S128x128_S128x128_1_0
abbrev idx_main_v56 (i : S128x128.Idx) : S128x128.Idx := fun a => match a with
  | ⟨0, _⟩ => ⟨(i 1).val, (i 1).isLt⟩
  | ⟨1, _⟩ => ⟨(i 0).val, (i 0).isLt⟩
theorem val_main_v56_apply (x3 : (⟨S128x128, .f32⟩ : BufTy).Contents (Elt F)) (i : S128x128.Idx) :
    val_main_v56 (F := F) x3 i = x3 (idx_main_v56 i) := by
  unfold val_main_v56
  exact transpose_apply [1, 0] x3 transposes_S128x128_S128x128_1_0 i (idx_main_v56 i) (fun b => match b with
    | ⟨0, _⟩ => rfl
    | ⟨1, _⟩ => rfl)

def val_main_v57 (h : (⟨S100000x128, .f32⟩ : BufTy).Contents (Elt F)) (x1 : (⟨S2x500000, .i32⟩ : BufTy).Contents (Elt F)) (x3 : (⟨S128x128, .f32⟩ : BufTy).Contents (Elt F)) (x4 : (⟨S128x256, .f32⟩ : BufTy).Contents (Elt F)) (x5 : (⟨S1x256, .f32⟩ : BufTy).Contents (Elt F)) (x6 : (⟨S1, .f32⟩ : BufTy).Contents (Elt F)) : (⟨S100000x128, .f32⟩ : BufTy).Contents (Elt F) :=
  Host.dotGeneral dot_S100000x128_S128x128_S100000x128_1_0_0_1_n_n none (val_main_v55 (F := F) h x1 x4 x5 x6) (val_main_v56 (F := F) x3)
theorem lhs_main_v57_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_main_v57_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_main_v57_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_main_v57_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl
abbrev lidx_main_v57 (i : S100000x128.Idx) (k : Fin 128) : S100000x128.Idx := fun a => match a with
  | ⟨0, _⟩ => ⟨(i 0).val, (i 0).isLt⟩
  | ⟨1, _⟩ => ⟨k.val, k.isLt⟩
abbrev ridx_main_v57 (i : S100000x128.Idx) (k : Fin 128) : S128x128.Idx := fun a => match a with
  | ⟨0, _⟩ => ⟨k.val, k.isLt⟩
  | ⟨1, _⟩ => ⟨(i 1).val, (i 1).isLt⟩
theorem val_main_v57_apply (h : (⟨S100000x128, .f32⟩ : BufTy).Contents (Elt Ideal)) (x1 : (⟨S2x500000, .i32⟩ : BufTy).Contents (Elt Ideal)) (x3 : (⟨S128x128, .f32⟩ : BufTy).Contents (Elt Ideal)) (x4 : (⟨S128x256, .f32⟩ : BufTy).Contents (Elt Ideal)) (x5 : (⟨S1x256, .f32⟩ : BufTy).Contents (Elt Ideal)) (x6 : (⟨S1, .f32⟩ : BufTy).Contents (Elt Ideal)) (i : S100000x128.Idx) :
    val_main_v57 (F := Ideal) h x1 x3 x4 x5 x6 i = ∑ k : Fin 128, (val_main_v55 (F := Ideal) h x1 x4 x5 x6) (lidx_main_v57 i k) * (val_main_v56 (F := Ideal) x3) (ridx_main_v57 i k) := by
  unfold val_main_v57
  generalize val_main_v55 (F := Ideal) h x1 x4 x5 x6 = y0
  generalize val_main_v56 (F := Ideal) x3 = y1
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = lidx_main_v57 i k := funext fun a => Fin.ext (by
    match a with
    | ⟨0, _⟩ => exact lhs_main_v57_0 _ _
    | ⟨1, _⟩ => exact (lhs_main_v57_1 _ _).trans hk)
  have er : dot_S100000x128_S128x128_S100000x128_1_0_0_1_n_n.rhsIdx i ((ValueIdx.contrEquiv1 dot_S100000x128_S128x128_S100000x128_1_0_0_1_n_n 128 rfl rfl).symm k) = ridx_main_v57 i k := funext fun a => Fin.ext (by
    match a with
    | ⟨0, _⟩ => exact (rhs_main_v57_0 _ _).trans hk
    | ⟨1, _⟩ => exact rhs_main_v57_1 _ _)
  rw [el, er]

def val_main_v58 (h : (⟨S100000x128, .f32⟩ : BufTy).Contents (Elt F)) (x1 : (⟨S2x500000, .i32⟩ : BufTy).Contents (Elt F)) (x3 : (⟨S128x128, .f32⟩ : BufTy).Contents (Elt F)) (x4 : (⟨S128x256, .f32⟩ : BufTy).Contents (Elt F)) (x5 : (⟨S1x256, .f32⟩ : BufTy).Contents (Elt F)) (x6 : (⟨S1, .f32⟩ : BufTy).Contents (Elt F)) : (⟨S100000x128, .f32⟩ : BufTy).Contents (Elt F) :=
  addf (val_main_v57 (F := F) h x1 x3 x4 x5 x6) (h)
theorem val_main_v58_apply (h : (⟨S100000x128, .f32⟩ : BufTy).Contents (Elt F)) (x1 : (⟨S2x500000, .i32⟩ : BufTy).Contents (Elt F)) (x3 : (⟨S128x128, .f32⟩ : BufTy).Contents (Elt F)) (x4 : (⟨S128x256, .f32⟩ : BufTy).Contents (Elt F)) (x5 : (⟨S1x256, .f32⟩ : BufTy).Contents (Elt F)) (x6 : (⟨S1, .f32⟩ : BufTy).Contents (Elt F)) (i : S100000x128.Idx) :
    val_main_v58 (F := F) h x1 x3 x4 x5 x6 i = FloatOps.addf (val_main_v57 (F := F) h x1 x3 x4 x5 x6 i) (h i) := rfl

def val_main_call0_cst : (⟨S_, .f32⟩ : BufTy).Contents (Elt F) :=
  constant S_ .f32 0x00000000#32
theorem val_main_call0_cst_apply (i : S_.Idx) :
    val_main_call0_cst (F := F) i = FloatOps.ofBits .f32 0x00000000#32 := rfl

def val_main_call0_v0 : (⟨S100000x128, .f32⟩ : BufTy).Contents (Elt F) :=
  broadcastInDim S100000x128 ![] bcast_S_S100000x128 (val_main_call0_cst (F := F))
abbrev idx_main_call0_v0 (i : S100000x128.Idx) : S_.Idx := fun a => a.elim0
theorem val_main_call0_v0_apply (i : S100000x128.Idx) :
    val_main_call0_v0 (F := F) i = val_main_call0_cst (F := F) (idx_main_call0_v0 i) := by
  unfold val_main_call0_v0
  generalize val_main_call0_cst (F := F) = y
  exact broadcastInDim_apply _ bcast_S_S100000x128 y i (idx_main_call0_v0 i) (fun a => a.elim0)

def val_main_v59 (h : (⟨S100000x128, .f32⟩ : BufTy).Contents (Elt F)) (x1 : (⟨S2x500000, .i32⟩ : BufTy).Contents (Elt F)) (x3 : (⟨S128x128, .f32⟩ : BufTy).Contents (Elt F)) (x4 : (⟨S128x256, .f32⟩ : BufTy).Contents (Elt F)) (x5 : (⟨S1x256, .f32⟩ : BufTy).Contents (Elt F)) (x6 : (⟨S1, .f32⟩ : BufTy).Contents (Elt F)) : (⟨S100000x128, .f32⟩ : BufTy).Contents (Elt F) :=
  maximumf (val_main_v58 (F := F) h x1 x3 x4 x5 x6) (val_main_call0_v0 (F := F))
theorem val_main_v59_apply (h : (⟨S100000x128, .f32⟩ : BufTy).Contents (Elt F)) (x1 : (⟨S2x500000, .i32⟩ : BufTy).Contents (Elt F)) (x3 : (⟨S128x128, .f32⟩ : BufTy).Contents (Elt F)) (x4 : (⟨S128x256, .f32⟩ : BufTy).Contents (Elt F)) (x5 : (⟨S1x256, .f32⟩ : BufTy).Contents (Elt F)) (x6 : (⟨S1, .f32⟩ : BufTy).Contents (Elt F)) (i : S100000x128.Idx) :
    val_main_v59 (F := F) h x1 x3 x4 x5 x6 i = FloatOps.maximumf (val_main_v58 (F := F) h x1 x3 x4 x5 x6 i) (val_main_call0_v0 (F := F) i) := rfl

def val_main_v60 (h : (⟨S100000x128, .f32⟩ : BufTy).Contents (Elt F)) (x1 : (⟨S2x500000, .i32⟩ : BufTy).Contents (Elt F)) (x3 : (⟨S128x128, .f32⟩ : BufTy).Contents (Elt F)) (x4 : (⟨S128x256, .f32⟩ : BufTy).Contents (Elt F)) (x5 : (⟨S1x256, .f32⟩ : BufTy).Contents (Elt F)) (x6 : (⟨S1, .f32⟩ : BufTy).Contents (Elt F)) : (⟨S100000x128, .f32⟩ : BufTy).Contents (Elt F) :=
  addf (val_main_v59 (F := F) h x1 x3 x4 x5 x6) (h)
theorem val_main_v60_apply (h : (⟨S100000x128, .f32⟩ : BufTy).Contents (Elt F)) (x1 : (⟨S2x500000, .i32⟩ : BufTy).Contents (Elt F)) (x3 : (⟨S128x128, .f32⟩ : BufTy).Contents (Elt F)) (x4 : (⟨S128x256, .f32⟩ : BufTy).Contents (Elt F)) (x5 : (⟨S1x256, .f32⟩ : BufTy).Contents (Elt F)) (x6 : (⟨S1, .f32⟩ : BufTy).Contents (Elt F)) (i : S100000x128.Idx) :
    val_main_v60 (F := F) h x1 x3 x4 x5 x6 i = FloatOps.addf (val_main_v59 (F := F) h x1 x3 x4 x5 x6 i) (h i) := rfl

def val_main_v61 (h : (⟨S100000x128, .f32⟩ : BufTy).Contents (Elt F)) (x1 : (⟨S2x500000, .i32⟩ : BufTy).Contents (Elt F)) (x3 : (⟨S128x128, .f32⟩ : BufTy).Contents (Elt F)) (x4 : (⟨S128x256, .f32⟩ : BufTy).Contents (Elt F)) (x5 : (⟨S1x256, .f32⟩ : BufTy).Contents (Elt F)) (x6 : (⟨S1, .f32⟩ : BufTy).Contents (Elt F)) : (⟨S100000x128, .f32⟩ : BufTy).Contents (Elt F) :=
  subf (val_main_v60 (F := F) h x1 x3 x4 x5 x6) (h)
theorem val_main_v61_apply (h : (⟨S100000x128, .f32⟩ : BufTy).Contents (Elt F)) (x1 : (⟨S2x500000, .i32⟩ : BufTy).Contents (Elt F)) (x3 : (⟨S128x128, .f32⟩ : BufTy).Contents (Elt F)) (x4 : (⟨S128x256, .f32⟩ : BufTy).Contents (Elt F)) (x5 : (⟨S1x256, .f32⟩ : BufTy).Contents (Elt F)) (x6 : (⟨S1, .f32⟩ : BufTy).Contents (Elt F)) (i : S100000x128.Idx) :
    val_main_v61 (F := F) h x1 x3 x4 x5 x6 i = FloatOps.subf (val_main_v60 (F := F) h x1 x3 x4 x5 x6 i) (h i) := rfl

def val_main_v62 (x7 : (⟨S_, .f32⟩ : BufTy).Contents (Elt F)) (s : BitVec 32) : (⟨S100000x128, .f32⟩ : BufTy).Contents (Elt F) :=
  broadcastInDim S100000x128 ![] bcast_S_S100000x128 (val_main_v10 (F := F) x7 s)
abbrev idx_main_v62 (i : S100000x128.Idx) : S_.Idx := fun a => a.elim0
theorem val_main_v62_apply (x7 : (⟨S_, .f32⟩ : BufTy).Contents (Elt F)) (s : BitVec 32) (i : S100000x128.Idx) :
    val_main_v62 (F := F) x7 s i = val_main_v10 (F := F) x7 s (idx_main_v62 i) := by
  unfold val_main_v62
  generalize val_main_v10 (F := F) x7 s = y
  exact broadcastInDim_apply _ bcast_S_S100000x128 y i (idx_main_v62 i) (fun a => a.elim0)

def val_main_v63 (h : (⟨S100000x128, .f32⟩ : BufTy).Contents (Elt F)) (x1 : (⟨S2x500000, .i32⟩ : BufTy).Contents (Elt F)) (x3 : (⟨S128x128, .f32⟩ : BufTy).Contents (Elt F)) (x4 : (⟨S128x256, .f32⟩ : BufTy).Contents (Elt F)) (x5 : (⟨S1x256, .f32⟩ : BufTy).Contents (Elt F)) (x6 : (⟨S1, .f32⟩ : BufTy).Contents (Elt F)) (x7 : (⟨S_, .f32⟩ : BufTy).Contents (Elt F)) (s : BitVec 32) : (⟨S100000x128, .f32⟩ : BufTy).Contents (Elt F) :=
  mulf (val_main_v62 (F := F) x7 s) (val_main_v61 (F := F) h x1 x3 x4 x5 x6)
theorem val_main_v63_apply (h : (⟨S100000x128, .f32⟩ : BufTy).Contents (Elt F)) (x1 : (⟨S2x500000, .i32⟩ : BufTy).Contents (Elt F)) (x3 : (⟨S128x128, .f32⟩ : BufTy).Contents (Elt F)) (x4 : (⟨S128x256, .f32⟩ : BufTy).Contents (Elt F)) (x5 : (⟨S1x256, .f32⟩ : BufTy).Contents (Elt F)) (x6 : (⟨S1, .f32⟩ : BufTy).Contents (Elt F)) (x7 : (⟨S_, .f32⟩ : BufTy).Contents (Elt F)) (s : BitVec 32) (i : S100000x128.Idx) :
    val_main_v63 (F := F) h x1 x3 x4 x5 x6 x7 s i = FloatOps.mulf (val_main_v62 (F := F) x7 s i) (val_main_v61 (F := F) h x1 x3 x4 x5 x6 i) := rfl

def val_main_v64 (h : (⟨S100000x128, .f32⟩ : BufTy).Contents (Elt F)) (x1 : (⟨S2x500000, .i32⟩ : BufTy).Contents (Elt F)) (x3 : (⟨S128x128, .f32⟩ : BufTy).Contents (Elt F)) (x4 : (⟨S128x256, .f32⟩ : BufTy).Contents (Elt F)) (x5 : (⟨S1x256, .f32⟩ : BufTy).Contents (Elt F)) (x6 : (⟨S1, .f32⟩ : BufTy).Contents (Elt F)) (x7 : (⟨S_, .f32⟩ : BufTy).Contents (Elt F)) (s : BitVec 32) : (⟨S100000x128, .f32⟩ : BufTy).Contents (Elt F) :=
  addf (h) (val_main_v63 (F := F) h x1 x3 x4 x5 x6 x7 s)
theorem val_main_v64_apply (h : (⟨S100000x128, .f32⟩ : BufTy).Contents (Elt F)) (x1 : (⟨S2x500000, .i32⟩ : BufTy).Contents (Elt F)) (x3 : (⟨S128x128, .f32⟩ : BufTy).Contents (Elt F)) (x4 : (⟨S128x256, .f32⟩ : BufTy).Contents (Elt F)) (x5 : (⟨S1x256, .f32⟩ : BufTy).Contents (Elt F)) (x6 : (⟨S1, .f32⟩ : BufTy).Contents (Elt F)) (x7 : (⟨S_, .f32⟩ : BufTy).Contents (Elt F)) (s : BitVec 32) (i : S100000x128.Idx) :
    val_main_v64 (F := F) h x1 x3 x4 x5 x6 x7 s i = FloatOps.addf (h i) (val_main_v63 (F := F) h x1 x3 x4 x5 x6 x7 s i) := rfl

/-- The result: three steps at the words of `0`, `1` and `2`, each from the features the one before left, starting at the projection. -/
def val_main_v182 (x0 : (⟨S100000x128, .f32⟩ : BufTy).Contents (Elt F)) (x1 : (⟨S2x500000, .i32⟩ : BufTy).Contents (Elt F)) (x2 x3 : (⟨S128x128, .f32⟩ : BufTy).Contents (Elt F)) (x4 : (⟨S128x256, .f32⟩ : BufTy).Contents (Elt F)) (x5 : (⟨S1x256, .f32⟩ : BufTy).Contents (Elt F)) (x6 : (⟨S1, .f32⟩ : BufTy).Contents (Elt F)) (x7 : (⟨S_, .f32⟩ : BufTy).Contents (Elt F)) : (⟨S100000x128, .f32⟩ : BufTy).Contents (Elt F) :=
  val_main_v64 (F := F) (val_main_v64 (F := F) (val_main_v64 (F := F) (val_main_v5 (F := F) x0 x2) x1 x3 x4 x5 x6 x7 0x00000000#32) x1 x3 x4 x5 x6 x7 0x3F800000#32) x1 x3 x4 x5 x6 x7 0x40000000#32

end Cert.ReferenceIdeal.ReadP

end
-- ==== Proof.RefStretch0.lean ====
import proofs.«408774_j4466765988336_3_alg».proof.Proof.RefOpsP
import proofs.«408774_j4466765988336_3_alg».proof.Proof.RefReadP
import Idealize.ShloMosaic.Lib.Pipeline.Frame

noncomputable section

namespace Cert.ReferenceIdeal.ValueP

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

set_option maxHeartbeats 4000000 in
/-- The stretch writes no argument. -/
theorem keeps0 (W : Valuation τ sig (Elt F)) :
    after ops0 W (Proc.devRef .tc main_arg0) = W (Proc.devRef .tc main_arg0)
    ∧ after ops0 W (Proc.devRef .tc main_arg1) = W (Proc.devRef .tc main_arg1)
    ∧ after ops0 W (Proc.devRef .tc main_arg2) = W (Proc.devRef .tc main_arg2)
    ∧ after ops0 W (Proc.devRef .tc main_arg3) = W (Proc.devRef .tc main_arg3)
    ∧ after ops0 W (Proc.devRef .tc main_arg4) = W (Proc.devRef .tc main_arg4)
    ∧ after ops0 W (Proc.devRef .tc main_arg5) = W (Proc.devRef .tc main_arg5)
    ∧ after ops0 W (Proc.devRef .tc main_arg6) = W (Proc.devRef .tc main_arg6)
    ∧ after ops0 W (Proc.devRef .tc main_arg7) = W (Proc.devRef .tc main_arg7) := by
  refine ⟨?_, ?_, ?_, ?_, ?_, ?_, ?_, ?_⟩ <;> after_results_simp

/-- Each of the three buffers is two operations deep: unfold them and compare. -/
theorem stretch0 (W : Valuation τ sig (Elt F)) :
    after ops0 W (Proc.devRef .tc main_v1) = val_main_v1 (F := F) (W (Proc.devRef .tc main_arg1))
    ∧ after ops0 W (Proc.devRef .tc main_v3) = val_main_v3 (F := F) (W (Proc.devRef .tc main_arg1))
    ∧ after ops0 W (Proc.devRef .tc main_v5) = val_main_v5 (F := F) (W (Proc.devRef .tc main_arg0)) (W (Proc.devRef .tc main_arg2)) := by
  refine ⟨?_, ?_, ?_⟩
  · after_results_simp; unfold val_main_v1 val_main_v0; rfl
  · after_results_simp; unfold val_main_v3 val_main_v2; rfl
  · after_results_simp; unfold val_main_v5 val_main_v4; rfl

end Cert.ReferenceIdeal.ValueP

end
-- ==== Proof.RefStretch1.lean ====
import proofs.«408774_j4466765988336_3_alg».proof.Proof.RefOpsP
import proofs.«408774_j4466765988336_3_alg».proof.Proof.RefReadP
import Idealize.ShloMosaic.Lib.Pipeline.Frame

noncomputable section

namespace Cert.ReferenceIdeal.ValueP

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

set_option maxHeartbeats 4000000 in
/-- The stretch writes no argument and neither index vector. -/
theorem keeps1 (W : Valuation τ sig (Elt F)) :
    after ops1 W (Proc.devRef .tc main_arg0) = W (Proc.devRef .tc main_arg0)
    ∧ after ops1 W (Proc.devRef .tc main_arg1) = W (Proc.devRef .tc main_arg1)
    ∧ after ops1 W (Proc.devRef .tc main_arg2) = W (Proc.devRef .tc main_arg2)
    ∧ after ops1 W (Proc.devRef .tc main_arg3) = W (Proc.devRef .tc main_arg3)
    ∧ after ops1 W (Proc.devRef .tc main_arg4) = W (Proc.devRef .tc main_arg4)
    ∧ after ops1 W (Proc.devRef .tc main_arg5) = W (Proc.devRef .tc main_arg5)
    ∧ after ops1 W (Proc.devRef .tc main_arg6) = W (Proc.devRef .tc main_arg6)
    ∧ after ops1 W (Proc.devRef .tc main_arg7) = W (Proc.devRef .tc main_arg7)
    ∧ after ops1 W (Proc.devRef .tc main_v1) = W (Proc.devRef .tc main_v1)
    ∧ after ops1 W (Proc.devRef .tc main_v3) = W (Proc.devRef .tc main_v3) := by
  refine ⟨?_, ?_, ?_, ?_, ?_, ?_, ?_, ?_, ?_, ?_⟩ <;> after_results_simp

set_option maxRecDepth 8192 in
set_option maxHeartbeats 4000000 in
/-- One iteration from any contents: the run read back operation by operation against the stages of the entering features `h`, unfolded. -/
theorem stretch1 (W : Valuation τ sig (Elt F)) (h : (⟨S100000x128, .f32⟩ : BufTy).Contents (Elt F)) (x1 : (⟨S2x500000, .i32⟩ : BufTy).Contents (Elt F)) (x3 : (⟨S128x128, .f32⟩ : BufTy).Contents (Elt F))
    (x4 : (⟨S128x256, .f32⟩ : BufTy).Contents (Elt F)) (x5 : (⟨S1x256, .f32⟩ : BufTy).Contents (Elt F)) (x6 : (⟨S1, .f32⟩ : BufTy).Contents (Elt F)) (x7 : (⟨S_, .f32⟩ : BufTy).Contents (Elt F))
    (h1 : W (Proc.devRef .tc main_v1) = val_main_v1 (F := F) x1) (h3 : W (Proc.devRef .tc main_v3) = val_main_v3 (F := F) x1)
    (hh : W (Proc.devRef .tc main_v5) = h)
    (a3 : W (Proc.devRef .tc main_arg3) = x3) (a4 : W (Proc.devRef .tc main_arg4) = x4) (a5 : W (Proc.devRef .tc main_arg5) = x5)
    (a6 : W (Proc.devRef .tc main_arg6) = x6) (a7 : W (Proc.devRef .tc main_arg7) = x7) :
    after ops1 W (Proc.devRef .tc main_v64) = val_main_v64 (F := F) h x1 x3 x4 x5 x6 x7 0x00000000#32 := by
  after_results_simp
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  try simp only [TRef.ofBuf, TRef.toBuf, cast_eq]
  rw [h1, h3, hh, a3, a4, a5, a6, a7]
  unfold
    val_main_v64 val_main_v63 val_main_v62 val_main_v61 val_main_v60 val_main_v59 val_main_call0_v0 val_main_call0_cst
      val_main_v58 val_main_v57 val_main_v56 val_main_v55 val_main_v54 val_main_v53 val_main_v52 val_main_v51
      val_main_c_11 val_main_v50 val_main_v49 val_main_c_10 val_main_v48 val_main_v47 val_main_v46 val_main_v45
      val_main_v44 val_main_c_9 val_main_v43 val_main_v42 val_main_c_8 val_main_v41 val_main_cst_7 val_main_v40
      val_main_v39 val_main_v38 val_main_v37 val_main_cst_6 val_main_v36 val_main_v35 val_main_cst_5 val_main_v34
      val_main_v33 val_main_v32 val_main_v31 val_main_v30 val_main_v29 val_main_v28 val_main_v27 val_main_v26
      val_main_v25 val_main_v24 val_main_v23 val_main_v22 val_main_v21 val_main_v20 val_main_c_4 val_main_v19
      val_main_v18 val_main_c_3 val_main_v17 val_main_v16 val_main_v15 val_main_v14 val_main_v13 val_main_c_2
      val_main_v12 val_main_v11 val_main_c val_main_v10 val_main_cst_1 val_main_v9 val_main_cst_0 val_main_v8
      val_main_v7 val_main_v6 val_main_cst
  generalize val_main_v1 (F := F) x1 = src
  generalize val_main_v3 (F := F) x1 = dst
  rfl

end Cert.ReferenceIdeal.ValueP

end
-- ==== Proof.RefStretch2.lean ====
import proofs.«408774_j4466765988336_3_alg».proof.Proof.RefOpsP
import proofs.«408774_j4466765988336_3_alg».proof.Proof.RefReadP
import Idealize.ShloMosaic.Lib.Pipeline.Frame

noncomputable section

namespace Cert.ReferenceIdeal.ValueP

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

set_option maxHeartbeats 4000000 in
/-- The stretch writes no argument and neither index vector. -/
theorem keeps2 (W : Valuation τ sig (Elt F)) :
    after ops2 W (Proc.devRef .tc main_arg0) = W (Proc.devRef .tc main_arg0)
    ∧ after ops2 W (Proc.devRef .tc main_arg1) = W (Proc.devRef .tc main_arg1)
    ∧ after ops2 W (Proc.devRef .tc main_arg2) = W (Proc.devRef .tc main_arg2)
    ∧ after ops2 W (Proc.devRef .tc main_arg3) = W (Proc.devRef .tc main_arg3)
    ∧ after ops2 W (Proc.devRef .tc main_arg4) = W (Proc.devRef .tc main_arg4)
    ∧ after ops2 W (Proc.devRef .tc main_arg5) = W (Proc.devRef .tc main_arg5)
    ∧ after ops2 W (Proc.devRef .tc main_arg6) = W (Proc.devRef .tc main_arg6)
    ∧ after ops2 W (Proc.devRef .tc main_arg7) = W (Proc.devRef .tc main_arg7)
    ∧ after ops2 W (Proc.devRef .tc main_v1) = W (Proc.devRef .tc main_v1)
    ∧ after ops2 W (Proc.devRef .tc main_v3) = W (Proc.devRef .tc main_v3) := by
  refine ⟨?_, ?_, ?_, ?_, ?_, ?_, ?_, ?_, ?_, ?_⟩ <;> after_results_simp

set_option maxRecDepth 8192 in
set_option maxHeartbeats 4000000 in
/-- One iteration from any contents: the run read back operation by operation against the stages of the entering features `h`, unfolded. -/
theorem stretch2 (W : Valuation τ sig (Elt F)) (h : (⟨S100000x128, .f32⟩ : BufTy).Contents (Elt F)) (x1 : (⟨S2x500000, .i32⟩ : BufTy).Contents (Elt F)) (x3 : (⟨S128x128, .f32⟩ : BufTy).Contents (Elt F))
    (x4 : (⟨S128x256, .f32⟩ : BufTy).Contents (Elt F)) (x5 : (⟨S1x256, .f32⟩ : BufTy).Contents (Elt F)) (x6 : (⟨S1, .f32⟩ : BufTy).Contents (Elt F)) (x7 : (⟨S_, .f32⟩ : BufTy).Contents (Elt F))
    (h1 : W (Proc.devRef .tc main_v1) = val_main_v1 (F := F) x1) (h3 : W (Proc.devRef .tc main_v3) = val_main_v3 (F := F) x1)
    (hh : W (Proc.devRef .tc main_v64) = h)
    (a3 : W (Proc.devRef .tc main_arg3) = x3) (a4 : W (Proc.devRef .tc main_arg4) = x4) (a5 : W (Proc.devRef .tc main_arg5) = x5)
    (a6 : W (Proc.devRef .tc main_arg6) = x6) (a7 : W (Proc.devRef .tc main_arg7) = x7) :
    after ops2 W (Proc.devRef .tc main_v123) = val_main_v64 (F := F) h x1 x3 x4 x5 x6 x7 0x3F800000#32 := by
  after_results_simp
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  try simp only [TRef.ofBuf, TRef.toBuf, cast_eq]
  rw [h1, h3, hh, a3, a4, a5, a6, a7]
  unfold
    val_main_v64 val_main_v63 val_main_v62 val_main_v61 val_main_v60 val_main_v59 val_main_call0_v0 val_main_call0_cst
      val_main_v58 val_main_v57 val_main_v56 val_main_v55 val_main_v54 val_main_v53 val_main_v52 val_main_v51
      val_main_c_11 val_main_v50 val_main_v49 val_main_c_10 val_main_v48 val_main_v47 val_main_v46 val_main_v45
      val_main_v44 val_main_c_9 val_main_v43 val_main_v42 val_main_c_8 val_main_v41 val_main_cst_7 val_main_v40
      val_main_v39 val_main_v38 val_main_v37 val_main_cst_6 val_main_v36 val_main_v35 val_main_cst_5 val_main_v34
      val_main_v33 val_main_v32 val_main_v31 val_main_v30 val_main_v29 val_main_v28 val_main_v27 val_main_v26
      val_main_v25 val_main_v24 val_main_v23 val_main_v22 val_main_v21 val_main_v20 val_main_c_4 val_main_v19
      val_main_v18 val_main_c_3 val_main_v17 val_main_v16 val_main_v15 val_main_v14 val_main_v13 val_main_c_2
      val_main_v12 val_main_v11 val_main_c val_main_v10 val_main_cst_1 val_main_v9 val_main_cst_0 val_main_v8
      val_main_v7 val_main_v6 val_main_cst
  generalize val_main_v1 (F := F) x1 = src
  generalize val_main_v3 (F := F) x1 = dst
  rfl

end Cert.ReferenceIdeal.ValueP

end
-- ==== Proof.RefStretch3.lean ====
import proofs.«408774_j4466765988336_3_alg».proof.Proof.RefOpsP
import proofs.«408774_j4466765988336_3_alg».proof.Proof.RefReadP
import Idealize.ShloMosaic.Lib.Pipeline.Frame

noncomputable section

namespace Cert.ReferenceIdeal.ValueP

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

set_option maxHeartbeats 4000000 in
/-- The stretch writes no argument and neither index vector. -/
theorem keeps3 (W : Valuation τ sig (Elt F)) :
    after ops3 W (Proc.devRef .tc main_arg0) = W (Proc.devRef .tc main_arg0)
    ∧ after ops3 W (Proc.devRef .tc main_arg1) = W (Proc.devRef .tc main_arg1)
    ∧ after ops3 W (Proc.devRef .tc main_arg2) = W (Proc.devRef .tc main_arg2)
    ∧ after ops3 W (Proc.devRef .tc main_arg3) = W (Proc.devRef .tc main_arg3)
    ∧ after ops3 W (Proc.devRef .tc main_arg4) = W (Proc.devRef .tc main_arg4)
    ∧ after ops3 W (Proc.devRef .tc main_arg5) = W (Proc.devRef .tc main_arg5)
    ∧ after ops3 W (Proc.devRef .tc main_arg6) = W (Proc.devRef .tc main_arg6)
    ∧ after ops3 W (Proc.devRef .tc main_arg7) = W (Proc.devRef .tc main_arg7)
    ∧ after ops3 W (Proc.devRef .tc main_v1) = W (Proc.devRef .tc main_v1)
    ∧ after ops3 W (Proc.devRef .tc main_v3) = W (Proc.devRef .tc main_v3) := by
  refine ⟨?_, ?_, ?_, ?_, ?_, ?_, ?_, ?_, ?_, ?_⟩ <;> after_results_simp

set_option maxRecDepth 8192 in
set_option maxHeartbeats 4000000 in
/-- One iteration from any contents: the run read back operation by operation against the stages of the entering features `h`, unfolded. -/
theorem stretch3 (W : Valuation τ sig (Elt F)) (h : (⟨S100000x128, .f32⟩ : BufTy).Contents (Elt F)) (x1 : (⟨S2x500000, .i32⟩ : BufTy).Contents (Elt F)) (x3 : (⟨S128x128, .f32⟩ : BufTy).Contents (Elt F))
    (x4 : (⟨S128x256, .f32⟩ : BufTy).Contents (Elt F)) (x5 : (⟨S1x256, .f32⟩ : BufTy).Contents (Elt F)) (x6 : (⟨S1, .f32⟩ : BufTy).Contents (Elt F)) (x7 : (⟨S_, .f32⟩ : BufTy).Contents (Elt F))
    (h1 : W (Proc.devRef .tc main_v1) = val_main_v1 (F := F) x1) (h3 : W (Proc.devRef .tc main_v3) = val_main_v3 (F := F) x1)
    (hh : W (Proc.devRef .tc main_v123) = h)
    (a3 : W (Proc.devRef .tc main_arg3) = x3) (a4 : W (Proc.devRef .tc main_arg4) = x4) (a5 : W (Proc.devRef .tc main_arg5) = x5)
    (a6 : W (Proc.devRef .tc main_arg6) = x6) (a7 : W (Proc.devRef .tc main_arg7) = x7) :
    after ops3 W (Proc.devRef .tc main_v182) = val_main_v64 (F := F) h x1 x3 x4 x5 x6 x7 0x40000000#32 := by
  after_results_simp
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  try simp only [TRef.ofBuf, TRef.toBuf, cast_eq]
  rw [h1, h3, hh, a3, a4, a5, a6, a7]
  unfold
    val_main_v64 val_main_v63 val_main_v62 val_main_v61 val_main_v60 val_main_v59 val_main_call0_v0 val_main_call0_cst
      val_main_v58 val_main_v57 val_main_v56 val_main_v55 val_main_v54 val_main_v53 val_main_v52 val_main_v51
      val_main_c_11 val_main_v50 val_main_v49 val_main_c_10 val_main_v48 val_main_v47 val_main_v46 val_main_v45
      val_main_v44 val_main_c_9 val_main_v43 val_main_v42 val_main_c_8 val_main_v41 val_main_cst_7 val_main_v40
      val_main_v39 val_main_v38 val_main_v37 val_main_cst_6 val_main_v36 val_main_v35 val_main_cst_5 val_main_v34
      val_main_v33 val_main_v32 val_main_v31 val_main_v30 val_main_v29 val_main_v28 val_main_v27 val_main_v26
      val_main_v25 val_main_v24 val_main_v23 val_main_v22 val_main_v21 val_main_v20 val_main_c_4 val_main_v19
      val_main_v18 val_main_c_3 val_main_v17 val_main_v16 val_main_v15 val_main_v14 val_main_v13 val_main_c_2
      val_main_v12 val_main_v11 val_main_c val_main_v10 val_main_cst_1 val_main_v9 val_main_cst_0 val_main_v8
      val_main_v7 val_main_v6 val_main_cst
  generalize val_main_v1 (F := F) x1 = src
  generalize val_main_v3 (F := F) x1 = dst
  rfl

end Cert.ReferenceIdeal.ValueP

end
-- ==== Proof.RefRunP.lean ====
import proofs.«408774_j4466765988336_3_alg».proof.Proof.RefStretch0
import proofs.«408774_j4466765988336_3_alg».proof.Proof.RefStretch1
import proofs.«408774_j4466765988336_3_alg».proof.Proof.RefStretch2
import proofs.«408774_j4466765988336_3_alg».proof.Proof.RefStretch3

noncomputable section

namespace Cert.ReferenceIdeal.ValueP

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- No operation of the line allocates a buffer. -/
theorem ops_fresh : ∀ op ∈ (ops : List (HloOp τ sig (Elt F))), op.fresh = ∅ :=
  List.forall_iff_forall_mem.mp (List.forall_append.mpr ⟨by simp only [List.Forall]; repeat' constructor,
    List.forall_append.mpr ⟨by simp only [List.Forall]; repeat' constructor, List.forall_append.mpr
      ⟨by simp only [List.Forall]; repeat' constructor, by simp only [List.Forall]; repeat' constructor⟩⟩⟩)

/-- The four stretches in order, each entered at what the one before left: an earlier stage enters a later one as a variable, so no term grows. -/
theorem after_ops (V : Valuation τ sig (Elt F)) :
    after ops V (Proc.devRef .tc main_v182) = val_main_v182 (F := F) (V (Proc.devRef .tc main_arg0)) (V (Proc.devRef .tc main_arg1)) (V (Proc.devRef .tc main_arg2))
        (V (Proc.devRef .tc main_arg3)) (V (Proc.devRef .tc main_arg4)) (V (Proc.devRef .tc main_arg5)) (V (Proc.devRef .tc main_arg6)) (V (Proc.devRef .tc main_arg7))
    ∧ after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7) := by
  unfold ops
  rw [after_append, after_append, after_append]
  obtain ⟨s0, d0, p0⟩ := stretch0 V
  obtain ⟨k00, k01, k02, k03, k04, k05, k06, k07⟩ := keeps0 V
  obtain ⟨k10, k11, k12, k13, k14, k15, k16, k17, k1s, k1d⟩ := keeps1 (after ops0 V)
  obtain ⟨k20, k21, k22, k23, k24, k25, k26, k27, k2s, k2d⟩ := keeps2 (after ops1 (after ops0 V))
  obtain ⟨k30, k31, k32, k33, k34, k35, k36, k37, -, -⟩ := keeps3 (after ops2 (after ops1 (after ops0 V)))
  have r1 := stretch1 (after ops0 V) _ _ _ _ _ _ _ s0 d0 p0 k03 k04 k05 k06 k07
  have r2 := stretch2 (after ops1 (after ops0 V)) _ _ _ _ _ _ _ (k1s.trans s0) (k1d.trans d0) r1
    (k13.trans k03) (k14.trans k04) (k15.trans k05) (k16.trans k06) (k17.trans k07)
  have r3 := stretch3 (after ops2 (after ops1 (after ops0 V))) _ _ _ _ _ _ _ (k2s.trans (k1s.trans s0)) (k2d.trans (k1d.trans d0)) r2
    (k23.trans (k13.trans k03)) (k24.trans (k14.trans k04)) (k25.trans (k15.trans k05)) (k26.trans (k16.trans k06))
    (k27.trans (k17.trans k07))
  exact ⟨r3, k30.trans (k20.trans (k10.trans k00)), k31.trans (k21.trans (k11.trans k01)), k32.trans (k22.trans (k12.trans k02)),
    k33.trans (k23.trans (k13.trans k03)), k34.trans (k24.trans (k14.trans k04)), k35.trans (k25.trans (k15.trans k05)),
    k36.trans (k26.trans (k16.trans k06)), k37.trans (k27.trans (k17.trans k07))⟩

/-- The reference's run is `after_ops` at the launch contents. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v182) = val_main_v182 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => by
      obtain ⟨e, e0, e1, e2, e3, e4, e5, e6, e7⟩ := after_ops (F := F) (launchContents m c)
      exact ⟨(h c main_v182).trans e, (h c main_arg0).trans e0, (h c main_arg1).trans e1, (h c main_arg2).trans e2,
        (h c main_arg3).trans e3, (h c main_arg4).trans e4, (h c main_arg5).trans e5, (h c main_arg6).trans e6,
        (h c main_arg7).trans e7⟩)
    (run_seq scopedRefs_eq scopedSems_eq defs main (fun _ => ops) main_eq (fun _ => ops_sub) m ρ (fun _ => ops_fresh))

end Cert.ReferenceIdeal.ValueP

end
-- ==== Proof.RefValue0.lean ====
import proofs.«408774_j4466765988336_3_alg».proof.Proof.RefReadP
import proofs.«408774_j4466765988336_3_alg».proof.Proof.Spec
import proofs.«408774_j4466765988336_3_alg».proof.Proof.LibGather
import Idealize.ShloMosaic.Lib.Pipeline.Value
import Idealize.ShloMosaic.Lib.ValueIdx
import Idealize.ShloMosaic.PureOps.Ideal.Laws

noncomputable section

namespace Cert.RefValue

open Cert.ReferenceIdeal Cert.ReferenceIdeal.Gen Cert.ReferenceIdeal.ReadP Idealize.ShloMosaic Idealize.ShloMosaic.ValueIdx
open Idealize.ShloMosaic.StableHlo Cert.Spec

theorem ix2_ext {n0 n1 : Nat} (j : (⟨2, ![n0, n1]⟩ : Shape).Idx) (a : Fin n0) (b : Fin n1) (h0 : j 0 = a) (h1 : j 1 = b) :
    j = ix2 a b := by
  funext d
  match d with
  | ⟨0, _⟩ => exact h0
  | ⟨1, _⟩ => exact h1

/-- A word that is not negative fails the test `· < 0`, so the wrap leaves it as it is. -/
theorem wrap_id (v : BitVec 32) (h0 : 0 ≤ v.toInt) :
    Scalar.select (IntOp.cmpi .slt v 0#32) (IntOp.addi v 100000#32) v = v := by
  have hs : v.slt 0#32 = false := by
    have hz : (0#32 : BitVec 32).toInt = 0 := by decide
    rw [BitVec.slt, hz]
    exact decide_eq_false (by omega)
  have hc : IntOp.cmpi .slt v 0#32 = 0#1 := by
    unfold IntOp.cmpi
    show BitVec.ofBool (v.slt 0#32) = 0#1
    rw [hs]; rfl
  rw [hc, select_zero]

theorem node_of_range (v : BitVec 32) (hlt : v.toNat < 100000) : (⟨v.toNat, hlt⟩ : Fin 100000) = node v :=
  Fin.ext (Nat.mod_eq_of_lt hlt).symm

theorem gather_dims :
    gather_S100000x128_S500000x1_S500000x128_1_0_n_n_0_1_1128.offsetDims = [1] ∧
    gather_S100000x128_S500000x1_S500000x128_1_0_n_n_0_1_1128.collapsedSliceDims = [0] ∧
    gather_S100000x128_S500000x1_S500000x128_1_0_n_n_0_1_1128.operandBatchingDims = [] ∧
    gather_S100000x128_S500000x1_S500000x128_1_0_n_n_0_1_1128.startIndicesBatchingDims = [] ∧
    gather_S100000x128_S500000x1_S500000x128_1_0_n_n_0_1_1128.startIndexMap = [0] ∧
    gather_S100000x128_S500000x1_S500000x128_1_0_n_n_0_1_1128.indexVectorDim = 1 ∧
    gather_S100000x128_S500000x1_S500000x128_1_0_n_n_0_1_1128.sliceSizes = ![1, 128] :=
  ⟨rfl, rfl, rfl, rfl, rfl, rfl, rfl⟩

/-- A row gathered at a word in range is the row of the node the word names. -/
theorem gather_node (h : SN.Idx → EReal) (col : SEI.Idx → BitVec 32)
    (hc : ∀ j, 0 ≤ (col j).toInt ∧ (col j).toInt < 100000) (e : Fin 500000) (k : Fin 128) :
    Host.gather gather_S100000x128_S500000x1_S500000x128_1_0_n_n_0_1_1128 h col (ix2 e k)
      = h (ix2 (node (col (ix2 e 0))) k) := by
  rw [Cert.LibGather.gather_rows_apply _ gather_dims h col e k (hc _).1 (hc _).2, node_of_range]

/-- Two blocks of 128 columns side by side, read at a column of the 256. -/
theorem cat_at (a b : S500000x128.Idx → EReal) (e : Fin 500000) (k : Fin 256) :
    concatenate S500000x256 1 [⟨S500000x128, a⟩, ⟨S500000x128, b⟩] concatenates_S500000x128_S500000x128_S500000x256_d1 (ix2 e k)
      = if hk : k.val < 128 then a (ix2 e ⟨k.val, hk⟩) else b (ix2 e ⟨k.val - 128, by omega⟩) := by
  by_cases hk : k.val < 128
  · rw [dif_pos hk]
    exact concatenate_pair_apply_left 1 _ _ concatenates_S500000x128_S500000x128_S500000x256_d1 (ix2 e k) rfl
      (ix2 e ⟨k.val, hk⟩) (fun b => match b with
        | ⟨0, _⟩ => rfl
        | ⟨1, _⟩ => rfl)
  · rw [dif_neg hk]
    exact concatenate_pair_apply_right 1 _ _ concatenates_S500000x128_S500000x128_S500000x256_d1 (ix2 e k) rfl rfl
      (ix2 e ⟨k.val - 128, by have := k.isLt; omega⟩) (fun b => match b with
        | ⟨0, _⟩ => fun _ => rfl
        | ⟨1, _⟩ => fun hb => absurd rfl hb) (by show k.val - 128 + 128 = k.val; omega)

theorem scat_eq : scatter_S100000x128_S500000x1_S500000x128_1_0_0_1 = scat := rfl

/-- The two accumulating scatters, the table kept a variable so that no sum is evaluated. -/
theorem agg_ops (t : SN.Idx → EReal) (p c : SEI.Idx → BitVec 32) (M : SE.Idx → EReal) :
    Host.scatterAdd (F := Ideal) (φ := .f32) scatter_S100000x128_S500000x1_S500000x128_1_0_0_1
      (Host.scatterAdd (F := Ideal) (φ := .f32) scatter_S100000x128_S500000x1_S500000x128_1_0_0_1 t p M) c M
      = Ideal.hostScatterAdd scat (Ideal.hostScatterAdd scat t p M) c M := by
  rw [scat_eq]
  rfl

theorem sig_ops (x : EReal) :
    FloatOps.hostDivf (F := Ideal) (φ := .f32) (FloatOps.ofBits .f32 0x3F800000#32)
      (FloatOps.addf (FloatOps.ofBits .f32 0x3F800000#32) (FloatOps.hostUnary .exp (FloatOps.hostNegf x))) = sigH x := rfl

theorem wstep_ops (T : S0.Idx → EReal) (s : BitVec 32) :
    FloatOps.hostDivf (F := Ideal) (φ := .f32) (FloatOps.ofBits .f32 0x3F800000#32)
      (FloatOps.addf (FloatOps.ofBits .f32 0x3F800000#32)
        (FloatOps.hostUnary .exp (FloatOps.hostNegf (FloatOps.subf (T ix0) (FloatOps.ofBits .f32 s))))) = wstep T s := rfl

theorem msg_ops (h : SN.Idx → EReal) (idx : SI.Idx → BitVec 32) (We : SWE.Idx → EReal) (G : SG.Idx → EReal) (b : SB.Idx → EReal)
    (e : Fin 500000) (c : Fin 128) :
    FloatOps.mulf (F := Ideal) (φ := .f32) (∑ k : Fin 256, ec h idx e k * We (ix2 c k))
      (sigH (FloatOps.addf (F := Ideal) (φ := .f32) (∑ k : Fin 256, ec h idx e k * G (ix2 0 k)) (b (ix1 0))))
      = msgR h idx We G b (ix2 e c) := rfl

theorem comb_ops (h a : SN.Idx → EReal) (Wpc : SW.Idx → EReal) (w : EReal) (n : Fin 100000) (c : Fin 128) :
    FloatOps.addf (F := Ideal) (φ := .f32) (h (ix2 n c)) (FloatOps.mulf w
      (FloatOps.subf (FloatOps.addf (FloatOps.maximumf
        (FloatOps.addf (∑ k : Fin 128, a (ix2 n k) * Wpc (ix2 c k)) (h (ix2 n c)))
        (FloatOps.ofBits .f32 0x00000000#32)) (h (ix2 n c))) (h (ix2 n c))))
      = combR h a Wpc w (ix2 n c) := rfl

section
variable {x0 : (⟨S100000x128, .f32⟩ : BufTy).Contents (Elt Ideal)} {x1 : (⟨S2x500000, .i32⟩ : BufTy).Contents (Elt Ideal)}
  {x2 : (⟨S128x128, .f32⟩ : BufTy).Contents (Elt Ideal)}

theorem row0_at (i : S500000.Idx) : val_main_v1 (F := Ideal) x1 i = x1 (ix2 0 (i 0)) := by
  rw [val_main_v1_apply, val_main_v0_apply]
  congr 1
  funext a
  match a with
  | ⟨0, _⟩ => rfl
  | ⟨1, _⟩ => exact Fin.ext (Nat.mod_eq_of_lt (i 0).isLt)

theorem row1_at (i : S500000.Idx) : val_main_v3 (F := Ideal) x1 i = x1 (ix2 1 (i 0)) := by
  rw [val_main_v3_apply, val_main_v2_apply]
  congr 1
  funext a
  match a with
  | ⟨0, _⟩ => rfl
  | ⟨1, _⟩ => exact Fin.ext (Nat.mod_eq_of_lt (i 0).isLt)

/-- The projection is `x · W_sᵀ`. -/
theorem proj_eq : val_main_v5 (F := Ideal) x0 x2 = lin x0 x2 := by
  funext i
  rw [val_main_v5_apply]
  unfold lin
  refine Finset.sum_congr rfl fun k _ => ?_
  rw [val_main_v4_apply, ix2_ext (lidx_main_v5 i k) (i 0) k rfl rfl, ix2_ext (idx_main_v4 (ridx_main_v5 i k)) (i 1) k rfl rfl]

end

end Cert.RefValue

end
-- ==== Proof.RefValue1.lean ====
import proofs.«408774_j4466765988336_3_alg».proof.Proof.RefValue0

noncomputable section

namespace Cert.RefValue.It

open Cert.ReferenceIdeal Cert.ReferenceIdeal.Gen Cert.ReferenceIdeal.ReadP Idealize.ShloMosaic Idealize.ShloMosaic.ValueIdx
open Idealize.ShloMosaic.StableHlo Cert.Spec Cert.RefValue

variable {h : (⟨S100000x128, .f32⟩ : BufTy).Contents (Elt Ideal)} {x1 : (⟨S2x500000, .i32⟩ : BufTy).Contents (Elt Ideal)}
  {x3 : (⟨S128x128, .f32⟩ : BufTy).Contents (Elt Ideal)} {x4 : (⟨S128x256, .f32⟩ : BufTy).Contents (Elt Ideal)}
  {x5 : (⟨S1x256, .f32⟩ : BufTy).Contents (Elt Ideal)} {x6 : (⟨S1, .f32⟩ : BufTy).Contents (Elt Ideal)}
  {x7 : (⟨S_, .f32⟩ : BufTy).Contents (Elt Ideal)} {s : BitVec 32}

/-- In range, the wrap of a negative index is the identity, so the gather's index column is the first endpoint column. -/
theorem colp_gather (hR : InRange x1) : val_main_v16 (F := Ideal) x1 = pcol x1 := by
  funext j
  rw [val_main_v16_apply, val_main_v15_apply, val_main_v12_apply, val_main_v14_apply, val_main_v11_apply, val_main_v13_apply,
    val_main_c_apply, val_main_c_2_apply, row0_at]
  exact wrap_id _ (hR _).1

theorem colc_gather (hR : InRange x1) : val_main_v23 (F := Ideal) x1 = ccol x1 := by
  funext j
  rw [val_main_v23_apply, val_main_v22_apply, val_main_v19_apply, val_main_v21_apply, val_main_v18_apply, val_main_v20_apply,
    val_main_c_3_apply, val_main_c_4_apply, row1_at]
  exact wrap_id _ (hR _).1

theorem colp_scatter (hR : InRange x1) : val_main_v47 (F := Ideal) x1 = pcol x1 := by
  funext j
  rw [val_main_v47_apply, val_main_v46_apply, val_main_v43_apply, val_main_v45_apply, val_main_v42_apply, val_main_v44_apply,
    val_main_c_8_apply, val_main_c_9_apply, row0_at]
  exact wrap_id _ (hR _).1

theorem colc_scatter (hR : InRange x1) : val_main_v54 (F := Ideal) x1 = ccol x1 := by
  funext j
  rw [val_main_v54_apply, val_main_v53_apply, val_main_v50_apply, val_main_v52_apply, val_main_v49_apply, val_main_v51_apply,
    val_main_c_10_apply, val_main_c_11_apply, row1_at]
  exact wrap_id _ (hR _).1

/-- The step weight is the logistic function of `T − s`, spelt out. -/
theorem weight_at (j : S_.Idx) : val_main_v10 (F := Ideal) x7 s j = wstep x7 s := by
  rw [val_main_v10_apply, val_main_cst_1_apply, val_main_v9_apply, val_main_cst_0_apply, val_main_v8_apply, val_main_v7_apply,
    val_main_v6_apply, val_main_cst_apply, eq_ix0 j]
  exact wstep_ops x7 s

theorem rows_p (hR : InRange x1) (e : Fin 500000) (k : Fin 128) :
    val_main_v17 (F := Ideal) h x1 (ix2 e k) = hp (h) x1 e k := by
  unfold val_main_v17
  rw [colp_gather hR]
  exact gather_node _ (pcol x1) (fun _ => hR _) e k

theorem rows_c (hR : InRange x1) (e : Fin 500000) (k : Fin 128) :
    val_main_v24 (F := Ideal) h x1 (ix2 e k) = hc (h) x1 e k := by
  unfold val_main_v24
  rw [colc_gather hR]
  exact gather_node _ (ccol x1) (fun _ => hR _) e k

/-- The concatenated rows of an edge's two endpoints. -/
theorem rows_cat (hR : InRange x1) (e : Fin 500000) (k : Fin 256) :
    val_main_v25 (F := Ideal) h x1 (ix2 e k) = ec (h) x1 e k := by
  unfold val_main_v25 ec
  rw [cat_at]
  by_cases hk : k.val < 128
  · rw [dif_pos hk, dif_pos hk, rows_p hR]
  · rw [dif_neg hk, dif_neg hk, rows_c hR]

theorem edge_lin (hR : InRange x1) (e : Fin 500000) (c : Fin 128) :
    val_main_v27 (F := Ideal) h x1 x4 (ix2 e c)
      = ∑ k : Fin 256, ec (h) x1 e k * x4 (ix2 c k) := by
  rw [val_main_v27_apply]
  refine Finset.sum_congr rfl fun k _ => ?_
  rw [ix2_ext (lidx_main_v27 (ix2 e c) k) e k rfl rfl, rows_cat hR, val_main_v26_apply,
    ix2_ext (idx_main_v26 (ridx_main_v27 (ix2 e c) k)) c k rfl rfl]

theorem gate_lin (hR : InRange x1) (e : Fin 500000) (z : Fin 1) :
    val_main_v29 (F := Ideal) h x1 x5 (ix2 e z)
      = ∑ k : Fin 256, ec (h) x1 e k * x5 (ix2 0 k) := by
  rw [val_main_v29_apply]
  refine Finset.sum_congr rfl fun k _ => ?_
  rw [ix2_ext (lidx_main_v29 (ix2 e z) k) e k rfl rfl, rows_cat hR, val_main_v28_apply,
    ix2_ext (idx_main_v28 (ridx_main_v29 (ix2 e z) k)) 0 k (Fin.ext (by show z.val = 0; omega)) rfl]

theorem gate_at (hR : InRange x1) (e : Fin 500000) (z : Fin 1) :
    val_main_v38 (F := Ideal) h x1 x5 x6 (ix2 e z)
      = sigH (FloatOps.addf (F := Ideal) (φ := .f32)
          (∑ k : Fin 256, ec (h) x1 e k * x5 (ix2 0 k)) (x6 (ix1 0))) := by
  rw [val_main_v38_apply, val_main_v37_apply, val_main_cst_6_apply, val_main_v36_apply, val_main_v35_apply, val_main_cst_5_apply,
    val_main_v34_apply, val_main_v33_apply, val_main_v32_apply, gate_lin hR, val_main_v31_apply, val_main_v30_apply,
    eq_ix1 (idx_main_v30 (idx_main_v31 (ix2 e z)))]
  exact sig_ops _

/-- The gated edge message over the concatenation. -/
theorem msg_eq (hR : InRange x1) :
    val_main_v40 (F := Ideal) h x1 x4 x5 x6 = msgR (h) x1 x4 x5 x6 := by
  funext j
  obtain ⟨e, c, rfl⟩ : ∃ (e : Fin 500000) (c : Fin 128), j = ix2 e c := ⟨j 0, j 1, eq_ix2 j⟩
  rw [val_main_v40_apply, edge_lin hR, val_main_v39_apply, ix2_ext (idx_main_v39 (ix2 e c)) e 0 rfl rfl, gate_at hR]
  exact msg_ops _ x1 x4 x5 x6 e c

theorem table_zero : val_main_v41 (F := Ideal) = fun _ => zero := by
  funext i
  rw [val_main_v41_apply, val_main_cst_7_apply]
  rfl

/-- Every message is added into both endpoint rows of a zero table. -/
theorem agg_eq (hR : InRange x1) :
    val_main_v55 (F := Ideal) h x1 x4 x5 x6 = agg x1 (msgR (h) x1 x4 x5 x6) := by
  unfold val_main_v55 val_main_v48 agg
  rw [msg_eq hR, colp_scatter hR, colc_scatter hR, table_zero, agg_ops]

theorem node_lin (hR : InRange x1) (n : Fin 100000) (c : Fin 128) :
    val_main_v57 (F := Ideal) h x1 x3 x4 x5 x6 (ix2 n c)
      = ∑ k : Fin 128, agg x1 (msgR (h) x1 x4 x5 x6) (ix2 n k) * x3 (ix2 c k) := by
  rw [val_main_v57_apply]
  refine Finset.sum_congr rfl fun k _ => ?_
  rw [agg_eq hR, ix2_ext (lidx_main_v57 (ix2 n c) k) n k rfl rfl, val_main_v56_apply,
    ix2_ext (idx_main_v56 (ridx_main_v57 (ix2 n c) k)) c k rfl rfl]

/-- One iteration leaves the step of the features it found, whatever they are. -/
theorem step_eq (hR : InRange x1) :
    val_main_v64 (F := Ideal) h x1 x3 x4 x5 x6 x7 s
      = stepR x1 x3 x4 x5 x6 (wstep x7 s) (h) := by
  funext i
  obtain ⟨n, c, rfl⟩ : ∃ (n : Fin 100000) (c : Fin 128), i = ix2 n c := ⟨i 0, i 1, eq_ix2 i⟩
  rw [val_main_v64_apply, val_main_v63_apply, val_main_v62_apply, weight_at, val_main_v61_apply, val_main_v60_apply,
    val_main_v59_apply, val_main_call0_v0_apply, val_main_call0_cst_apply, val_main_v58_apply, node_lin hR]
  unfold stepR
  exact comb_ops _ _ x3 _ n c

end Cert.RefValue.It

end
-- ==== Proof.RefValue.lean ====
import proofs.«408774_j4466765988336_3_alg».proof.Proof.RefValue1

noncomputable section

namespace Cert.RefValue

open Cert.ReferenceIdeal Cert.ReferenceIdeal.Gen Cert.ReferenceIdeal.ReadP Idealize.ShloMosaic Idealize.ShloMosaic.ValueIdx
open Cert.Spec

/-- The last stage is three steps after the projection, the one lemma about a step used at each. -/
theorem ref_value_stage (x0 : (⟨S100000x128, .f32⟩ : BufTy).Contents (Elt Ideal)) (x1 : (⟨S2x500000, .i32⟩ : BufTy).Contents (Elt Ideal))
    (x2 x3 : (⟨S128x128, .f32⟩ : BufTy).Contents (Elt Ideal)) (x4 : (⟨S128x256, .f32⟩ : BufTy).Contents (Elt Ideal))
    (x5 : (⟨S1x256, .f32⟩ : BufTy).Contents (Elt Ideal)) (x6 : (⟨S1, .f32⟩ : BufTy).Contents (Elt Ideal))
    (x7 : (⟨S_, .f32⟩ : BufTy).Contents (Elt Ideal)) (hR : Cert.Spec.InRange x1) :
    (val_main_v182 (F := Ideal) x0 x1 x2 x3 x4 x5 x6 x7 : Cert.Spec.SN.Idx → EReal)
      = Cert.Spec.resultR x0 x1 x2 x3 x4 x5 x6 x7 := by
  unfold resultR val_main_v182
  rw [It.step_eq hR, It.step_eq hR, It.step_eq hR, proj_eq]

end Cert.RefValue

end
-- ==== Proof.SpecEq.lean ====
import proofs.«408774_j4466765988336_3_alg».proof.Proof.Spec
import Idealize.ShloMosaic.PureOps.Ideal
import Idealize.ShloMosaic.Lib.ValueIdx
import Mathlib.Algebra.BigOperators.Fin
import Mathlib.Data.EReal.Operations

noncomputable section

namespace Cert.Spec

open Idealize.ShloMosaic Idealize.ShloMosaic.ValueIdx

theorem one_eq : one = 1 := by
  unfold one
  simp [Ideal.ofBits, Ideal.ieee, -EReal.coe_mul]; norm_num

theorem zero_eq : zero = 0 := by
  unfold zero
  simp [Ideal.ofBits, Ideal.ieee]

theorem sigH_eq (x : EReal) : sigH x = Ideal.logistic x := by
  unfold sigH Ideal.logistic
  rw [one_eq]

/-- A sum over 256 columns is the sum over its two halves of 128. -/
theorem sum_halves (f : Fin 256 → EReal) :
    ∑ k : Fin 256, f k = (∑ k : Fin 128, f (lo k)) + ∑ k : Fin 128, f (hi k) :=
  Fin.sum_univ_add (a := 128) (b := 128) f

theorem ec_lo (h : SN.Idx → EReal) (idx : SI.Idx → BitVec 32) (e : Fin 500000) (k : Fin 128) :
    ec h idx e (lo k) = hp h idx e k := by
  have hk : (lo k).val < 128 := k.isLt
  unfold ec
  rw [dif_pos hk]
  rfl

theorem ec_hi (h : SN.Idx → EReal) (idx : SI.Idx → BitVec 32) (e : Fin 500000) (k : Fin 128) :
    ec h idx e (hi k) = hc h idx e k := by
  have hk : ¬ (hi k).val < 128 := by show ¬ 128 + k.val < 128; omega
  have hv : (⟨(hi k).val - 128, by have := (hi k).isLt; omega⟩ : Fin 128) = k :=
    Fin.ext (by show 128 + k.val - 128 = k.val; omega)
  unfold ec
  rw [dif_neg hk, hv]

theorem sum_ec (h : SN.Idx → EReal) (idx : SI.Idx → BitVec 32) (e : Fin 500000) (g : Fin 256 → EReal) :
    ∑ k : Fin 256, ec h idx e k * g k
      = (∑ k : Fin 128, hp h idx e k * g (lo k)) + ∑ k : Fin 128, hc h idx e k * g (hi k) := by
  rw [sum_halves]
  simp only [ec_lo, ec_hi]

/-- The split contractions are the contractions over the concatenation; no finiteness is needed. -/
theorem msgK_eq_msgR (h : SN.Idx → EReal) (idx : SI.Idx → BitVec 32) (We : SWE.Idx → EReal) (G : SG.Idx → EReal)
    (b : SB.Idx → EReal) : msgK h idx We G b = msgR h idx We G b := by
  funext j
  unfold msgK msgR
  rw [sum_ec h idx (j 0) (fun k => We (ix2 (j 1) k)), sum_ec h idx (j 0) (fun k => G (ix2 0 k)), sigH_eq]

def IsReal (x : EReal) : Prop := ∃ r : ℝ, x = (r : EReal)

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.max {x y : EReal} (hx : IsReal x) (hy : IsReal y) : IsReal (max x y) := by
  rcases max_choice x y with h | h <;> rw [h] <;> assumption

theorem isReal_zero : IsReal (0 : EReal) := ⟨0, EReal.coe_zero.symm⟩

theorem IsReal.sum {ι : Type*} (s : Finset ι) (f : ι → EReal) (hf : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (hf a (Finset.mem_insert_self a s)).add (ih fun i hi => hf i (Finset.mem_insert_of_mem hi))

theorem isReal_logistic (x : EReal) : IsReal (Ideal.logistic x) := by
  induction x using EReal.rec with
  | bot => rw [Ideal.logistic_bot]; exact isReal_zero
  | coe r => rw [Ideal.logistic_coe]; exact ⟨_, rfl⟩
  | top => rw [Ideal.logistic_top]; exact ⟨1, EReal.coe_one.symm⟩

theorem isReal_wstep (T : S0.Idx → EReal) (s : BitVec 32) : IsReal (wstep T s) := by
  unfold wstep
  rw [sigH_eq]
  exact isReal_logistic _

theorem allReal_lin (x : SN.Idx → EReal) (W : SW.Idx → EReal) (hx : AllReal x) (hW : AllReal W) :
    AllReal (lin x W) := fun i =>
  IsReal.sum _ _ fun k _ => IsReal.mul (hx _) (hW _)

theorem allReal_msgK (h : SN.Idx → EReal) (idx : SI.Idx → BitVec 32) (We : SWE.Idx → EReal) (G : SG.Idx → EReal)
    (b : SB.Idx → EReal) (hh : AllReal h) (hWe : AllReal We) (hG : AllReal G) :
    AllReal (msgK h idx We G b) := fun j => by
  have hP : ∀ k, IsReal (hp h idx (j 0) k) := fun k => hh _
  have hC : ∀ k, IsReal (hc h idx (j 0) k) := fun k => hh _
  exact IsReal.mul
    (IsReal.add (IsReal.sum _ _ fun k _ => (hP k).mul (hWe _)) (IsReal.sum _ _ fun k _ => (hC k).mul (hWe _)))
    (isReal_logistic _)

theorem allReal_hostScatterAdd {s si su : Shape} (d : ScatterDims s si su) {w : Nat} (x : s.Idx → EReal)
    (idx : IVec si w) (u : su.Idx → EReal) (hx : AllReal x) (hu : AllReal u) :
    AllReal (Ideal.hostScatterAdd d x idx u) := fun i => by
  unfold Ideal.hostScatterAdd
  exact IsReal.add (hx i) (IsReal.sum _ _ fun j _ => hu j)

theorem allReal_agg (idx : SI.Idx → BitVec 32) (msg : SE.Idx → EReal) (hm : AllReal msg) : AllReal (agg idx msg) := by
  unfold agg
  refine allReal_hostScatterAdd _ _ _ _ (allReal_hostScatterAdd _ _ _ _ (fun _ => ?_) hm) hm
  rw [zero_eq]; exact isReal_zero

theorem allReal_combK (h a : SN.Idx → EReal) (Wpc : SW.Idx → EReal) (w : EReal) (hh : AllReal h) (ha : AllReal a)
    (hW : AllReal Wpc) (hw : IsReal w) : AllReal (combK h a Wpc w) := fun i => by
  unfold combK
  refine IsReal.add (hh i) (IsReal.mul hw (IsReal.max (IsReal.add (IsReal.sum _ _ fun k _ => IsReal.mul (ha _) (hW _)) (hh i)) ?_))
  rw [zero_eq]; exact isReal_zero

/-- `(r + h) − h = r` needs `h` real: this is where finiteness is used. -/
theorem combK_eq_combR (h a : SN.Idx → EReal) (Wpc : SW.Idx → EReal) (w : EReal) (hh : AllReal h) :
    combK h a Wpc w = combR h a Wpc w := by
  funext i
  obtain ⟨t, ht⟩ := hh i
  unfold combK combR
  rw [ht, EReal.add_sub_cancel_right]

theorem stepK_eq_stepR (idx : SI.Idx → BitVec 32) (Wpc : SW.Idx → EReal) (We : SWE.Idx → EReal) (G : SG.Idx → EReal)
    (b : SB.Idx → EReal) (w : EReal) (h : SN.Idx → EReal) (hh : AllReal h) :
    stepK idx Wpc We G b w h = stepR idx Wpc We G b w h := by
  unfold stepK stepR
  rw [msgK_eq_msgR, combK_eq_combR _ _ _ _ hh]

/-- A step of real features with real weights is real, so the next step's cancellation is licensed. -/
theorem allReal_stepK (idx : SI.Idx → BitVec 32) (Wpc : SW.Idx → EReal) (We : SWE.Idx → EReal) (G : SG.Idx → EReal)
    (b : SB.Idx → EReal) (w : EReal) (h : SN.Idx → EReal) (hh : AllReal h) (hWpc : AllReal Wpc) (hWe : AllReal We)
    (hG : AllReal G) (hw : IsReal w) : AllReal (stepK idx Wpc We G b w h) := by
  unfold stepK
  exact allReal_combK _ _ _ _ hh (allReal_agg _ _ (allReal_msgK _ _ _ _ _ hh hWe hG)) hWpc hw

/-- The two arrangements agree on real inputs, step by step. -/
theorem resultK_eq_resultR (x : SN.Idx → EReal) (idx : SI.Idx → BitVec 32) (Ws Wpc : SW.Idx → EReal) (We : SWE.Idx → EReal)
    (G : SG.Idx → EReal) (b : SB.Idx → EReal) (T : S0.Idx → EReal)
    (hx : AllReal x) (hWs : AllReal Ws) (hWpc : AllReal Wpc) (hWe : AllReal We) (hG : AllReal G) (hb : AllReal b)
    (hT : AllReal T) :
    resultK x idx Ws Wpc We G b T = resultR x idx Ws Wpc We G b T := by
  have h0 : AllReal (lin x Ws) := allReal_lin x Ws hx hWs
  have e1 := stepK_eq_stepR idx Wpc We G b (wstep T 0x00000000#32) _ h0
  have h1 := allReal_stepK idx Wpc We G b (wstep T 0x00000000#32) _ h0 hWpc hWe hG (isReal_wstep T _)
  have e2 := stepK_eq_stepR idx Wpc We G b (wstep T 0x3F800000#32) _ h1
  have h2 := allReal_stepK idx Wpc We G b (wstep T 0x3F800000#32) _ h1 hWpc hWe hG (isReal_wstep T _)
  have e3 := stepK_eq_stepR idx Wpc We G b (wstep T 0x40000000#32) _ h2
  unfold resultK resultR
  rw [e3, e2, e1]

end Cert.Spec

end
-- ==== Proof.PreFacts.lean ====
import proofs.«408774_j4466765988336_3_alg».proof.Pre_finite_inputs
import proofs.«408774_j4466765988336_3_alg».proof.Proof.Gen.Pre_finite_inputs
import proofs.«408774_j4466765988336_3_alg».proof.Proof.Spec
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx

instance subsingleton_scalar_idx : Subsingleton Cert.Pre_finite_inputs.S_.Idx :=
  ⟨fun a b => funext fun d => d.elim0⟩

theorem inf_word : Ideal.ofBits .f32 0x7F800000#32 = (⊤ : EReal) := by
  simp [Ideal.ofBits, Ideal.ieee]

theorem real_of_abs_lt_top (x : EReal) (h : max x (-x) < (⊤ : EReal)) : ∃ r : ℝ, x = (r : EReal) := by
  induction x using EReal.rec with
  | bot => simp at h
  | coe r => exact ⟨r, rfl⟩
  | top => simp at h

/-- An entry whose absolute value is below the infinity word is a real number. -/
theorem real_of_test (x : Ideal .f32)
    (h : FloatOps.cmpf (F := Ideal) .olt (FloatOps.hostAbsf x) (FloatOps.ofBits .f32 0x7F800000#32) = 1#1) :
    ∃ r : ℝ, x = (r : EReal) := by
  have h1 : BitVec.ofBool (decide (max x (-x) < Ideal.ofBits .f32 0x7F800000#32)) = 1#1 := h
  rw [StableHlo.Predicate.ofBool_eq_one_iff, decide_eq_true_eq, inf_word] at h1
  exact real_of_abs_lt_top x h1

theorem allReal_of_all {S : Shape} {axes : List (Fin S.rank)} (hr : S.ReducesTo axes Cert.Pre_finite_inputs.S_)
    (hu : 0 < Cert.Pre_finite_inputs.S_.numel) (a y : FVec Ideal S .f32)
    (hy : ∀ i, y i = FloatOps.ofBits .f32 0x7F800000#32) (init : IVec Cert.Pre_finite_inputs.S_ 1)
    (h : Host.reduce IntOp.andi (cmpf .olt (Host.absf a) y) init hr hu ix0 = 1#1) : Cert.Spec.AllReal a := by
  intro i
  have hi : cmpf .olt (Host.absf a) y i = 1#1 := Host.reduce_andi_all _ init hr hu ix0 h i
  have hi' : FloatOps.cmpf (F := Ideal) .olt (FloatOps.hostAbsf (a i)) (y i) = 1#1 := hi
  rw [hy i] at hi'
  exact real_of_test (a i) hi'

theorem inRange_of_all {axes : List (Fin Cert.Pre_finite_inputs.S2x500000.rank)}
    (hr : Cert.Pre_finite_inputs.S2x500000.ReducesTo axes Cert.Pre_finite_inputs.S_)
    (hu : 0 < Cert.Pre_finite_inputs.S_.numel) (idx lo hi : IVec Cert.Pre_finite_inputs.S2x500000 32)
    (hlo : ∀ i, lo i = 0#32) (hhi : ∀ i, hi i = 100000#32) (init : IVec Cert.Pre_finite_inputs.S_ 1)
    (h : Host.reduce IntOp.andi (andi (cmpi .sge idx lo) (cmpi .slt idx hi)) init hr hu ix0 = 1#1) :
    Cert.Spec.InRange idx := by
  intro i
  have hi1 : andi (cmpi .sge idx lo) (cmpi .slt idx hi) i = 1#1 := Host.reduce_andi_all _ init hr hu ix0 h i
  have hi2 : IntOp.andi (IntOp.cmpi .sge (idx i) (lo i)) (IntOp.cmpi .slt (idx i) (hi i)) = 1#1 := hi1
  rw [hlo i, hhi i] at hi2
  obtain ⟨hge, hlt⟩ := IntOp.andi_eq_one.1 hi2
  have hge' := IntOp.cmpi_sge.1 hge
  have hlt' := IntOp.cmpi_slt.1 hlt
  rw [show (0#32 : BitVec 32).toInt = 0 from by decide] at hge'
  rw [show (100000#32 : BitVec 32).toInt = 100000 from by decide] at hlt'
  exact ⟨hge', hlt'⟩

open Cert.Pre_finite_inputs in

/-- The printed precondition read back: every float entry is real and every word of the edge list is a node index. -/
theorem of_pre [Cert.Pre_finite_inputs.Facts] (a0 : FVec Ideal Cert.Pre_finite_inputs.S100000x128 .f32)
    (a1 : IVec Cert.Pre_finite_inputs.S2x500000 32) (a2 a3 : FVec Ideal Cert.Pre_finite_inputs.S128x128 .f32)
    (a4 : FVec Ideal Cert.Pre_finite_inputs.S128x256 .f32) (a5 : FVec Ideal Cert.Pre_finite_inputs.S1x256 .f32)
    (a6 : FVec Ideal Cert.Pre_finite_inputs.S1 .f32) (a7 : FVec Ideal Cert.Pre_finite_inputs.S_ .f32)
    (h : Cert.Pre_finite_inputs.fn (F := Ideal) a0 a1 a2 a3 a4 a5 a6 a7 = fun _ => 1#1) :
    Cert.Spec.AllReal a0 ∧ Cert.Spec.InRange a1 ∧ Cert.Spec.AllReal a2 ∧ Cert.Spec.AllReal a3 ∧ Cert.Spec.AllReal a4
      ∧ Cert.Spec.AllReal a5 ∧ Cert.Spec.AllReal a6 ∧ Cert.Spec.AllReal a7 := by
  have h0 := congrFun h ValueIdx.ix0
  dsimp only [Cert.Pre_finite_inputs.fn, Cert.Pre_finite_inputs.fn_part1, Cert.Pre_finite_inputs.fn_part2] at h0
  obtain ⟨h32, h38⟩ := IntOp.andi_eq_one.1 h0
  obtain ⟨h28, h31⟩ := IntOp.andi_eq_one.1 h32
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨allReal_of_all _ _ a0 _ (fun _ => rfl) _ h3,
    inRange_of_all _ _ a1 _ _ (fun _ => rfl) (fun _ => rfl) _ h38,
    allReal_of_all _ _ a2 _ (fun _ => rfl) _ h7,
    allReal_of_all _ _ a3 _ (fun _ => rfl) _ h12,
    allReal_of_all _ _ a4 _ (fun _ => rfl) _ h17,
    allReal_of_all _ _ a5 _ (fun _ => rfl) _ h22,
    allReal_of_all _ _ a6 _ (fun _ => rfl) _ h27,
    allReal_of_all _ _ a7 _ (fun _ => rfl) _ h31⟩

end Cert.PreFacts

end
-- ==== Proof.lean ====
import proofs.«408774_j4466765988336_3_alg».proof.Defs
import proofs.«408774_j4466765988336_3_alg».proof.Proof.Gen.Kernel
import proofs.«408774_j4466765988336_3_alg».proof.Proof.Gen.KernelIdeal
import proofs.«408774_j4466765988336_3_alg».proof.Proof.Gen.ReferenceIdeal
import proofs.«408774_j4466765988336_3_alg».proof.Proof.Gen.Pre_finite_inputs
import proofs.«408774_j4466765988336_3_alg».proof.Proof.KB.Run
import proofs.«408774_j4466765988336_3_alg».proof.Proof.KI.Run
import proofs.«408774_j4466765988336_3_alg».proof.Proof.KI.RunOut
import proofs.«408774_j4466765988336_3_alg».proof.Proof.KI.Chain
import proofs.«408774_j4466765988336_3_alg».proof.Proof.RefRunP
import proofs.«408774_j4466765988336_3_alg».proof.Proof.RefValue
import proofs.«408774_j4466765988336_3_alg».proof.Proof.SpecEq
import proofs.«408774_j4466765988336_3_alg».proof.Proof.PreFacts

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Fr.frame m ρ

theorem frame_ki : @Cert.frame_KernelIdeal Cert.KernelIdeal.Gen.facts Cert.Pre_finite_inputs.Gen.facts :=
  fun m ρ _ => Cert.KernelIdeal.Fr.frame m ρ

/-- The reference's frame is its run read back, the result forgotten. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- Both programs end at the layer's value: the kernel's arrangement, the reference's, and their agreement on real inputs and node indices in range. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Gen.V17 m (Cert.KernelIdeal.Fr.outs m) c Cert.KernelIdeal.main_v116_0, Cert.KernelIdeal.Fr.run_out m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := Cert.PreFacts.of_pre _ _ _ _ _ _ _ _ (hpre c)
  obtain ⟨a0, a1, a2, a3, a4, a5, a6, a7⟩ := hagree c
  have hk := Cert.KernelIdeal.Fr.kernel_value m c h1
  rw [a0, a1, a2, a3, a4, a5, a6, a7]
  exact (Cert.RefValue.ref_value_stage _ _ _ _ _ _ _ _ h1).trans
    ((Cert.Spec.resultK_eq_resultR _ _ _ _ _ _ _ _ h0 h2 h3 h4 h5 h6 h7).symm.trans hk.symm)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
